-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v183)) (v1 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_v209) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_v326) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg2 : IVec S100000 32) (main_v63 : IVec S_ 1) (main_v67 : IVec S_ 1) : IVec S_ 1 :=
  let main_v68 : IVec S_ 1 := andi main_v63 main_v67
  let main_c_26 : IVec S_ 32 := constantI S_ 32 0#32
  let main_v69 : IVec S100000 32 := broadcastInDim S100000 ![] bcast_S_S100000 main_c_26
  let main_v70 : IVec S100000 1 := cmpi .sge main_arg2 main_v69
  let main_c_27 : IVec S_ 32 := constantI S_ 32 128#32
  let main_v71 : IVec S100000 32 := broadcastInDim S100000 ![] bcast_S_S100000 main_c_27
  let main_v72 : IVec S100000 1 := cmpi .slt main_arg2 main_v71
  let main_v73 : IVec S100000 1 := andi main_v70 main_v72
  let main_c_28 : IVec S_ 1 := constantI S_ 1 1#1
  let main_v74 : IVec S_ 1 := (fun x v => Host.reduce IntOp.andi x v reducesTo_S100000_S_d0 h_S_) main_v73 main_c_28
  let main_v75 : IVec S_ 1 := andi main_v68 main_v74
  main_v75

def fn_part3 {F : FTy → Type} [FloatOps F] (main_arg2 : IVec S100000 32) (main_arg13 : FVec F S128 .f32) (main_arg14 : FVec F S128x10 .f32) (main_arg15 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x10 .f32 := Host.absf main_arg14
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg2 main_v63 main_v67

def fn_part2 {F : FTy → Type} [FloatOps F] (main_arg2 : IVec S100000 32) (main_arg9 : FVec F S128 .f32) (main_arg10 : FVec F S128 .f32) (main_arg11 : FVec F S128 .f32) (main_arg12 : FVec F S128 .f32) (main_arg13 : FVec F S128 .f32) (main_arg14 : FVec F S128x10 .f32) (main_arg15 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_arg15 main_v48 main_v49 main_v50

def fn_part1 {F : FTy → Type} [FloatOps F] (main_arg2 : IVec S100000 32) (main_arg6 : FVec F S4x128 .f32) (main_arg7 : FVec F S4x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x10 .f32) (main_arg15 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_v33

def fn {F : FTy → Type} [FloatOps F] (main_arg0 : FVec F S100000x128 .f32) (main_arg1 : IVec S2x1600000 32) (main_arg2 : IVec S100000 32) (main_arg3 : FVec F S4x128x128 .f32) (main_arg4 : FVec F S4x128 .f32) (main_arg5 : FVec F S4x128 .f32) (main_arg6 : FVec F S4x128 .f32) (main_arg7 : FVec F S4x128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x10 .f32) (main_arg15 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg2 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x1 : Shape := ⟨2, ![128, 1]⟩
abbrev S1x128x128 : Shape := ⟨3, ![1, 128, 128]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S2x128x128 : Shape := ⟨3, ![2, 128, 128]⟩
abbrev S1x10 : Shape := ⟨2, ![1, 10]⟩

abbrev nBuf : Space → Nat
  | .hbm => 267
  | .vmem => 138
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x10, .f32⟩
  | 15 => ⟨S10, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S100000, .f32⟩
  | 30 => ⟨S100000x1, .f32⟩
  | 31 => ⟨S100000x1, .i32⟩
  | 32 => ⟨S_, .f32⟩
  | 33 => ⟨S100000x1, .f32⟩
  | 34 => ⟨S_, .f32⟩
  | 35 => ⟨S128x1, .f32⟩
  | 36 => ⟨S100000x1, .i32⟩
  | 37 => ⟨S128x1, .f32⟩
  | 38 => ⟨S_, .f32⟩
  | 39 => ⟨S128x1, .f32⟩
  | 40 => ⟨S128x1, .f32⟩
  | 41 => ⟨S1x128x128, .f32⟩
  | 42 => ⟨S128x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S_, .f32⟩
  | 54 => ⟨S100000x128, .f32⟩
  | 55 => ⟨S1700000x1, .i32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S2x128x128, .f32⟩
  | 62 => ⟨S2x128x128, .f32⟩
  | 63 => ⟨S_, .f32⟩
  | 64 => ⟨S128x128, .f32⟩
  | 65 => ⟨S_, .f32⟩
  | 66 => ⟨S128x128, .f32⟩
  | 67 => ⟨S128x128, .f32⟩
  | 68 => ⟨S128x128, .f32⟩
  | 69 => ⟨S1x128, .f32⟩
  | 70 => ⟨S128, .f32⟩
  | 71 => ⟨S1x128, .f32⟩
  | 72 => ⟨S128x128, .f32⟩
  | 73 => ⟨S128x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S128x128, .f32⟩
  | 80 => ⟨S128x128, .f32⟩
  | 81 => ⟨S128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S100000x128, .f32⟩
  | 90 => ⟨S1x128x128, .f32⟩
  | 91 => ⟨S128x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S2x128x128, .f32⟩
  | 111 => ⟨S2x128x128, .f32⟩
  | 112 => ⟨S_, .f32⟩
  | 113 => ⟨S128x128, .f32⟩
  | 114 => ⟨S_, .f32⟩
  | 115 => ⟨S128x128, .f32⟩
  | 116 => ⟨S128x128, .f32⟩
  | 117 => ⟨S128x128, .f32⟩
  | 118 => ⟨S1x128, .f32⟩
  | 119 => ⟨S128, .f32⟩
  | 120 => ⟨S1x128, .f32⟩
  | 121 => ⟨S128x128, .f32⟩
  | 122 => ⟨S128x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S128x128, .f32⟩
  | 1 => ⟨S128x128, .f32⟩
  | 2 => ⟨S128x128, .f32⟩
  | 3 => ⟨S128x128, .f32⟩
  | 4 => ⟨S1x128, .f32⟩
  | 5 => ⟨S128, .f32⟩
  | 6 => ⟨S1x128, .f32⟩
  | 7 => ⟨S1x128, .f32⟩
  | 8 => ⟨S128, .f32⟩
  | 9 => ⟨S1x128, .f32⟩
  | 10 => ⟨S100000x128, .f32⟩
  | 11 => ⟨S1x128x128, .f32⟩
  | 12 => ⟨S128x128, .f32⟩
  | 13 => ⟨S100000x128, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x128, .f32⟩
  | 23 => ⟨S_, .f32⟩
  | 24 => ⟨S100000x128, .f32⟩
  | 25 => ⟨S1700000x1, .i32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S2x128x128, .f32⟩
  | 32 => ⟨S2x128x128, .f32⟩
  | 33 => ⟨S_, .f32⟩
  | 34 => ⟨S128x128, .f32⟩
  | 35 => ⟨S_, .f32⟩
  | 36 => ⟨S128x128, .f32⟩
  | 37 => ⟨S128x128, .f32⟩
  | 38 => ⟨S128x128, .f32⟩
  | 39 => ⟨S1x128, .f32⟩
  | 40 => ⟨S128, .f32⟩
  | 41 => ⟨S1x128, .f32⟩
  | 42 => ⟨S128x128, .f32⟩
  | 43 => ⟨S128x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S128x128, .f32⟩
  | 50 => ⟨S128x128, .f32⟩
  | 51 => ⟨S128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S100000x128, .f32⟩
  | 60 => ⟨S1x128x128, .f32⟩
  | 61 => ⟨S128x128, .f32⟩
  | 62 => ⟨S100000x128, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S2x128x128, .f32⟩
  | 81 => ⟨S2x128x128, .f32⟩
  | 82 => ⟨S_, .f32⟩
  | 83 => ⟨S128x128, .f32⟩
  | 84 => ⟨S_, .f32⟩
  | 85 => ⟨S128x128, .f32⟩
  | 86 => ⟨S128x128, .f32⟩
  | 87 => ⟨S128x128, .f32⟩
  | 88 => ⟨S1x128, .f32⟩
  | 89 => ⟨S128, .f32⟩
  | 90 => ⟨S1x128, .f32⟩
  | 91 => ⟨S128x128, .f32⟩
  | 92 => ⟨S128x128, .f32⟩
  | 93 => ⟨S_, .f32⟩
  | 94 => ⟨S1x128, .f32⟩
  | 95 => ⟨S1x128, .f32⟩
  | 96 => ⟨S1x128, .f32⟩
  | 97 => ⟨S1x128, .f32⟩
  | 98 => ⟨S128x128, .f32⟩
  | 99 => ⟨S128x128, .f32⟩
  | 100 => ⟨S128x128, .f32⟩
  | 101 => ⟨S128x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S100000x128, .f32⟩
  | 109 => ⟨S2x128x128, .f32⟩
  | 110 => ⟨S_, .f32⟩
  | 111 => ⟨S128x128, .f32⟩
  | 112 => ⟨S128x128, .f32⟩
  | 113 => ⟨S1x128, .f32⟩
  | 114 => ⟨S128x128, .f32⟩
  | 115 => ⟨S128x128, .f32⟩
  | 116 => ⟨S1x128, .f32⟩
  | 117 => ⟨S128x128, .f32⟩
  | 118 => ⟨S128x128, .f32⟩
  | 119 => ⟨S1x128, .f32⟩
  | 120 => ⟨S128x128, .f32⟩
  | 121 => ⟨S128x128, .f32⟩
  | 122 => ⟨S_, .f32⟩
  | 123 => ⟨S128, .f32⟩
  | 124 => ⟨S128, .f32⟩
  | 125 => ⟨S128, .f32⟩
  | 126 => ⟨S1x128, .f32⟩
  | 127 => ⟨S128x128, .f32⟩
  | _ => ⟨S100000x128, .f32⟩

abbrev hbmTy0_2 (i : Nat) : BufTy := match i % 128 with
  | 0 => ⟨S128x128, .f32⟩
  | 1 => ⟨S1x128, .f32⟩
  | 2 => ⟨S128x128, .f32⟩
  | 3 => ⟨S128x128, .f32⟩
  | 4 => ⟨S_, .f32⟩
  | 5 => ⟨S128x128, .f32⟩
  | 6 => ⟨S128x128, .f32⟩
  | 7 => ⟨S128x10, .f32⟩
  | 8 => ⟨S1x10, .f32⟩
  | 9 => ⟨S128x10, .f32⟩
  | 10 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S5000x128, .f32⟩
  | 1 => ⟨S5000x128, .f32⟩
  | 2 => ⟨S128x128, .f32⟩
  | 3 => ⟨S5000x1, .f32⟩
  | 4 => ⟨S5000x1, .f32⟩
  | 5 => ⟨S5000x128, .f32⟩
  | 6 => ⟨S5000x128, .f32⟩
  | 7 => ⟨S5000x128, .f32⟩
  | 8 => ⟨S5000x128, .f32⟩
  | 9 => ⟨S5000x1, .f32⟩
  | 10 => ⟨S5000x1, .f32⟩
  | 11 => ⟨S5000x1, .i32⟩
  | 12 => ⟨S5000x1, .i32⟩
  | 13 => ⟨S1x128, .f32⟩
  | 14 => ⟨S5000x128, .f32⟩
  | 15 => ⟨S5000x128, .f32⟩
  | 16 => ⟨S1x128x128, .f32⟩
  | 17 => ⟨S1x128x128, .f32⟩
  | 18 => ⟨S1x128x128, .f32⟩
  | 19 => ⟨S1x128x128, .f32⟩
  | 20 => ⟨S5000x128, .f32⟩
  | 21 => ⟨S5000x128, .f32⟩
  | 22 => ⟨S5000x1, .i32⟩
  | 23 => ⟨S5000x1, .i32⟩
  | 24 => ⟨S128x128, .f32⟩
  | 25 => ⟨S128x128, .f32⟩
  | 26 => ⟨S1x128, .f32⟩
  | 27 => ⟨S1x128, .f32⟩
  | 28 => ⟨S1x128, .f32⟩
  | 29 => ⟨S5000x128, .f32⟩
  | 30 => ⟨S5000x128, .f32⟩
  | 31 => ⟨S5000x128, .f32⟩
  | 32 => ⟨S5000x128, .f32⟩
  | 33 => ⟨S5000x128, .f32⟩
  | 34 => ⟨S5000x128, .f32⟩
  | 35 => ⟨S128x128, .f32⟩
  | 36 => ⟨S5000x1, .f32⟩
  | 37 => ⟨S5000x1, .f32⟩
  | 38 => ⟨S5000x128, .f32⟩
  | 39 => ⟨S5000x128, .f32⟩
  | 40 => ⟨S5000x128, .f32⟩
  | 41 => ⟨S5000x128, .f32⟩
  | 42 => ⟨S5000x1, .f32⟩
  | 43 => ⟨S5000x1, .f32⟩
  | 44 => ⟨S5000x1, .i32⟩
  | 45 => ⟨S5000x1, .i32⟩
  | 46 => ⟨S1x128, .f32⟩
  | 47 => ⟨S5000x128, .f32⟩
  | 48 => ⟨S5000x128, .f32⟩
  | 49 => ⟨S1x128x128, .f32⟩
  | 50 => ⟨S1x128x128, .f32⟩
  | 51 => ⟨S1x128x128, .f32⟩
  | 52 => ⟨S1x128x128, .f32⟩
  | 53 => ⟨S5000x128, .f32⟩
  | 54 => ⟨S5000x128, .f32⟩
  | 55 => ⟨S5000x1, .i32⟩
  | 56 => ⟨S5000x1, .i32⟩
  | 57 => ⟨S128x128, .f32⟩
  | 58 => ⟨S128x128, .f32⟩
  | 59 => ⟨S1x128, .f32⟩
  | 60 => ⟨S1x128, .f32⟩
  | 61 => ⟨S1x128, .f32⟩
  | 62 => ⟨S5000x128, .f32⟩
  | 63 => ⟨S5000x128, .f32⟩
  | 64 => ⟨S5000x128, .f32⟩
  | 65 => ⟨S5000x128, .f32⟩
  | 66 => ⟨S5000x128, .f32⟩
  | 67 => ⟨S5000x128, .f32⟩
  | 68 => ⟨S128x128, .f32⟩
  | 69 => ⟨S5000x1, .f32⟩
  | 70 => ⟨S5000x1, .f32⟩
  | 71 => ⟨S5000x128, .f32⟩
  | 72 => ⟨S5000x128, .f32⟩
  | 73 => ⟨S5000x128, .f32⟩
  | 74 => ⟨S5000x128, .f32⟩
  | 75 => ⟨S5000x1, .f32⟩
  | 76 => ⟨S5000x1, .f32⟩
  | 77 => ⟨S5000x1, .i32⟩
  | 78 => ⟨S5000x1, .i32⟩
  | 79 => ⟨S1x128, .f32⟩
  | 80 => ⟨S5000x128, .f32⟩
  | 81 => ⟨S5000x128, .f32⟩
  | 82 => ⟨S1x128x128, .f32⟩
  | 83 => ⟨S1x128x128, .f32⟩
  | 84 => ⟨S1x128x128, .f32⟩
  | 85 => ⟨S1x128x128, .f32⟩
  | 86 => ⟨S5000x128, .f32⟩
  | 87 => ⟨S5000x128, .f32⟩
  | 88 => ⟨S5000x1, .i32⟩
  | 89 => ⟨S5000x1, .i32⟩
  | 90 => ⟨S128x128, .f32⟩
  | 91 => ⟨S128x128, .f32⟩
  | 92 => ⟨S1x128, .f32⟩
  | 93 => ⟨S1x128, .f32⟩
  | 94 => ⟨S1x128, .f32⟩
  | 95 => ⟨S5000x128, .f32⟩
  | 96 => ⟨S5000x128, .f32⟩
  | 97 => ⟨S5000x128, .f32⟩
  | 98 => ⟨S5000x128, .f32⟩
  | 99 => ⟨S5000x128, .f32⟩
  | 100 => ⟨S5000x128, .f32⟩
  | 101 => ⟨S128x128, .f32⟩
  | 102 => ⟨S5000x1, .f32⟩
  | 103 => ⟨S5000x1, .f32⟩
  | 104 => ⟨S5000x128, .f32⟩
  | 105 => ⟨S5000x128, .f32⟩
  | 106 => ⟨S5000x128, .f32⟩
  | 107 => ⟨S5000x128, .f32⟩
  | 108 => ⟨S5000x1, .f32⟩
  | 109 => ⟨S5000x1, .f32⟩
  | 110 => ⟨S5000x1, .i32⟩
  | 111 => ⟨S5000x1, .i32⟩
  | 112 => ⟨S1x128, .f32⟩
  | 113 => ⟨S5000x128, .f32⟩
  | 114 => ⟨S5000x128, .f32⟩
  | 115 => ⟨S1x128x128, .f32⟩
  | 116 => ⟨S1x128x128, .f32⟩
  | 117 => ⟨S1x128x128, .f32⟩
  | 118 => ⟨S1x128x128, .f32⟩
  | 119 => ⟨S5000x128, .f32⟩
  | 120 => ⟨S5000x128, .f32⟩
  | 121 => ⟨S5000x1, .i32⟩
  | 122 => ⟨S5000x1, .i32⟩
  | 123 => ⟨S128x128, .f32⟩
  | 124 => ⟨S128x128, .f32⟩
  | 125 => ⟨S1x128, .f32⟩
  | 126 => ⟨S1x128, .f32⟩
  | 127 => ⟨S1x128, .f32⟩
  | _ => ⟨S100000x128, .f32⟩

abbrev vmemTy0_1 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S5000x128, .f32⟩
  | 5 => ⟨S5000x128, .f32⟩
  | 6 => ⟨S5000x1, .i32⟩
  | 7 => ⟨S5000x1, .i32⟩
  | 8 => ⟨S1x128x128, .f32⟩
  | 9 => ⟨S1x128x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v36_2 : Ref sig .tc := ⟨.hbm, 62, rfl⟩
abbrev main_cst_6 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_9 : Ref sig .tc := ⟨.hbm, 93, rfl⟩
abbrev main_v64 : Ref sig .tc := ⟨.hbm, 94, rfl⟩
abbrev main_v65 : Ref sig .tc := ⟨.hbm, 95, rfl⟩
abbrev main_c_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev main_v77_2 : Ref sig .tc := ⟨.hbm, 111, rfl⟩
abbrev main_cst_12 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_15 : Ref sig .tc := ⟨.hbm, 142, rfl⟩
abbrev main_v105 : Ref sig .tc := ⟨.hbm, 143, rfl⟩
abbrev main_v106 : Ref sig .tc := ⟨.hbm, 144, rfl⟩
abbrev main_c_16 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_17 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118_0 : Ref sig .tc := ⟨.hbm, 158, rfl⟩
abbrev main_v118_1 : Ref sig .tc := ⟨.hbm, 159, rfl⟩
abbrev main_v118_2 : Ref sig .tc := ⟨.hbm, 160, rfl⟩
abbrev main_cst_18 : Ref sig .tc := ⟨.hbm, 161, rfl⟩
abbrev main_v119 : Ref sig .tc := ⟨.hbm, 162, rfl⟩
abbrev main_cst_19 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_20 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_c_21 : Ref sig .tc := ⟨.hbm, 191, rfl⟩
abbrev main_v146 : Ref sig .tc := ⟨.hbm, 192, rfl⟩
abbrev main_v147 : Ref sig .tc := ⟨.hbm, 193, rfl⟩
abbrev main_c_22 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_23 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159_0 : Ref sig .tc := ⟨.hbm, 207, rfl⟩
abbrev main_v159_1 : Ref sig .tc := ⟨.hbm, 208, rfl⟩
abbrev main_v159_2 : Ref sig .tc := ⟨.hbm, 209, rfl⟩
abbrev main_cst_24 : Ref sig .tc := ⟨.hbm, 210, rfl⟩
abbrev main_v160 : Ref sig .tc := ⟨.hbm, 211, rfl⟩
abbrev main_cst_25 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_26 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_27 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_28 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_call0_cst : Ref sig .tc := ⟨.hbm, 260, rfl⟩
abbrev main_call0_v0 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg4_1 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg7_1 : Ref sig .tc := ⟨.vmem, 63, rfl⟩
abbrev cc5_stg8_0 : Ref sig .tc := ⟨.vmem, 64, rfl⟩
abbrev cc5_stg8_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg2_1 : Ref sig .tc := ⟨.vmem, 70, rfl⟩
abbrev cc6_stg3_0 : Ref sig .tc := ⟨.vmem, 71, rfl⟩
abbrev cc6_stg3_1 : Ref sig .tc := ⟨.vmem, 72, rfl⟩
abbrev cc7_stg0_0 : Ref sig .tc := ⟨.vmem, 73, rfl⟩
abbrev cc7_stg0_1 : Ref sig .tc := ⟨.vmem, 74, rfl⟩
abbrev cc7_stg1_0 : Ref sig .tc := ⟨.vmem, 75, rfl⟩
abbrev cc7_stg1_1 : Ref sig .tc := ⟨.vmem, 76, rfl⟩
abbrev cc7_stg2_0 : Ref sig .tc := ⟨.vmem, 77, rfl⟩
abbrev cc7_stg2_1 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg4_1 : Ref sig .tc := ⟨.vmem, 81, rfl⟩
abbrev cc7_stg5_0 : Ref sig .tc := ⟨.vmem, 82, rfl⟩
abbrev cc7_stg5_1 : Ref sig .tc := ⟨.vmem, 83, rfl⟩
abbrev cc7_stg6_0 : Ref sig .tc := ⟨.vmem, 84, rfl⟩
abbrev cc7_stg6_1 : Ref sig .tc := ⟨.vmem, 85, rfl⟩
abbrev cc8_stg0_0 : Ref sig .tc := ⟨.vmem, 86, rfl⟩
abbrev cc8_stg0_1 : Ref sig .tc := ⟨.vmem, 87, rfl⟩
abbrev cc8_stg1_0 : Ref sig .tc := ⟨.vmem, 88, rfl⟩
abbrev cc8_stg1_1 : Ref sig .tc := ⟨.vmem, 89, rfl⟩
abbrev cc8_stg2_0 : Ref sig .tc := ⟨.vmem, 90, rfl⟩
abbrev cc8_stg3_0 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg6_0 : Ref sig .tc := ⟨.vmem, 94, rfl⟩
abbrev cc8_stg7_0 : Ref sig .tc := ⟨.vmem, 95, rfl⟩
abbrev cc8_stg7_1 : Ref sig .tc := ⟨.vmem, 96, rfl⟩
abbrev cc8_stg8_0 : Ref sig .tc := ⟨.vmem, 97, rfl⟩
abbrev cc8_stg8_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg2_0 : Ref sig .tc := ⟨.vmem, 102, rfl⟩
abbrev cc9_stg2_1 : Ref sig .tc := ⟨.vmem, 103, rfl⟩
abbrev cc9_stg3_0 : Ref sig .tc := ⟨.vmem, 104, rfl⟩
abbrev cc9_stg3_1 : Ref sig .tc := ⟨.vmem, 105, rfl⟩
abbrev cc10_stg0_0 : Ref sig .tc := ⟨.vmem, 106, rfl⟩
abbrev cc10_stg0_1 : Ref sig .tc := ⟨.vmem, 107, rfl⟩
abbrev cc10_stg1_0 : Ref sig .tc := ⟨.vmem, 108, rfl⟩
abbrev cc10_stg1_1 : Ref sig .tc := ⟨.vmem, 109, rfl⟩
abbrev cc10_stg2_0 : Ref sig .tc := ⟨.vmem, 110, rfl⟩
abbrev cc10_stg2_1 : Ref sig .tc := ⟨.vmem, 111, rfl⟩
abbrev cc10_stg3_0 : Ref sig .tc := ⟨.vmem, 112, rfl⟩
abbrev cc10_stg4_0 : Ref sig .tc := ⟨.vmem, 113, rfl⟩
abbrev cc10_stg4_1 : Ref sig .tc := ⟨.vmem, 114, rfl⟩
abbrev cc10_stg5_0 : Ref sig .tc := ⟨.vmem, 115, rfl⟩
abbrev cc10_stg5_1 : Ref sig .tc := ⟨.vmem, 116, rfl⟩
abbrev cc10_stg6_0 : Ref sig .tc := ⟨.vmem, 117, rfl⟩
abbrev cc10_stg6_1 : Ref sig .tc := ⟨.vmem, 118, rfl⟩
abbrev cc11_stg0_0 : Ref sig .tc := ⟨.vmem, 119, rfl⟩
abbrev cc11_stg0_1 : Ref sig .tc := ⟨.vmem, 120, rfl⟩
abbrev cc11_stg1_0 : Ref sig .tc := ⟨.vmem, 121, rfl⟩
abbrev cc11_stg1_1 : Ref sig .tc := ⟨.vmem, 122, rfl⟩
abbrev cc11_stg2_0 : Ref sig .tc := ⟨.vmem, 123, rfl⟩
abbrev cc11_stg3_0 : Ref sig .tc := ⟨.vmem, 124, rfl⟩
abbrev cc11_stg4_0 : Ref sig .tc := ⟨.vmem, 125, rfl⟩
abbrev cc11_stg5_0 : Ref sig .tc := ⟨.vmem, 126, rfl⟩
abbrev cc11_stg6_0 : Ref sig .tc := ⟨.vmem, 127, rfl⟩
abbrev cc11_stg7_0 : Ref sig .tc := ⟨.vmem, 128, rfl⟩
abbrev cc11_stg7_1 : Ref sig .tc := ⟨.vmem, 129, rfl⟩
abbrev cc11_stg8_0 : Ref sig .tc := ⟨.vmem, 130, rfl⟩
abbrev cc11_stg8_1 : Ref sig .tc := ⟨.vmem, 131, rfl⟩
abbrev cc12_stg0_0 : Ref sig .tc := ⟨.vmem, 132, rfl⟩
abbrev cc12_stg0_1 : Ref sig .tc := ⟨.vmem, 133, rfl⟩
abbrev cc12_stg1_0 : Ref sig .tc := ⟨.vmem, 134, rfl⟩
abbrev cc12_stg1_1 : Ref sig .tc := ⟨.vmem, 135, rfl⟩
abbrev cc12_stg2_0 : Ref sig .tc := ⟨.vmem, 136, rfl⟩
abbrev cc12_stg2_1 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem4_1 : DmaSem sig := 48
abbrev cc4_sem5_0 : DmaSem sig := 49
abbrev cc4_sem5_1 : DmaSem sig := 50
abbrev cc4_sem6_0 : DmaSem sig := 51
abbrev cc4_sem6_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem7_1 : DmaSem sig := 63
abbrev cc5_sem8_0 : DmaSem sig := 64
abbrev cc5_sem8_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem2_1 : DmaSem sig := 70
abbrev cc6_sem3_0 : DmaSem sig := 71
abbrev cc6_sem3_1 : DmaSem sig := 72
abbrev cc7_sem0_0 : DmaSem sig := 73
abbrev cc7_sem0_1 : DmaSem sig := 74
abbrev cc7_sem1_0 : DmaSem sig := 75
abbrev cc7_sem1_1 : DmaSem sig := 76
abbrev cc7_sem2_0 : DmaSem sig := 77
abbrev cc7_sem2_1 : DmaSem sig := 78
abbrev cc7_sem3_0 : DmaSem sig := 79
abbrev cc7_sem4_0 : DmaSem sig := 80
abbrev cc7_sem4_1 : DmaSem sig := 81
abbrev cc7_sem5_0 : DmaSem sig := 82
abbrev cc7_sem5_1 : DmaSem sig := 83
abbrev cc7_sem6_0 : DmaSem sig := 84
abbrev cc7_sem6_1 : DmaSem sig := 85
abbrev cc8_sem0_0 : DmaSem sig := 86
abbrev cc8_sem0_1 : DmaSem sig := 87
abbrev cc8_sem1_0 : DmaSem sig := 88
abbrev cc8_sem1_1 : DmaSem sig := 89
abbrev cc8_sem2_0 : DmaSem sig := 90
abbrev cc8_sem3_0 : DmaSem sig := 91
abbrev cc8_sem4_0 : DmaSem sig := 92
abbrev cc8_sem5_0 : DmaSem sig := 93
abbrev cc8_sem6_0 : DmaSem sig := 94
abbrev cc8_sem7_0 : DmaSem sig := 95
abbrev cc8_sem7_1 : DmaSem sig := 96
abbrev cc8_sem8_0 : DmaSem sig := 97
abbrev cc8_sem8_1 : DmaSem sig := 98
abbrev cc9_sem0_0 : DmaSem sig := 99
abbrev cc9_sem0_1 : DmaSem sig := 100
abbrev cc9_sem1_0 : DmaSem sig := 101
abbrev cc9_sem2_0 : DmaSem sig := 102
abbrev cc9_sem2_1 : DmaSem sig := 103
abbrev cc9_sem3_0 : DmaSem sig := 104
abbrev cc9_sem3_1 : DmaSem sig := 105
abbrev cc10_sem0_0 : DmaSem sig := 106
abbrev cc10_sem0_1 : DmaSem sig := 107
abbrev cc10_sem1_0 : DmaSem sig := 108
abbrev cc10_sem1_1 : DmaSem sig := 109
abbrev cc10_sem2_0 : DmaSem sig := 110
abbrev cc10_sem2_1 : DmaSem sig := 111
abbrev cc10_sem3_0 : DmaSem sig := 112
abbrev cc10_sem4_0 : DmaSem sig := 113
abbrev cc10_sem4_1 : DmaSem sig := 114
abbrev cc10_sem5_0 : DmaSem sig := 115
abbrev cc10_sem5_1 : DmaSem sig := 116
abbrev cc10_sem6_0 : DmaSem sig := 117
abbrev cc10_sem6_1 : DmaSem sig := 118
abbrev cc11_sem0_0 : DmaSem sig := 119
abbrev cc11_sem0_1 : DmaSem sig := 120
abbrev cc11_sem1_0 : DmaSem sig := 121
abbrev cc11_sem1_1 : DmaSem sig := 122
abbrev cc11_sem2_0 : DmaSem sig := 123
abbrev cc11_sem3_0 : DmaSem sig := 124
abbrev cc11_sem4_0 : DmaSem sig := 125
abbrev cc11_sem5_0 : DmaSem sig := 126
abbrev cc11_sem6_0 : DmaSem sig := 127
abbrev cc11_sem7_0 : DmaSem sig := 128
abbrev cc11_sem7_1 : DmaSem sig := 129
abbrev cc11_sem8_0 : DmaSem sig := 130
abbrev cc11_sem8_1 : DmaSem sig := 131
abbrev cc12_sem0_0 : DmaSem sig := 132
abbrev cc12_sem0_1 : DmaSem sig := 133
abbrev cc12_sem1_0 : DmaSem sig := 134
abbrev cc12_sem1_1 : DmaSem sig := 135
abbrev cc12_sem2_0 : DmaSem sig := 136
abbrev cc12_sem2_1 : DmaSem sig := 137

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x128x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1x128x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![2, 10], ![false, false]⟩

def cc7_transform_0 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_1 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_2 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S5000x1 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1x128x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev stage7_6 : Fin 2 → Memref sig .tc .vmem S1x128x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S5000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨2, ![2, 10], ![false, false]⟩

def cc10_transform_0 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_1 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_2 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc10_transform_5 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_6 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S5000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S5000x1 .i32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 2 → Memref sig .tc .vmem S1x128x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, false]

abbrev stage10_6 : Fin 2 → Memref sig .tc .vmem S1x128x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S5000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S5000x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev grid12 : Pipeline.Grid := ⟨2, ![2, 10], ![false, false]⟩

def cc12_transform_0 (i : grid12.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc12_transform_1 (i : grid12.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S5000x1 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev stage12_2 : Fin 2 → Memref sig .tc .vmem S1x128x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S100000x1 : S_.BroadcastsInDim S100000x1 (![] : Fin 0 → Fin S100000x1.rank)
  bcast_S_S128x1 : S_.BroadcastsInDim S128x1 (![] : Fin 0 → Fin S128x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S128x128_S1x128x128 : S128x128.ShapeCasts S1x128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  iota_S5000x128_d1_w32 : S5000x128.Iotas .tc 32 [1]
  natLt_1_32 : 1 < 32
  reducesTo_S2x128x128_S128x128_d0 : S2x128x128.ReducesTo [0] S128x128
  h_S_ : 0 < S_.numel
  bcast_S128x1_S128x128_0_1 : S128x1.BroadcastsInDim S128x128 (![0, 1] : Fin 2 → Fin S128x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S128_S1x128_1 : S128.BroadcastsInDim S1x128 (![1] : Fin 1 → Fin S1x128.rank)
  bcast_S_S128 : S_.BroadcastsInDim S128 (![] : Fin 0 → Fin S128.rank)
  bcast_S_S128x128 : S_.BroadcastsInDim S128x128 (![] : Fin 0 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  scatter_S128x1_S100000x1_S100000x1_1_0_0_1_wf : ScatterDims.WF S128x1 S100000x1 S100000x1 [1] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S5000x128_S128x128_0_0_1_1_n_n_wf : DotDims.WF S5000x128 S5000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .i32 = 32 ∨ (Rect.block (s := S100000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S2x128x128.size a
  hwx1_5 : ∀ i : grid1.Coords, EltTy.bits .f32 = 32 ∨ (Rect.block (s := S2x128x128) S1x128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x128.size a ≤ S2x128x128.size a
  hwx1_6 : ∀ i : grid1.Coords, EltTy.bits .f32 = 32 ∨ (Rect.block (s := S2x128x128) S1x128x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .i32 = 32 ∨ (Rect.block (s := S100000x1) S5000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x128x128.size a ≤ S2x128x128.size a
  hwx4_5 : ∀ i : grid4.Coords, EltTy.bits .f32 = 32 ∨ (Rect.block (s := S2x128x128) S1x128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x128x128.size a ≤ S2x128x128.size a
  hwx4_6 : ∀ i : grid4.Coords, EltTy.bits .f32 = 32 ∨ (Rect.block (s := S2x128x128) S1x128x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .i32 = 32 ∨ (Rect.block (s := S100000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S100000x128.size a
  hwx5_8 : ∀ i : grid5.Coords, EltTy.bits .f32 = 32 ∨ (Rect.block (s := S100000x128) S5000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .i32 = 32 ∨ (Rect.block (s := S100000x1) S5000x1.size (cc7_transform_2 i) (hinb7_2 i)).WholeWords (EltTy.packing .i32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x128x128.size a ≤ S2x128x128.size a
  hwx7_5 : ∀ i : grid7.Coords, EltTy.bits .f32 = 32 ∨ (Rect.block (s := S2x128x128) S1x128x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x128x128.size a ≤ S2x128x128.size a
  hwx7_6 : ∀ i : grid7.Coords, EltTy.bits .f32 = 32 ∨ (Rect.block (s := S2x128x128) S1x128x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S100000x128.size a
  hwx8_7 : ∀ i : grid8.Coords, EltTy.bits .f32 = 32 ∨ (Rect.block (s := S100000x128) S5000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x128.size a ≤ S100000x128.size a
  hwx8_8 : ∀ i : grid8.Coords, EltTy.bits .f32 = 32 ∨ (Rect.block (s := S100000x128) S5000x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .f32 = 32 ∨ (Rect.block (s := S100000x1) S5000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .i32 = 32 ∨ (Rect.block (s := S100000x1) S5000x1.size (cc10_transform_2 i) (hinb10_2 i)).WholeWords (EltTy.packing .i32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S100000x128.size a
  hwx10_4 : ∀ i : grid10.Coords, EltTy.bits .f32 = 32 ∨ (Rect.block (s := S100000x128) S5000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1x128x128.size a ≤ S2x128x128.size a
  hwx10_5 : ∀ i : grid10.Coords, EltTy.bits .f32 = 32 ∨ (Rect.block (s := S2x128x128) S1x128x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S1x128x128.size a ≤ S2x128x128.size a
  hwx10_6 : ∀ i : grid10.Coords, EltTy.bits .f32 = 32 ∨ (Rect.block (s := S2x128x128) S1x128x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .i32 = 32 ∨ (Rect.block (s := S100000x1) S5000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x128.size a ≤ S100000x128.size a
  hwx11_7 : ∀ i : grid11.Coords, EltTy.bits .f32 = 32 ∨ (Rect.block (s := S100000x128) S5000x128.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S5000x128.size a ≤ S100000x128.size a
  hwx11_8 : ∀ i : grid11.Coords, EltTy.bits .f32 = 32 ∨ (Rect.block (s := S100000x128) S5000x128.size (cc11_transform_8 i) (hinb11_8 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x1.size a ≤ S100000x1.size a
  hwx12_1 : ∀ i : grid12.Coords, EltTy.bits .i32 = 32 ∨ (Rect.block (s := S100000x1) S5000x1.size (cc12_transform_1 i) (hinb12_1 i)).WholeWords (EltTy.packing .i32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x128x128.size a ≤ S2x128x128.size a
  hwx12_2 : ∀ i : grid12.Coords, EltTy.bits .f32 = 32 ∨ (Rect.block (s := S2x128x128) S1x128x128.size (cc12_transform_2 i) (hinb12_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36_1) S1x128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_2) S1x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg0) S5000x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v60) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v77_1) S1x128x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v77_2) S1x128x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v77_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v81) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v60) S5000x128.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v101) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v101) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v103) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v104) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v114) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v117) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v118_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v118_1) S1x128x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v118_2) S1x128x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v118_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v122) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v135) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v138) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v141) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v101) S5000x128.size cc8_transform_7 reads8_7 false false 2 stage8_7 sem8_7
    hrank8 hreads8_7 hinb8_7 nbuf8_7 (Memref.isWhole_whole _) hwx8_7 hstage8_7

abbrev win8_8 : Pipeline.Window sig grid8 :=
  Pipeline.Window.ofSpec (Memref.whole main_v142) S5000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v142) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v144) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v12) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v145) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v155) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v12) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v13) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v158) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v159_0) S5000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v159_1) S1x128x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v159_2) S1x128x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v159_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v13) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v163) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v176) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v166) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v179) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v182) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v142) S5000x128.size cc11_transform_7 reads11_7 false false 2 stage11_7 sem11_7
    hrank11 hreads11_7 hinb11_7 nbuf11_7 (Memref.isWhole_whole _) hwx11_7 hstage11_7

abbrev win11_8 : Pipeline.Window sig grid11 :=
  Pipeline.Window.ofSpec (Memref.whole main_v183) S5000x128.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

abbrev win12_0 : Pipeline.Window sig grid12 :=
  Pipeline.Window.ofSpec (Memref.whole main_v183) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v13) S5000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v184) S1x128x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x1 : Shape := ⟨2, ![128, 1]⟩
abbrev S1x128x128 : Shape := ⟨3, ![1, 128, 128]⟩
abbrev S1700000x128 : Shape := ⟨2, ![1700000, 128]⟩
abbrev S1x128 : Shape := ⟨2, ![1, 128]⟩
abbrev S1x10 : Shape := ⟨2, ![1, 10]⟩

abbrev nBuf : Space → Nat
  | .hbm => 451
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x10, .f32⟩
  | 15 => ⟨S10, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S_, .f32⟩
  | 51 => ⟨S100000x1, .f32⟩
  | 52 => ⟨S_, .f32⟩
  | 53 => ⟨S128x1, .f32⟩
  | 54 => ⟨S100000x1, .i32⟩
  | 55 => ⟨S128x1, .f32⟩
  | 56 => ⟨S1x128x128, .f32⟩
  | 57 => ⟨S128x128, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S_, .f32⟩
  | 86 => ⟨S128x128, .f32⟩
  | 87 => ⟨S100000x1, .i32⟩
  | 88 => ⟨S128x128, .f32⟩
  | 89 => ⟨S128x128, .f32⟩
  | 90 => ⟨S128x128, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x128, .f32⟩
  | 100 => ⟨S1x128, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S128x128, .f32⟩
  | 107 => ⟨S100000x1, .i32⟩
  | 108 => ⟨S128x128, .f32⟩
  | 109 => ⟨S128x128, .f32⟩
  | 110 => ⟨S128x128, .f32⟩
  | 111 => ⟨S1x128, .f32⟩
  | 112 => ⟨S100000x128, .f32⟩
  | 113 => ⟨S100000x128, .f32⟩
  | 114 => ⟨S_, .f32⟩
  | 115 => ⟨S128x128, .f32⟩
  | 116 => ⟨S128x128, .f32⟩
  | 117 => ⟨S128x128, .f32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .i1⟩
  | 6 => ⟨S_, .f32⟩
  | 7 => ⟨S100000x128, .f32⟩
  | 8 => ⟨S100000x128, .i1⟩
  | 9 => ⟨S_, .f32⟩
  | 10 => ⟨S_, .f32⟩
  | 11 => ⟨S100000x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000x128, .f32⟩
  | 31 => ⟨S1700000x128, .f32⟩
  | 32 => ⟨S1700000x128, .f32⟩
  | 33 => ⟨S_, .f32⟩
  | 34 => ⟨S100000x128, .f32⟩
  | 35 => ⟨S1700000x1, .i32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128x128, .f32⟩
  | 50 => ⟨S100000x1, .i32⟩
  | 51 => ⟨S128x128, .f32⟩
  | 52 => ⟨S128x128, .f32⟩
  | 53 => ⟨S128x128, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x128, .f32⟩
  | 63 => ⟨S1x128, .f32⟩
  | 64 => ⟨S100000x128, .f32⟩
  | 65 => ⟨S100000x128, .f32⟩
  | 66 => ⟨S100000x128, .f32⟩
  | 67 => ⟨S100000x128, .f32⟩
  | 68 => ⟨S_, .f32⟩
  | 69 => ⟨S128x128, .f32⟩
  | 70 => ⟨S100000x1, .i32⟩
  | 71 => ⟨S128x128, .f32⟩
  | 72 => ⟨S128x128, .f32⟩
  | 73 => ⟨S128x128, .f32⟩
  | 74 => ⟨S1x128, .f32⟩
  | 75 => ⟨S100000x128, .f32⟩
  | 76 => ⟨S100000x128, .f32⟩
  | 77 => ⟨S_, .f32⟩
  | 78 => ⟨S128x128, .f32⟩
  | 79 => ⟨S128x128, .f32⟩
  | 80 => ⟨S128x128, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .i1⟩
  | 97 => ⟨S_, .f32⟩
  | 98 => ⟨S100000x128, .f32⟩
  | 99 => ⟨S100000x128, .i1⟩
  | 100 => ⟨S_, .f32⟩
  | 101 => ⟨S_, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_2 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S_, .f32⟩
  | 12 => ⟨S128x128, .f32⟩
  | 13 => ⟨S100000x1, .i32⟩
  | 14 => ⟨S128x128, .f32⟩
  | 15 => ⟨S128x128, .f32⟩
  | 16 => ⟨S128x128, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | 31 => ⟨S_, .f32⟩
  | 32 => ⟨S128x128, .f32⟩
  | 33 => ⟨S100000x1, .i32⟩
  | 34 => ⟨S128x128, .f32⟩
  | 35 => ⟨S128x128, .f32⟩
  | 36 => ⟨S128x128, .f32⟩
  | 37 => ⟨S1x128, .f32⟩
  | 38 => ⟨S100000x128, .f32⟩
  | 39 => ⟨S100000x128, .f32⟩
  | 40 => ⟨S_, .f32⟩
  | 41 => ⟨S128x128, .f32⟩
  | 42 => ⟨S128x128, .f32⟩
  | 43 => ⟨S128x128, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .i1⟩
  | 60 => ⟨S_, .f32⟩
  | 61 => ⟨S100000x128, .f32⟩
  | 62 => ⟨S100000x128, .i1⟩
  | 63 => ⟨S_, .f32⟩
  | 64 => ⟨S_, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128x128, .f32⟩
  | 104 => ⟨S100000x1, .i32⟩
  | 105 => ⟨S128x128, .f32⟩
  | 106 => ⟨S128x128, .f32⟩
  | 107 => ⟨S128x128, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x128, .f32⟩
  | 117 => ⟨S1x128, .f32⟩
  | 118 => ⟨S100000x128, .f32⟩
  | 119 => ⟨S100000x128, .f32⟩
  | 120 => ⟨S100000x128, .f32⟩
  | 121 => ⟨S100000x128, .f32⟩
  | 122 => ⟨S_, .f32⟩
  | 123 => ⟨S128x128, .f32⟩
  | 124 => ⟨S100000x1, .i32⟩
  | 125 => ⟨S128x128, .f32⟩
  | 126 => ⟨S128x128, .f32⟩
  | 127 => ⟨S128x128, .f32⟩
  | _ => ⟨S100000x128, .f32⟩

abbrev hbmTy0_3 (i : Nat) : BufTy := match i % 128 with
  | 0 => ⟨S1x128, .f32⟩
  | 1 => ⟨S100000x128, .f32⟩
  | 2 => ⟨S100000x128, .f32⟩
  | 3 => ⟨S_, .f32⟩
  | 4 => ⟨S128x128, .f32⟩
  | 5 => ⟨S128x128, .f32⟩
  | 6 => ⟨S128x128, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .i1⟩
  | 23 => ⟨S_, .f32⟩
  | 24 => ⟨S100000x128, .f32⟩
  | 25 => ⟨S100000x128, .i1⟩
  | 26 => ⟨S_, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S128x128, .f32⟩
  | 38 => ⟨S100000x1, .i32⟩
  | 39 => ⟨S128x128, .f32⟩
  | 40 => ⟨S128x128, .f32⟩
  | 41 => ⟨S1x128, .f32⟩
  | 42 => ⟨S128x128, .f32⟩
  | 43 => ⟨S128x128, .f32⟩
  | 44 => ⟨S1x128, .f32⟩
  | 45 => ⟨S128x128, .f32⟩
  | 46 => ⟨S128x128, .f32⟩
  | 47 => ⟨S1x128, .f32⟩
  | 48 => ⟨S128x128, .f32⟩
  | 49 => ⟨S128x128, .f32⟩
  | 50 => ⟨S_, .f32⟩
  | 51 => ⟨S128, .f32⟩
  | 52 => ⟨S128, .f32⟩
  | 53 => ⟨S128, .f32⟩
  | 54 => ⟨S1x128, .f32⟩
  | 55 => ⟨S128x128, .f32⟩
  | 56 => ⟨S128x128, .f32⟩
  | 57 => ⟨S1x128, .f32⟩
  | 58 => ⟨S128x128, .f32⟩
  | 59 => ⟨S128x128, .f32⟩
  | 60 => ⟨S_, .f32⟩
  | 61 => ⟨S128x128, .f32⟩
  | 62 => ⟨S128x128, .f32⟩
  | 63 => ⟨S128x10, .f32⟩
  | 64 => ⟨S1x10, .f32⟩
  | 65 => ⟨S128x10, .f32⟩
  | 66 => ⟨S128x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_14 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call0_cst : Ref sig .tc := ⟨.hbm, 131, rfl⟩
abbrev main_call0_v0 : Ref sig .tc := ⟨.hbm, 132, rfl⟩
abbrev main_call0_v1 : Ref sig .tc := ⟨.hbm, 133, rfl⟩
abbrev main_call0_cst_0 : Ref sig .tc := ⟨.hbm, 134, rfl⟩
abbrev main_call0_v2 : Ref sig .tc := ⟨.hbm, 135, rfl⟩
abbrev main_call0_v3 : Ref sig .tc := ⟨.hbm, 136, rfl⟩
abbrev main_call0_cst_1 : Ref sig .tc := ⟨.hbm, 137, rfl⟩
abbrev main_call0_call0_v0 : Ref sig .tc := ⟨.hbm, 138, rfl⟩
abbrev main_call0_call0_v1 : Ref sig .tc := ⟨.hbm, 139, rfl⟩
abbrev main_call0_v4 : Ref sig .tc := ⟨.hbm, 140, rfl⟩
abbrev main_call0_v5 : Ref sig .tc := ⟨.hbm, 141, rfl⟩
abbrev main_call0_cst_2 : Ref sig .tc := ⟨.hbm, 142, rfl⟩
abbrev main_call0_v6 : Ref sig .tc := ⟨.hbm, 143, rfl⟩
abbrev main_call0_v7 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_16 : Ref sig .tc := ⟨.hbm, 150, rfl⟩
abbrev main_v102 : Ref sig .tc := ⟨.hbm, 151, rfl⟩
abbrev main_v103 : Ref sig .tc := ⟨.hbm, 152, rfl⟩
abbrev main_c_17 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_18 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_19 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_20 : Ref sig .tc := ⟨.hbm, 182, rfl⟩
abbrev main_v130 : Ref sig .tc := ⟨.hbm, 183, rfl⟩
abbrev main_v131 : Ref sig .tc := ⟨.hbm, 184, rfl⟩
abbrev main_c_21 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_22 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_23 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_24 : Ref sig .tc := ⟨.hbm, 209, rfl⟩
abbrev main_v153 : Ref sig .tc := ⟨.hbm, 210, rfl⟩
abbrev main_v154 : Ref sig .tc := ⟨.hbm, 211, rfl⟩
abbrev main_c_25 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_call1_cst : Ref sig .tc := ⟨.hbm, 222, rfl⟩
abbrev main_call1_v0 : Ref sig .tc := ⟨.hbm, 223, rfl⟩
abbrev main_call1_v1 : Ref sig .tc := ⟨.hbm, 224, rfl⟩
abbrev main_call1_cst_0 : Ref sig .tc := ⟨.hbm, 225, rfl⟩
abbrev main_call1_v2 : Ref sig .tc := ⟨.hbm, 226, rfl⟩
abbrev main_call1_v3 : Ref sig .tc := ⟨.hbm, 227, rfl⟩
abbrev main_call1_cst_1 : Ref sig .tc := ⟨.hbm, 228, rfl⟩
abbrev main_call1_call0_v0 : Ref sig .tc := ⟨.hbm, 229, rfl⟩
abbrev main_call1_call0_v1 : Ref sig .tc := ⟨.hbm, 230, rfl⟩
abbrev main_call1_v4 : Ref sig .tc := ⟨.hbm, 231, rfl⟩
abbrev main_call1_v5 : Ref sig .tc := ⟨.hbm, 232, rfl⟩
abbrev main_call1_cst_2 : Ref sig .tc := ⟨.hbm, 233, rfl⟩
abbrev main_call1_v6 : Ref sig .tc := ⟨.hbm, 234, rfl⟩
abbrev main_call1_v7 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_c_26 : Ref sig .tc := ⟨.hbm, 241, rfl⟩
abbrev main_v169 : Ref sig .tc := ⟨.hbm, 242, rfl⟩
abbrev main_v170 : Ref sig .tc := ⟨.hbm, 243, rfl⟩
abbrev main_c_27 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_28 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_cst_29 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_c_30 : Ref sig .tc := ⟨.hbm, 273, rfl⟩
abbrev main_v197 : Ref sig .tc := ⟨.hbm, 274, rfl⟩
abbrev main_v198 : Ref sig .tc := ⟨.hbm, 275, rfl⟩
abbrev main_c_31 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_cst_32 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_33 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_c_34 : Ref sig .tc := ⟨.hbm, 300, rfl⟩
abbrev main_v220 : Ref sig .tc := ⟨.hbm, 301, rfl⟩
abbrev main_v221 : Ref sig .tc := ⟨.hbm, 302, rfl⟩
abbrev main_c_35 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_call2_cst : Ref sig .tc := ⟨.hbm, 313, rfl⟩
abbrev main_call2_v0 : Ref sig .tc := ⟨.hbm, 314, rfl⟩
abbrev main_call2_v1 : Ref sig .tc := ⟨.hbm, 315, rfl⟩
abbrev main_call2_cst_0 : Ref sig .tc := ⟨.hbm, 316, rfl⟩
abbrev main_call2_v2 : Ref sig .tc := ⟨.hbm, 317, rfl⟩
abbrev main_call2_v3 : Ref sig .tc := ⟨.hbm, 318, rfl⟩
abbrev main_call2_cst_1 : Ref sig .tc := ⟨.hbm, 319, rfl⟩
abbrev main_call2_call0_v0 : Ref sig .tc := ⟨.hbm, 320, rfl⟩
abbrev main_call2_call0_v1 : Ref sig .tc := ⟨.hbm, 321, rfl⟩
abbrev main_call2_v4 : Ref sig .tc := ⟨.hbm, 322, rfl⟩
abbrev main_call2_v5 : Ref sig .tc := ⟨.hbm, 323, rfl⟩
abbrev main_call2_cst_2 : Ref sig .tc := ⟨.hbm, 324, rfl⟩
abbrev main_call2_v6 : Ref sig .tc := ⟨.hbm, 325, rfl⟩
abbrev main_call2_v7 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_c_36 : Ref sig .tc := ⟨.hbm, 332, rfl⟩
abbrev main_v236 : Ref sig .tc := ⟨.hbm, 333, rfl⟩
abbrev main_v237 : Ref sig .tc := ⟨.hbm, 334, rfl⟩
abbrev main_c_37 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_cst_38 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_cst_39 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_c_40 : Ref sig .tc := ⟨.hbm, 364, rfl⟩
abbrev main_v264 : Ref sig .tc := ⟨.hbm, 365, rfl⟩
abbrev main_v265 : Ref sig .tc := ⟨.hbm, 366, rfl⟩
abbrev main_c_41 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_cst_42 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_cst_43 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_c_44 : Ref sig .tc := ⟨.hbm, 391, rfl⟩
abbrev main_v287 : Ref sig .tc := ⟨.hbm, 392, rfl⟩
abbrev main_v288 : Ref sig .tc := ⟨.hbm, 393, rfl⟩
abbrev main_c_45 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_v293 : Ref sig .tc := ⟨.hbm, 399, rfl⟩
abbrev main_v294 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_call3_cst : Ref sig .tc := ⟨.hbm, 404, rfl⟩
abbrev main_call3_v0 : Ref sig .tc := ⟨.hbm, 405, rfl⟩
abbrev main_call3_v1 : Ref sig .tc := ⟨.hbm, 406, rfl⟩
abbrev main_call3_cst_0 : Ref sig .tc := ⟨.hbm, 407, rfl⟩
abbrev main_call3_v2 : Ref sig .tc := ⟨.hbm, 408, rfl⟩
abbrev main_call3_v3 : Ref sig .tc := ⟨.hbm, 409, rfl⟩
abbrev main_call3_cst_1 : Ref sig .tc := ⟨.hbm, 410, rfl⟩
abbrev main_call3_call0_v0 : Ref sig .tc := ⟨.hbm, 411, rfl⟩
abbrev main_call3_call0_v1 : Ref sig .tc := ⟨.hbm, 412, rfl⟩
abbrev main_call3_v4 : Ref sig .tc := ⟨.hbm, 413, rfl⟩
abbrev main_call3_v5 : Ref sig .tc := ⟨.hbm, 414, rfl⟩
abbrev main_call3_cst_2 : Ref sig .tc := ⟨.hbm, 415, rfl⟩
abbrev main_call3_v6 : Ref sig .tc := ⟨.hbm, 416, rfl⟩
abbrev main_call3_v7 : Ref sig .tc := ⟨.hbm, 417, rfl⟩
abbrev main_v298 : Ref sig .tc := ⟨.hbm, 418, rfl⟩
abbrev main_v299 : Ref sig .tc := ⟨.hbm, 419, rfl⟩
abbrev main_cst_46 : Ref sig .tc := ⟨.hbm, 420, rfl⟩
abbrev main_v300 : Ref sig .tc := ⟨.hbm, 421, rfl⟩
abbrev main_v301 : Ref sig .tc := ⟨.hbm, 422, rfl⟩
abbrev main_v302 : Ref sig .tc := ⟨.hbm, 423, rfl⟩
abbrev main_v303 : Ref sig .tc := ⟨.hbm, 424, rfl⟩
abbrev main_v304 : Ref sig .tc := ⟨.hbm, 425, rfl⟩
abbrev main_v305 : Ref sig .tc := ⟨.hbm, 426, rfl⟩
abbrev main_v306 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_cst_47 : Ref sig .tc := ⟨.hbm, 434, rfl⟩
abbrev main_v313 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_call4_cst : Ref sig .tc := ⟨.hbm, 444, rfl⟩
abbrev main_call4_v0 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x1 : S_.BroadcastsInDim S100000x1 (![] : Fin 0 → Fin S100000x1.rank)
  bcast_S_S128x1 : S_.BroadcastsInDim S128x1 (![] : Fin 0 → Fin S128x1.rank)
  bcast_S100000_S100000x1_0 : S100000.BroadcastsInDim S100000x1 (![0] : Fin 1 → Fin S100000x1.rank)
  slices_S4x128x128_S1x128x128_0_0_0 : S4x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1x128_S128x128_0_1 : S1x128.BroadcastsInDim S128x128 (![0, 1] : Fin 2 → Fin S128x128.rank)
  bcast_S_S128 : S_.BroadcastsInDim S128 (![] : Fin 0 → Fin S128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  scatter_S128x1_S100000x1_S100000x1_1_0_0_1_wf : ScatterDims.WF S128x1 S100000x1 S100000x1 [1] [0] [0] 1
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  gather_S128x128_S100000x1_S100000x128_1_0_n_n_0_1_1128_wf : GatherDims.WF S128x128 S100000x1 S100000x128 [1] [0] [] [0] [] 1 ![1, 128]
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Spec.lean ====
import Idealize.ShloMosaic.PureOps.Ideal

noncomputable section

namespace Cert.Gnn

open Idealize.ShloMosaic

structure Ctx where

  sI : Fin 1700000 → ℤ

  gs : Fin 1700000 → Fin 100000

  gd : Fin 1700000 → Fin 100000

  bI : Fin 100000 → ℤ

  bg : Fin 100000 → Fin 128

structure Ctx.Ok (G : Ctx) : Prop where
  hit : ∀ e n, G.sI e = (n.val : ℤ) → G.gd e = n
  loop : ∀ n : Fin 100000, ∃ e, G.sI e = (n.val : ℤ)
  seg : ∀ n, G.bI n = ((G.bg n).val : ℤ)

def eps : EReal := Ideal.ofBits .f32 0x3727C5AC#32

variable (G : Ctx)

def deg (n : Fin 100000) : EReal := ∑ e : Fin 1700000, if G.sI e = (n.val : ℤ) then (1 : EReal) else 0

def dis (n : Fin 100000) : EReal := Ideal.rsqrt (deg G n)

def cnt (g : Fin 128) : EReal := ∑ n : Fin 100000, if G.bI n = (g.val : ℤ) then (1 : EReal) else 0

namespace Reg

def oh (bv : Fin 100000 → BitVec 32) (n : Fin 100000) (g : Fin 128) : EReal :=
  if bv n = BitVec.ofNat 32 g.val then 1 else 0

def mat (x : Fin 100000 → Fin 128 → EReal) (W : Fin 128 → Fin 128 → EReal) (d : Fin 100000 → EReal)
    (n : Fin 100000) (j : Fin 128) : EReal := ∑ k : Fin 128, (x n k * d n) * W k j

def hb (a : Fin 100000 → Fin 128 → EReal) (d : Fin 100000 → EReal) (b : Fin 128 → EReal)
    (n : Fin 100000) (j : Fin 128) : EReal := a n j * d n + b j

def part (bv : Fin 100000 → BitVec 32) (h : Fin 100000 → Fin 128 → EReal) (c : Fin 2) (g j : Fin 128) : EReal :=
  ∑ n : Fin 100000, if n.val / 50000 = c.val then oh bv n g * h n j else 0

def elu (y : EReal) : EReal := if 0 < y then y else Ideal.exp y - 1
def norm (h : Fin 100000 → Fin 128 → EReal) (bv : Fin 100000 → BitVec 32) (mean var : Fin 128 → Fin 128 → EReal)
    (a w b : Fin 128 → EReal) (r : Fin 100000 → Fin 128 → EReal) (n : Fin 100000) (j : Fin 128) : EReal :=
  elu (w j * (h n j - a j * ∑ g : Fin 128, oh bv n g * mean g j)
        * Ideal.rsqrt ((∑ g : Fin 128, oh bv n g * var g j) + eps) + b j) + r n j

end Reg

namespace K

def agg (hs : Fin 100000 → Fin 128 → EReal) (n : Fin 100000) (j : Fin 128) : EReal :=
  ∑ e : Fin 1700000, if G.sI e = (n.val : ℤ) then hs (G.gs e) j else 0

def cs (g : Fin 128) : EReal := max (cnt G g) 1
def mean (s1 : Fin 128 → Fin 128 → EReal) (g j : Fin 128) : EReal := Ideal.div (s1 g j) (cs G g)
def var (s1 s2 : Fin 128 → Fin 128 → EReal) (a : Fin 128 → EReal) (g j : Fin 128) : EReal :=
  Ideal.div (s2 g j) (cs G g) - (2 * a j - a j * a j) * (mean G s1 g j * mean G s1 g j)

end K

namespace R

def proj (x : Fin 100000 → Fin 128 → EReal) (W : Fin 128 → Fin 128 → EReal) (n : Fin 100000) (j : Fin 128) : EReal :=
  ∑ k : Fin 128, x n k * W k j
def nrm (e : Fin 1700000) : EReal := dis G (G.gs e) * dis G (G.gd e)
def conv (x : Fin 100000 → Fin 128 → EReal) (W : Fin 128 → Fin 128 → EReal) (b : Fin 128 → EReal)
    (n : Fin 100000) (j : Fin 128) : EReal :=
  (∑ e : Fin 1700000, if G.sI e = (n.val : ℤ) then proj x W (G.gs e) j * nrm G e else 0) + b j
def segsum (h : Fin 100000 → Fin 128 → EReal) (g j : Fin 128) : EReal :=
  ∑ n : Fin 100000, if G.bI n = (g.val : ℤ) then h n j else 0
def mean (h : Fin 100000 → Fin 128 → EReal) (g j : Fin 128) : EReal := Ideal.div (segsum G h g j) (cnt G g)
def sub (h : Fin 100000 → Fin 128 → EReal) (a : Fin 128 → EReal) (n : Fin 100000) (j : Fin 128) : EReal :=
  h n j - a j * mean G h (G.bg n) j
def var (h : Fin 100000 → Fin 128 → EReal) (a : Fin 128 → EReal) (g j : Fin 128) : EReal :=
  Ideal.div (segsum G (fun n j => sub G h a n j * sub G h a n j) g j) (cnt G g)
def elu (y : EReal) : EReal := if 0 < y then y else 1 * (Ideal.exp (if 0 < y then 0 else y) - 1)
def layer (x : Fin 100000 → Fin 128 → EReal) (W : Fin 128 → Fin 128 → EReal) (b a w bb : Fin 128 → EReal)
    (n : Fin 100000) (j : Fin 128) : EReal :=
  elu (w j * sub G (conv G x W b) a n j * Ideal.rsqrt (var G (conv G x W b) a (G.bg n) j + eps) + bb j) + x n j

end R

def K.layer (bv : Fin 100000 → BitVec 32) (x : Fin 100000 → Fin 128 → EReal) (W : Fin 128 → Fin 128 → EReal)
    (b a w bb : Fin 128 → EReal) : Fin 100000 → Fin 128 → EReal :=
  let h := Reg.hb (K.agg G (Reg.mat x W (dis G))) (dis G) b
  let s1 : Fin 128 → Fin 128 → EReal := fun g j => Reg.part bv h 0 g j + Reg.part bv h 1 g j
  let s2 : Fin 128 → Fin 128 → EReal := fun g j =>
    Reg.part bv (fun n j => h n j * h n j) 0 g j + Reg.part bv (fun n j => h n j * h n j) 1 g j
  Reg.norm h bv (K.mean G s1) (K.var G s1 s2 a) a w bb x

def K.pool (bv : Fin 100000 → BitVec 32) (x : Fin 100000 → Fin 128 → EReal) (g j : Fin 128) : EReal :=
  Reg.part bv x 0 g j + Reg.part bv x 1 g j
def R.pool (x : Fin 100000 → Fin 128 → EReal) (g j : Fin 128) : EReal := R.segsum G x g j

def Real2 {a b : Nat} (x : Fin a → Fin b → EReal) : Prop := ∀ i j, ∃ r : ℝ, x i j = (r : EReal)
def Real1 {a : Nat} (x : Fin a → EReal) : Prop := ∀ i, ∃ r : ℝ, x i = (r : EReal)

end Cert.Gnn

end
-- ==== Proof.Alg.lean ====
import proofs.«423410_j58634893525678_2_alg».proof.Proof.Spec
import Mathlib.Data.EReal.Operations
import Mathlib.Algebra.Order.BigOperators.Group.Finset
import Mathlib.Tactic.Ring
import Mathlib.Tactic.FieldSimp
import Mathlib.Tactic.Linarith
import Mathlib.Tactic.Positivity

noncomputable section

namespace Cert.Gnn
open Idealize.ShloMosaic

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_ite {ι : Type*} [Fintype ι] (P : ι → Prop) [DecidablePred P] (f : ι → ℝ) :
    (∑ i, if P i then ((f i : ℝ) : EReal) else 0) = ((∑ i, if P i then f i else 0 : ℝ) : EReal) := by
  rw [← coe_sum]
  apply Finset.sum_congr rfl
  intro i _
  by_cases h : P i
  · rw [if_pos h, if_pos h]
  · rw [if_neg h, if_neg h, EReal.coe_zero]

theorem count_coe {ι : Type*} [Fintype ι] (P : ι → Prop) [DecidablePred P] :
    (∑ i, if P i then (1 : EReal) else 0) = ((∑ i, if P i then (1 : ℝ) else 0 : ℝ) : EReal) := by
  have h := coe_sum_ite P (fun _ => (1 : ℝ))
  rw [← h]
  rfl

theorem count_ge_one {ι : Type*} [Fintype ι] (P : ι → Prop) [DecidablePred P] (h : ∃ i, P i) :
    (1 : ℝ) ≤ ∑ i, if P i then (1 : ℝ) else 0 := by
  obtain ⟨i0, h0⟩ := h
  have h1 : (if P i0 then (1 : ℝ) else 0) ≤ ∑ i, if P i then (1 : ℝ) else 0 :=
    Finset.single_le_sum (f := fun i => if P i then (1 : ℝ) else 0)
      (fun i _ => by by_cases hi : P i <;> simp [hi]) (Finset.mem_univ i0)
  rwa [if_pos h0] at h1

theorem oh_eq (G : Ctx) (bv : Fin 100000 → BitVec 32)
    (hbv : ∀ n (g : Fin 128), bv n = BitVec.ofNat 32 g.val ↔ G.bI n = (g.val : ℤ))
    (n : Fin 100000) (g : Fin 128) :
    Reg.oh bv n g = if G.bI n = (g.val : ℤ) then 1 else 0 := by
  unfold Reg.oh
  by_cases h : G.bI n = (g.val : ℤ)
  · rw [if_pos h, if_pos ((hbv n g).2 h)]
  · rw [if_neg h, if_neg (fun h' => h ((hbv n g).1 h'))]

theorem part_add (G : Ctx) (bv : Fin 100000 → BitVec 32)
    (hbv : ∀ n (g : Fin 128), bv n = BitVec.ofNat 32 g.val ↔ G.bI n = (g.val : ℤ))
    (h : Fin 100000 → Fin 128 → EReal) (g j : Fin 128) :
    Reg.part bv h 0 g j + Reg.part bv h 1 g j = R.segsum G h g j := by
  unfold Reg.part R.segsum
  rw [← Finset.sum_add_distrib]
  apply Finset.sum_congr rfl
  intro n _
  rw [oh_eq G bv hbv n g]
  have e0 : ((0 : Fin 2) : ℕ) = 0 := rfl
  have e1 : ((1 : Fin 2) : ℕ) = 1 := rfl
  rw [e0, e1]
  have hn : n.val / 50000 = 0 ∨ n.val / 50000 = 1 := by
    have := n.isLt
    omega
  rcases hn with h0 | h1
  · rw [if_pos h0, if_neg (show ¬ (n.val / 50000 = 1) by omega), add_zero]
    by_cases hp : G.bI n = (g.val : ℤ)
    · rw [if_pos hp, if_pos hp, one_mul]
    · rw [if_neg hp, if_neg hp, zero_mul]
  · rw [if_neg (show ¬ (n.val / 50000 = 0) by omega), if_pos h1, zero_add]
    by_cases hp : G.bI n = (g.val : ℤ)
    · rw [if_pos hp, if_pos hp, one_mul]
    · rw [if_neg hp, if_neg hp, zero_mul]

theorem oh_sum (G : Ctx) (hG : G.Ok) (bv : Fin 100000 → BitVec 32)
    (hbv : ∀ n (g : Fin 128), bv n = BitVec.ofNat 32 g.val ↔ G.bI n = (g.val : ℤ))
    (n : Fin 100000) (m : Fin 128 → EReal) :
    ∑ g : Fin 128, Reg.oh bv n g * m g = m (G.bg n) := by
  rw [Finset.sum_eq_single (G.bg n)]
  · rw [oh_eq G bv hbv, if_pos (hG.seg n), one_mul]
  · intro g _ hg
    rw [oh_eq G bv hbv, if_neg, zero_mul]
    intro h
    apply hg
    rw [hG.seg n] at h
    exact Fin.ext (by exact_mod_cast h.symm)
  · intro h
    exact absurd (Finset.mem_univ _) h

theorem pool_eq (G : Ctx) (hG : G.Ok) (bv : Fin 100000 → BitVec 32)
    (hbv : ∀ n (g : Fin 128), bv n = BitVec.ofNat 32 g.val ↔ G.bI n = (g.val : ℤ))
    (x : Fin 100000 → Fin 128 → EReal) : K.pool bv x = R.pool G x := by
  funext g j
  exact part_add G bv hbv x g j

theorem elu_eq (y : EReal) : Reg.elu y = R.elu y := by
  unfold Reg.elu R.elu
  by_cases h : 0 < y
  · rw [if_pos h, if_pos h]
  · rw [if_neg h, if_neg h, if_neg h, one_mul]

def degR (G : Ctx) (n : Fin 100000) : ℝ :=
  ∑ e : Fin 1700000, if G.sI e = (n.val : ℤ) then (1 : ℝ) else 0

def disR (G : Ctx) (n : Fin 100000) : ℝ := (Real.sqrt (degR G n))⁻¹

def cntR (G : Ctx) (g : Fin 128) : ℝ :=
  ∑ n : Fin 100000, if G.bI n = (g.val : ℤ) then (1 : ℝ) else 0

def segR (G : Ctx) (h : Fin 100000 → Fin 128 → ℝ) (g j : Fin 128) : ℝ :=
  ∑ n : Fin 100000, if G.bI n = (g.val : ℤ) then h n j else 0

def convR (G : Ctx) (x : Fin 100000 → Fin 128 → ℝ) (W : Fin 128 → Fin 128 → ℝ) (b : Fin 128 → ℝ)
    (n : Fin 100000) (j : Fin 128) : ℝ :=
  (∑ e : Fin 1700000, if G.sI e = (n.val : ℤ)
      then (∑ k : Fin 128, x (G.gs e) k * W k j) * (disR G (G.gs e) * disR G (G.gd e)) else 0) + b j

def meanR (G : Ctx) (h : Fin 100000 → Fin 128 → ℝ) (g j : Fin 128) : ℝ :=
  segR G h g j * (1 / cntR G g)

def subR (G : Ctx) (h : Fin 100000 → Fin 128 → ℝ) (a : Fin 128 → ℝ) (n : Fin 100000) (j : Fin 128) : ℝ :=
  h n j - a j * meanR G h (G.bg n) j

def varR (G : Ctx) (h : Fin 100000 → Fin 128 → ℝ) (a : Fin 128 → ℝ) (g j : Fin 128) : ℝ :=
  segR G (fun n j => subR G h a n j * subR G h a n j) g j * (1 / cntR G g)

theorem deg_eq (G : Ctx) (n : Fin 100000) : deg G n = (degR G n : EReal) := count_coe _

theorem degR_ge (G : Ctx) (hG : G.Ok) (n : Fin 100000) : 1 ≤ degR G n := count_ge_one _ (hG.loop n)

theorem dis_eq (G : Ctx) (hG : G.Ok) (n : Fin 100000) : dis G n = (disR G n : EReal) := by
  have h1 := degR_ge G hG n
  have h2 : ¬ degR G n < 0 := not_lt.2 (by linarith)
  have h3 : ¬ degR G n = 0 := ne_of_gt (by linarith)
  unfold dis
  rw [deg_eq, Ideal.rsqrt_coe, if_neg h2, if_neg h3]
  rfl

theorem cnt_eq (G : Ctx) (g : Fin 128) : cnt G g = (cntR G g : EReal) := count_coe _

theorem cntR_ge (G : Ctx) (g : Fin 128) (hne : ∃ n, G.bI n = (g.val : ℤ)) : 1 ≤ cntR G g :=
  count_ge_one _ hne

theorem cntR_ne (G : Ctx) (g : Fin 128) (hne : ∃ n, G.bI n = (g.val : ℤ)) : cntR G g ≠ 0 :=
  ne_of_gt (lt_of_lt_of_le one_pos (cntR_ge G g hne))

theorem cs_eq (G : Ctx) (g : Fin 128) (hne : ∃ n, G.bI n = (g.val : ℤ)) : K.cs G g = cnt G g := by
  unfold K.cs
  apply max_eq_left
  rw [cnt_eq]
  have := cntR_ge G g hne
  exact_mod_cast this

theorem segsum_coe (G : Ctx) (hr : Fin 100000 → Fin 128 → ℝ) (g j : Fin 128) :
    R.segsum G (fun n j => (hr n j : EReal)) g j = (segR G hr g j : EReal) :=
  coe_sum_ite _ _

theorem conv_coe (G : Ctx) (hG : G.Ok) (xr : Fin 100000 → Fin 128 → ℝ) (Wr : Fin 128 → Fin 128 → ℝ)
    (br : Fin 128 → ℝ) (n : Fin 100000) (j : Fin 128) :
    R.conv G (fun n j => (xr n j : EReal)) (fun k j => (Wr k j : EReal)) (fun j => (br j : EReal)) n j
      = (convR G xr Wr br n j : EReal) := by
  unfold R.conv R.proj R.nrm convR
  simp only [dis_eq G hG, ← EReal.coe_mul, coe_sum, coe_sum_ite, ← EReal.coe_add]

theorem kh_coe (G : Ctx) (hG : G.Ok) (xr : Fin 100000 → Fin 128 → ℝ) (Wr : Fin 128 → Fin 128 → ℝ)
    (br : Fin 128 → ℝ) (n : Fin 100000) (j : Fin 128) :
    Reg.hb (K.agg G (Reg.mat (fun n j => (xr n j : EReal)) (fun k j => (Wr k j : EReal)) (dis G))) (dis G)
        (fun j => (br j : EReal)) n j
      = (convR G xr Wr br n j : EReal) := by
  unfold Reg.hb K.agg Reg.mat
  simp only [dis_eq G hG, ← EReal.coe_mul, coe_sum, coe_sum_ite, ← EReal.coe_add]
  apply congrArg Real.toEReal
  unfold convR
  rw [add_left_inj, Finset.sum_mul]
  apply Finset.sum_congr rfl
  intro e _
  by_cases h : G.sI e = (n.val : ℤ)
  · rw [if_pos h, if_pos h, hG.hit e n h, Finset.sum_mul, Finset.sum_mul]
    apply Finset.sum_congr rfl
    intro k _
    ring
  · rw [if_neg h, if_neg h, zero_mul]

theorem eps_pos : ∃ r : ℝ, 0 < r ∧ eps = (r : EReal) := by
  refine ⟨10995116 * (2 : ℝ) ^ (-40 : ℤ), by positivity, ?_⟩
  unfold eps
  simp [Ideal.ofBits, Ideal.ieee, -EReal.coe_mul]

theorem mean_coe (G : Ctx) (hr : Fin 100000 → Fin 128 → ℝ) (g j : Fin 128)
    (hne : ∃ n, G.bI n = (g.val : ℤ)) :
    R.mean G (fun n j => (hr n j : EReal)) g j = (meanR G hr g j : EReal) := by
  unfold R.mean meanR
  rw [segsum_coe, cnt_eq, Ideal.div_coe (cntR_ne G g hne), ← EReal.coe_mul]

theorem sub_coe (G : Ctx) (hG : G.Ok) (hr : Fin 100000 → Fin 128 → ℝ) (ar : Fin 128 → ℝ)
    (n : Fin 100000) (j : Fin 128) :
    R.sub G (fun n j => (hr n j : EReal)) (fun j => (ar j : EReal)) n j = (subR G hr ar n j : EReal) := by
  unfold R.sub subR
  rw [mean_coe G hr (G.bg n) j ⟨n, hG.seg n⟩, ← EReal.coe_mul, ← EReal.coe_sub]

theorem var_coe (G : Ctx) (hG : G.Ok) (hr : Fin 100000 → Fin 128 → ℝ) (ar : Fin 128 → ℝ) (g j : Fin 128)
    (hne : ∃ n, G.bI n = (g.val : ℤ)) :
    R.var G (fun n j => (hr n j : EReal)) (fun j => (ar j : EReal)) g j = (varR G hr ar g j : EReal) := by
  unfold R.var varR
  simp only [sub_coe G hG, ← EReal.coe_mul]
  rw [segsum_coe, cnt_eq, Ideal.div_coe (cntR_ne G g hne), ← EReal.coe_mul]

theorem kvar_coe (G : Ctx) (hr : Fin 100000 → Fin 128 → ℝ) (ar : Fin 128 → ℝ) (g j : Fin 128)
    (hne : ∃ n, G.bI n = (g.val : ℤ)) :
    K.var G (R.segsum G (fun n j => (hr n j : EReal)))
        (R.segsum G (fun n j => (hr n j : EReal) * (hr n j : EReal))) (fun j => (ar j : EReal)) g j
      = ((segR G (fun n j => hr n j * hr n j) g j * (1 / cntR G g)
          - (2 * ar j - ar j * ar j) * (meanR G hr g j * meanR G hr g j) : ℝ) : EReal) := by
  have h2 : (2 : EReal) = ((2 : ℝ) : EReal) := rfl
  unfold K.var K.mean
  rw [cs_eq G g hne, cnt_eq, h2]
  simp only [← EReal.coe_mul]
  rw [segsum_coe, segsum_coe, Ideal.div_coe (cntR_ne G g hne), Ideal.div_coe (cntR_ne G g hne)]
  simp only [← EReal.coe_mul, ← EReal.coe_sub]
  rfl

theorem var_identity (G : Ctx) (hG : G.Ok) (hr : Fin 100000 → Fin 128 → ℝ) (ar : Fin 128 → ℝ) (g j : Fin 128)
    (hne : ∃ n, G.bI n = (g.val : ℤ)) :
    varR G hr ar g j = segR G (fun n j => hr n j * hr n j) g j * (1 / cntR G g)
          - (2 * ar j - ar j * ar j) * (meanR G hr g j * meanR G hr g j) := by
  have hc0 := cntR_ne G g hne
  have e1 : segR G (fun n j => subR G hr ar n j * subR G hr ar n j) g j
      = ∑ n : Fin 100000, if G.bI n = (g.val : ℤ)
          then (hr n j - ar j * meanR G hr g j) * (hr n j - ar j * meanR G hr g j) else 0 := by
    unfold segR
    apply Finset.sum_congr rfl
    intro n _
    by_cases hp : G.bI n = (g.val : ℤ)
    · have hb : G.bg n = g := by
        have h := hG.seg n
        rw [hp] at h
        exact Fin.ext (by exact_mod_cast h.symm)
      rw [if_pos hp, if_pos hp]
      unfold subR
      beta_reduce
      rw [hb]
    · rw [if_neg hp, if_neg hp]
  have e2 : (∑ n : Fin 100000, if G.bI n = (g.val : ℤ)
          then (hr n j - ar j * meanR G hr g j) * (hr n j - ar j * meanR G hr g j) else 0)
      = segR G (fun n j => hr n j * hr n j) g j - 2 * ar j * meanR G hr g j * segR G hr g j
          + ar j * ar j * meanR G hr g j * meanR G hr g j * cntR G g := by
    unfold segR cntR
    rw [Finset.mul_sum, Finset.mul_sum, ← Finset.sum_sub_distrib, ← Finset.sum_add_distrib]
    apply Finset.sum_congr rfl
    intro n _
    by_cases hp : G.bI n = (g.val : ℤ)
    · simp only [if_pos hp]
      ring
    · simp only [if_neg hp]
      ring
  have hS : segR G hr g j = meanR G hr g j * cntR G g := by
    unfold meanR
    field_simp
  unfold varR
  rw [e1, e2, hS]
  field_simp
  ring

theorem varR_nonneg (G : Ctx) (hr : Fin 100000 → Fin 128 → ℝ) (ar : Fin 128 → ℝ) (g j : Fin 128)
    (hne : ∃ n, G.bI n = (g.val : ℤ)) : 0 ≤ varR G hr ar g j := by
  have hc := cntR_ge G g hne
  unfold varR segR
  apply mul_nonneg
  · apply Finset.sum_nonneg
    intro n _
    by_cases hp : G.bI n = (g.val : ℤ)
    · rw [if_pos hp]
      exact mul_self_nonneg _
    · rw [if_neg hp]
  · exact div_nonneg zero_le_one (by linarith)

theorem rsqrt_coe_pos (r : ℝ) (h : 0 < r) :
    Ideal.rsqrt (r : EReal) = (((Real.sqrt r)⁻¹ : ℝ) : EReal) := by
  rw [Ideal.rsqrt_coe, if_neg (not_lt.2 h.le), if_neg h.ne']

theorem elu_real (y : ℝ) : ∃ r : ℝ, R.elu (y : EReal) = (r : EReal) := by
  rw [← elu_eq]
  unfold Reg.elu
  by_cases h : (0 : EReal) < (y : EReal)
  · exact ⟨y, by rw [if_pos h]⟩
  · refine ⟨Real.exp y - 1, ?_⟩
    rw [if_neg h, Ideal.exp_coe, EReal.coe_sub, EReal.coe_one]

theorem real2_coe {a b : Nat} {x : Fin a → Fin b → EReal} (h : Real2 x) :
    ∃ xr : Fin a → Fin b → ℝ, x = fun i j => (xr i j : EReal) := by
  choose xr hxr using h
  exact ⟨xr, funext fun i => funext fun j => hxr i j⟩

theorem real1_coe {a : Nat} {x : Fin a → EReal} (h : Real1 x) :
    ∃ xr : Fin a → ℝ, x = fun i => (xr i : EReal) := by
  choose xr hxr using h
  exact ⟨xr, funext fun i => hxr i⟩

theorem norm_eq (G : Ctx) (hG : G.Ok) (bv : Fin 100000 → BitVec 32)
    (hbv : ∀ n (g : Fin 128), bv n = BitVec.ofNat 32 g.val ↔ G.bI n = (g.val : ℤ))
    (h : Fin 100000 → Fin 128 → EReal) (m v : Fin 128 → Fin 128 → EReal) (a w b : Fin 128 → EReal)
    (r : Fin 100000 → Fin 128 → EReal) (n : Fin 100000) (j : Fin 128) :
    Reg.norm h bv m v a w b r n j
      = Reg.elu (w j * (h n j - a j * m (G.bg n) j) * Ideal.rsqrt (v (G.bg n) j + eps) + b j) + r n j := by
  have e1 := oh_sum G hG bv hbv n (fun g => m g j)
  have e2 := oh_sum G hG bv hbv n (fun g => v g j)
  beta_reduce at e1 e2
  unfold Reg.norm
  rw [e1, e2]

theorem layer_core (G : Ctx) (hG : G.Ok) (bv : Fin 100000 → BitVec 32)
    (hbv : ∀ n (g : Fin 128), bv n = BitVec.ofNat 32 g.val ↔ G.bI n = (g.val : ℤ))
    (hr xr : Fin 100000 → Fin 128 → ℝ) (ar wr bbr : Fin 128 → ℝ) (n : Fin 100000) (j : Fin 128) :
    Reg.norm (fun n j => (hr n j : EReal)) bv
        (K.mean G (fun g j => Reg.part bv (fun n j => (hr n j : EReal)) 0 g j
                            + Reg.part bv (fun n j => (hr n j : EReal)) 1 g j))
        (K.var G (fun g j => Reg.part bv (fun n j => (hr n j : EReal)) 0 g j
                            + Reg.part bv (fun n j => (hr n j : EReal)) 1 g j)
                 (fun g j => Reg.part bv (fun n j => (hr n j : EReal) * (hr n j : EReal)) 0 g j
                            + Reg.part bv (fun n j => (hr n j : EReal) * (hr n j : EReal)) 1 g j)
                 (fun j => (ar j : EReal)))
        (fun j => (ar j : EReal)) (fun j => (wr j : EReal)) (fun j => (bbr j : EReal))
        (fun n j => (xr n j : EReal)) n j
      = R.elu ((wr j : EReal) * R.sub G (fun n j => (hr n j : EReal)) (fun j => (ar j : EReal)) n j
          * Ideal.rsqrt (R.var G (fun n j => (hr n j : EReal)) (fun j => (ar j : EReal)) (G.bg n) j + eps)
          + (bbr j : EReal)) + (xr n j : EReal)
    ∧ ∃ r : ℝ, R.elu ((wr j : EReal) * R.sub G (fun n j => (hr n j : EReal)) (fun j => (ar j : EReal)) n j
          * Ideal.rsqrt (R.var G (fun n j => (hr n j : EReal)) (fun j => (ar j : EReal)) (G.bg n) j + eps)
          + (bbr j : EReal)) + (xr n j : EReal) = (r : EReal) := by
  have s1 : (fun g j => Reg.part bv (fun n j => (hr n j : EReal)) 0 g j
                      + Reg.part bv (fun n j => (hr n j : EReal)) 1 g j)
      = R.segsum G (fun n j => (hr n j : EReal)) :=
    funext fun g => funext fun j => part_add G bv hbv _ g j
  have s2 : (fun g j => Reg.part bv (fun n j => (hr n j : EReal) * (hr n j : EReal)) 0 g j
                      + Reg.part bv (fun n j => (hr n j : EReal) * (hr n j : EReal)) 1 g j)
      = R.segsum G (fun n j => (hr n j : EReal) * (hr n j : EReal)) :=
    funext fun g => funext fun j => part_add G bv hbv _ g j
  have hne : ∃ n', G.bI n' = (((G.bg n).val : ℕ) : ℤ) := ⟨n, hG.seg n⟩
  have hm : K.mean G (R.segsum G (fun n j => (hr n j : EReal))) (G.bg n) j
      = R.mean G (fun n j => (hr n j : EReal)) (G.bg n) j := by
    unfold K.mean R.mean
    rw [cs_eq G _ hne]
  have hv : K.var G (R.segsum G (fun n j => (hr n j : EReal)))
        (R.segsum G (fun n j => (hr n j : EReal) * (hr n j : EReal))) (fun j => (ar j : EReal)) (G.bg n) j
      = R.var G (fun n j => (hr n j : EReal)) (fun j => (ar j : EReal)) (G.bg n) j := by
    rw [kvar_coe G hr ar _ j hne, var_coe G hG hr ar _ j hne, var_identity G hG hr ar _ j hne]
  rw [s1, s2, norm_eq G hG bv hbv, hm, hv, elu_eq]
  constructor
  · rfl
  · obtain ⟨e, he, hee⟩ := eps_pos
    have hv0 := varR_nonneg G hr ar (G.bg n) j hne
    rw [var_coe G hG hr ar _ j hne, sub_coe G hG, hee, ← EReal.coe_add,
      rsqrt_coe_pos _ (by linarith), ← EReal.coe_mul, ← EReal.coe_mul, ← EReal.coe_add]
    obtain ⟨r, hr'⟩ := elu_real
      (wr j * subR G hr ar n j * (Real.sqrt (varR G hr ar (G.bg n) j + e))⁻¹ + bbr j)
    exact ⟨r + xr n j, by rw [hr', EReal.coe_add]⟩

theorem layer_eq (G : Ctx) (hG : G.Ok) (bv : Fin 100000 → BitVec 32)
    (hbv : ∀ n (g : Fin 128), bv n = BitVec.ofNat 32 g.val ↔ G.bI n = (g.val : ℤ))
    (x : Fin 100000 → Fin 128 → EReal) (W : Fin 128 → Fin 128 → EReal) (b a w bb : Fin 128 → EReal)
    (hx : Real2 x) (hW : Real2 W) (hb : Real1 b) (ha : Real1 a) (hw : Real1 w) (hbb : Real1 bb) :
    K.layer G bv x W b a w bb = R.layer G x W b a w bb ∧ Real2 (R.layer G x W b a w bb) := by
  obtain ⟨xr, rfl⟩ := real2_coe hx
  obtain ⟨Wr, rfl⟩ := real2_coe hW
  obtain ⟨br, rfl⟩ := real1_coe hb
  obtain ⟨ar, rfl⟩ := real1_coe ha
  obtain ⟨wr, rfl⟩ := real1_coe hw
  obtain ⟨bbr, rfl⟩ := real1_coe hbb
  have hk : Reg.hb (K.agg G (Reg.mat (fun n j => (xr n j : EReal)) (fun k j => (Wr k j : EReal)) (dis G)))
        (dis G) (fun j => (br j : EReal))
      = fun n j => (convR G xr Wr br n j : EReal) :=
    funext fun n => funext fun j => kh_coe G hG xr Wr br n j
  have hc : R.conv G (fun n j => (xr n j : EReal)) (fun k j => (Wr k j : EReal)) (fun j => (br j : EReal))
      = fun n j => (convR G xr Wr br n j : EReal) :=
    funext fun n => funext fun j => conv_coe G hG xr Wr br n j
  have key : ∀ n j,
      K.layer G bv (fun n j => (xr n j : EReal)) (fun k j => (Wr k j : EReal)) (fun j => (br j : EReal))
          (fun j => (ar j : EReal)) (fun j => (wr j : EReal)) (fun j => (bbr j : EReal)) n j
        = R.layer G (fun n j => (xr n j : EReal)) (fun k j => (Wr k j : EReal)) (fun j => (br j : EReal))
          (fun j => (ar j : EReal)) (fun j => (wr j : EReal)) (fun j => (bbr j : EReal)) n j
      ∧ ∃ r : ℝ, R.layer G (fun n j => (xr n j : EReal)) (fun k j => (Wr k j : EReal))
          (fun j => (br j : EReal)) (fun j => (ar j : EReal)) (fun j => (wr j : EReal))
          (fun j => (bbr j : EReal)) n j = (r : EReal) := by
    intro n j
    have h := layer_core G hG bv hbv (convR G xr Wr br) xr ar wr bbr n j
    unfold K.layer R.layer
    rw [hk, hc]
    exact h
  exact ⟨funext fun n => funext fun j => (key n j).1, fun n j => (key n j).2⟩

end Cert.Gnn

end
-- ==== Proof.Net.lean ====
import proofs.«423410_j58634893525678_2_alg».proof.Proof.Spec
import proofs.«423410_j58634893525678_2_alg».proof.Proof.Alg
import Idealize.ShloMosaic.Lib.ValueIdx

noncomputable section

namespace Cert.Gnn

structure Params where
  x0 : Fin 100000 → Fin 128 → EReal
  W : Fin 4 → Fin 128 → Fin 128 → EReal
  b : Fin 4 → Fin 128 → EReal
  a : Fin 4 → Fin 128 → EReal
  w : Fin 4 → Fin 128 → EReal
  bb : Fin 4 → Fin 128 → EReal

structure Params.Real (P : Params) : Prop where
  x0 : Real2 P.x0
  W : ∀ l, Real2 (P.W l)
  b : ∀ l, Real1 (P.b l)
  a : ∀ l, Real1 (P.a l)
  w : ∀ l, Real1 (P.w l)
  bb : ∀ l, Real1 (P.bb l)

open Idealize.ShloMosaic Idealize.ShloMosaic.ValueIdx in

def Params.of (a0 : (⟨2, ![100000, 128]⟩ : Shape).Idx → EReal) (a3 : (⟨3, ![4, 128, 128]⟩ : Shape).Idx → EReal)
    (a4 a5 a6 a7 : (⟨2, ![4, 128]⟩ : Shape).Idx → EReal) : Params where
  x0 n k := a0 (ix2 n k)
  W l k j := a3 (ix3 l k j)
  b l j := a4 (ix2 l j)
  w l j := a5 (ix2 l j)
  bb l j := a6 (ix2 l j)
  a l j := a7 (ix2 l j)

variable (G : Ctx) (bv : Fin 100000 → BitVec 32) (P : Params)

def KL (l : Fin 4) (x : Fin 100000 → Fin 128 → EReal) : Fin 100000 → Fin 128 → EReal :=
  K.layer G bv x (P.W l) (P.b l) (P.a l) (P.w l) (P.bb l)
def RL (l : Fin 4) (x : Fin 100000 → Fin 128 → EReal) : Fin 100000 → Fin 128 → EReal :=
  R.layer G x (P.W l) (P.b l) (P.a l) (P.w l) (P.bb l)

def KX1 := KL G bv P 0 P.x0
def KX2 := KL G bv P 1 (KX1 G bv P)
def KX3 := KL G bv P 2 (KX2 G bv P)
def KX4 := KL G bv P 3 (KX3 G bv P)
def RX1 := RL G P 0 P.x0
def RX2 := RL G P 1 (RX1 G P)
def RX3 := RL G P 2 (RX2 G P)
def RX4 := RL G P 3 (RX3 G P)

variable {G bv P}

theorem step (hG : G.Ok) (hbv : ∀ n (g : Fin 128), bv n = BitVec.ofNat 32 g.val ↔ G.bI n = (g.val : ℤ))
    (hP : P.Real) (l : Fin 4) (x : Fin 100000 → Fin 128 → EReal) (hx : Real2 x) :
    KL G bv P l x = RL G P l x ∧ Real2 (RL G P l x) :=
  layer_eq G hG bv hbv x (P.W l) (P.b l) (P.a l) (P.w l) (P.bb l) hx (hP.W l) (hP.b l) (hP.a l) (hP.w l) (hP.bb l)

theorem net_eq (hG : G.Ok) (hbv : ∀ n (g : Fin 128), bv n = BitVec.ofNat 32 g.val ↔ G.bI n = (g.val : ℤ))
    (hP : P.Real) : KX4 G bv P = RX4 G P ∧ Real2 (RX4 G P) := by
  have h1 := step hG hbv hP 0 P.x0 hP.x0
  have e1 : KX1 G bv P = RX1 G P := h1.1
  have h2 := step hG hbv hP 1 (RX1 G P) h1.2
  have e2 : KX2 G bv P = RX2 G P := by unfold KX2 RX2; rw [e1]; exact h2.1
  have h3 := step hG hbv hP 2 (RX2 G P) h2.2
  have e3 : KX3 G bv P = RX3 G P := by unfold KX3 RX3; rw [e2]; exact h3.1
  have h4 := step hG hbv hP 3 (RX3 G P) h3.2
  have e4 : KX4 G bv P = RX4 G P := by unfold KX4 RX4; rw [e3]; exact h4.1
  exact ⟨e4, h4.2⟩

theorem pool_net_eq (hG : G.Ok) (hbv : ∀ n (g : Fin 128), bv n = BitVec.ofNat 32 g.val ↔ G.bI n = (g.val : ℤ))
    (hP : P.Real) : K.pool bv (KX4 G bv P) = R.pool G (RX4 G P) := by
  rw [(net_eq hG hbv hP).1]
  exact pool_eq G hG bv hbv (RX4 G P)

end Cert.Gnn

end
-- ==== Proof.LibScatterGather.lean ====
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

private def idxEquiv1 {n : Nat} : Fin n ≃ (⟨1, ![n]⟩ : Shape).Idx where
  toFun := ix1
  invFun j := j 0
  left_inv _ := rfl
  right_inv j := (eq_ix1 j).symm

section Vec
variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1)
include huw hiw hsd hiv

private theorem vec_start (idx : IVec ⟨2, ![n, 1]⟩ w) (j : (⟨1, ![n]⟩ : Shape).Idx) (a : Fin 1) :
    d.start j idx a = (idx (ix2 (j 0) (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold ScatterDims.siIdx
    rw [dif_pos (by rw [hiv])]
    apply Fin.ext
    show List.idxOf (0 : Fin 1) d.scatterDimsToOperandDims = 0
    rw [hsd]; simp

private theorem vec_window (j : (⟨1, ![n]⟩ : Shape).Idx) (a : Fin 1) : d.window j a = 0 := by
  unfold ScatterDims.window
  rw [dif_neg]
  obtain rfl : a = 0 := Subsingleton.elim _ _
  simp [ScatterDims.sKept, Shape.kept, hiw]

private theorem vec_resultIdx (idx : IVec ⟨2, ![n, 1]⟩ w) (j : (⟨1, ![n]⟩ : Shape).Idx) (i : Fin N) :
    d.resultIdx? j idx = some (ix1 i) ↔ (idx (ix2 (j 0) (0 : Fin 1))).toInt = (i.val : ℤ) := by
  have hst := vec_start d huw hiw hsd hiv idx j
  have hwi := vec_window d huw hiw hsd hiv j
  unfold ScatterDims.resultIdx?
  split
  · rename_i h
    constructor
    · intro he
      have h1 := congrArg Fin.val (congrFun (Option.some.inj he) 0)
      have h0 := (h 0).1
      rw [hst, hwi] at h0
      change (d.start j idx 0 + (d.window j 0 : ℤ)).toNat = i.val at h1
      rw [hst, hwi] at h1
      omega
    · intro he
      congr 1
      funext a
      obtain rfl : a = 0 := Subsingleton.elim _ _
      apply Fin.ext
      change (d.start j idx 0 + (d.window j 0 : ℤ)).toNat = i.val
      rw [hst, hwi, he]
      omega
  · rename_i h
    constructor
    · intro he
      cases he
    · intro he
      exfalso
      apply h
      intro a
      obtain rfl : a = 0 := Subsingleton.elim _ _
      rw [hst, hwi, he]
      have hi : i.val < N := i.isLt
      refine ⟨by omega, ?_⟩
      change ((i.val : ℤ) + ((0 : ℕ) : ℤ)) < ((N : ℕ) : ℤ)
      omega

end Vec

theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ p : Fin n, if (idx (ix2 p (0 : Fin 1))).toInt = (i.val : ℤ) then upd (ix1 p) else 0 := by
  unfold Ideal.hostScatterAdd
  congr 1
  rw [Finset.sum_filter, ← Equiv.sum_comp (idxEquiv1 (n := n))]
  refine Finset.sum_congr rfl fun p _ => ?_
  exact if_congr (vec_resultIdx d huw hiw hsd hiv idx (ix1 p) i) rfl rfl

section Rows
variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1)
include huw hiw hsd hiv

private theorem rows_uScatter (X : Fin 2) (hX : X ∈ d.uScatter) : X = 0 := by
  have h1 : X ∉ d.updateWindowDims := by
    have := hX
    simp only [ScatterDims.uScatter, Shape.kept, List.mem_filter, List.mem_finRange, true_and, decide_eq_true_eq] at this
    exact this
  rw [huw, List.mem_singleton] at h1
  match X, h1 with
  | ⟨0, _⟩, _ => rfl
  | ⟨1, _⟩, h => exact absurd rfl h

private theorem rows_start0 (idx : IVec ⟨2, ![n, 1]⟩ w) (j : (⟨2, ![n, C]⟩ : Shape).Idx) :
    d.start j idx (0 : Fin 2) = (idx (ix2 (j 0) (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 2, X ∈ d.uScatter → (j X).val = (j 0).val := fun X hX => by
      rw [rows_uScatter d huw hiw hsd hiv X hX]
    exact e _ (List.getElem_mem _)
  | ⟨1, _⟩ =>
    unfold ScatterDims.siIdx
    rw [dif_pos (by rw [hiv])]
    apply Fin.ext
    show List.idxOf (0 : Fin 2) d.scatterDimsToOperandDims = 0
    rw [hsd]; simp

private theorem rows_start1 (idx : IVec ⟨2, ![n, 1]⟩ w) (j : (⟨2, ![n, C]⟩ : Shape).Idx) :
    d.start j idx (1 : Fin 2) = 0 := by
  unfold ScatterDims.start
  rw [dif_neg]
  rw [hsd, List.mem_singleton]
  intro h
  exact Nat.one_ne_zero (congrArg Fin.val h)

private theorem rows_window0 (j : (⟨2, ![n, C]⟩ : Shape).Idx) : d.window j (0 : Fin 2) = 0 := by
  unfold ScatterDims.window
  rw [dif_neg]
  simp [ScatterDims.sKept, Shape.kept, hiw]

private theorem rows_window1 (j : (⟨2, ![n, C]⟩ : Shape).Idx) : d.window j (1 : Fin 2) = (j 1).val := by
  have hk : (1 : Fin 2) ∈ d.sKept := by
    simp [ScatterDims.sKept, Shape.kept, hiw]
  unfold ScatterDims.window
  rw [dif_pos hk]
  have e : ∀ X : Fin 2, X ∈ d.updateWindowDims → (j X).val = (j 1).val := fun X hX => by
    rw [huw, List.mem_singleton] at hX
    rw [hX]
  exact e _ (List.getElem_mem _)

private theorem rows_resultIdx (idx : IVec ⟨2, ![n, 1]⟩ w) (j : (⟨2, ![n, C]⟩ : Shape).Idx) (i : Fin N) (c : Fin C) :
    d.resultIdx? j idx = some (ix2 i c) ↔ (idx (ix2 (j 0) (0 : Fin 1))).toInt = (i.val : ℤ) ∧ j 1 = c := by
  have hs0 := rows_start0 d huw hiw hsd hiv idx j
  have hs1 := rows_start1 d huw hiw hsd hiv idx j
  have hw0 := rows_window0 d huw hiw hsd hiv j
  have hw1 := rows_window1 d huw hiw hsd hiv j
  have hi : i.val < N := i.isLt
  have hc : c.val < C := c.isLt
  have hj1 : (j 1).val < C := idx2_lt1 j
  unfold ScatterDims.resultIdx?
  split
  · rename_i h
    constructor
    · intro he
      have hf := Option.some.inj he
      have h0 := congrArg Fin.val (congrFun hf (0 : Fin 2))
      have h1 := congrArg Fin.val (congrFun hf (1 : Fin 2))
      change (d.start j idx (0 : Fin 2) + (d.window j (0 : Fin 2) : ℤ)).toNat = i.val at h0
      change (d.start j idx (1 : Fin 2) + (d.window j (1 : Fin 2) : ℤ)).toNat = c.val at h1
      have g0 := (h (0 : Fin 2)).1
      rw [hs0, hw0] at h0 g0
      rw [hs1, hw1] at h1
      refine ⟨by omega, Fin.ext (by omega)⟩
    · rintro ⟨he, hjc⟩
      congr 1
      funext a
      match a with
      | ⟨0, _⟩ =>
        apply Fin.ext
        change (d.start j idx (0 : Fin 2) + (d.window j (0 : Fin 2) : ℤ)).toNat = i.val
        rw [hs0, hw0, he]; omega
      | ⟨1, _⟩ =>
        apply Fin.ext
        change (d.start j idx (1 : Fin 2) + (d.window j (1 : Fin 2) : ℤ)).toNat = c.val
        rw [hs1, hw1, ← hjc]; omega
  · rename_i h
    constructor
    · intro he
      cases he
    · rintro ⟨he, hjc⟩
      exfalso
      apply h
      refine Fin.forall_fin_two.2 ⟨?_, ?_⟩
      · rw [hs0, hw0, he]
        refine ⟨by omega, ?_⟩
        change ((i.val : ℤ) + ((0 : ℕ) : ℤ)) < ((N : ℕ) : ℤ)
        omega
      · rw [hs1, hw1]
        refine ⟨by omega, ?_⟩
        change ((0 : ℤ) + (((j 1).val : ℕ) : ℤ)) < ((C : ℕ) : ℤ)
        omega

end Rows

theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ p : Fin n, if (idx (ix2 p (0 : Fin 1))).toInt = (i.val : ℤ) then upd (ix2 p c) else 0 := by
  unfold Ideal.hostScatterAdd
  congr 1
  rw [Finset.sum_filter, sum_idx2]
  refine Finset.sum_congr rfl fun p _ => ?_
  have hb : ∀ b : Fin C, (if d.resultIdx? (ix2 p b) idx = some (ix2 i c) then upd (ix2 p b) else 0)
      = if b = c then (if (idx (ix2 p (0 : Fin 1))).toInt = (i.val : ℤ) then upd (ix2 p b) else 0) else 0 := by
    intro b
    have hiff : d.resultIdx? (ix2 p b) idx = some (ix2 i c)
        ↔ (idx (ix2 p (0 : Fin 1))).toInt = (i.val : ℤ) ∧ b = c :=
      rows_resultIdx d huw hiw hsd hiv idx (ix2 p b) i c
    by_cases h1 : (idx (ix2 p (0 : Fin 1))).toInt = (i.val : ℤ)
    · by_cases h2 : b = c
      · rw [if_pos h2, if_pos h1, if_pos (hiff.2 ⟨h1, h2⟩)]
      · rw [if_neg h2, if_neg (fun h => h2 (hiff.1 h).2)]
    · by_cases h2 : b = c
      · rw [if_pos h2, if_neg h1, if_neg (fun h => h1 (hiff.1 h).1)]
      · rw [if_neg h2, if_neg (fun h => h2 (hiff.1 h).2)]
  rw [Finset.sum_congr rfl (fun b _ => hb b), Finset.sum_ite_eq']
  rw [if_pos (Finset.mem_univ c)]

section GatherRows
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

private theorem gather_batchDims (X : Fin 2) (hX : X ∈ d.batchDims) : X = 0 := by
  have h1 : X ∉ d.offsetDims := by
    have := hX
    simp only [GatherDims.batchDims, Shape.kept, List.mem_filter, List.mem_finRange, true_and, decide_eq_true_eq] at this
    exact this
  rw [hoff, List.mem_singleton] at h1
  match X, h1 with
  | ⟨0, _⟩, _ => rfl
  | ⟨1, _⟩, h => exact absurd rfl h

private theorem gather_coord0 (idx : IVec ⟨2, ![n, 1]⟩ w) (j : (⟨2, ![n, C]⟩ : Shape).Idx) :
    d.start j idx (0 : Fin 2) + d.batchCoord j (0 : Fin 2) + d.offCoord j (0 : Fin 2)
      = min (idx (ix2 (j 0) (0 : Fin 1))).toInt.toNat (N - 1) := by
  have hb : (0 : Fin 2) ∉ d.operandBatchingDims := by rw [hob]; exact List.not_mem_nil
  have hc : (0 : Fin 2) ∈ d.collapsedSliceDims := by rw [hcoll]; exact List.mem_singleton.mpr rfl
  have hk : (0 : Fin 2) ∉ d.sKept := fun h => ((d.mem_sKept _).1 h).1 hc
  have hm : (0 : Fin 2) ∈ d.startIndexMap := by rw [hsim]; exact List.mem_singleton.mpr rfl
  have hsl : d.sliceSizes (0 : Fin 2) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 2, X ∈ d.batchDims → (j X).val = (j 0).val := fun X hX => by
      rw [gather_batchDims d hoff hcoll hob hsim hivd X hX]
    exact e _ (List.getElem_mem _)
  | ⟨1, _⟩ =>
    unfold GatherDims.siIdx
    rw [dif_pos (by rw [hivd])]
    apply Fin.ext
    show List.idxOf (0 : Fin 2) d.startIndexMap = 0
    rw [hsim]; simp

private theorem gather_coord1 (idx : IVec ⟨2, ![n, 1]⟩ w) (j : (⟨2, ![n, C]⟩ : Shape).Idx) :
    d.start j idx (1 : Fin 2) + d.batchCoord j (1 : Fin 2) + d.offCoord j (1 : Fin 2) = (j 1).val := by
  have hb : (1 : Fin 2) ∉ d.operandBatchingDims := by rw [hob]; exact List.not_mem_nil
  have hc : (1 : Fin 2) ∉ d.collapsedSliceDims := by
    rw [hcoll, List.mem_singleton]
    intro h
    exact Nat.one_ne_zero (congrArg Fin.val h)
  have hk : (1 : Fin 2) ∈ d.sKept := (d.mem_sKept _).2 ⟨hc, hb⟩
  have hm : (1 : Fin 2) ∉ d.startIndexMap := by
    rw [hsim, List.mem_singleton]
    intro h
    exact Nat.one_ne_zero (congrArg Fin.val h)
  rw [d.batchCoord_eq_zero j _ hb, Nat.add_zero]
  unfold GatherDims.start
  rw [dif_neg hm, Nat.zero_add]
  unfold GatherDims.offCoord
  rw [dif_pos hk]
  have e : ∀ X : Fin 2, X ∈ d.offsetDims → (j X).val = (j 1).val := fun X hX => by
    rw [hoff, List.mem_singleton] at hX
    rw [hX]
  exact e _ (List.getElem_mem _)

end GatherRows

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  match a with
  | ⟨0, _⟩ =>
    apply Fin.ext
    exact gather_coord0 d hoff hcoll hob hsim hivd idx (ix2 p c)
  | ⟨1, _⟩ =>
    apply Fin.ext
    exact gather_coord1 d hoff hcoll hob hsim hivd idx (ix2 p c)

end Cert.Gcn.Lib

end
-- ==== Proof.Idx.lean ====
import proofs.«423410_j58634893525678_2_alg».proof.Proof.Spec
import proofs.«423410_j58634893525678_2_alg».proof.Proof.LibScatterGather
import Idealize.ShloMosaic.Lib.ValueIdx
import Idealize.ShloMosaic.Lib.ValueLayout
import Idealize.ShloMosaic.Lib.StableHlo.Predicate

noncomputable section

namespace Cert.Gnn

open Idealize.ShloMosaic Idealize.ShloMosaic.ValueIdx

def wrapW (N z : BitVec 32) : BitVec 32 := Scalar.select (IntOp.cmpi .slt z 0#32) (IntOp.addi z N) z

def clampRow (N : Nat) (hN : 0 < N) (z : BitVec 32) : Fin N := ⟨min z.toInt.toNat (N - 1), by omega⟩

theorem wrapW_of_nonneg (N z : BitVec 32) (h : 0 ≤ z.toInt) : wrapW N z = z := by
  have hs : z.slt 0#32 = false := by
    simp only [BitVec.slt, BitVec.toInt_zero]
    exact decide_eq_false (by omega)
  unfold wrapW IntOp.cmpi
  simp only [hs]
  rfl

theorem clampRow_of_eq (N : Nat) (hN : 0 < N) (z : BitVec 32) (i : Fin N) (h : z.toInt = (i.val : ℤ)) :
    clampRow N hN z = i := by
  apply Fin.ext
  show min z.toInt.toNat (N - 1) = i.val
  have := i.isLt
  omega

theorem clampRow_pos100000 : 0 < 100000 := by norm_num
theorem clampRow_pos128 : 0 < 128 := by norm_num

variable (ei : IVec ⟨2, ![2, 1600000]⟩ 32)
  (bt : IVec ⟨1, ![100000]⟩ 32)
  (hsl0 : (⟨2, ![2, 1600000]⟩ : Shape).Slices (![0, 0] : Fin 2 → Nat) ⟨2, ![1, 1600000]⟩)
  (hsl1 : (⟨2, ![2, 1600000]⟩ : Shape).Slices (![1, 0] : Fin 2 → Nat) ⟨2, ![1, 1600000]⟩)
  (hsc : (⟨2, ![1, 1600000]⟩ : Shape).ShapeCasts ⟨1, ![1600000]⟩)
  (hcat : Shape.Concatenates [(⟨1, ![1600000]⟩ : Shape), ⟨1, ![100000]⟩] ⟨1, ![1700000]⟩ 0)
  (hzE : (⟨0, ![]⟩ : Shape).BroadcastsInDim ⟨1, ![1700000]⟩ (![] : Fin 0 → Fin 1))
  (hbE : (⟨1, ![1700000]⟩ : Shape).BroadcastsInDim ⟨2, ![1700000, 1]⟩ (![0] : Fin 1 → Fin 2))
  (hzN : (⟨0, ![]⟩ : Shape).BroadcastsInDim ⟨1, ![100000]⟩ (![] : Fin 0 → Fin 1))
  (hbN : (⟨1, ![100000]⟩ : Shape).BroadcastsInDim ⟨2, ![100000, 1]⟩ (![0] : Fin 1 → Fin 2))
  (hcN : (⟨1, ![100000]⟩ : Shape).ShapeCasts ⟨2, ![100000, 1]⟩)

def srcW (e : Fin 1700000) : BitVec 32 :=
  if h : e.val < 1600000 then ei (ix2 (0 : Fin 2) (⟨e.val, h⟩ : Fin 1600000)) else BitVec.ofNat 32 (e.val - 1600000)

def dstW (e : Fin 1700000) : BitVec 32 :=
  if h : e.val < 1600000 then ei (ix2 (1 : Fin 2) (⟨e.val, h⟩ : Fin 1600000)) else BitVec.ofNat 32 (e.val - 1600000)

def Ctx.of : Ctx where
  sI e := (dstW ei e).toInt
  gs e := clampRow 100000 clampRow_pos100000 (wrapW 100000#32 (srcW ei e))
  gd e := clampRow 100000 clampRow_pos100000 (wrapW 100000#32 (dstW ei e))
  bI n := (bt (ix1 n)).toInt
  bg n := clampRow 128 clampRow_pos128 (wrapW 128#32 (bt (ix1 n)))

theorem dstW_loop (n : Fin 100000) :
    (dstW ei ⟨1600000 + n.val, by have := n.isLt; omega⟩).toInt = (n.val : ℤ) := by
  have hn := n.isLt
  unfold dstW
  rw [dif_neg (by show ¬ (1600000 + n.val < 1600000); omega)]
  show (BitVec.ofNat 32 (1600000 + n.val - 1600000)).toInt = (n.val : ℤ)
  rw [Nat.add_sub_cancel_left]
  exact StableHlo.Predicate.toInt_ofNat_small n.val (by omega)

theorem Ctx.of_ok (hbt : ∀ n : Fin 100000, 0 ≤ (bt (ix1 n)).toInt ∧ (bt (ix1 n)).toInt < 128) : (Ctx.of ei bt).Ok where
  hit e n h := by
    show clampRow 100000 clampRow_pos100000 (wrapW 100000#32 (dstW ei e)) = n
    have h' : (dstW ei e).toInt = (n.val : ℤ) := h
    rw [wrapW_of_nonneg _ _ (by omega)]
    exact clampRow_of_eq _ _ _ _ h'
  loop n := ⟨⟨1600000 + n.val, by have := n.isLt; omega⟩, dstW_loop ei n⟩
  seg n := by
    obtain ⟨h0, h1⟩ := hbt n
    show (bt (ix1 n)).toInt = ((clampRow 128 clampRow_pos128 (wrapW 128#32 (bt (ix1 n)))).val : ℤ)
    rw [wrapW_of_nonneg _ _ h0]
    show (bt (ix1 n)).toInt = ((min (bt (ix1 n)).toInt.toNat (128 - 1) : ℕ) : ℤ)
    omega

theorem Ctx.of_bv (_hbt : ∀ n : Fin 100000, 0 ≤ (bt (ix1 n)).toInt ∧ (bt (ix1 n)).toInt < 128) :
    ∀ (n : Fin 100000) (g : Fin 128), bt (ix1 n) = BitVec.ofNat 32 g.val ↔ (Ctx.of ei bt).bI n = (g.val : ℤ) := by
  intro n g
  have hg := g.isLt
  have hgI : (BitVec.ofNat 32 g.val).toInt = (g.val : ℤ) := StableHlo.Predicate.toInt_ofNat_small g.val (by omega)
  show bt (ix1 n) = BitVec.ofNat 32 g.val ↔ (bt (ix1 n)).toInt = (g.val : ℤ)
  constructor
  · intro h; rw [h]; exact hgI
  · intro h; exact BitVec.eq_of_toInt_eq (h.trans hgI.symm)

def srcVec : IVec ⟨1, ![1700000]⟩ 32 :=
  concatenate ⟨1, ![1700000]⟩ 0
    [⟨⟨1, ![1600000]⟩, shapeCast ⟨1, ![1600000]⟩ (extractStridedSlice ⟨2, ![1, 1600000]⟩ ![0, 0] ei hsl0) hsc⟩,
     ⟨⟨1, ![100000]⟩, iotaInDim ⟨1, ![100000]⟩ 32 0⟩] hcat

def dstVec : IVec ⟨1, ![1700000]⟩ 32 :=
  concatenate ⟨1, ![1700000]⟩ 0
    [⟨⟨1, ![1600000]⟩, shapeCast ⟨1, ![1600000]⟩ (extractStridedSlice ⟨2, ![1, 1600000]⟩ ![1, 0] ei hsl1) hsc⟩,
     ⟨⟨1, ![100000]⟩, iotaInDim ⟨1, ![100000]⟩ 32 0⟩] hcat

def wrapVec {n : Nat} (N : BitVec 32) (hz : (⟨0, ![]⟩ : Shape).BroadcastsInDim ⟨1, ![n]⟩ (![] : Fin 0 → Fin 1))
    (x : IVec ⟨1, ![n]⟩ 32) : IVec ⟨1, ![n]⟩ 32 :=
  select (cmpi .slt x (broadcastInDim ⟨1, ![n]⟩ ![] hz (constantI ⟨0, ![]⟩ 32 0#32)))
    (addi x (broadcastInDim ⟨1, ![n]⟩ ![] hz (constantI ⟨0, ![]⟩ 32 N))) x

theorem col_apply {α : Type} {n : Nat} (hb : (⟨1, ![n]⟩ : Shape).BroadcastsInDim ⟨2, ![n, 1]⟩ (![0] : Fin 1 → Fin 2))
    (x : (⟨1, ![n]⟩ : Shape).Idx → α) (j : (⟨2, ![n, 1]⟩ : Shape).Idx) :
    broadcastInDim ⟨2, ![n, 1]⟩ ![0] hb x j = x (ix1 (j 0)) := by
  refine broadcastInDim_apply _ hb x j (ix1 (j 0)) fun a => ?_
  match a with
  | ⟨0, _⟩ =>
    have hj := (j 0).isLt
    show (j 0).val = if n = 1 then 0 else (j 0).val
    split
    · next h1 => change (j 0).val < n at hj; omega
    · rfl

theorem srcVec_apply (e : Fin 1700000) :
    srcVec ei hsl0 hsc hcat (ix1 e) = srcW ei e := by
  unfold srcVec srcW
  by_cases h : e.val < 1600000
  · rw [dif_pos h]
    refine (concatenate_pair_apply_left (t := ⟨1, ![1700000]⟩) (s₁ := ⟨1, ![1600000]⟩) (s₂ := ⟨1, ![100000]⟩) (0 : Fin 1) _ _ hcat (ix1 e) rfl (ix1 (⟨e.val, h⟩ : Fin 1600000))
      (fun b => by match b with | ⟨0, _⟩ => rfl)).trans ?_
    rw [shapeCast_1a_a_apply]
    refine extractStridedSlice_apply _ ei hsl0 _ (ix2 (0 : Fin 2) (⟨e.val, h⟩ : Fin 1600000)) fun a => ?_
    match a with
    | ⟨0, _⟩ => rfl
    | ⟨1, _⟩ => show e.val = 0 + e.val; omega
  · rw [dif_neg h]
    have he := e.isLt
    refine (concatenate_pair_apply_right (t := ⟨1, ![1700000]⟩) (s₁ := ⟨1, ![1600000]⟩) (s₂ := ⟨1, ![100000]⟩) (0 : Fin 1) _ _ hcat (ix1 e) rfl rfl
      (ix1 (⟨e.val - 1600000, by omega⟩ : Fin 100000))
      (fun b hb => absurd (Subsingleton.elim _ _) hb) (by show e.val - 1600000 + 1600000 = e.val; omega)).trans ?_
    rfl

theorem dstVec_apply (e : Fin 1700000) :
    dstVec ei hsl1 hsc hcat (ix1 e) = dstW ei e := by
  unfold dstVec dstW
  by_cases h : e.val < 1600000
  · rw [dif_pos h]
    refine (concatenate_pair_apply_left (t := ⟨1, ![1700000]⟩) (s₁ := ⟨1, ![1600000]⟩) (s₂ := ⟨1, ![100000]⟩) (0 : Fin 1) _ _ hcat (ix1 e) rfl (ix1 (⟨e.val, h⟩ : Fin 1600000))
      (fun b => by match b with | ⟨0, _⟩ => rfl)).trans ?_
    rw [shapeCast_1a_a_apply]
    refine extractStridedSlice_apply _ ei hsl1 _ (ix2 (1 : Fin 2) (⟨e.val, h⟩ : Fin 1600000)) fun a => ?_
    match a with
    | ⟨0, _⟩ => rfl
    | ⟨1, _⟩ => show e.val = 0 + e.val; omega
  · rw [dif_neg h]
    have he := e.isLt
    refine (concatenate_pair_apply_right (t := ⟨1, ![1700000]⟩) (s₁ := ⟨1, ![1600000]⟩) (s₂ := ⟨1, ![100000]⟩) (0 : Fin 1) _ _ hcat (ix1 e) rfl rfl
      (ix1 (⟨e.val - 1600000, by omega⟩ : Fin 100000))
      (fun b hb => absurd (Subsingleton.elim _ _) hb) (by show e.val - 1600000 + 1600000 = e.val; omega)).trans ?_
    rfl

def dstTable : IVec ⟨2, ![1700000, 1]⟩ 32 :=
  broadcastInDim ⟨2, ![1700000, 1]⟩ ![0] hbE (dstVec ei hsl1 hsc hcat)

def srcGTable : IVec ⟨2, ![1700000, 1]⟩ 32 :=
  broadcastInDim ⟨2, ![1700000, 1]⟩ ![0] hbE (wrapVec 100000#32 hzE (srcVec ei hsl0 hsc hcat))

def dstGTable : IVec ⟨2, ![1700000, 1]⟩ 32 :=
  broadcastInDim ⟨2, ![1700000, 1]⟩ ![0] hbE (wrapVec 100000#32 hzE (dstVec ei hsl1 hsc hcat))

def batchTable : IVec ⟨2, ![100000, 1]⟩ 32 :=
  broadcastInDim ⟨2, ![100000, 1]⟩ ![0] hbN bt

def batchCol : IVec ⟨2, ![100000, 1]⟩ 32 :=
  shapeCast ⟨2, ![100000, 1]⟩ bt hcN

def batchGTable : IVec ⟨2, ![100000, 1]⟩ 32 :=
  broadcastInDim ⟨2, ![100000, 1]⟩ ![0] hbN (wrapVec 128#32 hzN bt)

theorem dstTable_apply (j : (⟨2, ![1700000, 1]⟩ : Shape).Idx) : dstTable ei hsl1 hsc hcat hbE j = dstW ei (j 0) := by
  unfold dstTable
  exact (col_apply hbE _ j).trans (dstVec_apply ei hsl1 hsc hcat (j 0))

theorem srcGTable_apply (j : (⟨2, ![1700000, 1]⟩ : Shape).Idx) :
    srcGTable ei hsl0 hsc hcat hzE hbE j = wrapW 100000#32 (srcW ei (j 0)) := by
  unfold srcGTable
  exact (col_apply hbE _ j).trans (congrArg (wrapW 100000#32) (srcVec_apply ei hsl0 hsc hcat (j 0)))

theorem dstGTable_apply (j : (⟨2, ![1700000, 1]⟩ : Shape).Idx) :
    dstGTable ei hsl1 hsc hcat hzE hbE j = wrapW 100000#32 (dstW ei (j 0)) := by
  unfold dstGTable
  exact (col_apply hbE _ j).trans (congrArg (wrapW 100000#32) (dstVec_apply ei hsl1 hsc hcat (j 0)))

theorem batchTable_apply (j : (⟨2, ![100000, 1]⟩ : Shape).Idx) : batchTable bt hbN j = bt (ix1 (j 0)) := by
  unfold batchTable
  exact col_apply hbN bt j

theorem batchGTable_apply (j : (⟨2, ![100000, 1]⟩ : Shape).Idx) : batchGTable bt hzN hbN j = wrapW 128#32 (bt (ix1 (j 0))) := by
  unfold batchGTable
  exact col_apply hbN _ j

theorem dstTable_toInt (e : Fin 1700000) : (dstTable ei hsl1 hsc hcat hbE (ix2 e (0 : Fin 1))).toInt = (Ctx.of ei bt).sI e := by
  rw [dstTable_apply]; rfl

theorem srcGTable_row (e : Fin 1700000)
    (h : min (srcGTable ei hsl0 hsc hcat hzE hbE (ix2 e (0 : Fin 1))).toInt.toNat (100000 - 1) < 100000) :
    (⟨min (srcGTable ei hsl0 hsc hcat hzE hbE (ix2 e (0 : Fin 1))).toInt.toNat (100000 - 1), h⟩ : Fin 100000)
      = (Ctx.of ei bt).gs e := by
  apply Fin.ext
  show min (srcGTable ei hsl0 hsc hcat hzE hbE (ix2 e (0 : Fin 1))).toInt.toNat (100000 - 1) = _
  rw [srcGTable_apply]; rfl

theorem dstGTable_row (e : Fin 1700000)
    (h : min (dstGTable ei hsl1 hsc hcat hzE hbE (ix2 e (0 : Fin 1))).toInt.toNat (100000 - 1) < 100000) :
    (⟨min (dstGTable ei hsl1 hsc hcat hzE hbE (ix2 e (0 : Fin 1))).toInt.toNat (100000 - 1), h⟩ : Fin 100000)
      = (Ctx.of ei bt).gd e := by
  apply Fin.ext
  show min (dstGTable ei hsl1 hsc hcat hzE hbE (ix2 e (0 : Fin 1))).toInt.toNat (100000 - 1) = _
  rw [dstGTable_apply]; rfl

theorem batchTable_toInt (n : Fin 100000) : (batchTable bt hbN (ix2 n (0 : Fin 1))).toInt = (Ctx.of ei bt).bI n := by
  rw [batchTable_apply]; rfl

theorem batchCol_apply (n : Fin 100000) : batchCol bt hcN (ix2 n (0 : Fin 1)) = bt (ix1 n) := by
  unfold batchCol
  refine shapeCast_apply bt hcN _ (ix1 n) ?_
  rw [Shape.rowMajor_val_two, Shape.rowMajor_val_one]
  show n.val = n.val * 1 + 0
  omega

theorem batchGTable_row (n : Fin 100000) (h : min (batchGTable bt hzN hbN (ix2 n (0 : Fin 1))).toInt.toNat (128 - 1) < 128) :
    (⟨min (batchGTable bt hzN hbN (ix2 n (0 : Fin 1))).toInt.toNat (128 - 1), h⟩ : Fin 128) = (Ctx.of ei bt).bg n := by
  apply Fin.ext
  show min (batchGTable bt hzN hbN (ix2 n (0 : Fin 1))).toInt.toNat (128 - 1) = _
  rw [batchGTable_apply]; rfl

end Cert.Gnn

end
-- ==== Proof.KerHost.lean ====
import proofs.«423410_j58634893525678_2_alg».proof.KernelIdeal
import proofs.«423410_j58634893525678_2_alg».proof.Proof.Spec
import proofs.«423410_j58634893525678_2_alg».proof.Proof.LibScatterGather
import proofs.«423410_j58634893525678_2_alg».proof.Proof.Idx
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Host

open Idealize.ShloMosaic Idealize.ShloMosaic.ValueIdx
open Cert.KernelIdeal.Facts₀

variable [Facts₀]

def dstT (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

def srcT (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

def wrapT (src : IVec S1700000 32) : IVec S1700000 32 :=
  select (cmpi .slt src (broadcastInDim S1700000 ![] bcast_S_S1700000 (constantI S_ 32 0#32)))
    (addi src (broadcastInDim S1700000 ![] bcast_S_S1700000 (constantI S_ 32 100000#32))) src

def srcW (ei : IVec S2x1600000 32) : IVec S1700000 32 := wrapT (srcT ei)

def dstTab (ei : IVec S2x1600000 32) : IVec S1700000x1 32 :=
  broadcastInDim S1700000x1 ![0] bcast_S1700000_S1700000x1_0 (dstT ei)
def srcTab (ei : IVec S2x1600000 32) : IVec S1700000x1 32 :=
  broadcastInDim S1700000x1 ![0] bcast_S1700000_S1700000x1_0 (srcW ei)
def batTab (bt : IVec S100000 32) : IVec S100000x1 32 :=
  broadcastInDim S100000x1 ![0] bcast_S100000_S100000x1_0 bt

def disA (ei : IVec S2x1600000 32) : FVec Ideal S100000x1 .f32 :=
  shapeCast S100000x1
    (Host.rsqrt (Host.scatterAdd scatter_S100000_S1700000x1_S1700000_n_0_0_1
      (broadcastInDim S100000 ![] bcast_S_S100000 (constant S_ .f32 0x00000000#32))
      (dstTab ei)
      (broadcastInDim S1700000 ![] bcast_S_S1700000 (constant S_ .f32 0x3F800000#32))))
    shapeCasts_S100000_S100000x1

def csA (bt : IVec S100000 32) : FVec Ideal S128x1 .f32 :=
  maximumf
    (Host.scatterAdd scatter_S128x1_S100000x1_S100000x1_1_0_0_1
      (broadcastInDim S128x1 ![] bcast_S_S128x1 (constant S_ .f32 0x00000000#32))
      (batTab bt)
      (broadcastInDim S100000x1 ![] bcast_S_S100000x1 (constant S_ .f32 0x3F800000#32)))
    (broadcastInDim S128x1 ![] bcast_S_S128x1 (constant S_ .f32 0x3F800000#32))

def aggT (hs : FVec Ideal S100000x128 .f32) (src dst : IVec S1700000 32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (Host.gather gather_S100000x128_S1700000x1_S1700000x128_1_0_n_n_0_1_1128 hs
      (broadcastInDim S1700000x1 ![0] bcast_S1700000_S1700000x1_0 (wrapT src)))

def aggA (hs : FVec Ideal S100000x128 .f32) (ei : IVec S2x1600000 32) : FVec Ideal S100000x128 .f32 :=
  aggT hs (srcT ei) (dstT ei)

def convW0 (w : FVec Ideal S4x128x128 .f32) : FVec Ideal S128x128 .f32 :=
  shapeCast S128x128 (extractStridedSlice S1x128x128 ![0, 0, 0] w slices_S4x128x128_S1x128x128_0_0_0) shapeCasts_S1x128x128_S128x128
def convW1 (w : FVec Ideal S4x128x128 .f32) : FVec Ideal S128x128 .f32 :=
  shapeCast S128x128 (extractStridedSlice S1x128x128 ![1, 0, 0] w slices_S4x128x128_S1x128x128_1_0_0) shapeCasts_S1x128x128_S128x128
def convW2 (w : FVec Ideal S4x128x128 .f32) : FVec Ideal S128x128 .f32 :=
  shapeCast S128x128 (extractStridedSlice S1x128x128 ![2, 0, 0] w slices_S4x128x128_S1x128x128_2_0_0) shapeCasts_S1x128x128_S128x128
def convW3 (w : FVec Ideal S4x128x128 .f32) : FVec Ideal S128x128 .f32 :=
  shapeCast S128x128 (extractStridedSlice S1x128x128 ![3, 0, 0] w slices_S4x128x128_S1x128x128_3_0_0) shapeCasts_S1x128x128_S128x128

def row0 (v : FVec Ideal S4x128 .f32) : FVec Ideal S1x128 .f32 :=
  shapeCast S1x128 (shapeCast S128 (extractStridedSlice S1x128 ![0, 0] v slices_S4x128_S1x128_0_0) shapeCasts_S1x128_S128) shapeCasts_S128_S1x128
def row1 (v : FVec Ideal S4x128 .f32) : FVec Ideal S1x128 .f32 :=
  shapeCast S1x128 (shapeCast S128 (extractStridedSlice S1x128 ![1, 0] v slices_S4x128_S1x128_1_0) shapeCasts_S1x128_S128) shapeCasts_S128_S1x128
def row2 (v : FVec Ideal S4x128 .f32) : FVec Ideal S1x128 .f32 :=
  shapeCast S1x128 (shapeCast S128 (extractStridedSlice S1x128 ![2, 0] v slices_S4x128_S1x128_2_0) shapeCasts_S1x128_S128) shapeCasts_S128_S1x128
def row3 (v : FVec Ideal S4x128 .f32) : FVec Ideal S1x128 .f32 :=
  shapeCast S1x128 (shapeCast S128 (extractStridedSlice S1x128 ![3, 0] v slices_S4x128_S1x128_3_0) shapeCasts_S1x128_S128) shapeCasts_S128_S1x128

def poolA (pp : FVec Ideal S2x128x128 .f32) : FVec Ideal S128x128 .f32 :=
  Host.reduceAdd pp (constant S_ .f32 0x00000000#32) reducesTo_S2x128x128_S128x128_d0 h_S_

def meanA (s1p : FVec Ideal S2x128x128 .f32) (cs : FVec Ideal S128x1 .f32) : FVec Ideal S128x128 .f32 :=
  Host.divf (Host.reduceAdd s1p (constant S_ .f32 0x00000000#32) reducesTo_S2x128x128_S128x128_d0 h_S_)
    (broadcastInDim S128x128 ![0, 1] bcast_S128x1_S128x128_0_1 cs)

def varA (s1p s2p : FVec Ideal S2x128x128 .f32) (cs : FVec Ideal S128x1 .f32) (ms : FVec Ideal S1x128 .f32) :
    FVec Ideal S128x128 .f32 :=
  subf
    (Host.divf (Host.reduceAdd s2p (constant S_ .f32 0x00000000#32) reducesTo_S2x128x128_S128x128_d0 h_S_)
      (broadcastInDim S128x128 ![0, 1] bcast_S128x1_S128x128_0_1 cs))
    (mulf
      (broadcastInDim S128x128 ![0, 1] bcast_S1x128_S128x128_0_1
        (subf (mulf (broadcastInDim S1x128 ![] bcast_S_S1x128 (constant S_ .f32 0x40000000#32)) ms) (mulf ms ms)))
      (mulf (meanA s1p cs) (meanA s1p cs)))

def tailK (p : FVec Ideal S128x128 .f32) (a8 : FVec Ideal S128x128 .f32) (a9 a10 a11 a12 a13 : FVec Ideal S128 .f32)
    (a14 : FVec Ideal S128x10 .f32) (a15 : FVec Ideal S10 .f32) : FVec Ideal S128x10 .f32 :=
  addf
    (Host.dotGeneral dot_S128x128_S128x10_S128x10_1_0_0_1_n_n none
      (maximumf
        (addf
          (mulf
            (mulf (broadcastInDim S128x128 ![0, 1] bcast_S1x128_S128x128_0_1 (broadcastInDim S1x128 ![1] bcast_S128_S1x128_1 a10))
              (subf
                (addf (Host.dotGeneral dot_S128x128_S128x128_S128x128_1_0_0_1_n_n none p a8)
                  (broadcastInDim S128x128 ![0, 1] bcast_S1x128_S128x128_0_1 (broadcastInDim S1x128 ![1] bcast_S128_S1x128_1 a9)))
                (broadcastInDim S128x128 ![0, 1] bcast_S1x128_S128x128_0_1 (broadcastInDim S1x128 ![1] bcast_S128_S1x128_1 a12))))
            (broadcastInDim S128x128 ![0, 1] bcast_S1x128_S128x128_0_1
              (broadcastInDim S1x128 ![1] bcast_S128_S1x128_1
                (Host.rsqrt (addf a13 (broadcastInDim S128 ![] bcast_S_S128 (constant S_ .f32 0x3727C5AC#32)))))))
          (broadcastInDim S128x128 ![0, 1] bcast_S1x128_S128x128_0_1 (broadcastInDim S1x128 ![1] bcast_S128_S1x128_1 a11)))
        (broadcastInDim S128x128 ![] bcast_S_S128x128 (constant S_ .f32 0x00000000#32)))
      a14)
    (broadcastInDim S128x10 ![0, 1] bcast_S1x10_S128x10_0_1 (broadcastInDim S1x10 ![1] bcast_S10_S1x10_1 a15))

theorem convW0_apply (w : FVec Ideal S4x128x128 .f32) (k j : Fin 128) : convW0 w (ix2 k j) = w (ix3 (0 : Fin 4) k j) := by
  unfold convW0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem convW1_apply (w : FVec Ideal S4x128x128 .f32) (k j : Fin 128) : convW1 w (ix2 k j) = w (ix3 (1 : Fin 4) k j) := by
  unfold convW1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem convW2_apply (w : FVec Ideal S4x128x128 .f32) (k j : Fin 128) : convW2 w (ix2 k j) = w (ix3 (2 : Fin 4) k j) := by
  unfold convW2
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem convW3_apply (w : FVec Ideal S4x128x128 .f32) (k j : Fin 128) : convW3 w (ix2 k j) = w (ix3 (3 : Fin 4) k j) := by
  unfold convW3
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem row0_apply (v : FVec Ideal S4x128 .f32) (j : Fin 128) : row0 v (ix2 (0 : Fin 1) j) = v (ix2 (0 : Fin 4) j) := by
  unfold row0
  rw [shapeCast_a_1a_apply, shapeCast_1a_a_apply]
  exact slice2_axis0_apply 0 v _ (0 : Fin 1) j (0 : Fin 4) rfl
theorem row1_apply (v : FVec Ideal S4x128 .f32) (j : Fin 128) : row1 v (ix2 (0 : Fin 1) j) = v (ix2 (1 : Fin 4) j) := by
  unfold row1
  rw [shapeCast_a_1a_apply, shapeCast_1a_a_apply]
  exact slice2_axis0_apply 1 v _ (0 : Fin 1) j (1 : Fin 4) rfl
theorem row2_apply (v : FVec Ideal S4x128 .f32) (j : Fin 128) : row2 v (ix2 (0 : Fin 1) j) = v (ix2 (2 : Fin 4) j) := by
  unfold row2
  rw [shapeCast_a_1a_apply, shapeCast_1a_a_apply]
  exact slice2_axis0_apply 2 v _ (0 : Fin 1) j (2 : Fin 4) rfl
theorem row3_apply (v : FVec Ideal S4x128 .f32) (j : Fin 128) : row3 v (ix2 (0 : Fin 1) j) = v (ix2 (3 : Fin 4) j) := by
  unfold row3
  rw [shapeCast_a_1a_apply, shapeCast_1a_a_apply]
  exact slice2_axis0_apply 3 v _ (0 : Fin 1) j (3 : Fin 4) rfl

theorem ofBits_one_f32 : Ideal.ofBits .f32 0x3F800000#32 = 1 := by
  rw [show (1 : EReal) = ((1 : ℝ) : EReal) by norm_cast]
  simp [Ideal.ofBits, Ideal.ieee, -EReal.coe_mul]; norm_num

theorem ofBits_two_f32 : Ideal.ofBits .f32 0x40000000#32 = 2 := by
  rw [show (2 : EReal) = ((2 : ℝ) : EReal) by norm_cast]
  simp [Ideal.ofBits, Ideal.ieee, -EReal.coe_mul]; norm_num

theorem poolA_apply (pp : FVec Ideal S2x128x128 .f32) (g j : Fin 128) :
    poolA pp (ix2 g j) = pp (ix3 (0 : Fin 2) g j) + pp (ix3 (1 : Fin 2) g j) := by
  unfold poolA
  rw [hostReduceAdd_apply,
    Ideal.hostReduceAdd_single reducesTo_S2x128x128_S128x128_d0 (by decide : S2x128x128.Reduces [0] S128x128)]
  rw [constant_apply, Ideal.ofBits_zero_f32, zero_add]
  show ∑ k : Fin 2, _ = _
  rw [Fin.sum_univ_two]
  congr 2 <;> (funext a; match a with | ⟨0, _⟩ => rfl | ⟨1, _⟩ => rfl | ⟨2, _⟩ => rfl)

theorem bcast_col_apply (cs : FVec Ideal S128x1 .f32) (g j : Fin 128) :
    broadcastInDim S128x128 ![0, 1] bcast_S128x1_S128x128_0_1 cs (ix2 g j) = cs (ix2 g (0 : Fin 1)) :=
  broadcastInDim_apply _ _ _ _ _ (fun a => by
    match a with
    | ⟨0, _⟩ => rfl
    | ⟨1, _⟩ => rfl)

theorem bcast_row_apply (r : FVec Ideal S1x128 .f32) (g j : Fin 128) :
    broadcastInDim S128x128 ![0, 1] bcast_S1x128_S128x128_0_1 r (ix2 g j) = r (ix2 (0 : Fin 1) j) :=
  broadcastInDim_apply _ _ _ _ _ (fun a => by
    match a with
    | ⟨0, _⟩ => rfl
    | ⟨1, _⟩ => rfl)

theorem meanA_apply (s1p : FVec Ideal S2x128x128 .f32) (cs : FVec Ideal S128x1 .f32) (g j : Fin 128) :
    meanA s1p cs (ix2 g j)
      = Ideal.div (s1p (ix3 (0 : Fin 2) g j) + s1p (ix3 (1 : Fin 2) g j)) (cs (ix2 g (0 : Fin 1))) := by
  unfold meanA
  rw [hostDivf_apply, bcast_col_apply]
  exact congrArg (Ideal.div · _) (poolA_apply s1p g j)

theorem varA_apply (s1p s2p : FVec Ideal S2x128x128 .f32) (cs : FVec Ideal S128x1 .f32) (ms : FVec Ideal S1x128 .f32)
    (g j : Fin 128) :
    varA s1p s2p cs ms (ix2 g j)
      = Ideal.div (s2p (ix3 (0 : Fin 2) g j) + s2p (ix3 (1 : Fin 2) g j)) (cs (ix2 g (0 : Fin 1)))
        - (2 * ms (ix2 (0 : Fin 1) j) - ms (ix2 (0 : Fin 1) j) * ms (ix2 (0 : Fin 1) j))
          * (meanA s1p cs (ix2 g j) * meanA s1p cs (ix2 g j)) := by
  unfold varA
  rw [subf_apply, mulf_apply, mulf_apply, hostDivf_apply, bcast_col_apply, bcast_row_apply, subf_apply, mulf_apply,
    mulf_apply, broadcastInDim_scalar_apply, constant_apply, ofBits_two_f32]
  exact congrArg (Ideal.div · _ - _) (poolA_apply s2p g j)

theorem hostRsqrt_apply {s : Shape} {φ : FTy} (x : FVec Ideal s φ) (i : s.Idx) : Host.rsqrt x i = Ideal.rsqrt (x i) := rfl

theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

theorem shapeCast_col_apply (x : FVec Ideal S100000 .f32) (n : Fin 100000) :
    shapeCast S100000x1 x shapeCasts_S100000_S100000x1 (ix2 n (0 : Fin 1)) = x (ix1 n) :=
  shapeCast_apply x _ _ _ (by
    rw [Shape.rowMajor_val_one, Shape.rowMajor_val_two]
    show n.val = n.val * 1 + 0
    omega)

theorem disA_apply (G : Cert.Gnn.Ctx) (ei : IVec S2x1600000 32)
    (hsI : ∀ e : Fin 1700000, (dstTab ei (ix2 e (0 : Fin 1))).toInt = G.sI e) (n : Fin 100000) :
    disA ei (ix2 n (0 : Fin 1)) = Cert.Gnn.dis G n := by
  unfold disA
  rw [shapeCast_col_apply, hostRsqrt_apply, hostScatterAdd_eq, Cert.Gcn.Lib.scatterAdd_vec_apply _ rfl rfl rfl rfl,
    broadcastInDim_scalar_apply, constant_apply, Ideal.ofBits_zero_f32, zero_add]
  unfold Cert.Gnn.dis Cert.Gnn.deg
  refine congrArg Ideal.rsqrt (Finset.sum_congr rfl fun e _ => ?_)
  rw [hsI e, broadcastInDim_scalar_apply, constant_apply, ofBits_one_f32]

theorem csA_apply (G : Cert.Gnn.Ctx) (bt : IVec S100000 32)
    (hbI : ∀ n : Fin 100000, (batTab bt (ix2 n (0 : Fin 1))).toInt = G.bI n) (g : Fin 128) :
    csA bt (ix2 g (0 : Fin 1)) = Cert.Gnn.K.cs G g := by
  unfold csA
  rw [maximumf_apply, hostScatterAdd_eq, Cert.Gcn.Lib.scatterAdd_rows_apply _ rfl rfl rfl rfl,
    broadcastInDim_scalar_apply, constant_apply, Ideal.ofBits_zero_f32, zero_add, broadcastInDim_scalar_apply,
    constant_apply, ofBits_one_f32]
  unfold Cert.Gnn.K.cs Cert.Gnn.cnt
  refine congrArg (max · (1 : EReal)) (Finset.sum_congr rfl fun n _ => ?_)
  rw [hbI n, broadcastInDim_scalar_apply, constant_apply, ofBits_one_f32]

theorem aggT_apply (G : Cert.Gnn.Ctx) (hs : FVec Ideal S100000x128 .f32) (src dst : IVec S1700000 32)
    (hsI : ∀ e : Fin 1700000,
      (broadcastInDim S1700000x1 ![0] bcast_S1700000_S1700000x1_0 dst (ix2 e (0 : Fin 1))).toInt = G.sI e)
    (hgs : ∀ (e : Fin 1700000)
      (h : min (broadcastInDim S1700000x1 ![0] bcast_S1700000_S1700000x1_0 (wrapT src) (ix2 e (0 : Fin 1))).toInt.toNat
        (100000 - 1) < 100000),
      (⟨min (broadcastInDim S1700000x1 ![0] bcast_S1700000_S1700000x1_0 (wrapT src) (ix2 e (0 : Fin 1))).toInt.toNat
        (100000 - 1), h⟩ : Fin 100000) = G.gs e)
    (n : Fin 100000) (j : Fin 128) :
    aggT hs src dst (ix2 n j) = Cert.Gnn.K.agg G (fun n j => hs (ix2 n j)) n j := by
  unfold aggT
  rw [hostScatterAdd_eq, Cert.Gcn.Lib.scatterAdd_rows_apply _ rfl rfl rfl rfl, broadcastInDim_scalar_apply,
    constant_apply, Ideal.ofBits_zero_f32, zero_add]
  unfold Cert.Gnn.K.agg
  refine Finset.sum_congr rfl fun e _ => ?_
  rw [hsI e, Cert.Gcn.Lib.gather_rows_apply _ rfl rfl rfl rfl rfl _ _ e j (Nat.succ_pos _), hgs e]

theorem aggA_apply (G : Cert.Gnn.Ctx) (ei : IVec S2x1600000 32) (hs : FVec Ideal S100000x128 .f32)
    (hsI : ∀ e : Fin 1700000, (dstTab ei (ix2 e (0 : Fin 1))).toInt = G.sI e)
    (hgs : ∀ (e : Fin 1700000) (h : min (srcTab ei (ix2 e (0 : Fin 1))).toInt.toNat (100000 - 1) < 100000),
      (⟨min (srcTab ei (ix2 e (0 : Fin 1))).toInt.toNat (100000 - 1), h⟩ : Fin 100000) = G.gs e)
    (n : Fin 100000) (j : Fin 128) :
    aggA hs ei (ix2 n j) = Cert.Gnn.K.agg G (fun n j => hs (ix2 n j)) n j :=
  aggT_apply G hs (srcT ei) (dstT ei) hsI hgs n j

theorem meanA_eq (G : Cert.Gnn.Ctx) (bt : IVec S100000 32)
    (hbI : ∀ n : Fin 100000, (batTab bt (ix2 n (0 : Fin 1))).toInt = G.bI n)
    (s1p : FVec Ideal S2x128x128 .f32) (g j : Fin 128) :
    meanA s1p (csA bt) (ix2 g j)
      = Cert.Gnn.K.mean G (fun g j => s1p (ix3 (0 : Fin 2) g j) + s1p (ix3 (1 : Fin 2) g j)) g j := by
  rw [meanA_apply, csA_apply G bt hbI]
  unfold Cert.Gnn.K.mean
  rfl

theorem varA_eq (G : Cert.Gnn.Ctx) (bt : IVec S100000 32)
    (hbI : ∀ n : Fin 100000, (batTab bt (ix2 n (0 : Fin 1))).toInt = G.bI n)
    (s1p s2p : FVec Ideal S2x128x128 .f32) (ms : FVec Ideal S1x128 .f32) (g j : Fin 128) :
    varA s1p s2p (csA bt) ms (ix2 g j)
      = Cert.Gnn.K.var G (fun g j => s1p (ix3 (0 : Fin 2) g j) + s1p (ix3 (1 : Fin 2) g j))
          (fun g j => s2p (ix3 (0 : Fin 2) g j) + s2p (ix3 (1 : Fin 2) g j)) (fun j => ms (ix2 (0 : Fin 1) j)) g j := by
  rw [varA_apply, meanA_eq G bt hbI, csA_apply G bt hbI]
  unfold Cert.Gnn.K.var
  rfl

theorem disA_of (ei : IVec S2x1600000 32) (bt : IVec S100000 32) (n : Fin 100000) :
    disA ei (ix2 n (0 : Fin 1)) = Cert.Gnn.dis (Cert.Gnn.Ctx.of ei bt) n :=
  disA_apply _ ei (fun e => Cert.Gnn.dstTable_toInt ei bt slices_S2x1600000_S1x1600000_1_0 shapeCasts_S1x1600000_S1600000
    concatenates_S1600000_S100000_S1700000_d0 bcast_S1700000_S1700000x1_0 e) n

theorem aggA_of (ei : IVec S2x1600000 32) (bt : IVec S100000 32) (hs : FVec Ideal S100000x128 .f32)
    (n : Fin 100000) (j : Fin 128) :
    aggA hs ei (ix2 n j) = Cert.Gnn.K.agg (Cert.Gnn.Ctx.of ei bt) (fun n j => hs (ix2 n j)) n j :=
  aggA_apply _ ei hs
    (fun e => Cert.Gnn.dstTable_toInt ei bt slices_S2x1600000_S1x1600000_1_0 shapeCasts_S1x1600000_S1600000
      concatenates_S1600000_S100000_S1700000_d0 bcast_S1700000_S1700000x1_0 e)
    (fun e h => Cert.Gnn.srcGTable_row ei bt slices_S2x1600000_S1x1600000_0_0 shapeCasts_S1x1600000_S1600000
      concatenates_S1600000_S100000_S1700000_d0 bcast_S_S1700000 bcast_S1700000_S1700000x1_0 e h) n j

theorem meanA_of (ei : IVec S2x1600000 32) (bt : IVec S100000 32) (s1p : FVec Ideal S2x128x128 .f32) (g j : Fin 128) :
    meanA s1p (csA bt) (ix2 g j)
      = Cert.Gnn.K.mean (Cert.Gnn.Ctx.of ei bt)
          (fun g j => s1p (ix3 (0 : Fin 2) g j) + s1p (ix3 (1 : Fin 2) g j)) g j :=
  meanA_eq _ bt (fun n => Cert.Gnn.batchTable_toInt ei bt bcast_S100000_S100000x1_0 n) s1p g j

theorem varA_of (ei : IVec S2x1600000 32) (bt : IVec S100000 32) (s1p s2p : FVec Ideal S2x128x128 .f32)
    (ms : FVec Ideal S1x128 .f32) (g j : Fin 128) :
    varA s1p s2p (csA bt) ms (ix2 g j)
      = Cert.Gnn.K.var (Cert.Gnn.Ctx.of ei bt)
          (fun g j => s1p (ix3 (0 : Fin 2) g j) + s1p (ix3 (1 : Fin 2) g j))
          (fun g j => s2p (ix3 (0 : Fin 2) g j) + s2p (ix3 (1 : Fin 2) g j)) (fun j => ms (ix2 (0 : Fin 1) j)) g j :=
  varA_eq _ bt (fun n => Cert.Gnn.batchTable_toInt ei bt bcast_S100000_S100000x1_0 n) s1p s2p ms g j

end Cert.KernelIdeal.Host

end
-- ==== Proof.KerValHost.lean ====
import proofs.«423410_j58634893525678_2_alg».proof.Proof.Gen.KernelIdeal.Launch
import proofs.«423410_j58634893525678_2_alg».proof.Proof.KerHost
import Idealize.ShloMosaic.Lib.StableHlo.Run

set_option maxRecDepth 16384
set_option maxHeartbeats 2000000

noncomputable section

namespace Cert.KernelIdeal.Host

open Idealize.ShloMosaic Idealize.ShloMosaic.ValueIdx
open Cert.KernelIdeal.Facts₀

variable [Facts₀]

def tailPre (p : FVec Ideal S128x128 .f32) (a8 : FVec Ideal S128x128 .f32) (a9 a10 a11 a12 a13 : FVec Ideal S128 .f32) :
    FVec Ideal S128x128 .f32 :=
  addf
    (mulf
      (mulf (broadcastInDim S128x128 ![0, 1] bcast_S1x128_S128x128_0_1 (broadcastInDim S1x128 ![1] bcast_S128_S1x128_1 a10))
        (subf
          (addf (Host.dotGeneral dot_S128x128_S128x128_S128x128_1_0_0_1_n_n none p a8)
            (broadcastInDim S128x128 ![0, 1] bcast_S1x128_S128x128_0_1 (broadcastInDim S1x128 ![1] bcast_S128_S1x128_1 a9)))
          (broadcastInDim S128x128 ![0, 1] bcast_S1x128_S128x128_0_1 (broadcastInDim S1x128 ![1] bcast_S128_S1x128_1 a12))))
      (broadcastInDim S128x128 ![0, 1] bcast_S1x128_S128x128_0_1
        (broadcastInDim S1x128 ![1] bcast_S128_S1x128_1
          (Host.rsqrt (addf a13 (broadcastInDim S128 ![] bcast_S_S128 (constant S_ .f32 0x3727C5AC#32)))))))
    (broadcastInDim S128x128 ![0, 1] bcast_S1x128_S128x128_0_1 (broadcastInDim S1x128 ![1] bcast_S128_S1x128_1 a11))

def reluA (x : FVec Ideal S128x128 .f32) : FVec Ideal S128x128 .f32 :=
  maximumf x (broadcastInDim S128x128 ![] bcast_S_S128x128 (constant S_ .f32 0x00000000#32))

def tailPost (r : FVec Ideal S128x128 .f32) (a14 : FVec Ideal S128x10 .f32) (a15 : FVec Ideal S10 .f32) :
    FVec Ideal S128x10 .f32 :=
  addf (Host.dotGeneral dot_S128x128_S128x10_S128x10_1_0_0_1_n_n none r a14)
    (broadcastInDim S128x10 ![0, 1] bcast_S1x10_S128x10_0_1 (broadcastInDim S1x10 ![1] bcast_S10_S1x10_1 a15))

theorem tailK_eq (p : FVec Ideal S128x128 .f32) (a8 : FVec Ideal S128x128 .f32) (a9 a10 a11 a12 a13 : FVec Ideal S128 .f32)
    (a14 : FVec Ideal S128x10 .f32) (a15 : FVec Ideal S10 .f32) :
    tailK p a8 a9 a10 a11 a12 a13 a14 a15 = tailPost (reluA (tailPre p a8 a9 a10 a11 a12 a13)) a14 a15 := rfl

end Cert.KernelIdeal.Host

namespace Cert.KernelIdeal.HostVal

open Idealize.ShloMosaic Idealize.ShloMosaic.TcCoe Idealize.ShloMosaic.ValueIdx
open Cert.KernelIdeal.Facts₀

variable (V : Valuation τ sig (Elt Ideal))

theorem host0_v3 : StableHlo.after (Gen.hostOps0 (F := Ideal)) V (Proc.devRef .tc main_v3)
    = Host.srcT (V (Proc.devRef .tc main_arg1)) := by
  after_results
  rfl
theorem host0_v6 : StableHlo.after (Gen.hostOps0 (F := Ideal)) V (Proc.devRef .tc main_v6)
    = Host.dstT (V (Proc.devRef .tc main_arg1)) := by
  after_results
  rfl
theorem host0_v12 : StableHlo.after (Gen.hostOps0 (F := Ideal)) V (Proc.devRef .tc main_v12)
    = Host.disA (V (Proc.devRef .tc main_arg1)) := by
  after_results
  rfl
theorem host0_v13 : StableHlo.after (Gen.hostOps0 (F := Ideal)) V (Proc.devRef .tc main_v13)
    = shapeCast S100000x1 (V (Proc.devRef .tc main_arg2)) shapeCasts_S100000_S100000x1 := by
  after_results
  rfl
theorem host0_v19 : StableHlo.after (Gen.hostOps0 (F := Ideal)) V (Proc.devRef .tc main_v19)
    = Host.csA (V (Proc.devRef .tc main_arg2)) := by
  after_results
  rfl
theorem host0_v21 : StableHlo.after (Gen.hostOps0 (F := Ideal)) V (Proc.devRef .tc main_v21)
    = Host.convW0 (V (Proc.devRef .tc main_arg3)) := by
  after_results
  rfl

theorem host1_v32 : StableHlo.after (Gen.hostOps1 (F := Ideal)) V (Proc.devRef .tc main_v32)
    = Host.aggT (V (Proc.devRef .tc main_v22)) (V (Proc.devRef .tc main_v3)) (V (Proc.devRef .tc main_v6)) := by
  after_results
  rfl
theorem host1_v35 : StableHlo.after (Gen.hostOps1 (F := Ideal)) V (Proc.devRef .tc main_v35)
    = Host.row0 (V (Proc.devRef .tc main_arg4)) := by
  after_results
  rfl
theorem host2_v40 : StableHlo.after (Gen.hostOps2 (F := Ideal)) V (Proc.devRef .tc main_v40)
    = Host.meanA (V (Proc.devRef .tc main_v36_1)) (V (Proc.devRef .tc main_v19)) := by
  after_results
  rfl
theorem host2_v43 : StableHlo.after (Gen.hostOps2 (F := Ideal)) V (Proc.devRef .tc main_v43)
    = Host.row0 (V (Proc.devRef .tc main_arg7)) := by
  after_results
  rfl
theorem host2_v56 : StableHlo.after (Gen.hostOps2 (F := Ideal)) V (Proc.devRef .tc main_v56)
    = Host.row0 (V (Proc.devRef .tc main_arg5)) := by
  after_results
  rfl
theorem host2_v59 : StableHlo.after (Gen.hostOps2 (F := Ideal)) V (Proc.devRef .tc main_v59)
    = Host.row0 (V (Proc.devRef .tc main_arg6)) := by
  after_results
  rfl
theorem host2_v53 : StableHlo.after (Gen.hostOps2 (F := Ideal)) V (Proc.devRef .tc main_v53)
    = Host.varA (V (Proc.devRef .tc main_v36_1)) (V (Proc.devRef .tc main_v36_2)) (V (Proc.devRef .tc main_v19)) (Host.row0 (V (Proc.devRef .tc main_arg7))) := by
  after_results_simp
  rfl

theorem host3_v62 : StableHlo.after (Gen.hostOps3 (F := Ideal)) V (Proc.devRef .tc main_v62)
    = Host.convW1 (V (Proc.devRef .tc main_arg3)) := by
  after_results
  rfl
theorem host4_v73 : StableHlo.after (Gen.hostOps4 (F := Ideal)) V (Proc.devRef .tc main_v73)
    = Host.aggT (V (Proc.devRef .tc main_v63)) (V (Proc.devRef .tc main_v3)) (V (Proc.devRef .tc main_v6)) := by
  after_results
  rfl
theorem host4_v76 : StableHlo.after (Gen.hostOps4 (F := Ideal)) V (Proc.devRef .tc main_v76)
    = Host.row1 (V (Proc.devRef .tc main_arg4)) := by
  after_results
  rfl
theorem host5_v81 : StableHlo.after (Gen.hostOps5 (F := Ideal)) V (Proc.devRef .tc main_v81)
    = Host.meanA (V (Proc.devRef .tc main_v77_1)) (V (Proc.devRef .tc main_v19)) := by
  after_results
  rfl
theorem host5_v84 : StableHlo.after (Gen.hostOps5 (F := Ideal)) V (Proc.devRef .tc main_v84)
    = Host.row1 (V (Proc.devRef .tc main_arg7)) := by
  after_results
  rfl
theorem host5_v97 : StableHlo.after (Gen.hostOps5 (F := Ideal)) V (Proc.devRef .tc main_v97)
    = Host.row1 (V (Proc.devRef .tc main_arg5)) := by
  after_results
  rfl
theorem host5_v100 : StableHlo.after (Gen.hostOps5 (F := Ideal)) V (Proc.devRef .tc main_v100)
    = Host.row1 (V (Proc.devRef .tc main_arg6)) := by
  after_results
  rfl
theorem host5_v94 : StableHlo.after (Gen.hostOps5 (F := Ideal)) V (Proc.devRef .tc main_v94)
    = Host.varA (V (Proc.devRef .tc main_v77_1)) (V (Proc.devRef .tc main_v77_2)) (V (Proc.devRef .tc main_v19)) (Host.row1 (V (Proc.devRef .tc main_arg7))) := by
  after_results_simp
  rfl

theorem host6_v103 : StableHlo.after (Gen.hostOps6 (F := Ideal)) V (Proc.devRef .tc main_v103)
    = Host.convW2 (V (Proc.devRef .tc main_arg3)) := by
  after_results
  rfl
theorem host7_v114 : StableHlo.after (Gen.hostOps7 (F := Ideal)) V (Proc.devRef .tc main_v114)
    = Host.aggT (V (Proc.devRef .tc main_v104)) (V (Proc.devRef .tc main_v3)) (V (Proc.devRef .tc main_v6)) := by
  after_results
  rfl
theorem host7_v117 : StableHlo.after (Gen.hostOps7 (F := Ideal)) V (Proc.devRef .tc main_v117)
    = Host.row2 (V (Proc.devRef .tc main_arg4)) := by
  after_results
  rfl
theorem host8_v122 : StableHlo.after (Gen.hostOps8 (F := Ideal)) V (Proc.devRef .tc main_v122)
    = Host.meanA (V (Proc.devRef .tc main_v118_1)) (V (Proc.devRef .tc main_v19)) := by
  after_results
  rfl
theorem host8_v125 : StableHlo.after (Gen.hostOps8 (F := Ideal)) V (Proc.devRef .tc main_v125)
    = Host.row2 (V (Proc.devRef .tc main_arg7)) := by
  after_results
  rfl
theorem host8_v138 : StableHlo.after (Gen.hostOps8 (F := Ideal)) V (Proc.devRef .tc main_v138)
    = Host.row2 (V (Proc.devRef .tc main_arg5)) := by
  after_results
  rfl
theorem host8_v141 : StableHlo.after (Gen.hostOps8 (F := Ideal)) V (Proc.devRef .tc main_v141)
    = Host.row2 (V (Proc.devRef .tc main_arg6)) := by
  after_results
  rfl
theorem host8_v135 : StableHlo.after (Gen.hostOps8 (F := Ideal)) V (Proc.devRef .tc main_v135)
    = Host.varA (V (Proc.devRef .tc main_v118_1)) (V (Proc.devRef .tc main_v118_2)) (V (Proc.devRef .tc main_v19)) (Host.row2 (V (Proc.devRef .tc main_arg7))) := by
  after_results_simp
  rfl

theorem host9_v144 : StableHlo.after (Gen.hostOps9 (F := Ideal)) V (Proc.devRef .tc main_v144)
    = Host.convW3 (V (Proc.devRef .tc main_arg3)) := by
  after_results
  rfl
theorem host10_v155 : StableHlo.after (Gen.hostOps10 (F := Ideal)) V (Proc.devRef .tc main_v155)
    = Host.aggT (V (Proc.devRef .tc main_v145)) (V (Proc.devRef .tc main_v3)) (V (Proc.devRef .tc main_v6)) := by
  after_results
  rfl
theorem host10_v158 : StableHlo.after (Gen.hostOps10 (F := Ideal)) V (Proc.devRef .tc main_v158)
    = Host.row3 (V (Proc.devRef .tc main_arg4)) := by
  after_results
  rfl
theorem host11_v163 : StableHlo.after (Gen.hostOps11 (F := Ideal)) V (Proc.devRef .tc main_v163)
    = Host.meanA (V (Proc.devRef .tc main_v159_1)) (V (Proc.devRef .tc main_v19)) := by
  after_results
  rfl
theorem host11_v166 : StableHlo.after (Gen.hostOps11 (F := Ideal)) V (Proc.devRef .tc main_v166)
    = Host.row3 (V (Proc.devRef .tc main_arg7)) := by
  after_results
  rfl
theorem host11_v179 : StableHlo.after (Gen.hostOps11 (F := Ideal)) V (Proc.devRef .tc main_v179)
    = Host.row3 (V (Proc.devRef .tc main_arg5)) := by
  after_results
  rfl
theorem host11_v182 : StableHlo.after (Gen.hostOps11 (F := Ideal)) V (Proc.devRef .tc main_v182)
    = Host.row3 (V (Proc.devRef .tc main_arg6)) := by
  after_results
  rfl
theorem host11_v176 : StableHlo.after (Gen.hostOps11 (F := Ideal)) V (Proc.devRef .tc main_v176)
    = Host.varA (V (Proc.devRef .tc main_v159_1)) (V (Proc.devRef .tc main_v159_2)) (V (Proc.devRef .tc main_v19)) (Host.row3 (V (Proc.devRef .tc main_arg7))) := by
  after_results_simp
  rfl

theorem host13_v204 : StableHlo.after (Gen.hostOps13 (F := Ideal)) V (Proc.devRef .tc main_v204)
    = Host.tailPre (Host.poolA (V (Proc.devRef .tc main_v184))) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  after_results_simp
  rfl
theorem host13_1_v205 : StableHlo.after (Gen.hostOps13_1 (F := Ideal)) V (Proc.devRef .tc main_v205)
    = Host.reluA (V (Proc.devRef .tc main_v204)) := by
  after_results
  rfl
theorem host13_2_v209 : StableHlo.after (Gen.hostOps13_2 (F := Ideal)) V (Proc.devRef .tc main_v209)
    = Host.tailPost (V (Proc.devRef .tc main_v205)) (V (Proc.devRef .tc main_arg14)) (V (Proc.devRef .tc main_arg15)) := by
  after_results
  rfl

end Cert.KernelIdeal.HostVal

end
-- ==== Proof.KerValKeep.lean ====
import proofs.«423410_j58634893525678_2_alg».proof.Proof.Gen.KernelIdeal.Launch
import Idealize.ShloMosaic.Lib.StableHlo.Run
import Idealize.ShloMosaic.PureOps.Ideal

set_option maxRecDepth 16384

noncomputable section

namespace Cert.KernelIdeal.Val

open Idealize.ShloMosaic Idealize.ShloMosaic.TcCoe

-- operations that each write one buffer of the list leave every buffer outside the list as it was
theorem keep_of {ops : List (HloOp τ sig (Elt Ideal))} {wr : List (Ref sig .tc)}
    (h : List.Forall₂ (fun op y => op.writes = {Proc.devRef .tc y}) ops wr) (V : Valuation τ sig (Elt Ideal)) {b : Ref sig .tc} :
    b ∉ wr → StableHlo.after ops V (Proc.devRef .tc b) = V (Proc.devRef .tc b) := by
  induction h generalizing V with
  | nil => exact fun _ => rfl
  | cons e _ ih =>
    intro hb
    rw [StableHlo.after_cons, ih _ fun h => hb (List.mem_cons_of_mem _ h)]
    exact HloOp.result_of_not_mem _ _ (by
      rw [e, Finset.mem_singleton]
      exact StableHlo.devRef_ne_of_ne fun e' => hb (e' ▸ List.mem_cons_self))

variable (V : Valuation τ sig (Elt Ideal))

noncomputable def wr0 : List (Ref sig .tc) := [main_v0, main_v1, main_v2, main_v3, main_v4, main_v5, main_v6, main_cst, main_v7, main_cst_0, main_v8, main_v9, main_v10, main_v11, main_v12, main_v13, main_cst_1, main_v14, main_cst_2, main_v15, main_v16, main_v17, main_cst_3, main_v18, main_v19, main_v20, main_v21]
theorem keepH0 {b : Ref sig .tc} (hb : b ∉ wr0) :
    StableHlo.after (Gen.hostOps0 (F := Ideal)) V (Proc.devRef .tc b) = V (Proc.devRef .tc b) :=
  keep_of (by repeat' constructor) V hb

noncomputable def wr1 : List (Ref sig .tc) := [main_c, main_v23, main_v24, main_c_4, main_v25, main_v26, main_v27, main_v28, main_v29, main_cst_5, main_v30, main_v31, main_v32, main_v33, main_v34, main_v35]
theorem keepH1 {b : Ref sig .tc} (hb : b ∉ wr1) :
    StableHlo.after (Gen.hostOps1 (F := Ideal)) V (Proc.devRef .tc b) = V (Proc.devRef .tc b) :=
  keep_of (by repeat' constructor) V hb

noncomputable def wr2 : List (Ref sig .tc) := [main_cst_6, main_v37, main_cst_7, main_v38, main_v39, main_v40, main_v41, main_v42, main_v43, main_v44, main_v45, main_cst_8, main_v46, main_v47, main_v48, main_v49, main_v50, main_v51, main_v52, main_v53, main_v54, main_v55, main_v56, main_v57, main_v58, main_v59]
theorem keepH2 {b : Ref sig .tc} (hb : b ∉ wr2) :
    StableHlo.after (Gen.hostOps2 (F := Ideal)) V (Proc.devRef .tc b) = V (Proc.devRef .tc b) :=
  keep_of (by repeat' constructor) V hb

noncomputable def wr3 : List (Ref sig .tc) := [main_v61, main_v62]
theorem keepH3 {b : Ref sig .tc} (hb : b ∉ wr3) :
    StableHlo.after (Gen.hostOps3 (F := Ideal)) V (Proc.devRef .tc b) = V (Proc.devRef .tc b) :=
  keep_of (by repeat' constructor) V hb

noncomputable def wr4 : List (Ref sig .tc) := [main_c_9, main_v64, main_v65, main_c_10, main_v66, main_v67, main_v68, main_v69, main_v70, main_cst_11, main_v71, main_v72, main_v73, main_v74, main_v75, main_v76]
theorem keepH4 {b : Ref sig .tc} (hb : b ∉ wr4) :
    StableHlo.after (Gen.hostOps4 (F := Ideal)) V (Proc.devRef .tc b) = V (Proc.devRef .tc b) :=
  keep_of (by repeat' constructor) V hb

noncomputable def wr5 : List (Ref sig .tc) := [main_cst_12, main_v78, main_cst_13, main_v79, main_v80, main_v81, main_v82, main_v83, main_v84, main_v85, main_v86, main_cst_14, main_v87, main_v88, main_v89, main_v90, main_v91, main_v92, main_v93, main_v94, main_v95, main_v96, main_v97, main_v98, main_v99, main_v100]
theorem keepH5 {b : Ref sig .tc} (hb : b ∉ wr5) :
    StableHlo.after (Gen.hostOps5 (F := Ideal)) V (Proc.devRef .tc b) = V (Proc.devRef .tc b) :=
  keep_of (by repeat' constructor) V hb

noncomputable def wr6 : List (Ref sig .tc) := [main_v102, main_v103]
theorem keepH6 {b : Ref sig .tc} (hb : b ∉ wr6) :
    StableHlo.after (Gen.hostOps6 (F := Ideal)) V (Proc.devRef .tc b) = V (Proc.devRef .tc b) :=
  keep_of (by repeat' constructor) V hb

noncomputable def wr7 : List (Ref sig .tc) := [main_c_15, main_v105, main_v106, main_c_16, main_v107, main_v108, main_v109, main_v110, main_v111, main_cst_17, main_v112, main_v113, main_v114, main_v115, main_v116, main_v117]
theorem keepH7 {b : Ref sig .tc} (hb : b ∉ wr7) :
    StableHlo.after (Gen.hostOps7 (F := Ideal)) V (Proc.devRef .tc b) = V (Proc.devRef .tc b) :=
  keep_of (by repeat' constructor) V hb

noncomputable def wr8 : List (Ref sig .tc) := [main_cst_18, main_v119, main_cst_19, main_v120, main_v121, main_v122, main_v123, main_v124, main_v125, main_v126, main_v127, main_cst_20, main_v128, main_v129, main_v130, main_v131, main_v132, main_v133, main_v134, main_v135, main_v136, main_v137, main_v138, main_v139, main_v140, main_v141]
theorem keepH8 {b : Ref sig .tc} (hb : b ∉ wr8) :
    StableHlo.after (Gen.hostOps8 (F := Ideal)) V (Proc.devRef .tc b) = V (Proc.devRef .tc b) :=
  keep_of (by repeat' constructor) V hb

noncomputable def wr9 : List (Ref sig .tc) := [main_v143, main_v144]
theorem keepH9 {b : Ref sig .tc} (hb : b ∉ wr9) :
    StableHlo.after (Gen.hostOps9 (F := Ideal)) V (Proc.devRef .tc b) = V (Proc.devRef .tc b) :=
  keep_of (by repeat' constructor) V hb

noncomputable def wr10 : List (Ref sig .tc) := [main_c_21, main_v146, main_v147, main_c_22, main_v148, main_v149, main_v150, main_v151, main_v152, main_cst_23, main_v153, main_v154, main_v155, main_v156, main_v157, main_v158]
theorem keepH10 {b : Ref sig .tc} (hb : b ∉ wr10) :
    StableHlo.after (Gen.hostOps10 (F := Ideal)) V (Proc.devRef .tc b) = V (Proc.devRef .tc b) :=
  keep_of (by repeat' constructor) V hb

noncomputable def wr11 : List (Ref sig .tc) := [main_cst_24, main_v160, main_cst_25, main_v161, main_v162, main_v163, main_v164, main_v165, main_v166, main_v167, main_v168, main_cst_26, main_v169, main_v170, main_v171, main_v172, main_v173, main_v174, main_v175, main_v176, main_v177, main_v178, main_v179, main_v180, main_v181, main_v182]
theorem keepH11 {b : Ref sig .tc} (hb : b ∉ wr11) :
    StableHlo.after (Gen.hostOps11 (F := Ideal)) V (Proc.devRef .tc b) = V (Proc.devRef .tc b) :=
  keep_of (by repeat' constructor) V hb

end Cert.KernelIdeal.Val

end
-- ==== Proof.KerValBase.lean ====
import proofs.«423410_j58634893525678_2_alg».proof.Proof.Gen.KernelIdeal.Frame
import proofs.«423410_j58634893525678_2_alg».proof.Proof.Net
import proofs.«423410_j58634893525678_2_alg».proof.Proof.Idx
import proofs.«423410_j58634893525678_2_alg».proof.Proof.KerHost
import proofs.«423410_j58634893525678_2_alg».proof.Proof.KerValHost
import proofs.«423410_j58634893525678_2_alg».proof.Proof.KerValKeep

set_option maxRecDepth 16384

noncomputable section

namespace Cert.KernelIdeal.Val

open Idealize.ShloMosaic Idealize.ShloMosaic.ValueIdx Idealize.ShloMosaic.TcCoe Cert.Gnn

variable (m : (ℓ : Loc nD τ sig) → Buf (Elt Ideal) ℓ) (ρ : Dev nD → PrngReg) (c : Dev nD)

abbrev kG : Ctx := Ctx.of (m ((c : Thread nD τ).loc main_arg1)) (m ((c : Thread nD τ).loc main_arg2))

abbrev kbv : Fin 100000 → BitVec 32 := fun n => (m ((c : Thread nD τ).loc main_arg2)) (ix1 n)

abbrev kP : Params := Params.of (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))

abbrev Hh (G : Ctx) (x : Fin 100000 → Fin 128 → EReal) (W : Fin 128 → Fin 128 → EReal) (b : Fin 128 → EReal) :
    Fin 100000 → Fin 128 → EReal := Reg.hb (K.agg G (Reg.mat x W (dis G))) (dis G) b

abbrev S1 (G : Ctx) (bv : Fin 100000 → BitVec 32) (x : Fin 100000 → Fin 128 → EReal) (W : Fin 128 → Fin 128 → EReal)
    (b : Fin 128 → EReal) : Fin 128 → Fin 128 → EReal :=
  fun g j => Reg.part bv (Hh G x W b) 0 g j + Reg.part bv (Hh G x W b) 1 g j

abbrev S2 (G : Ctx) (bv : Fin 100000 → BitVec 32) (x : Fin 100000 → Fin 128 → EReal) (W : Fin 128 → Fin 128 → EReal)
    (b : Fin 128 → EReal) : Fin 128 → Fin 128 → EReal :=
  fun g j => Reg.part bv (fun n j => Hh G x W b n j * Hh G x W b n j) 0 g j
    + Reg.part bv (fun n j => Hh G x W b n j * Hh G x W b n j) 1 g j

theorem disW1 : (fun n => Gen.W1 m ρ c (Proc.devRef .tc main_v12) (ix2 n 0)) = dis (kG m c) := by
  funext n
  rw [show Gen.W1 m ρ c (Proc.devRef .tc main_v12) = Host.disA (Gen.W0 m ρ c (Proc.devRef .tc main_arg1)) from HostVal.host0_v12 (Gen.W0 m ρ c)]
  exact Host.disA_of _ _ n

theorem bvW1 : (fun n => Gen.W1 m ρ c (Proc.devRef .tc main_v13) (ix2 n 0)) = kbv m c := by
  funext n
  rw [show Gen.W1 m ρ c (Proc.devRef .tc main_v13) = shapeCast S100000x1 (Gen.W0 m ρ c (Proc.devRef .tc main_arg2)) Gen.shapeCasts_S100000_S100000x1
        from HostVal.host0_v13 (Gen.W0 m ρ c)]
  exact batchCol_apply _ _ n

theorem sarg1 {b : Ref sig .tc} (h0 : b ∉ wr0) : Gen.W1 m ρ c (Proc.devRef .tc b) = Gen.W0 m ρ c (Proc.devRef .tc b) :=
  keepH0 (Gen.W0 m ρ c) h0

end Cert.KernelIdeal.Val

end
-- ==== Proof.RegMatLib.lean ====
import proofs.«423410_j58634893525678_2_alg».proof.Proof.Gen.KernelIdeal
import proofs.«423410_j58634893525678_2_alg».proof.Proof.Spec
import Idealize.ShloMosaic.Lib.StackMember

noncomputable section

namespace Cert.KernelIdeal.Val.Mat

open Idealize.ShloMosaic Idealize.ShloMosaic.ValueIdx Idealize.ShloMosaic.TcCoe

abbrev DD : DotDims S5000x128 S128x128 S5000x128 := dot_S5000x128_S128x128_S5000x128_1_0_0_1_n_n

-- A block product accumulated into zero is the plain matrix product: at (r, j) the sum over k of L[r,k] R[k,j].
theorem mm_at (L : FVec Ideal S5000x128 .bf16) (R : FVec Ideal S128x128 .bf16) (y : S5000x128.Idx) :
    matmul DD none L R (constant S5000x128 .f32 0x00000000#32) y = ∑ k : Fin 128, L (ix2 (y 0) k) * R (ix2 k (y 1)) :=
  (congrFun (matmul_zero_eq_dotGeneral DD none L R) y).trans
    ((congrArg (Host.dotGeneral DD none L R) (eq_ix2 y)).trans (StackMember.dotGeneral_plain_apply none L R (y 0) (y 1)))

-- The stored block at (r, j): the sum over k of (x[r,k] d[r,0]) w[k,j], the row scale being laid along each row.
theorem pay_at (x : Vec Ideal S5000x128 .f32) (d : Vec Ideal S5000x1 .f32) (w : Vec Ideal S128x128 .f32)
    (hb : S5000x1.Broadcasts S5000x128) (ht : FTy.bits .bf16 < FTy.bits .f32) (y : S5000x128.Idx) :
    matmul (F := Ideal) DD none (truncf .bf16 (mulf x (broadcastTo S5000x128 d hb)) ht) (truncf .bf16 w ht)
        (constant S5000x128 .f32 0x00000000#32) y
      = ∑ k : Fin 128, (x (ix2 (y 0) k) * d (ix2 (y 0) 0)) * w (ix2 k (y 1)) := by
  refine (mm_at _ _ y).trans (Finset.sum_congr rfl fun k _ => ?_)
  rw [truncf_apply, truncf_apply, mulf_apply, broadcastTo_apply d hb (ix2 (y 0) k) (ix2 (y 0) 0) fun a => by
    match a with
    | ⟨0, _⟩ => rfl
    | ⟨1, _⟩ => rfl]

-- The whole output array: row n of x, scaled by d[n], times W.
def G (X : Vec Ideal S100000x128 .f32) (W : Vec Ideal S128x128 .f32) (D : Vec Ideal S100000x1 .f32) :
    Vec Ideal S100000x128 .f32 := fun i =>
  Cert.Gnn.Reg.mat (fun n k => X (ix2 n k)) (fun k j => W (ix2 k j)) (fun n => D (ix2 n 0)) (i 0) (i 1)

theorem hz : (![0, 0] : Fin 2 → Nat) = fun _ => 0 := funext fun a => by fin_cases a <;> rfl

-- At point t the blocks of x, of the row scale and of the output are row block t, and the weight block is all of W. The four regions have these same index maps.
theorem idx : ∀ t : Fin grid0.N,
      win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 := by
  decide +kernel

-- Blocks placed so read the arrays at the output element's own row and column.
theorem sum_eq (t : Fin grid0.N)
    {e0 e3 : S5000x128.Idx → S100000x128.Idx} {e1 : S128x128.Idx → S128x128.Idx} {e2 : S5000x1.Idx → S100000x1.Idx}
    (h0 : ∀ z a, (e0 z a : ℕ) = win0_0.index t a * S5000x128.size a + z a)
    (h1 : ∀ z a, (e1 z a : ℕ) = win0_1.index t a * S128x128.size a + z a)
    (h2 : ∀ z a, (e2 z a : ℕ) = win0_2.index t a * S5000x1.size a + z a)
    (h3 : ∀ z a, (e3 z a : ℕ) = win0_3.index t a * S5000x128.size a + z a)
    (X : Vec Ideal S100000x128 .f32) (W : Vec Ideal S128x128 .f32) (D : Vec Ideal S100000x1 .f32) (y : S5000x128.Idx) :
    ∑ k : Fin 128, (X (e0 (ix2 (y 0) k)) * D (e2 (ix2 (y 0) 0))) * W (e1 (ix2 k (y 1))) = G X W D (e3 y) := by
  obtain ⟨a0, a1, b0, b1, c0, c1, d0, d1⟩ := idx t
  have q0 : (e3 y 0 : ℕ) = win0_3.index t 0 * 5000 + (y 0 : ℕ) := h3 y 0
  have q1 : (e3 y 1 : ℕ) = win0_3.index t 1 * 128 + (y 1 : ℕ) := h3 y 1
  show _ = ∑ k : Fin 128, (X (ix2 (e3 y 0) k) * D (ix2 (e3 y 0) 0)) * W (ix2 k (e3 y 1))
  refine Finset.sum_congr rfl fun k _ => ?_
  have x0 : (e0 (ix2 (y 0) k) 0 : ℕ) = win0_0.index t 0 * 5000 + (y 0 : ℕ) := h0 _ 0
  have x1 : (e0 (ix2 (y 0) k) 1 : ℕ) = win0_0.index t 1 * 128 + (k : ℕ) := h0 _ 1
  have w0 : (e1 (ix2 k (y 1)) 0 : ℕ) = win0_1.index t 0 * 128 + (k : ℕ) := h1 _ 0
  have w1 : (e1 (ix2 k (y 1)) 1 : ℕ) = win0_1.index t 1 * 128 + (y 1 : ℕ) := h1 _ 1
  have s0 : (e2 (ix2 (y 0) 0) 0 : ℕ) = win0_2.index t 0 * 5000 + (y 0 : ℕ) := h2 _ 0
  have s1 : (e2 (ix2 (y 0) 0) 1 : ℕ) = win0_2.index t 1 * 1 + 0 := h2 _ 1
  rw [show e0 (ix2 (y 0) k) = ix2 (e3 y 0) k from
      Shape.idx_ext₂ (by show (_ : ℕ) = (e3 y 0 : ℕ); omega) (by show (_ : ℕ) = (k : ℕ); omega),
    show e2 (ix2 (y 0) 0) = ix2 (e3 y 0) 0 from
      Shape.idx_ext₂ (by show (_ : ℕ) = (e3 y 0 : ℕ); omega) (by show (_ : ℕ) = 0; omega),
    show e1 (ix2 k (y 1)) = ix2 k (e3 y 1) from
      Shape.idx_ext₂ (by show (_ : ℕ) = (k : ℕ); omega) (by show (_ : ℕ) = (e3 y 1 : ℕ); omega)]
  rfl

-- Row r of the array lies in row block r / 5000.
theorem cover (i : S100000x128.Idx) : ∃ t : Fin grid0.N, ∀ a : Fin 2,
    win0_3.index t a * S5000x128.size a ≤ (i a).val ∧ (i a).val < win0_3.index t a * S5000x128.size a + S5000x128.size a := by
  have h0 : (i 0).val < 100000 := (i 0).isLt
  have h1 : (i 1).val < 128 := (i 1).isLt
  have ht : (i 0).val / 5000 < grid0.N := by rw [show grid0.N = 20 from rfl]; omega
  obtain ⟨-, -, -, -, -, -, e0, e1⟩ := idx ⟨(i 0).val / 5000, ht⟩
  refine ⟨⟨(i 0).val / 5000, ht⟩, fun a => ?_⟩
  match a with
  | ⟨0, _⟩ =>
    show win0_3.index _ 0 * 5000 ≤ (i 0).val ∧ (i 0).val < win0_3.index _ 0 * 5000 + 5000
    rw [e0]; show (i 0).val / 5000 * 5000 ≤ (i 0).val ∧ (i 0).val < (i 0).val / 5000 * 5000 + 5000; omega
  | ⟨1, _⟩ =>
    show win0_3.index _ 1 * 128 ≤ (i 1).val ∧ (i 1).val < win0_3.index _ 1 * 128 + 128
    rw [e1]; omega

end Cert.KernelIdeal.Val.Mat

end
-- ==== Proof.RegMat0.lean ====
import proofs.«423410_j58634893525678_2_alg».proof.Proof.Gen.KernelIdeal.Frame
import proofs.«423410_j58634893525678_2_alg».proof.Proof.RegMatLib

namespace Cert.KernelIdeal.Val

open Idealize.ShloMosaic Idealize.ShloMosaic.ValueIdx Idealize.ShloMosaic.TcCoe

-- Each point writes its row block of the projection of the pre-scaled rows, and the row blocks cover the array.
theorem mat0 (V : (c : Dev nD) → (b : Ref sig .tc) → Buf (Elt Ideal) ((c : Thread nD τ).loc b)) (c : Dev nD)
    (n : Fin 100000) (j : Fin 128) :
    (Gen.dat0 (F := Ideal) V c).arrAt 3 cfg0.N (ix2 n j)
      = Cert.Gnn.Reg.mat (fun n k => V c (Pipeline.arrRef spec0 0) (ix2 n k)) (fun k j => V c (Pipeline.arrRef spec0 1) (ix2 k j))
          (fun n => V c (Pipeline.arrRef spec0 2) (ix2 n 0)) n j := by
  refine congrFun ((Gen.dat0 (F := Ideal) V c).arrAt_eq_of_cover 3 (Mat.G (V c (Pipeline.arrRef spec0 0))
    (V c (Pipeline.arrRef spec0 1)) (V c (Pipeline.arrRef spec0 2))) (fun t _ => ?_) fun i => ?_) (ix2 n j)
  · show (cfg0.win 3).cut (grid0.coords t) ((Gen.dat0 (F := Ideal) V c).after 3 t) = _
    rw [Gen.after0_3]
    unfold Gen.out0_3
    rw [View.canon_unit_zero Mat.hz]
    simp only [View.ld_unit_zero (S := S5000x128) Mat.hz, View.ld_unit_zero (S := S5000x1) Mat.hz, View.ld_unit_zero (S := S128x128) Mat.hz]
    funext y
    unfold Gen.k0_pay1
    refine (Mat.pay_at _ _ _ _ _ y).trans ?_
    simp only [shapeCast_self]
    exact Mat.sum_eq t (win0_0.rect_emb_val t) (win0_1.rect_emb_val t) (win0_2.rect_emb_val t) (win0_3.rect_emb_val t)
      (V c (Pipeline.arrRef spec0 0)) (V c (Pipeline.arrRef spec0 1)) (V c (Pipeline.arrRef spec0 2)) y
  · obtain ⟨t, ht⟩ := Mat.cover i
    refine ⟨t, Gen.flush0_3 t, ?_⟩
    show i ∈ ((View.whole main_v22).slice (win0_3.rect t)).set
    rw [View.set_slice_whole, Rect.mem_set_unit]
    exact ht

end Cert.KernelIdeal.Val
-- ==== Proof.LibTileSum.lean ====
import Mathlib.Algebra.BigOperators.Fin
import Mathlib.Algebra.BigOperators.Group.Finset.Piecewise

namespace Cert.Gnn.Tile

open scoped BigOperators

def node (t : Fin 20) (r : Fin 5000) : Fin 100000 := ⟨5000 * t.val + r.val, by omega⟩

def pt (c : Fin 2) (i : Fin 10) : Fin 20 := ⟨10 * c.val + i.val, by omega⟩

theorem sum_nodes {M : Type*} [AddCommMonoid M] (F : Fin 100000 → M) :
    ∑ n : Fin 100000, F n = ∑ t : Fin 20, ∑ r : Fin 5000, F (node t r) := by
  calc ∑ n : Fin 100000, F n
      = ∑ p : Fin 20 × Fin 5000, F (finProdFinEquiv (m := 20) (n := 5000) p) :=
        (Equiv.sum_comp (finProdFinEquiv (m := 20) (n := 5000)) F).symm
    _ = ∑ t : Fin 20, ∑ r : Fin 5000, F (finProdFinEquiv (m := 20) (n := 5000) (t, r)) := Fintype.sum_prod_type _
    _ = _ := Finset.sum_congr rfl fun t _ => Finset.sum_congr rfl fun r _ => congrArg F (Fin.ext (by
        show r.val + 5000 * t.val = 5000 * t.val + r.val
        omega))

theorem sum_pts {M : Type*} [AddCommMonoid M] (G : Fin 20 → M) :
    ∑ t : Fin 20, G t = ∑ c : Fin 2, ∑ i : Fin 10, G (pt c i) := by
  calc ∑ t : Fin 20, G t
      = ∑ p : Fin 2 × Fin 10, G (finProdFinEquiv (m := 2) (n := 10) p) :=
        (Equiv.sum_comp (finProdFinEquiv (m := 2) (n := 10)) G).symm
    _ = ∑ c : Fin 2, ∑ i : Fin 10, G (finProdFinEquiv (m := 2) (n := 10) (c, i)) := Fintype.sum_prod_type _
    _ = _ := Finset.sum_congr rfl fun c _ => Finset.sum_congr rfl fun i _ => congrArg G (Fin.ext (by
        show i.val + 10 * c.val = 10 * c.val + i.val
        omega))

theorem node_div (c : Fin 2) (i : Fin 10) (r : Fin 5000) : (node (pt c i) r).val / 50000 = c.val := by
  show (5000 * (10 * c.val + i.val) + r.val) / 50000 = c.val
  omega

theorem sum_core {M : Type*} [AddCommMonoid M] (f : Fin 100000 → M) (c : Fin 2) :
    ∑ i : Fin 10, ∑ r : Fin 5000, f (node (pt c i) r)
      = ∑ n : Fin 100000, if n.val / 50000 = c.val then f n else 0 := by
  rw [sum_nodes (fun n => if n.val / 50000 = c.val then f n else 0),
    sum_pts (fun t => ∑ r : Fin 5000, if (node t r).val / 50000 = c.val then f (node t r) else 0)]
  have key : ∀ c' : Fin 2,
      (∑ i : Fin 10, ∑ r : Fin 5000, (if (node (pt c' i) r).val / 50000 = c.val then f (node (pt c' i) r) else 0))
        = if c' = c then ∑ i : Fin 10, ∑ r : Fin 5000, f (node (pt c' i) r) else 0 := by
    intro c'
    by_cases h : c' = c
    · subst h
      rw [if_pos rfl]
      exact Finset.sum_congr rfl fun i _ => Finset.sum_congr rfl fun r _ => if_pos (node_div c' i r)
    · rw [if_neg h]
      have hne : c'.val ≠ c.val := fun e => h (Fin.ext e)
      exact Finset.sum_eq_zero fun i _ => Finset.sum_eq_zero fun r _ =>
        if_neg (by rw [node_div c' i r]; exact hne)
  rw [Finset.sum_congr rfl fun c' _ => key c', Finset.sum_ite_eq', if_pos (Finset.mem_univ c)]

end Cert.Gnn.Tile
-- ==== Proof.RegPool12Pay.lean ====
import proofs.«423410_j58634893525678_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val.Pool12

open Idealize.ShloMosaic Idealize.ShloMosaic.ValueIdx
open Cert.KernelIdeal Cert.KernelIdeal.Gen

abbrev D12 := dot_S5000x128_S5000x128_S128x128_0_0_1_1_n_n

theorem D12_lhs (g j : Fin 128) (r : Fin 5000) :
    D12.lhsIdx (ix2 g j) ((contrEquiv1 D12 5000 rfl rfl).symm r) = ix2 r g :=
  Shape.idx_ext₂ (contrEquiv1_symm_val D12 5000 rfl rfl r) rfl

theorem D12_rhs (g j : Fin 128) (r : Fin 5000) :
    D12.rhsIdx (ix2 g j) ((contrEquiv1 D12 5000 rfl rfl).symm r) = ix2 r j :=
  Shape.idx_ext₂ (contrEquiv1_symm_val D12 5000 rfl rfl r) rfl

theorem oh_word (a b : BitVec 32) :
    FloatOps.sitofp (F := Ideal) FTy.f32 (BitVec.setWidth 32 (IntOp.cmpi .eq a b)) = if a = b then (1 : EReal) else 0 := by
  show (((BitVec.setWidth 32 (IntOp.cmpi .eq a b)).toInt : ℝ) : EReal) = _
  by_cases h : a = b
  · rw [if_pos h]; subst h; simp [IntOp.cmpi]
  · rw [if_neg h]
    have hb : (a == b) = false := by simpa using h
    simp [IntOp.cmpi, hb]

theorem onehot_apply (x1 : Vec Ideal S5000x1 .i32) (r : Fin 5000) (g : Fin 128) :
    (truncf (F := Ideal) FTy.bf16
        (sitofp FTy.f32
          (extui 32
            (cmpi CmpIPredicate.eq
              (broadcastTo S5000x128 (shapeCast S5000x1 x1 shapeCasts_S5000x1_S5000x1) broadcasts_S5000x1_S5000x128)
              (iota Kind.tc S5000x128 32 [1] iota_S5000x128_d1_w32))
            natLt_1_32))
        bitsLt_bf16_f32) (ix2 r g) = (if x1 (ix2 r 0) = BitVec.ofNat 32 g.val then (1 : EReal) else 0) := by
  rw [truncf_apply, sitofp_apply, extui_apply]
  show FloatOps.sitofp (F := Ideal) FTy.f32 (BitVec.setWidth 32 (IntOp.cmpi .eq
      (broadcastTo S5000x128 (shapeCast S5000x1 x1 shapeCasts_S5000x1_S5000x1) broadcasts_S5000x1_S5000x128 (ix2 r g))
      (iota Kind.tc S5000x128 32 [1] iota_S5000x128_d1_w32 (ix2 r g)))) = _
  rw [broadcastTo_apply _ broadcasts_S5000x1_S5000x128 (ix2 r g) (ix2 r 0) (fun a => by
        match a with
        | ⟨0, _⟩ => rfl
        | ⟨1, _⟩ => rfl),
    iota_single_apply, shapeCast_self]
  exact oh_word _ _

theorem pay2_apply (x0 : Vec Ideal S5000x128 .f32) (x1 : Vec Ideal S5000x1 .i32) (acc : Vec Ideal S1x128x128 .f32)
    (g j : Fin 128) :
    k12_pay2 (F := Ideal) x0 x1 acc (ix3 0 g j)
      = acc (ix3 0 g j)
        + ∑ r : Fin 5000, (if x1 (ix2 r 0) = BitVec.ofNat 32 g.val then (1 : EReal) else 0) * x0 (ix2 r j) := by
  unfold k12_pay2
  dsimp only
  refine (shapeCast_apply _ shapeCasts_S128x128_S1x128x128 (ix3 0 g j) (ix2 g j) ?_).trans ?_
  · rw [Shape.rowMajor_val_two, Shape.rowMajor_val_three]; simp
  rw [addf_apply]
  congr 1
  · exact shapeCast_apply acc _ (ix2 g j) (ix3 0 g j) (by rw [Shape.rowMajor_val_two, Shape.rowMajor_val_three]; simp)
  · simp only [matmul]
    rw [Ideal.matmul_constant_zero_apply]
    rw [← Equiv.sum_comp (contrEquiv1 D12 5000 rfl rfl).symm]
    refine Finset.sum_congr rfl fun r _ => ?_
    rw [D12_lhs g j r, D12_rhs g j r, onehot_apply x1 r g, truncf_apply, shapeCast_self]

theorem pay1_apply (y : S1x128x128.Idx) : k12_pay1 (F := Ideal) y = 0 := by
  show Ideal.ofBits .f32 0x00000000#32 = 0
  exact Ideal.ofBits_zero_f32

theorem acc_closed {M : Type*} [AddCommMonoid M] (N : ℕ) (a : (n : ℕ) → n < N → M) (A : ℕ → M)
    (h0 : ∀ (n : ℕ) (h : n < N), n % 10 = 0 → a n h = A n)
    (hs : ∀ (n : ℕ) (h : n + 1 < N), ¬(n + 1) % 10 = 0 → a (n + 1) h = a n (Nat.lt_of_succ_lt h) + A (n + 1)) :
    ∀ (n : ℕ) (h : n < N), a n h = ∑ s ∈ Finset.range (n % 10 + 1), A (n - n % 10 + s)
  | 0, h => by
    rw [h0 0 h rfl]
    simp
  | n + 1, h => by
    by_cases hm : (n + 1) % 10 = 0
    · rw [h0 (n + 1) h hm, hm]
      simp
    · rw [hs n h hm, acc_closed N a A h0 hs n (Nat.lt_of_succ_lt h)]
      have e1 : (n + 1) % 10 = n % 10 + 1 := by omega
      have e2 : n + 1 - (n % 10 + 1) = n - n % 10 := by omega
      rw [e1, e2, Finset.sum_range_succ (fun s => A (n - n % 10 + s)) (n % 10 + 1)]
      congr 2
      omega

end Cert.KernelIdeal.Val.Pool12

end
-- ==== Proof.RegStatsLib.lean ====
import proofs.«423410_j58634893525678_2_alg».proof.Proof.Gen.KernelIdeal.Launch
import proofs.«423410_j58634893525678_2_alg».proof.Proof.Gen.KernelIdeal.Skeleton
import proofs.«423410_j58634893525678_2_alg».proof.Proof.Spec
import proofs.«423410_j58634893525678_2_alg».proof.Proof.LibTileSum
import proofs.«423410_j58634893525678_2_alg».proof.Proof.RegPool12Pay
import Idealize.ShloMosaic.Lib.ValueIdx
import Idealize.ShloMosaic.Lib.Pipeline.Value
import Idealize.ShloMosaic.PureOps.Ideal.Laws

noncomputable section

namespace Cert.KernelIdeal.Val.Stats

open Idealize.ShloMosaic Idealize.ShloMosaic.ValueIdx
open Cert.KernelIdeal Cert.KernelIdeal.Gen
open Cert.Gnn (Reg.oh Reg.hb Reg.part)
open Cert.Gnn.Tile (node pt)

theorem succ_ix3 {n0 n1 n2 : Nat} (z : Fin n0) (g : Fin n1) (j : Fin n2) :
    (fun a : Fin 2 => (ix3 z g j) a.succ) = ix2 g j := by
  funext a; match a with | ⟨0, _⟩ => rfl | ⟨1, _⟩ => rfl

theorem dropUnit_ix (acc : Vec Ideal S1x128x128 .f32) (g j : Fin 128) :
    shapeCast S128x128 acc shapeCasts_S1x128x128_S128x128 (ix2 g j) = acc (ix3 0 g j) :=
  (shapeCast_dropUnit_apply ![128, 128] acc shapeCasts_S1x128x128_S128x128 (ix2 g j)).trans
    (congrArg acc (funext fun a => by match a with | ⟨0, _⟩ => rfl | ⟨1, _⟩ => rfl | ⟨2, _⟩ => rfl))

-- the tile of h at (r, j) is a[r, j] * d[r] + b[j]: both broadcasts read their one row or column
theorem pay4_apply (x0 : Vec Ideal S5000x128 .f32) (x1 : Vec Ideal S5000x1 .f32) (x3 : Vec Ideal S1x128 .f32)
    (r : Fin 5000) (j : Fin 128) :
    k1_pay4 (F := Ideal) x0 x1 x3 (ix2 r j) = x0 (ix2 r j) * x1 (ix2 r 0) + x3 (ix2 0 j) := by
  unfold k1_pay4
  simp only [shapeCast_self]
  show x0 (ix2 r j) * broadcastTo S5000x128 x1 broadcasts_S5000x1_S5000x128 (ix2 r j)
      + broadcastTo S5000x128 x3 broadcasts_S1x128_S5000x128 (ix2 r j) = _
  rw [broadcastTo_apply x1 _ (ix2 r j) (ix2 r 0) (fun a => by match a with | ⟨0, _⟩ => rfl | ⟨1, _⟩ => rfl),
    broadcastTo_apply x3 _ (ix2 r j) (ix2 0 j) (fun a => by match a with | ⟨0, _⟩ => rfl | ⟨1, _⟩ => rfl)]

-- one accumulator step at (0, g, j): the block there plus the one-hot column g contracted with column j of B
theorem pay1_apply (x2 : Vec Ideal S5000x1 .i32) (B : FVec Ideal S5000x128 .bf16) (acc : Vec Ideal S1x128x128 .f32)
    (g j : Fin 128) :
    k1_pay1 (F := Ideal) (k1_pay5 x2) B acc (ix3 0 g j)
      = acc (ix3 0 g j) + ∑ r : Fin 5000, (if x2 (ix2 r 0) = BitVec.ofNat 32 g.val then (1 : EReal) else 0) * B (ix2 r j) := by
  unfold k1_pay1
  rw [shapeCast_addUnit_apply, succ_ix3]
  show shapeCast S128x128 acc shapeCasts_S1x128x128_S128x128 (ix2 g j)
      + FloatOps.matmul Pool12.D12 none (k1_pay5 x2) B (constant S128x128 .f32 0x00000000#32) (ix2 g j) = _
  rw [dropUnit_ix, Ideal.matmul_constant_zero_apply, ← Equiv.sum_comp (contrEquiv1 Pool12.D12 5000 rfl rfl).symm]
  refine congrArg (acc (ix3 0 g j) + ·) (Finset.sum_congr rfl fun r _ => ?_)
  rw [Pool12.D12_lhs, Pool12.D12_rhs]
  exact congrArg (· * B (ix2 r j)) (Pool12.onehot_apply x2 r g)

theorem zero5 (i : S1x128x128.Idx) : k1_pay2 (F := Ideal) i = 0 := Pool12.pay1_apply i
theorem zero6 (i : S1x128x128.Idx) : k1_pay3 (F := Ideal) i = 0 := Pool12.pay1_apply i

-- point t < 20 as one of the twenty row tiles
def tl {N : ℕ} (hN : N = 20) (t : Fin N) : Fin 20 := ⟨t.val, hN ▸ t.isLt⟩

theorem tN (t : Fin cfg1.N) : t.val < 20 := lt_of_lt_of_eq t.isLt (show cfg1.N = 20 from N_1)

-- at point t the row blocks have index t, the bias row index 0, the accumulator blocks index t / 10
theorem idx : ∀ t : Fin grid1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = 0 ∧ win1_3.index t 1 = 0)
    ∧ (win1_4.index t 0 = t.val ∧ win1_4.index t 1 = 0) ∧ (win1_5.index t 0 = t.val / 10 ∧ win1_5.index t 1 = 0 ∧ win1_5.index t 2 = 0)
    ∧ (win1_6.index t 0 = t.val / 10 ∧ win1_6.index t 1 = 0 ∧ win1_6.index t 2 = 0) := by decide +kernel

theorem emb0 (t : Fin cfg1.N) (r : Fin 5000) (j : Fin 128) :
    ((cfg1.win 0).blk t).view.emb (ix2 r j) = ix2 (node (tl N_1 t) r) j :=
  Shape.idx_ext₂ (by show win1_0.index t 0 * 5000 + 1 * r.val = 5000 * t.val + r.val; rw [(idx t).1.1]; omega)
    (by show win1_0.index t 1 * 128 + 1 * j.val = j.val; rw [(idx t).1.2]; omega)
theorem emb1 (t : Fin cfg1.N) (r : Fin 5000) :
    ((cfg1.win 1).blk t).view.emb (ix2 r (0 : Fin 1)) = ix2 (node (tl N_1 t) r) (0 : Fin 1) :=
  Shape.idx_ext₂ (by show win1_1.index t 0 * 5000 + 1 * r.val = 5000 * t.val + r.val; rw [(idx t).2.1.1]; omega)
    (by show win1_1.index t 1 * 1 + 1 * 0 = 0; rw [(idx t).2.1.2])
theorem emb2 (t : Fin cfg1.N) (r : Fin 5000) :
    ((cfg1.win 2).blk t).view.emb (ix2 r (0 : Fin 1)) = ix2 (node (tl N_1 t) r) (0 : Fin 1) :=
  Shape.idx_ext₂ (by show win1_2.index t 0 * 5000 + 1 * r.val = 5000 * t.val + r.val; rw [(idx t).2.2.1.1]; omega)
    (by show win1_2.index t 1 * 1 + 1 * 0 = 0; rw [(idx t).2.2.1.2])
theorem emb3 (t : Fin cfg1.N) (j : Fin 128) : ((cfg1.win 3).blk t).view.emb (ix2 (0 : Fin 1) j) = ix2 (0 : Fin 1) j :=
  Shape.idx_ext₂ (by show win1_3.index t 0 * 1 + 1 * 0 = 0; rw [(idx t).2.2.2.1.1])
    (by show win1_3.index t 1 * 128 + 1 * j.val = j.val; rw [(idx t).2.2.2.1.2]; omega)
theorem emb4 (t : Fin cfg1.N) (r : Fin 5000) (j : Fin 128) :
    ((cfg1.win 4).blk t).view.emb (ix2 r j) = ix2 (node (tl N_1 t) r) j :=
  Shape.idx_ext₂ (by show win1_4.index t 0 * 5000 + 1 * r.val = 5000 * t.val + r.val; rw [(idx t).2.2.2.2.1.1]; omega)
    (by show win1_4.index t 1 * 128 + 1 * j.val = j.val; rw [(idx t).2.2.2.2.1.2]; omega)
theorem emb5 (t : Fin cfg1.N) (g j : Fin 128) :
    ((cfg1.win 5).blk t).view.emb (ix3 (0 : Fin 1) g j) = ix3 (⟨t.val / 10, by have := tN t; omega⟩ : Fin 2) g j := by
  have hi := (idx t).2.2.2.2.2.1
  funext a; apply Fin.ext
  match a with
  | ⟨0, _⟩ => show win1_5.index t 0 * 1 + 1 * 0 = t.val / 10; rw [hi.1]; omega
  | ⟨1, _⟩ => show win1_5.index t 1 * 128 + 1 * g.val = g.val; rw [hi.2.1]; omega
  | ⟨2, _⟩ => show win1_5.index t 2 * 128 + 1 * j.val = j.val; rw [hi.2.2]; omega
theorem emb6 (t : Fin cfg1.N) (g j : Fin 128) :
    ((cfg1.win 6).blk t).view.emb (ix3 (0 : Fin 1) g j) = ix3 (⟨t.val / 10, by have := tN t; omega⟩ : Fin 2) g j := by
  have hi := (idx t).2.2.2.2.2.2
  funext a; apply Fin.ext
  match a with
  | ⟨0, _⟩ => show win1_6.index t 0 * 1 + 1 * 0 = t.val / 10; rw [hi.1]; omega
  | ⟨1, _⟩ => show win1_6.index t 1 * 128 + 1 * g.val = g.val; rw [hi.2.1]; omega
  | ⟨2, _⟩ => show win1_6.index t 2 * 128 + 1 * j.val = j.val; rw [hi.2.2]; omega

section Core
variable {N : ℕ} (hN : N = 20) (bv : Fin 100000 → BitVec 32) (bB : Fin N → Vec Ideal S5000x1 .i32)
  (hbB : ∀ t r, bB t (ix2 r 0) = bv (node (tl hN t) r))
include hbB

-- restarted at a core's first step and stepped by the tile's contraction, at the core's last step the block holds the sum over the core's ten tiles, which are the core's nodes
theorem acc_part (f : Fin 100000 → Fin 128 → EReal) (B : Fin N → FVec Ideal S5000x128 .bf16)
    (hB : ∀ t r j, B t (ix2 r j) = f (node (tl hN t) r) j)
    (Z : Vec Ideal S1x128x128 .f32) (hZ : ∀ i, Z i = 0) (s : (n : ℕ) → n < N → Vec Ideal S1x128x128 .f32)
    (h0 : ∀ t : Fin N, t.val % 10 = 0 → s t.val t.isLt = k1_pay1 (k1_pay5 (bB t)) (B t) Z)
    (hs : ∀ t : Fin N, ¬t.val % 10 = 0 → s t.val t.isLt
      = k1_pay1 (k1_pay5 (bB t)) (B t) (s (t.val - 1) (Nat.lt_of_le_of_lt (Nat.sub_le _ _) t.isLt)))
    (t : Fin N) (h9 : t.val % 10 = 9) (g j : Fin 128) :
    s t.val t.isLt (ix3 0 g j) = Reg.part bv f ⟨t.val / 10, by have := t.isLt; omega⟩ g j := by
  subst hN
  have ht := t.isLt
  have step : ∀ (u : Fin 20) (acc : Vec Ideal S1x128x128 .f32), k1_pay1 (k1_pay5 (bB u)) (B u) acc (ix3 0 g j)
      = acc (ix3 0 g j) + ∑ r : Fin 5000, Reg.oh bv (node u r) g * f (node u r) j := fun u acc => by
    rw [pay1_apply]
    refine congrArg (acc (ix3 0 g j) + ·) (Finset.sum_congr rfl fun r _ => ?_)
    rw [hbB, hB]
    rfl
  have e := Pool12.acc_closed 20 (fun n h => s n h (ix3 0 g j))
    (fun n => if h : n < 20 then ∑ r : Fin 5000, Reg.oh bv (node ⟨n, h⟩ r) g * f (node ⟨n, h⟩ r) j else 0)
    (fun n h hm => by rw [dif_pos h, h0 ⟨n, h⟩ hm, step, hZ, zero_add])
    (fun n h hm => by rw [dif_pos h, hs ⟨n + 1, h⟩ hm, step]; rfl) t.val ht
  have e9 : t.val % 10 + 1 = 10 := by omega
  have eb : t.val - t.val % 10 = 10 * (t.val / 10) := by omega
  rw [e, e9, eb, Finset.sum_range]
  refine Eq.trans (Finset.sum_congr rfl fun i _ => ?_)
    (Cert.Gnn.Tile.sum_core (fun n => Reg.oh bv n g * f n j) ⟨t.val / 10, by omega⟩)
  rw [dif_pos (by have := i.isLt; omega)]
  rfl

end Core

theorem hz2 : (![0, 0] : Fin 2 → Nat) = fun _ => 0 := funext fun a => by fin_cases a <;> rfl
theorem hz3 : (![0, 0, 0] : Fin 3 → Nat) = fun _ => 0 := funext fun a => by fin_cases a <;> rfl

-- of the three values after point t the first is the tile of h = a * d + b, and at a core's last step the other two are the core's partial one-hot sums of h and of h * h
theorem core {N : ℕ} (hN : N = 20) (a : Fin 100000 → Fin 128 → EReal) (d : Fin 100000 → EReal) (bv : Fin 100000 → BitVec 32)
    (b : Fin 128 → EReal) (bA : Fin N → Vec Ideal S5000x128 .f32) (bD : Fin N → Vec Ideal S5000x1 .f32)
    (bB : Fin N → Vec Ideal S5000x1 .i32) (bW : Fin N → Vec Ideal S1x128 .f32)
    (hbA : ∀ t r j, bA t (ix2 r j) = a (node (tl hN t) r) j) (hbD : ∀ t r, bD t (ix2 r 0) = d (node (tl hN t) r))
    (hbB : ∀ t r, bB t (ix2 r 0) = bv (node (tl hN t) r)) (hbW : ∀ t j, bW t (ix2 0 j) = b j)
    (o : (n : ℕ) → n < N → Vec Ideal S5000x128 .f32 × Vec Ideal S1x128x128 .f32 × Vec Ideal S1x128x128 .f32)
    (hA : ∀ t : Fin N, t.val % 10 = 0 → o t.val t.isLt = (k1_pay4 (bA t) (bD t) (bW t),
      k1_pay6 (bA t) (bD t) (bW t) (bB t) (k1_pay2 (F := Ideal)), k1_pay1 (k1_pay5 (bB t)) (k1_pay7 (bA t) (bD t) (bW t)) (k1_pay3 (F := Ideal))))
    (hB : ∀ t : Fin N, ¬t.val % 10 = 0 → o t.val t.isLt = (k1_pay4 (bA t) (bD t) (bW t),
      k1_pay6 (bA t) (bD t) (bW t) (bB t) (o (t.val - 1) (Nat.lt_of_le_of_lt (Nat.sub_le _ _) t.isLt)).2.1,
      k1_pay1 (k1_pay5 (bB t)) (k1_pay7 (bA t) (bD t) (bW t)) (o (t.val - 1) (Nat.lt_of_le_of_lt (Nat.sub_le _ _) t.isLt)).2.2))
    (t : Fin N) :
    (∀ r j, (o t.val t.isLt).1 (ix2 r j) = Reg.hb a d b (node (tl hN t) r) j) ∧
    (t.val % 10 = 9 → ∀ g j,
      (o t.val t.isLt).2.1 (ix3 0 g j) = Reg.part bv (Reg.hb a d b) ⟨t.val / 10, by have := t.isLt; omega⟩ g j ∧
      (o t.val t.isLt).2.2 (ix3 0 g j)
        = Reg.part bv (fun n j => Reg.hb a d b n j * Reg.hb a d b n j) ⟨t.val / 10, by have := t.isLt; omega⟩ g j) := by
  have htile : ∀ (u : Fin N) r j, k1_pay4 (bA u) (bD u) (bW u) (ix2 r j) = Reg.hb a d b (node (tl hN u) r) j :=
    fun u r j => by rw [pay4_apply, hbA, hbD, hbW]; rfl
  refine ⟨fun r j => ?_, fun h9 g j => ⟨?_, ?_⟩⟩
  · by_cases h0 : t.val % 10 = 0
    · rw [hA t h0]; exact htile t r j
    · rw [hB t h0]; exact htile t r j
  · exact acc_part hN bv bB hbB _ (fun u => truncf .bf16 (k1_pay4 (bA u) (bD u) (bW u)) bitsLt_bf16_f32) htile (k1_pay2 (F := Ideal)) zero5
      (fun n h => (o n h).2.1) (fun u hm => congrArg (·.2.1) (hA u hm)) (fun u hm => congrArg (·.2.1) (hB u hm)) t h9 g j
  · exact acc_part hN bv bB hbB _ (fun u => k1_pay7 (bA u) (bD u) (bW u))
      (fun u r j => congrArg₂ (· * ·) (htile u r j) (htile u r j)) (k1_pay3 (F := Ideal)) zero6
      (fun n h => (o n h).2.2) (fun u hm => congrArg (·.2.2) (hA u hm)) (fun u hm => congrArg (·.2.2) (hB u hm)) t h9 g j

end Cert.KernelIdeal.Val.Stats

end
-- ==== Proof.RegStats1.lean ====
import proofs.«423410_j58634893525678_2_alg».proof.Proof.Gen.KernelIdeal.Frame
import proofs.«423410_j58634893525678_2_alg».proof.Proof.RegStatsLib
import Idealize.ShloMosaic.Lib.Tactic

set_option maxRecDepth 16384

noncomputable section

namespace Cert.KernelIdeal.Val

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen
open Cert.Gnn.Tile (node)
open Stats (hz2 hz3 tl tN emb0 emb1 emb2 emb3 emb4 emb5 emb6)

namespace Stats1

variable (V : (c : Dev nD) → (b : Ref sig .tc) → Buf (Elt Ideal) ((c : Thread nD τ).loc b)) (c : Dev nD)

-- at a core's first step the three values are the payloads at the point's tiles, the accumulators stepped from the zero block
theorem outsA (t : Fin cfg1.N) (h0 : t.val % 10 = 0) :
    outsAt1 V c t.val t.isLt = (k1_pay4 (iblk1 V c 0 t) (iblk1 V c 1 t) (iblk1 V c 3 t),
      k1_pay6 (iblk1 V c 0 t) (iblk1 V c 1 t) (iblk1 V c 3 t) (iblk1 V c 2 t) (k1_pay2 (F := Ideal)),
      k1_pay1 (k1_pay5 (iblk1 V c 2 t)) (k1_pay7 (iblk1 V c 0 t) (iblk1 V c 1 t) (iblk1 V c 3 t)) (k1_pay3 (F := Ideal))) := by
  rw [outsAt1_A V c t h0]
  unfold out1_A_4 out1_A_5 out1_A_6
  rw [View.read_writes_eq_canon _ _ _ (cover1_A_4 _ _ _ _ _ _ _ _ _ _ _ _ _ _ _ _ _ _ _ _ _), View.read_writes_eq_canon _ _ _ (cover1_A_5 _ _ _ _ _ _ _ _ _ _ _ _ _ _ _ _ _ _ _ _ _),
    View.read_writes_eq_canon _ _ _ (cover1_A_6 _ _ _ _ _ _ _ _ _ _ _ _ _ _ _ _ _ _ _ _ _)]
  unfold kernelRun1_A
  dsimp only
  sl_unfold_words
  rw [View.canon_unit_zero hz2, View.canon_cons_unit_zero (S := S1x128x128) hz3, View.canon_cons_unit_zero (S := S1x128x128) hz3]
  simp only [View.readAt_eq_ld, (hs1_0 t).read_unread, (hs1_1 t).read_unread, (hs1_2 t).read_unread, (hs1_3 t).read_unread,
    (hs1_5 t).read_unread, (hs1_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

-- at a later step the accumulators are stepped from their values after the point before
theorem outsB (t : Fin cfg1.N) (h0 : ¬t.val % 10 = 0) :
    outsAt1 V c t.val t.isLt = (k1_pay4 (iblk1 V c 0 t) (iblk1 V c 1 t) (iblk1 V c 3 t),
      k1_pay6 (iblk1 V c 0 t) (iblk1 V c 1 t) (iblk1 V c 3 t) (iblk1 V c 2 t) (outsAt1 V c (t.val - 1) (Nat.lt_of_le_of_lt (Nat.sub_le _ _) t.isLt)).2.1,
      k1_pay1 (k1_pay5 (iblk1 V c 2 t)) (k1_pay7 (iblk1 V c 0 t) (iblk1 V c 1 t) (iblk1 V c 3 t)) (outsAt1 V c (t.val - 1) (Nat.lt_of_le_of_lt (Nat.sub_le _ _) t.isLt)).2.2) := by
  rw [outsAt1_B V c t h0]
  unfold out1_B_4 out1_B_5 out1_B_6
  rw [View.read_writes_eq_canon _ _ _ (cover1_B_4 _ _ _ _ _ _ _ _ _ _ _ _ _ _ _ _ _ _ _ _ _ _ _), View.read_writes_eq_canon _ _ _ (cover1_B_5 _ _ _ _ _ _ _ _ _ _ _ _ _ _ _ _ _ _ _ _ _ _ _),
    View.read_writes_eq_canon _ _ _ (cover1_B_6 _ _ _ _ _ _ _ _ _ _ _ _ _ _ _ _ _ _ _ _ _ _ _)]
  unfold kernelRun1_B
  dsimp only
  sl_unfold_words
  rw [View.canon_unit_zero hz2, View.canon_unit_zero hz3, View.canon_unit_zero hz3]
  simp only [View.readAt_eq_ld, (hs1_0 t).read_unread, (hs1_1 t).read_unread, (hs1_2 t).read_unread, (hs1_3 t).read_unread,
    (hs1_5 t).read_unread, (hs1_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

abbrev agg1 : Fin 100000 → Fin 128 → EReal := fun n j => V c (Pipeline.arrRef spec1 0) (ix2 n j)
abbrev dis1 : Fin 100000 → EReal := fun n => V c (Pipeline.arrRef spec1 1) (ix2 n 0)
abbrev bat1 : Fin 100000 → BitVec 32 := fun n => V c (Pipeline.arrRef spec1 2) (ix2 n 0)
abbrev bias1 : Fin 128 → EReal := fun j => V c (Pipeline.arrRef spec1 3) (ix2 0 j)
abbrev hb1 : Fin 100000 → Fin 128 → EReal := Cert.Gnn.Reg.hb (agg1 V c) (dis1 V c) (bias1 V c)

-- the general lemma at this region's tiles, each read at its place in its array
theorem facts (t : Fin cfg1.N) :
    (∀ r j, (outsAt1 V c t.val t.isLt).1 (ix2 r j) = hb1 V c (node (tl N_1 t) r) j) ∧
    (t.val % 10 = 9 → ∀ g j,
      (outsAt1 V c t.val t.isLt).2.1 (ix3 0 g j)
        = Cert.Gnn.Reg.part (bat1 V c) (hb1 V c) ⟨t.val / 10, by have := tN t; omega⟩ g j ∧
      (outsAt1 V c t.val t.isLt).2.2 (ix3 0 g j)
        = Cert.Gnn.Reg.part (bat1 V c) (fun n j => hb1 V c n j * hb1 V c n j) ⟨t.val / 10, by have := tN t; omega⟩ g j) :=
  Stats.core N_1 (agg1 V c) (dis1 V c) (bat1 V c) (bias1 V c) (iblk1 V c 0) (iblk1 V c 1) (iblk1 V c 2) (iblk1 V c 3)
    (fun t r j => congrArg (V c (Pipeline.arrRef spec1 0)) (emb0 t r j)) (fun t r => congrArg (V c (Pipeline.arrRef spec1 1)) (emb1 t r)) (fun t r => congrArg (V c (Pipeline.arrRef spec1 2)) (emb2 t r))
    (fun t j => congrArg (V c (Pipeline.arrRef spec1 3)) (emb3 t j)) (outsAt1 V c) (outsA V c) (outsB V c) t

def G4 : S100000x128.Idx → EReal := fun i => hb1 V c (i 0) (i 1)
def G5 : S2x128x128.Idx → EReal := fun i => Cert.Gnn.Reg.part (bat1 V c) (hb1 V c) (i 0) (i 1) (i 2)
def G6 : S2x128x128.Idx → EReal :=
  fun i => Cert.Gnn.Reg.part (bat1 V c) (fun n j => hb1 V c n j * hb1 V c n j) (i 0) (i 1) (i 2)

theorem flushed4 (t : Fin cfg1.N) (_ : (cfg1.win 4).flush t = true) :
    (dat1 V c).flushed 4 t = ((cfg1.win 4).blk t).view.read (Elt Ideal) (G4 V c) := by
  funext y
  obtain ⟨r, j, rfl⟩ : ∃ (r : Fin 5000) (j : Fin 128), y = ix2 r j := ⟨y 0, y 1, eq_ix2 y⟩
  show (cfg1.win 4).cut (grid1.coords t) ((dat1 V c).after 4 t) (ix2 r j)
      = G4 V c (((cfg1.win 4).blk t).view.emb (ix2 r j))
  rw [after1_4]
  exact ((facts V c t).1 r j).trans (congrArg (G4 V c) (emb4 t r j)).symm

-- node n is row n % 5000 of tile n / 5000
theorem hb_final (n : Fin 100000) (j : Fin 128) : (dat1 V c).arrAt 4 cfg1.N (ix2 n j) = hb1 V c n j := by
  have hn := n.isLt
  let t : Fin cfg1.N := ⟨n.val / 5000, by rw [show cfg1.N = 20 from N_1]; omega⟩
  let r : Fin 5000 := ⟨n.val % 5000, Nat.mod_lt _ (by norm_num)⟩
  have e : ((cfg1.win 4).blk t).view.emb (ix2 r j) = ix2 n j :=
    (emb4 t r j).trans (congrArg (ix2 · j) (Fin.ext (by show 5000 * (n.val / 5000) + n.val % 5000 = n.val; exact Nat.div_add_mod _ _)))
  exact (dat1 V c).arrAt_apply_of_mem 4 (G4 V c) (flushed4 V c) cfg1.N t (ix2 n j) t.isLt (flush1_4 t)
    (e ▸ ((cfg1.win 4).blk t).view.emb_mem_set (ix2 r j))

set_option maxRecDepth 200000 in
theorem flushed5 (t : Fin cfg1.N) (hf : (cfg1.win 5).flush t = true) :
    (dat1 V c).flushed 5 t = ((cfg1.win 5).blk t).view.read (Elt Ideal) (G5 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt1 V c t.val t.isLt).2.1 (ix3 (0 : Fin 1) g j)) ?_ ?_
  · show (cfg1.win 5).cut (grid1.coords t) ((dat1 V c).after 5 t) (ix3 (0 : Fin 1) g j) = _
    rw [after1_5]
    rfl
  · rw [View.read_apply]
    exact ((facts V c t).2 ((flush1_5 t).mp hf) g j).1.trans (congrArg (G5 V c) (emb5 t g j)).symm
set_option maxRecDepth 200000 in
theorem flushed6 (t : Fin cfg1.N) (hf : (cfg1.win 6).flush t = true) :
    (dat1 V c).flushed 6 t = ((cfg1.win 6).blk t).view.read (Elt Ideal) (G6 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt1 V c t.val t.isLt).2.2 (ix3 (0 : Fin 1) g j)) ?_ ?_
  · show (cfg1.win 6).cut (grid1.coords t) ((dat1 V c).after 6 t) (ix3 (0 : Fin 1) g j) = _
    rw [after1_6]
    rfl
  · rw [View.read_apply]
    exact ((facts V c t).2 ((flush1_6 t).mp hf) g j).2.trans (congrArg (G6 V c) (emb6 t g j)).symm

-- block k of the sums is the value after point 10 k + 9, core k's last
theorem s1_final (k : Fin 2) (g j : Fin 128) :
    (dat1 V c).arrAt 5 cfg1.N (ix3 k g j) = Cert.Gnn.Reg.part (bat1 V c) (hb1 V c) k g j := by
  have hk := k.isLt
  let t : Fin cfg1.N := ⟨10 * k.val + 9, by rw [show cfg1.N = 20 from N_1]; omega⟩
  have e : ((cfg1.win 5).blk t).view.emb (ix3 (0 : Fin 1) g j) = ix3 k g j :=
    (emb5 t g j).trans (congrArg (ix3 · g j) (Fin.ext (by show (10 * k.val + 9) / 10 = k.val; omega)))
  exact (dat1 V c).arrAt_apply_of_mem 5 (G5 V c) (flushed5 V c) cfg1.N t (ix3 k g j) t.isLt
    ((flush1_5 t).mpr (by show (10 * k.val + 9) % 10 = 9; omega)) (e ▸ ((cfg1.win 5).blk t).view.emb_mem_set (ix3 (0 : Fin 1) g j))
theorem s2_final (k : Fin 2) (g j : Fin 128) :
    (dat1 V c).arrAt 6 cfg1.N (ix3 k g j)
      = Cert.Gnn.Reg.part (bat1 V c) (fun n j => hb1 V c n j * hb1 V c n j) k g j := by
  have hk := k.isLt
  let t : Fin cfg1.N := ⟨10 * k.val + 9, by rw [show cfg1.N = 20 from N_1]; omega⟩
  have e : ((cfg1.win 6).blk t).view.emb (ix3 (0 : Fin 1) g j) = ix3 k g j :=
    (emb6 t g j).trans (congrArg (ix3 · g j) (Fin.ext (by show (10 * k.val + 9) / 10 = k.val; omega)))
  exact (dat1 V c).arrAt_apply_of_mem 6 (G6 V c) (flushed6 V c) cfg1.N t (ix3 k g j) t.isLt
    ((flush1_6 t).mpr (by show (10 * k.val + 9) % 10 = 9; omega)) (e ▸ ((cfg1.win 6).blk t).view.emb_mem_set (ix3 (0 : Fin 1) g j))

end Stats1

theorem stats1_hb (V : (c : Dev nD) → (b : Ref sig .tc) → Buf (Elt Ideal) ((c : Thread nD τ).loc b))
    (c : Dev nD) (n : Fin 100000) (j : Fin 128) :
    (Gen.dat1 (F := Ideal) V c).arrAt 4 cfg1.N (ix2 n j)
      = Cert.Gnn.Reg.hb (fun n j => V c (Pipeline.arrRef spec1 0) (ix2 n j)) (fun n => V c (Pipeline.arrRef spec1 1) (ix2 n 0))
          (fun j => V c (Pipeline.arrRef spec1 3) (ix2 0 j)) n j :=
  Stats1.hb_final V c n j

theorem stats1_s1 (V : (c : Dev nD) → (b : Ref sig .tc) → Buf (Elt Ideal) ((c : Thread nD τ).loc b))
    (c : Dev nD) (k : Fin 2) (g j : Fin 128) :
    (Gen.dat1 (F := Ideal) V c).arrAt 5 cfg1.N (ix3 k g j)
      = Cert.Gnn.Reg.part (fun n => V c (Pipeline.arrRef spec1 2) (ix2 n 0))
          (Cert.Gnn.Reg.hb (fun n j => V c (Pipeline.arrRef spec1 0) (ix2 n j)) (fun n => V c (Pipeline.arrRef spec1 1) (ix2 n 0))
            (fun j => V c (Pipeline.arrRef spec1 3) (ix2 0 j))) k g j :=
  Stats1.s1_final V c k g j

theorem stats1_s2 (V : (c : Dev nD) → (b : Ref sig .tc) → Buf (Elt Ideal) ((c : Thread nD τ).loc b))
    (c : Dev nD) (k : Fin 2) (g j : Fin 128) :
    (Gen.dat1 (F := Ideal) V c).arrAt 6 cfg1.N (ix3 k g j)
      = Cert.Gnn.Reg.part (fun n => V c (Pipeline.arrRef spec1 2) (ix2 n 0))
          (fun n j => Cert.Gnn.Reg.hb (fun n j => V c (Pipeline.arrRef spec1 0) (ix2 n j)) (fun n => V c (Pipeline.arrRef spec1 1) (ix2 n 0))
              (fun j => V c (Pipeline.arrRef spec1 3) (ix2 0 j)) n j
            * Cert.Gnn.Reg.hb (fun n j => V c (Pipeline.arrRef spec1 0) (ix2 n j)) (fun n => V c (Pipeline.arrRef spec1 1) (ix2 n 0))
              (fun j => V c (Pipeline.arrRef spec1 3) (ix2 0 j)) n j) k g j :=
  Stats1.s2_final V c k g j

end Cert.KernelIdeal.Val

end
-- ==== Proof.RegNormLib.lean ====
import proofs.«423410_j58634893525678_2_alg».proof.Proof.Gen.KernelIdeal.Frame
import proofs.«423410_j58634893525678_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Val.NormLib

open Idealize.ShloMosaic Idealize.ShloMosaic.TcCoe Idealize.ShloMosaic.ValueIdx Cert.KernelIdeal Cert.KernelIdeal.Gen Cert.Gnn

abbrev DD : DotDims S5000x128 S128x128 S5000x128 := dot_S5000x128_S128x128_S5000x128_1_0_0_1_n_n

theorem dd_lhs_0 (j : S5000x128.Idx) (k : DD.contr.Idx) : (DD.lhsIdx j k 0).val = (j 0).val := by
  simp [DotDims.lhsIdx, DD, dot_S5000x128_S128x128_S5000x128_1_0_0_1_n_n]; rfl
theorem dd_lhs_1 (j : S5000x128.Idx) (k : DD.contr.Idx) : (DD.lhsIdx j k 1).val = (k ⟨0, by decide⟩).val :=
  DD.lhsIdx_val_of_single (cl := 1) rfl j k
theorem dd_rhs_0 (j : S5000x128.Idx) (k : DD.contr.Idx) : (DD.rhsIdx j k 0).val = (k ⟨0, by decide⟩).val :=
  DD.rhsIdx_val_of_single (cr := 0) rfl j k
theorem dd_rhs_1 (j : S5000x128.Idx) (k : DD.contr.Idx) : (DD.rhsIdx j k 1).val = (j 1).val := by
  simp [DotDims.rhsIdx, DD, dot_S5000x128_S128x128_S5000x128_1_0_0_1_n_n]; rfl

-- the contraction index is its one coordinate, so the sum runs over the 128 table rows
theorem mm_apply (A : FVec Ideal S5000x128 .f32) (B : FVec Ideal S128x128 .f32) (p : Fin 5000) (q : Fin 128) :
    matmul DD (some .fp32) A B (constant S5000x128 .f32 0x00000000#32) (ix2 p q)
      = ∑ g : Fin 128, A (ix2 p g) * B (ix2 g q) := by
  simp only [matmul]
  rw [Ideal.matmul_constant_zero_apply, ← Equiv.sum_comp (contrEquiv1 DD 128 rfl rfl).symm]
  refine Finset.sum_congr rfl fun g _ => ?_
  have hk := contrEquiv1_symm_val DD 128 rfl rfl g
  rw [show DD.lhsIdx (ix2 p q) ((contrEquiv1 DD 128 rfl rfl).symm g) = ix2 p g from
      Shape.idx_ext₂ (dd_lhs_0 _ _) ((dd_lhs_1 _ _).trans hk),
    show DD.rhsIdx (ix2 p q) ((contrEquiv1 DD 128 rfl rfl).symm g) = ix2 g q from
      Shape.idx_ext₂ ((dd_rhs_0 _ _).trans hk) (dd_rhs_1 _ _)]

-- the comparison bit, widened and converted, is 1 on equal words and 0 otherwise
theorem bit_eq_apply (x y : BitVec 32) :
    (FloatOps.sitofp .f32 ((IntOp.cmpi .eq x y).setWidth 32) : Ideal .f32) = if x = y then (1 : EReal) else 0 := by
  show (((((IntOp.cmpi .eq x y).setWidth 32).toInt : ℝ)) : EReal) = _
  by_cases h : x = y
  · subst h; simp [IntOp.cmpi]
  · have hb : (x == y) = false := by simpa using h
    simp [IntOp.cmpi, hb, h]

-- row p of the one-hot table compares the row's word with the lane numbers
theorem oh_apply (v2 : Vec Ideal S5000x1 .i32) (p : Fin 5000) (g : Fin 128) :
    (sitofp .f32 (extui 32 (cmpi .eq (broadcastTo S5000x128 v2 broadcasts_S5000x1_S5000x128)
        (iota .tc S5000x128 32 [1] iota_S5000x128_d1_w32)) natLt_1_32) : FVec Ideal S5000x128 .f32) (ix2 p g)
      = if v2 (ix2 p 0) = BitVec.ofNat 32 g.val then (1 : EReal) else 0 := by
  rw [sitofp_apply, extui_apply]
  show FloatOps.sitofp .f32 ((IntOp.cmpi .eq
      (broadcastTo S5000x128 v2 broadcasts_S5000x1_S5000x128 (ix2 p g))
      (iota .tc S5000x128 32 [1] iota_S5000x128_d1_w32 (ix2 p g))).setWidth 32) = _
  rw [iota_single_apply,
    broadcastTo_apply v2 broadcasts_S5000x1_S5000x128 (ix2 p g) (ix2 p 0) (fun a => by
      match a with
      | ⟨0, _⟩ => rfl
      | ⟨1, _⟩ => rfl)]
  exact bit_eq_apply _ _

theorem mm_oh_apply (v2 : Vec Ideal S5000x1 .i32) (B : FVec Ideal S128x128 .f32) (p : Fin 5000) (q : Fin 128) :
    matmul DD (some .fp32)
        (sitofp .f32 (extui 32 (cmpi .eq (broadcastTo S5000x128 v2 broadcasts_S5000x1_S5000x128)
          (iota .tc S5000x128 32 [1] iota_S5000x128_d1_w32)) natLt_1_32) : FVec Ideal S5000x128 .f32)
        B (constant S5000x128 .f32 0x00000000#32) (ix2 p q)
      = ∑ g : Fin 128, (if v2 (ix2 p 0) = BitVec.ofNat 32 g.val then (1 : EReal) else 0) * B (ix2 g q) := by
  rw [mm_apply]
  exact Finset.sum_congr rfl fun g _ => by rw [oh_apply]

-- "greater than the zero word" is positivity
theorem select_ogt (y e : EReal) :
    Scalar.select (FloatOps.cmpf (F := Ideal) (φ := .f32) .ogt y (Ideal.ofBits .f32 0x00000000#32)) y e = if 0 < y then y else e := by
  rw [Ideal.ofBits_zero_f32]
  show (if BitVec.ofBool (decide ((0 : EReal) < y)) = 1#1 then y else e) = _
  by_cases h : (0 : EReal) < y <;> simp [h]

/-- the pre-activation at row p, column q of a block -/
def pre (v0 : Vec Ideal S5000x128 .f32) (v2 : Vec Ideal S5000x1 .i32) (v9 v12 : Vec Ideal S128x128 .f32)
    (v15 v20 v28 : Vec Ideal S1x128 .f32) (p : Fin 5000) (q : Fin 128) : EReal :=
  v20 (ix2 0 q) * (v0 (ix2 p q) - v15 (ix2 0 q) * ∑ g : Fin 128, (if v2 (ix2 p 0) = BitVec.ofNat 32 g.val then (1 : EReal) else 0) * v9 (ix2 g q))
    * Ideal.rsqrt ((∑ g : Fin 128, (if v2 (ix2 p 0) = BitVec.ofNat 32 g.val then (1 : EReal) else 0) * v12 (ix2 g q)) + Ideal.ofBits .f32 0x3727C5AC#32)
    + v28 (ix2 0 q)

theorem hz : (![0, 0] : Fin 2 → Nat) = fun _ => 0 := funext fun a => by fin_cases a <;> rfl

-- a block at row-block b, column-block 0 sits at rows b s .. b s + s - 1 of its array
theorem emb_row {m s k : Nat} {e : (⟨2, ![s, k]⟩ : Shape).Idx → (⟨2, ![m, k]⟩ : Shape).Idx} {b : Nat}
    (H : ∀ y a, (e y a).val = ![b, 0] a * ![s, k] a + (y a).val) (p : Fin s) (q : Fin k) (r : Fin m)
    (hr : b * s + p.val = r.val) : e (ix2 p q) = ix2 r q :=
  Shape.idx_ext₂ ((H _ 0).trans hr) ((H _ 1).trans (by show 0 * k + q.val = q.val; omega))

/-- the block indices of the nine windows at point n: the row tiles at (n, 0), the tables at (0, 0) -/
abbrev RowIdx (n : Nat) (i0 i1 i2 i3 i4 i5 i6 i7 i8 : Fin 2 → Nat) : Prop :=
  i0 = ![n, 0] ∧ i1 = ![n, 0] ∧ i2 = ![0, 0] ∧ i3 = ![0, 0] ∧ i4 = ![0, 0] ∧ i5 = ![0, 0] ∧ i6 = ![0, 0]
    ∧ i7 = ![n, 0] ∧ i8 = ![n, 0]

/-- the layer formula of eight whole arrays, at an index of the output array -/
def G (A0 : S100000x128.Idx → EReal) (A1 : S100000x1.Idx → BitVec 32) (A2 A3 : S128x128.Idx → EReal)
    (A4 A5 A6 : S1x128.Idx → EReal) (A7 : S100000x128.Idx → EReal) (i : S100000x128.Idx) : EReal :=
  Reg.norm (fun n j => A0 (ix2 n j)) (fun n => A1 (ix2 n 0)) (fun g j => A2 (ix2 g j)) (fun g j => A3 (ix2 g j))
    (fun j => A4 (ix2 0 j)) (fun j => A5 (ix2 0 j)) (fun j => A6 (ix2 0 j)) (fun n j => A7 (ix2 n j)) (i 0) (i 1)

-- row r is row r % 5000 of the tile of point r / 5000
theorem cover_rows {e : Fin 20 → S5000x128.Idx → S100000x128.Idx} {ix : Fin 20 → Fin 2 → Nat}
    (H : ∀ t y a, (e t y a).val = ix t a * S5000x128.size a + (y a).val) (hi : ∀ t : Fin 20, ix t = ![t.val, 0])
    (i : S100000x128.Idx) : ∃ t y, e t y = i := by
  have h0 : (i 0).val < 100000 := (i 0).isLt
  exact ⟨⟨(i 0).val / 5000, by omega⟩, ix2 ⟨(i 0).val % 5000, by omega⟩ (i 1),
    (emb_row (b := (i 0).val / 5000) (fun y a => (H _ y a).trans (by rw [hi])) _ _ (i 0)
      (by show (i 0).val / 5000 * 5000 + (i 0).val % 5000 = _; omega)).trans (eq_ix2 i).symm⟩

-- the body's select is the ELU of the pre-activation
theorem pay2_apply (v0 : Vec Ideal S5000x128 .f32) (v2 : Vec Ideal S5000x1 .i32) (v9 v12 : Vec Ideal S128x128 .f32)
    (v15 v20 v28 : Vec Ideal S1x128 .f32) (p : Fin 5000) (q : Fin 128) :
    k2_pay2 (F := Ideal) v0 v2 v9 v12 v15 v20 v28 (ix2 p q) = Reg.elu (pre v0 v2 v9 v12 v15 v20 v28 p q) := by
  unfold k2_pay2
  dsimp only [select, cmpf, addf, subf, mulf, exp, rsqrt, broadcast]
  simp only [shapeCast_self]
  rw [mm_oh_apply, mm_oh_apply]
  simp only [broadcastTo_1b_ab_apply, Ideal.ofBits_def, Ideal.addf_def, Ideal.subf_def, Ideal.mulf_def,
    Ideal.rsqrt_def, Ideal.exp_def]
  rw [select_ogt, Ideal.ofBits_one_f32]
  rfl

/-- out computes the layer formula at (n, q) from blocks that hold the arrays' entries the formula reads there -/
def Computes (out : Vec Ideal S5000x128 .f32 → Vec Ideal S5000x1 .i32 → Vec Ideal S128x128 .f32 → Vec Ideal S128x128 .f32
    → Vec Ideal S1x128 .f32 → Vec Ideal S1x128 .f32 → Vec Ideal S1x128 .f32 → Vec Ideal S5000x128 .f32
    → Vec Ideal S5000x128 .f32) : Prop :=
  ∀ x0 x1 x2 x3 x4 x5 x6 x7 (p : Fin 5000) (q : Fin 128) (h : Fin 100000 → Fin 128 → EReal) (bv : Fin 100000 → BitVec 32)
    (mean var : Fin 128 → Fin 128 → EReal) (a w b : Fin 128 → EReal) (r : Fin 100000 → Fin 128 → EReal) (n : Fin 100000),
    x0 (ix2 p q) = h n q → x1 (ix2 p 0) = bv n → (∀ g : Fin 128, x2 (ix2 g q) = mean g q)
    → (∀ g : Fin 128, x3 (ix2 g q) = var g q) → x4 (ix2 0 q) = a q → x5 (ix2 0 q) = w q → x6 (ix2 0 q) = b q
    → x7 (ix2 p q) = r n q → out x0 x1 x2 x3 x4 x5 x6 x7 (ix2 p q) = Reg.norm h bv mean var a w b r n q

-- the stored block adds the residual block to the select, and the formula reads only row n and column q
theorem canon_norm (pay1 : FVec Ideal S5000x128 .f32 → Vec Ideal S5000x128 .f32 → FVec Ideal S5000x128 .f32)
    (hp : ∀ u x i, pay1 u x i = u i + x i) :
    Computes fun x0 x1 x2 x3 x4 x5 x6 x7 => View.canon [⟨r2_0, pay1 (k2_pay2 (View.ld x0 r2_0) (View.ld x1 r2_1)
      (View.ld x2 r2_2) (View.ld x3 r2_2) (View.ld x4 r2_3) (View.ld x5 r2_3) (View.ld x6 r2_3)) (View.ld x7 r2_0)⟩] := by
  intro x0 x1 x2 x3 x4 x5 x6 x7 p q h bv mean var a w b r n h0 h1 h2 h3 h4 h5 h6 h7
  try dsimp only
  rw [View.canon_unit_zero hz]
  simp only [View.ld_unit_zero (S := S5000x128) hz, View.ld_unit_zero (S := S5000x1) hz,
    View.ld_unit_zero (S := S128x128) hz, View.ld_unit_zero (S := S1x128) hz]
  rw [hp, pay2_apply]
  unfold pre Reg.norm Reg.oh
  simp only [h0, h1, h2, h3, h4, h5, h6, h7]
  rfl

theorem out2_norm : Computes (out2_8 (F := Ideal)) := canon_norm k2_pay1 fun _ _ _ => rfl
theorem out5_norm : Computes (out5_8 (F := Ideal)) :=
  canon_norm k5_pay1 fun u x i => by unfold k5_pay1; simp only [shapeCast_self]; rfl

-- a point's tile of the output is the layer formula at the tile's rows: each block is its window of its array
theorem tile_norm {out : Vec Ideal S5000x128 .f32 → Vec Ideal S5000x1 .i32 → Vec Ideal S128x128 .f32 → Vec Ideal S128x128 .f32
      → Vec Ideal S1x128 .f32 → Vec Ideal S1x128 .f32 → Vec Ideal S1x128 .f32 → Vec Ideal S5000x128 .f32
      → Vec Ideal S5000x128 .f32} (hout : Computes out)
    {n : Nat} (hn : n < 20) {i0 i1 i2 i3 i4 i5 i6 i7 i8 : Fin 2 → Nat}
    (hi : RowIdx n i0 i1 i2 i3 i4 i5 i6 i7 i8)
    {x0 x7 : Vec Ideal S5000x128 .f32} {x1 : Vec Ideal S5000x1 .i32} {x2 x3 : Vec Ideal S128x128 .f32}
    {x4 x5 x6 : Vec Ideal S1x128 .f32}
    (A0 : S100000x128.Idx → EReal) (A1 : S100000x1.Idx → BitVec 32) (A2 A3 : S128x128.Idx → EReal)
    (A4 A5 A6 : S1x128.Idx → EReal) (A7 : S100000x128.Idx → EReal)
    {e0 e7 e8 : S5000x128.Idx → S100000x128.Idx} {e1 : S5000x1.Idx → S100000x1.Idx}
    {e2 e3 : S128x128.Idx → S128x128.Idx} {e4 e5 e6 : S1x128.Idx → S1x128.Idx}
    (H0 : ∀ y a, (e0 y a).val = i0 a * S5000x128.size a + (y a).val)
    (H1 : ∀ y a, (e1 y a).val = i1 a * S5000x1.size a + (y a).val)
    (H2 : ∀ y a, (e2 y a).val = i2 a * S128x128.size a + (y a).val)
    (H3 : ∀ y a, (e3 y a).val = i3 a * S128x128.size a + (y a).val)
    (H4 : ∀ y a, (e4 y a).val = i4 a * S1x128.size a + (y a).val)
    (H5 : ∀ y a, (e5 y a).val = i5 a * S1x128.size a + (y a).val)
    (H6 : ∀ y a, (e6 y a).val = i6 a * S1x128.size a + (y a).val)
    (H7 : ∀ y a, (e7 y a).val = i7 a * S5000x128.size a + (y a).val)
    (H8 : ∀ y a, (e8 y a).val = i8 a * S5000x128.size a + (y a).val)
    (h0 : ∀ y, x0 y = A0 (e0 y)) (h1 : ∀ y, x1 y = A1 (e1 y)) (h2 : ∀ y, x2 y = A2 (e2 y)) (h3 : ∀ y, x3 y = A3 (e3 y))
    (h4 : ∀ y, x4 y = A4 (e4 y)) (h5 : ∀ y, x5 y = A5 (e5 y)) (h6 : ∀ y, x6 y = A6 (e6 y)) (h7 : ∀ y, x7 y = A7 (e7 y))
    (y : S5000x128.Idx) : out x0 x1 x2 x3 x4 x5 x6 x7 y = G A0 A1 A2 A3 A4 A5 A6 A7 (e8 y) := by
  obtain ⟨rfl, rfl, rfl, rfl, rfl, rfl, rfl, rfl, rfl⟩ := hi
  obtain ⟨p, q, rfl⟩ : ∃ (p : Fin 5000) (q : Fin 128), y = ix2 p q := ⟨y 0, y 1, eq_ix2 y⟩
  have hp := p.isLt
  rw [emb_row H8 p q ⟨n * 5000 + p.val, by omega⟩ rfl]
  unfold G
  refine hout x0 x1 x2 x3 x4 x5 x6 x7 p q _ _ _ _ _ _ _ _ _ ?_ ?_ ?_ ?_ ?_ ?_ ?_ ?_
  · exact (h0 _).trans (congrArg A0 (emb_row H0 p q _ rfl))
  · exact (h1 _).trans (congrArg A1 (emb_row H1 p 0 _ rfl))
  · exact fun g => (h2 _).trans (congrArg A2 (emb_row H2 g q g (by omega)))
  · exact fun g => (h3 _).trans (congrArg A3 (emb_row H3 g q g (by omega)))
  · exact (h4 _).trans (congrArg A4 (emb_row H4 0 q 0 rfl))
  · exact (h5 _).trans (congrArg A5 (emb_row H5 0 q 0 rfl))
  · exact (h6 _).trans (congrArg A6 (emb_row H6 0 q 0 rfl))
  · exact (h7 _).trans (congrArg A7 (emb_row H7 p q _ rfl))

end Cert.KernelIdeal.Val.NormLib

end
-- ==== Proof.RegNorm2.lean ====
import proofs.«423410_j58634893525678_2_alg».proof.Proof.RegNormLib

noncomputable section

namespace Cert.KernelIdeal.Val

open Idealize.ShloMosaic Idealize.ShloMosaic.TcCoe Idealize.ShloMosaic.ValueIdx Cert.KernelIdeal Cert.KernelIdeal.Gen Cert.Gnn
open Cert.KernelIdeal.Val.NormLib

theorem idx2 : ∀ t : Fin cfg2.N, RowIdx t (win2_0.index t) (win2_1.index t) (win2_2.index t) (win2_3.index t) (win2_4.index t) (win2_5.index t) (win2_6.index t) (win2_7.index t) (win2_8.index t) :=
  (by decide +kernel : ∀ t : Fin grid2.N, _)

theorem tile2 (V : (c : Dev nD) → (b : Ref sig .tc) → Buf (Elt Ideal) ((c : Thread nD τ).loc b)) (c : Dev nD)
    (t : Fin cfg2.N) : (dat2 (F := Ideal) V c).flushed 8 t = ((cfg2.win 8).blk t).view.read (Elt Ideal)
      (G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  show (cfg2.win 8).cut (grid2.coords t) ((dat2 (F := Ideal) V c).after 8 t) = _
  rw [after2_8]
  funext y
  exact tile_norm out2_norm t.isLt (idx2 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))
    (fun y a => win2_0.rect_emb_val t y a)
    (fun y a => win2_1.rect_emb_val t y a)
    (fun y a => win2_2.rect_emb_val t y a)
    (fun y a => win2_3.rect_emb_val t y a)
    (fun y a => win2_4.rect_emb_val t y a)
    (fun y a => win2_5.rect_emb_val t y a)
    (fun y a => win2_6.rect_emb_val t y a)
    (fun y a => win2_7.rect_emb_val t y a)
    (fun y a => win2_8.rect_emb_val t y a)
    (fun _ => rfl) (fun _ => rfl) (fun _ => rfl) (fun _ => rfl) (fun _ => rfl) (fun _ => rfl) (fun _ => rfl) (fun _ => rfl) y

theorem cover2 (i : S100000x128.Idx) :
    ∃ t : Fin cfg2.N, (cfg2.win 8).flush t = true ∧ i ∈ ((cfg2.win 8).blk t).view.set := by
  obtain ⟨t, y, h⟩ := cover_rows (fun t y a => win2_8.rect_emb_val t y a) (fun t => (idx2 t).2.2.2.2.2.2.2.2) i
  exact ⟨t, flush2_8 t, Finset.mem_map.mpr ⟨y, Finset.mem_univ y, h⟩⟩

theorem norm2 (V : (c : Dev nD) → (b : Ref sig .tc) → Buf (Elt Ideal) ((c : Thread nD τ).loc b)) (c : Dev nD)
    (n : Fin 100000) (j : Fin 128) :
    (Gen.dat2 (F := Ideal) V c).arrAt 8 cfg2.N (ix2 n j)
      = Cert.Gnn.Reg.norm (fun n j => V c (Pipeline.arrRef spec2 0) (ix2 n j)) (fun n => V c (Pipeline.arrRef spec2 1) (ix2 n 0))
          (fun g j => V c (Pipeline.arrRef spec2 2) (ix2 g j)) (fun g j => V c (Pipeline.arrRef spec2 3) (ix2 g j))
          (fun j => V c (Pipeline.arrRef spec2 4) (ix2 0 j)) (fun j => V c (Pipeline.arrRef spec2 5) (ix2 0 j))
          (fun j => V c (Pipeline.arrRef spec2 6) (ix2 0 j)) (fun n j => V c (Pipeline.arrRef spec2 7) (ix2 n j)) n j :=
  congrFun ((dat2 (F := Ideal) V c).arrAt_eq_of_cover 8 _ (fun t _ => tile2 V c t) cover2) (ix2 n j)

end Cert.KernelIdeal.Val

end
-- ==== Proof.KerValRegL0.lean ====
import proofs.«423410_j58634893525678_2_alg».proof.Proof.Gen.KernelIdeal.Frame
import proofs.«423410_j58634893525678_2_alg».proof.Proof.Spec
import proofs.«423410_j58634893525678_2_alg».proof.Proof.RegMat0
import proofs.«423410_j58634893525678_2_alg».proof.Proof.RegStats1
import proofs.«423410_j58634893525678_2_alg».proof.Proof.RegNorm2
import Idealize.ShloMosaic.Lib.ValueIdx

set_option maxRecDepth 16384

noncomputable section

namespace Cert.KernelIdeal.Val

open Idealize.ShloMosaic Idealize.ShloMosaic.ValueIdx Idealize.ShloMosaic.TcCoe

variable (m : (ℓ : Loc nD τ sig) → Buf (Elt Ideal) ℓ) (ρ : Dev nD → PrngReg) (c : Dev nD)

-- a region rewrites only its output arrays: an input array is never written back, and a buffer it has no array on is not touched
theorem keep_region {W : Nat} {ref : Fin W → Ref sig .tc} {isOut : Fin W → Bool} {V' V : Valuation τ sig (Elt Ideal)}
    {outs : List (Ref sig .tc)} (hin : ∀ w, ref w ∉ outs → isOut w = false)
    (harr : ∀ w, isOut w = false → V' (Proc.devRef .tc (ref w)) = V (Proc.devRef .tc (ref w)))
    (hne : ∀ b, (∀ w, ref w ≠ b) → V' (Proc.devRef .tc b) = V (Proc.devRef .tc b)) {b : Ref sig .tc} (hb : b ∉ outs) :
    V' (Proc.devRef .tc b) = V (Proc.devRef .tc b) := by
  by_cases h : ∃ w, ref w = b
  · obtain ⟨w, rfl⟩ := h; exact harr w (hin w hb)
  · exact hne b fun w e => h ⟨w, e⟩

noncomputable def out0 : List (Ref sig .tc) := [main_v22]

set_option maxHeartbeats 1000000 in
theorem keepR0 {b : Ref sig .tc} (hb : b ∉ out0) :
    Gen.W2 (F := Ideal) m ρ c (Proc.devRef .tc b) = Gen.W1 (F := Ideal) m ρ c (Proc.devRef .tc b) :=
  keep_region (ref := Pipeline.arrRef spec0) (by decide) (fun w hw => (Gen.W2_arr m ρ c w).trans
    (((Gen.dat0 (Gen.V1 m ρ) c).arrAt_in w hw _).trans (Gen.A_eq0 (Gen.V1 m ρ) c w))) (Gen.W2_of_ne m ρ c) hb

noncomputable def out1 : List (Ref sig .tc) := [main_v36_0, main_v36_1, main_v36_2]

set_option maxHeartbeats 1000000 in
theorem keepR1 {b : Ref sig .tc} (hb : b ∉ out1) :
    Gen.W4 (F := Ideal) m ρ c (Proc.devRef .tc b) = Gen.W3 (F := Ideal) m ρ c (Proc.devRef .tc b) :=
  keep_region (ref := Pipeline.arrRef spec1) (by decide) (fun w hw => (Gen.W4_arr m ρ c w).trans
    (((Gen.dat1 (Gen.V3 m ρ) c).arrAt_in w hw _).trans (Gen.A_eq1 (Gen.V3 m ρ) c w))) (Gen.W4_of_ne m ρ c) hb

noncomputable def out2 : List (Ref sig .tc) := [main_v60]

set_option maxHeartbeats 1000000 in
theorem keepR2 {b : Ref sig .tc} (hb : b ∉ out2) :
    Gen.W6 (F := Ideal) m ρ c (Proc.devRef .tc b) = Gen.W5 (F := Ideal) m ρ c (Proc.devRef .tc b) :=
  keep_region (ref := Pipeline.arrRef spec2) (by decide) (fun w hw => (Gen.W6_arr m ρ c w).trans
    (((Gen.dat2 (Gen.V5 m ρ) c).arrAt_in w hw _).trans (Gen.A_eq2 (Gen.V5 m ρ) c w))) (Gen.W6_of_ne m ρ c) hb

end Cert.KernelIdeal.Val

end
-- ==== Proof.RegMat3.lean ====
import proofs.«423410_j58634893525678_2_alg».proof.Proof.Gen.KernelIdeal.Frame
import proofs.«423410_j58634893525678_2_alg».proof.Proof.RegMatLib

namespace Cert.KernelIdeal.Val

open Idealize.ShloMosaic Idealize.ShloMosaic.ValueIdx Idealize.ShloMosaic.TcCoe

-- Each point writes its row block of the projection of the pre-scaled rows, and the row blocks cover the array.
theorem mat3 (V : (c : Dev nD) → (b : Ref sig .tc) → Buf (Elt Ideal) ((c : Thread nD τ).loc b)) (c : Dev nD)
    (n : Fin 100000) (j : Fin 128) :
    (Gen.dat3 (F := Ideal) V c).arrAt 3 cfg3.N (ix2 n j)
      = Cert.Gnn.Reg.mat (fun n k => V c (Pipeline.arrRef spec3 0) (ix2 n k)) (fun k j => V c (Pipeline.arrRef spec3 1) (ix2 k j))
          (fun n => V c (Pipeline.arrRef spec3 2) (ix2 n 0)) n j := by
  refine congrFun ((Gen.dat3 (F := Ideal) V c).arrAt_eq_of_cover 3 (Mat.G (V c (Pipeline.arrRef spec3 0))
    (V c (Pipeline.arrRef spec3 1)) (V c (Pipeline.arrRef spec3 2))) (fun t _ => ?_) fun i => ?_) (ix2 n j)
  · show (cfg3.win 3).cut (grid3.coords t) ((Gen.dat3 (F := Ideal) V c).after 3 t) = _
    rw [Gen.after3_3]
    unfold Gen.out3_3
    rw [View.canon_unit_zero Mat.hz]
    simp only [View.ld_unit_zero (S := S5000x128) Mat.hz, View.ld_unit_zero (S := S5000x1) Mat.hz, View.ld_unit_zero (S := S128x128) Mat.hz]
    funext y
    unfold Gen.k3_pay1
    refine (Mat.pay_at _ _ _ _ _ y).trans ?_
    simp only [shapeCast_self]
    exact Mat.sum_eq t (win3_0.rect_emb_val t) (win3_1.rect_emb_val t) (win3_2.rect_emb_val t) (win3_3.rect_emb_val t)
      (V c (Pipeline.arrRef spec3 0)) (V c (Pipeline.arrRef spec3 1)) (V c (Pipeline.arrRef spec3 2)) y
  · obtain ⟨t, ht⟩ := Mat.cover i
    refine ⟨t, Gen.flush3_3 t, ?_⟩
    show i ∈ ((View.whole main_v63).slice (win3_3.rect t)).set
    rw [View.set_slice_whole, Rect.mem_set_unit]
    exact ht

end Cert.KernelIdeal.Val
-- ==== Proof.RegStats4.lean ====
import proofs.«423410_j58634893525678_2_alg».proof.Proof.Gen.KernelIdeal.Frame
import proofs.«423410_j58634893525678_2_alg».proof.Proof.RegStatsLib
import Idealize.ShloMosaic.Lib.Tactic

set_option maxRecDepth 16384

noncomputable section

namespace Cert.KernelIdeal.Val

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen
open Cert.Gnn.Tile (node)
open Stats (hz2 hz3 tl tN emb0 emb1 emb2 emb3 emb4 emb5 emb6)

namespace Stats4

variable (V : (c : Dev nD) → (b : Ref sig .tc) → Buf (Elt Ideal) ((c : Thread nD τ).loc b)) (c : Dev nD)

-- at a core's first step the three values are the payloads at the point's tiles, the accumulators stepped from the zero block
theorem outsA (t : Fin cfg4.N) (h0 : t.val % 10 = 0) :
    outsAt4 V c t.val t.isLt = (k4_pay4 (iblk4 V c 0 t) (iblk4 V c 1 t) (iblk4 V c 3 t),
      k4_pay6 (iblk4 V c 0 t) (iblk4 V c 1 t) (iblk4 V c 3 t) (iblk4 V c 2 t) (k4_pay2 (F := Ideal)),
      k4_pay1 (k4_pay5 (iblk4 V c 2 t)) (k4_pay7 (iblk4 V c 0 t) (iblk4 V c 1 t) (iblk4 V c 3 t)) (k4_pay3 (F := Ideal))) := by
  rw [outsAt4_A V c t h0]
  unfold out4_A_4 out4_A_5 out4_A_6
  rw [View.read_writes_eq_canon _ _ _ (cover4_A_4 _ _ _ _ _ _ _ _ _ _ _ _ _ _ _ _ _ _ _ _ _), View.read_writes_eq_canon _ _ _ (cover4_A_5 _ _ _ _ _ _ _ _ _ _ _ _ _ _ _ _ _ _ _ _ _),
    View.read_writes_eq_canon _ _ _ (cover4_A_6 _ _ _ _ _ _ _ _ _ _ _ _ _ _ _ _ _ _ _ _ _)]
  unfold kernelRun4_A
  dsimp only
  sl_unfold_words
  rw [View.canon_unit_zero hz2, View.canon_cons_unit_zero (S := S1x128x128) hz3, View.canon_cons_unit_zero (S := S1x128x128) hz3]
  simp only [View.readAt_eq_ld, (hs4_0 t).read_unread, (hs4_1 t).read_unread, (hs4_2 t).read_unread, (hs4_3 t).read_unread,
    (hs4_5 t).read_unread, (hs4_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

-- at a later step the accumulators are stepped from their values after the point before
theorem outsB (t : Fin cfg4.N) (h0 : ¬t.val % 10 = 0) :
    outsAt4 V c t.val t.isLt = (k4_pay4 (iblk4 V c 0 t) (iblk4 V c 1 t) (iblk4 V c 3 t),
      k4_pay6 (iblk4 V c 0 t) (iblk4 V c 1 t) (iblk4 V c 3 t) (iblk4 V c 2 t) (outsAt4 V c (t.val - 1) (Nat.lt_of_le_of_lt (Nat.sub_le _ _) t.isLt)).2.1,
      k4_pay1 (k4_pay5 (iblk4 V c 2 t)) (k4_pay7 (iblk4 V c 0 t) (iblk4 V c 1 t) (iblk4 V c 3 t)) (outsAt4 V c (t.val - 1) (Nat.lt_of_le_of_lt (Nat.sub_le _ _) t.isLt)).2.2) := by
  rw [outsAt4_B V c t h0]
  unfold out4_B_4 out4_B_5 out4_B_6
  rw [View.read_writes_eq_canon _ _ _ (cover4_B_4 _ _ _ _ _ _ _ _ _ _ _ _ _ _ _ _ _ _ _ _ _ _ _), View.read_writes_eq_canon _ _ _ (cover4_B_5 _ _ _ _ _ _ _ _ _ _ _ _ _ _ _ _ _ _ _ _ _ _ _),
    View.read_writes_eq_canon _ _ _ (cover4_B_6 _ _ _ _ _ _ _ _ _ _ _ _ _ _ _ _ _ _ _ _ _ _ _)]
  unfold kernelRun4_B
  dsimp only
  sl_unfold_words
  rw [View.canon_unit_zero hz2, View.canon_unit_zero hz3, View.canon_unit_zero hz3]
  simp only [View.readAt_eq_ld, (hs4_0 t).read_unread, (hs4_1 t).read_unread, (hs4_2 t).read_unread, (hs4_3 t).read_unread,
    (hs4_5 t).read_unread, (hs4_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

abbrev agg4 : Fin 100000 → Fin 128 → EReal := fun n j => V c (Pipeline.arrRef spec4 0) (ix2 n j)
abbrev dis4 : Fin 100000 → EReal := fun n => V c (Pipeline.arrRef spec4 1) (ix2 n 0)
abbrev bat4 : Fin 100000 → BitVec 32 := fun n => V c (Pipeline.arrRef spec4 2) (ix2 n 0)
abbrev bias4 : Fin 128 → EReal := fun j => V c (Pipeline.arrRef spec4 3) (ix2 0 j)
abbrev hb4 : Fin 100000 → Fin 128 → EReal := Cert.Gnn.Reg.hb (agg4 V c) (dis4 V c) (bias4 V c)

-- the general lemma at this region's tiles, each read at its place in its array
theorem facts (t : Fin cfg4.N) :
    (∀ r j, (outsAt4 V c t.val t.isLt).1 (ix2 r j) = hb4 V c (node (tl N_4 t) r) j) ∧
    (t.val % 10 = 9 → ∀ g j,
      (outsAt4 V c t.val t.isLt).2.1 (ix3 0 g j)
        = Cert.Gnn.Reg.part (bat4 V c) (hb4 V c) ⟨t.val / 10, by have := tN t; omega⟩ g j ∧
      (outsAt4 V c t.val t.isLt).2.2 (ix3 0 g j)
        = Cert.Gnn.Reg.part (bat4 V c) (fun n j => hb4 V c n j * hb4 V c n j) ⟨t.val / 10, by have := tN t; omega⟩ g j) :=
  Stats.core N_4 (agg4 V c) (dis4 V c) (bat4 V c) (bias4 V c) (iblk4 V c 0) (iblk4 V c 1) (iblk4 V c 2) (iblk4 V c 3)
    (fun t r j => congrArg (V c (Pipeline.arrRef spec4 0)) (emb0 t r j)) (fun t r => congrArg (V c (Pipeline.arrRef spec4 1)) (emb1 t r)) (fun t r => congrArg (V c (Pipeline.arrRef spec4 2)) (emb2 t r))
    (fun t j => congrArg (V c (Pipeline.arrRef spec4 3)) (emb3 t j)) (outsAt4 V c) (outsA V c) (outsB V c) t

def G4 : S100000x128.Idx → EReal := fun i => hb4 V c (i 0) (i 1)
def G5 : S2x128x128.Idx → EReal := fun i => Cert.Gnn.Reg.part (bat4 V c) (hb4 V c) (i 0) (i 1) (i 2)
def G6 : S2x128x128.Idx → EReal :=
  fun i => Cert.Gnn.Reg.part (bat4 V c) (fun n j => hb4 V c n j * hb4 V c n j) (i 0) (i 1) (i 2)

theorem flushed4 (t : Fin cfg4.N) (_ : (cfg4.win 4).flush t = true) :
    (dat4 V c).flushed 4 t = ((cfg4.win 4).blk t).view.read (Elt Ideal) (G4 V c) := by
  funext y
  obtain ⟨r, j, rfl⟩ : ∃ (r : Fin 5000) (j : Fin 128), y = ix2 r j := ⟨y 0, y 1, eq_ix2 y⟩
  show (cfg4.win 4).cut (grid4.coords t) ((dat4 V c).after 4 t) (ix2 r j)
      = G4 V c (((cfg4.win 4).blk t).view.emb (ix2 r j))
  rw [after4_4]
  exact ((facts V c t).1 r j).trans (congrArg (G4 V c) (emb4 t r j)).symm

-- node n is row n % 5000 of tile n / 5000
theorem hb_final (n : Fin 100000) (j : Fin 128) : (dat4 V c).arrAt 4 cfg4.N (ix2 n j) = hb4 V c n j := by
  have hn := n.isLt
  let t : Fin cfg4.N := ⟨n.val / 5000, by rw [show cfg4.N = 20 from N_4]; omega⟩
  let r : Fin 5000 := ⟨n.val % 5000, Nat.mod_lt _ (by norm_num)⟩
  have e : ((cfg4.win 4).blk t).view.emb (ix2 r j) = ix2 n j :=
    (emb4 t r j).trans (congrArg (ix2 · j) (Fin.ext (by show 5000 * (n.val / 5000) + n.val % 5000 = n.val; exact Nat.div_add_mod _ _)))
  exact (dat4 V c).arrAt_apply_of_mem 4 (G4 V c) (flushed4 V c) cfg4.N t (ix2 n j) t.isLt (flush4_4 t)
    (e ▸ ((cfg4.win 4).blk t).view.emb_mem_set (ix2 r j))

set_option maxRecDepth 200000 in
theorem flushed5 (t : Fin cfg4.N) (hf : (cfg4.win 5).flush t = true) :
    (dat4 V c).flushed 5 t = ((cfg4.win 5).blk t).view.read (Elt Ideal) (G5 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt4 V c t.val t.isLt).2.1 (ix3 (0 : Fin 1) g j)) ?_ ?_
  · show (cfg4.win 5).cut (grid4.coords t) ((dat4 V c).after 5 t) (ix3 (0 : Fin 1) g j) = _
    rw [after4_5]
    rfl
  · rw [View.read_apply]
    exact ((facts V c t).2 ((flush4_5 t).mp hf) g j).1.trans (congrArg (G5 V c) (emb5 t g j)).symm
set_option maxRecDepth 200000 in
theorem flushed6 (t : Fin cfg4.N) (hf : (cfg4.win 6).flush t = true) :
    (dat4 V c).flushed 6 t = ((cfg4.win 6).blk t).view.read (Elt Ideal) (G6 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt4 V c t.val t.isLt).2.2 (ix3 (0 : Fin 1) g j)) ?_ ?_
  · show (cfg4.win 6).cut (grid4.coords t) ((dat4 V c).after 6 t) (ix3 (0 : Fin 1) g j) = _
    rw [after4_6]
    rfl
  · rw [View.read_apply]
    exact ((facts V c t).2 ((flush4_6 t).mp hf) g j).2.trans (congrArg (G6 V c) (emb6 t g j)).symm

-- block k of the sums is the value after point 10 k + 9, core k's last
theorem s1_final (k : Fin 2) (g j : Fin 128) :
    (dat4 V c).arrAt 5 cfg4.N (ix3 k g j) = Cert.Gnn.Reg.part (bat4 V c) (hb4 V c) k g j := by
  have hk := k.isLt
  let t : Fin cfg4.N := ⟨10 * k.val + 9, by rw [show cfg4.N = 20 from N_4]; omega⟩
  have e : ((cfg4.win 5).blk t).view.emb (ix3 (0 : Fin 1) g j) = ix3 k g j :=
    (emb5 t g j).trans (congrArg (ix3 · g j) (Fin.ext (by show (10 * k.val + 9) / 10 = k.val; omega)))
  exact (dat4 V c).arrAt_apply_of_mem 5 (G5 V c) (flushed5 V c) cfg4.N t (ix3 k g j) t.isLt
    ((flush4_5 t).mpr (by show (10 * k.val + 9) % 10 = 9; omega)) (e ▸ ((cfg4.win 5).blk t).view.emb_mem_set (ix3 (0 : Fin 1) g j))
theorem s2_final (k : Fin 2) (g j : Fin 128) :
    (dat4 V c).arrAt 6 cfg4.N (ix3 k g j)
      = Cert.Gnn.Reg.part (bat4 V c) (fun n j => hb4 V c n j * hb4 V c n j) k g j := by
  have hk := k.isLt
  let t : Fin cfg4.N := ⟨10 * k.val + 9, by rw [show cfg4.N = 20 from N_4]; omega⟩
  have e : ((cfg4.win 6).blk t).view.emb (ix3 (0 : Fin 1) g j) = ix3 k g j :=
    (emb6 t g j).trans (congrArg (ix3 · g j) (Fin.ext (by show (10 * k.val + 9) / 10 = k.val; omega)))
  exact (dat4 V c).arrAt_apply_of_mem 6 (G6 V c) (flushed6 V c) cfg4.N t (ix3 k g j) t.isLt
    ((flush4_6 t).mpr (by show (10 * k.val + 9) % 10 = 9; omega)) (e ▸ ((cfg4.win 6).blk t).view.emb_mem_set (ix3 (0 : Fin 1) g j))

end Stats4

theorem stats4_hb (V : (c : Dev nD) → (b : Ref sig .tc) → Buf (Elt Ideal) ((c : Thread nD τ).loc b))
    (c : Dev nD) (n : Fin 100000) (j : Fin 128) :
    (Gen.dat4 (F := Ideal) V c).arrAt 4 cfg4.N (ix2 n j)
      = Cert.Gnn.Reg.hb (fun n j => V c (Pipeline.arrRef spec4 0) (ix2 n j)) (fun n => V c (Pipeline.arrRef spec4 1) (ix2 n 0))
          (fun j => V c (Pipeline.arrRef spec4 3) (ix2 0 j)) n j :=
  Stats4.hb_final V c n j

theorem stats4_s1 (V : (c : Dev nD) → (b : Ref sig .tc) → Buf (Elt Ideal) ((c : Thread nD τ).loc b))
    (c : Dev nD) (k : Fin 2) (g j : Fin 128) :
    (Gen.dat4 (F := Ideal) V c).arrAt 5 cfg4.N (ix3 k g j)
      = Cert.Gnn.Reg.part (fun n => V c (Pipeline.arrRef spec4 2) (ix2 n 0))
          (Cert.Gnn.Reg.hb (fun n j => V c (Pipeline.arrRef spec4 0) (ix2 n j)) (fun n => V c (Pipeline.arrRef spec4 1) (ix2 n 0))
            (fun j => V c (Pipeline.arrRef spec4 3) (ix2 0 j))) k g j :=
  Stats4.s1_final V c k g j

theorem stats4_s2 (V : (c : Dev nD) → (b : Ref sig .tc) → Buf (Elt Ideal) ((c : Thread nD τ).loc b))
    (c : Dev nD) (k : Fin 2) (g j : Fin 128) :
    (Gen.dat4 (F := Ideal) V c).arrAt 6 cfg4.N (ix3 k g j)
      = Cert.Gnn.Reg.part (fun n => V c (Pipeline.arrRef spec4 2) (ix2 n 0))
          (fun n j => Cert.Gnn.Reg.hb (fun n j => V c (Pipeline.arrRef spec4 0) (ix2 n j)) (fun n => V c (Pipeline.arrRef spec4 1) (ix2 n 0))
              (fun j => V c (Pipeline.arrRef spec4 3) (ix2 0 j)) n j
            * Cert.Gnn.Reg.hb (fun n j => V c (Pipeline.arrRef spec4 0) (ix2 n j)) (fun n => V c (Pipeline.arrRef spec4 1) (ix2 n 0))
              (fun j => V c (Pipeline.arrRef spec4 3) (ix2 0 j)) n j) k g j :=
  Stats4.s2_final V c k g j

end Cert.KernelIdeal.Val

end
-- ==== Proof.RegNorm5.lean ====
import proofs.«423410_j58634893525678_2_alg».proof.Proof.RegNormLib

noncomputable section

namespace Cert.KernelIdeal.Val

open Idealize.ShloMosaic Idealize.ShloMosaic.TcCoe Idealize.ShloMosaic.ValueIdx Cert.KernelIdeal Cert.KernelIdeal.Gen Cert.Gnn
open Cert.KernelIdeal.Val.NormLib

theorem idx5 : ∀ t : Fin cfg5.N, RowIdx t (win5_0.index t) (win5_1.index t) (win5_2.index t) (win5_3.index t) (win5_4.index t) (win5_5.index t) (win5_6.index t) (win5_7.index t) (win5_8.index t) :=
  (by decide +kernel : ∀ t : Fin grid5.N, _)

theorem norm5 (V : (c : Dev nD) → (b : Ref sig .tc) → Buf (Elt Ideal) ((c : Thread nD τ).loc b)) (c : Dev nD)
    (n : Fin 100000) (j : Fin 128) :
    (Gen.dat5 (F := Ideal) V c).arrAt 8 cfg5.N (ix2 n j)
      = Cert.Gnn.Reg.norm (fun n j => V c (Pipeline.arrRef spec5 0) (ix2 n j)) (fun n => V c (Pipeline.arrRef spec5 1) (ix2 n 0))
          (fun g j => V c (Pipeline.arrRef spec5 2) (ix2 g j)) (fun g j => V c (Pipeline.arrRef spec5 3) (ix2 g j))
          (fun j => V c (Pipeline.arrRef spec5 4) (ix2 0 j)) (fun j => V c (Pipeline.arrRef spec5 5) (ix2 0 j))
          (fun j => V c (Pipeline.arrRef spec5 6) (ix2 0 j)) (fun n j => V c (Pipeline.arrRef spec5 7) (ix2 n j)) n j := by
  refine congrFun ((dat5 (F := Ideal) V c).arrAt_eq_of_cover 8 (G _ _ _ _ _ _ _ _) (fun t _ => ?_) fun i => ?_) (ix2 n j)
  · show (cfg5.win 8).cut (grid5.coords t) ((dat5 (F := Ideal) V c).after 8 t) = _
    rw [after5_8]
    funext y
    exact tile_norm out5_norm t.isLt (idx5 t) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7))
      (fun y a => win5_0.rect_emb_val t y a)
      (fun y a => win5_1.rect_emb_val t y a)
      (fun y a => win5_2.rect_emb_val t y a)
      (fun y a => win5_3.rect_emb_val t y a)
      (fun y a => win5_4.rect_emb_val t y a)
      (fun y a => win5_5.rect_emb_val t y a)
      (fun y a => win5_6.rect_emb_val t y a)
      (fun y a => win5_7.rect_emb_val t y a)
      (fun y a => win5_8.rect_emb_val t y a)
      (fun _ => rfl) (fun _ => rfl) (fun _ => rfl) (fun _ => rfl) (fun _ => rfl) (fun _ => rfl) (fun _ => rfl) (fun _ => rfl) y
  · obtain ⟨t, y, h⟩ := cover_rows (fun t y a => win5_8.rect_emb_val t y a) (fun t => (idx5 t).2.2.2.2.2.2.2.2) i
    exact ⟨t, flush5_8 t, Finset.mem_map.mpr ⟨y, Finset.mem_univ y, h⟩⟩

end Cert.KernelIdeal.Val

end
-- ==== Proof.KerValRegL1.lean ====
import proofs.«423410_j58634893525678_2_alg».proof.Proof.Gen.KernelIdeal.Frame
import proofs.«423410_j58634893525678_2_alg».proof.Proof.Spec
import proofs.«423410_j58634893525678_2_alg».proof.Proof.RegMat3
import proofs.«423410_j58634893525678_2_alg».proof.Proof.RegStats4
import proofs.«423410_j58634893525678_2_alg».proof.Proof.RegNorm5
import proofs.«423410_j58634893525678_2_alg».proof.Proof.KerValRegL0
import Idealize.ShloMosaic.Lib.ValueIdx

set_option maxRecDepth 16384

noncomputable section

namespace Cert.KernelIdeal.Val

open Idealize.ShloMosaic Idealize.ShloMosaic.ValueIdx Idealize.ShloMosaic.TcCoe

variable (m : (ℓ : Loc nD τ sig) → Buf (Elt Ideal) ℓ) (ρ : Dev nD → PrngReg) (c : Dev nD)

noncomputable def out3 : List (Ref sig .tc) := [main_v63]

set_option maxHeartbeats 1000000 in
theorem keepR3 {b : Ref sig .tc} (hb : b ∉ out3) :
    Gen.W8 (F := Ideal) m ρ c (Proc.devRef .tc b) = Gen.W7 (F := Ideal) m ρ c (Proc.devRef .tc b) :=
  keep_region (ref := Pipeline.arrRef spec3) (by decide) (fun w hw => (Gen.W8_arr m ρ c w).trans
    (((Gen.dat3 (Gen.V7 m ρ) c).arrAt_in w hw _).trans (Gen.A_eq3 (Gen.V7 m ρ) c w))) (Gen.W8_of_ne m ρ c) hb

noncomputable def out4 : List (Ref sig .tc) := [main_v77_0, main_v77_1, main_v77_2]

set_option maxHeartbeats 1000000 in
theorem keepR4 {b : Ref sig .tc} (hb : b ∉ out4) :
    Gen.W10 (F := Ideal) m ρ c (Proc.devRef .tc b) = Gen.W9 (F := Ideal) m ρ c (Proc.devRef .tc b) :=
  keep_region (ref := Pipeline.arrRef spec4) (by decide) (fun w hw => (Gen.W10_arr m ρ c w).trans
    (((Gen.dat4 (Gen.V9 m ρ) c).arrAt_in w hw _).trans (Gen.A_eq4 (Gen.V9 m ρ) c w))) (Gen.W10_of_ne m ρ c) hb

noncomputable def out5 : List (Ref sig .tc) := [main_v101]

set_option maxHeartbeats 1000000 in
theorem keepR5 {b : Ref sig .tc} (hb : b ∉ out5) :
    Gen.W12 (F := Ideal) m ρ c (Proc.devRef .tc b) = Gen.W11 (F := Ideal) m ρ c (Proc.devRef .tc b) :=
  keep_region (ref := Pipeline.arrRef spec5) (by decide) (fun w hw => (Gen.W12_arr m ρ c w).trans
    (((Gen.dat5 (Gen.V11 m ρ) c).arrAt_in w hw _).trans (Gen.A_eq5 (Gen.V11 m ρ) c w))) (Gen.W12_of_ne m ρ c) hb

end Cert.KernelIdeal.Val

end
-- ==== Proof.RegMat6.lean ====
import proofs.«423410_j58634893525678_2_alg».proof.Proof.Gen.KernelIdeal.Frame
import proofs.«423410_j58634893525678_2_alg».proof.Proof.RegMatLib

namespace Cert.KernelIdeal.Val

open Idealize.ShloMosaic Idealize.ShloMosaic.ValueIdx Idealize.ShloMosaic.TcCoe

-- Each point writes its row block of the projection of the pre-scaled rows, and the row blocks cover the array.
theorem mat6 (V : (c : Dev nD) → (b : Ref sig .tc) → Buf (Elt Ideal) ((c : Thread nD τ).loc b)) (c : Dev nD)
    (n : Fin 100000) (j : Fin 128) :
    (Gen.dat6 (F := Ideal) V c).arrAt 3 cfg6.N (ix2 n j)
      = Cert.Gnn.Reg.mat (fun n k => V c (Pipeline.arrRef spec6 0) (ix2 n k)) (fun k j => V c (Pipeline.arrRef spec6 1) (ix2 k j))
          (fun n => V c (Pipeline.arrRef spec6 2) (ix2 n 0)) n j := by
  refine congrFun ((Gen.dat6 (F := Ideal) V c).arrAt_eq_of_cover 3 (Mat.G (V c (Pipeline.arrRef spec6 0))
    (V c (Pipeline.arrRef spec6 1)) (V c (Pipeline.arrRef spec6 2))) (fun t _ => ?_) fun i => ?_) (ix2 n j)
  · show (cfg6.win 3).cut (grid6.coords t) ((Gen.dat6 (F := Ideal) V c).after 3 t) = _
    rw [Gen.after6_3]
    unfold Gen.out6_3
    rw [View.canon_unit_zero Mat.hz]
    simp only [View.ld_unit_zero (S := S5000x128) Mat.hz, View.ld_unit_zero (S := S5000x1) Mat.hz, View.ld_unit_zero (S := S128x128) Mat.hz]
    funext y
    unfold Gen.k6_pay1
    refine (Mat.pay_at _ _ _ _ _ y).trans ?_
    simp only [shapeCast_self]
    exact Mat.sum_eq t (win6_0.rect_emb_val t) (win6_1.rect_emb_val t) (win6_2.rect_emb_val t) (win6_3.rect_emb_val t)
      (V c (Pipeline.arrRef spec6 0)) (V c (Pipeline.arrRef spec6 1)) (V c (Pipeline.arrRef spec6 2)) y
  · obtain ⟨t, ht⟩ := Mat.cover i
    refine ⟨t, Gen.flush6_3 t, ?_⟩
    show i ∈ ((View.whole main_v104).slice (win6_3.rect t)).set
    rw [View.set_slice_whole, Rect.mem_set_unit]
    exact ht

end Cert.KernelIdeal.Val
-- ==== Proof.RegStats7.lean ====
import proofs.«423410_j58634893525678_2_alg».proof.Proof.Gen.KernelIdeal.Frame
import proofs.«423410_j58634893525678_2_alg».proof.Proof.RegStatsLib
import Idealize.ShloMosaic.Lib.Tactic

set_option maxRecDepth 16384

noncomputable section

namespace Cert.KernelIdeal.Val

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen
open Cert.Gnn.Tile (node)
open Stats (hz2 hz3 tl tN emb0 emb1 emb2 emb3 emb4 emb5 emb6)

namespace Stats7

variable (V : (c : Dev nD) → (b : Ref sig .tc) → Buf (Elt Ideal) ((c : Thread nD τ).loc b)) (c : Dev nD)

-- at a core's first step the three values are the payloads at the point's tiles, the accumulators stepped from the zero block
theorem outsA (t : Fin cfg7.N) (h0 : t.val % 10 = 0) :
    outsAt7 V c t.val t.isLt = (k7_pay4 (iblk7 V c 0 t) (iblk7 V c 1 t) (iblk7 V c 3 t),
      k7_pay6 (iblk7 V c 0 t) (iblk7 V c 1 t) (iblk7 V c 3 t) (iblk7 V c 2 t) (k7_pay2 (F := Ideal)),
      k7_pay1 (k7_pay5 (iblk7 V c 2 t)) (k7_pay7 (iblk7 V c 0 t) (iblk7 V c 1 t) (iblk7 V c 3 t)) (k7_pay3 (F := Ideal))) := by
  rw [outsAt7_A V c t h0]
  unfold out7_A_4 out7_A_5 out7_A_6
  rw [View.read_writes_eq_canon _ _ _ (cover7_A_4 _ _ _ _ _ _ _ _ _ _ _ _ _ _ _ _ _ _ _ _ _), View.read_writes_eq_canon _ _ _ (cover7_A_5 _ _ _ _ _ _ _ _ _ _ _ _ _ _ _ _ _ _ _ _ _),
    View.read_writes_eq_canon _ _ _ (cover7_A_6 _ _ _ _ _ _ _ _ _ _ _ _ _ _ _ _ _ _ _ _ _)]
  unfold kernelRun7_A
  dsimp only
  sl_unfold_words
  rw [View.canon_unit_zero hz2, View.canon_cons_unit_zero (S := S1x128x128) hz3, View.canon_cons_unit_zero (S := S1x128x128) hz3]
  simp only [View.readAt_eq_ld, (hs7_0 t).read_unread, (hs7_1 t).read_unread, (hs7_2 t).read_unread, (hs7_3 t).read_unread,
    (hs7_5 t).read_unread, (hs7_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

-- at a later step the accumulators are stepped from their values after the point before
theorem outsB (t : Fin cfg7.N) (h0 : ¬t.val % 10 = 0) :
    outsAt7 V c t.val t.isLt = (k7_pay4 (iblk7 V c 0 t) (iblk7 V c 1 t) (iblk7 V c 3 t),
      k7_pay6 (iblk7 V c 0 t) (iblk7 V c 1 t) (iblk7 V c 3 t) (iblk7 V c 2 t) (outsAt7 V c (t.val - 1) (Nat.lt_of_le_of_lt (Nat.sub_le _ _) t.isLt)).2.1,
      k7_pay1 (k7_pay5 (iblk7 V c 2 t)) (k7_pay7 (iblk7 V c 0 t) (iblk7 V c 1 t) (iblk7 V c 3 t)) (outsAt7 V c (t.val - 1) (Nat.lt_of_le_of_lt (Nat.sub_le _ _) t.isLt)).2.2) := by
  rw [outsAt7_B V c t h0]
  unfold out7_B_4 out7_B_5 out7_B_6
  rw [View.read_writes_eq_canon _ _ _ (cover7_B_4 _ _ _ _ _ _ _ _ _ _ _ _ _ _ _ _ _ _ _ _ _ _ _), View.read_writes_eq_canon _ _ _ (cover7_B_5 _ _ _ _ _ _ _ _ _ _ _ _ _ _ _ _ _ _ _ _ _ _ _),
    View.read_writes_eq_canon _ _ _ (cover7_B_6 _ _ _ _ _ _ _ _ _ _ _ _ _ _ _ _ _ _ _ _ _ _ _)]
  unfold kernelRun7_B
  dsimp only
  sl_unfold_words
  rw [View.canon_unit_zero hz2, View.canon_unit_zero hz3, View.canon_unit_zero hz3]
  simp only [View.readAt_eq_ld, (hs7_0 t).read_unread, (hs7_1 t).read_unread, (hs7_2 t).read_unread, (hs7_3 t).read_unread,
    (hs7_5 t).read_unread, (hs7_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

abbrev agg7 : Fin 100000 → Fin 128 → EReal := fun n j => V c (Pipeline.arrRef spec7 0) (ix2 n j)
abbrev dis7 : Fin 100000 → EReal := fun n => V c (Pipeline.arrRef spec7 1) (ix2 n 0)
abbrev bat7 : Fin 100000 → BitVec 32 := fun n => V c (Pipeline.arrRef spec7 2) (ix2 n 0)
abbrev bias7 : Fin 128 → EReal := fun j => V c (Pipeline.arrRef spec7 3) (ix2 0 j)
abbrev hb7 : Fin 100000 → Fin 128 → EReal := Cert.Gnn.Reg.hb (agg7 V c) (dis7 V c) (bias7 V c)

-- the general lemma at this region's tiles, each read at its place in its array
theorem facts (t : Fin cfg7.N) :
    (∀ r j, (outsAt7 V c t.val t.isLt).1 (ix2 r j) = hb7 V c (node (tl N_7 t) r) j) ∧
    (t.val % 10 = 9 → ∀ g j,
      (outsAt7 V c t.val t.isLt).2.1 (ix3 0 g j)
        = Cert.Gnn.Reg.part (bat7 V c) (hb7 V c) ⟨t.val / 10, by have := tN t; omega⟩ g j ∧
      (outsAt7 V c t.val t.isLt).2.2 (ix3 0 g j)
        = Cert.Gnn.Reg.part (bat7 V c) (fun n j => hb7 V c n j * hb7 V c n j) ⟨t.val / 10, by have := tN t; omega⟩ g j) :=
  Stats.core N_7 (agg7 V c) (dis7 V c) (bat7 V c) (bias7 V c) (iblk7 V c 0) (iblk7 V c 1) (iblk7 V c 2) (iblk7 V c 3)
    (fun t r j => congrArg (V c (Pipeline.arrRef spec7 0)) (emb0 t r j)) (fun t r => congrArg (V c (Pipeline.arrRef spec7 1)) (emb1 t r)) (fun t r => congrArg (V c (Pipeline.arrRef spec7 2)) (emb2 t r))
    (fun t j => congrArg (V c (Pipeline.arrRef spec7 3)) (emb3 t j)) (outsAt7 V c) (outsA V c) (outsB V c) t

def G4 : S100000x128.Idx → EReal := fun i => hb7 V c (i 0) (i 1)
def G5 : S2x128x128.Idx → EReal := fun i => Cert.Gnn.Reg.part (bat7 V c) (hb7 V c) (i 0) (i 1) (i 2)
def G6 : S2x128x128.Idx → EReal :=
  fun i => Cert.Gnn.Reg.part (bat7 V c) (fun n j => hb7 V c n j * hb7 V c n j) (i 0) (i 1) (i 2)

theorem flushed4 (t : Fin cfg7.N) (_ : (cfg7.win 4).flush t = true) :
    (dat7 V c).flushed 4 t = ((cfg7.win 4).blk t).view.read (Elt Ideal) (G4 V c) := by
  funext y
  obtain ⟨r, j, rfl⟩ : ∃ (r : Fin 5000) (j : Fin 128), y = ix2 r j := ⟨y 0, y 1, eq_ix2 y⟩
  show (cfg7.win 4).cut (grid7.coords t) ((dat7 V c).after 4 t) (ix2 r j)
      = G4 V c (((cfg7.win 4).blk t).view.emb (ix2 r j))
  rw [after7_4]
  exact ((facts V c t).1 r j).trans (congrArg (G4 V c) (emb4 t r j)).symm

-- node n is row n % 5000 of tile n / 5000
theorem hb_final (n : Fin 100000) (j : Fin 128) : (dat7 V c).arrAt 4 cfg7.N (ix2 n j) = hb7 V c n j := by
  have hn := n.isLt
  let t : Fin cfg7.N := ⟨n.val / 5000, by rw [show cfg7.N = 20 from N_7]; omega⟩
  let r : Fin 5000 := ⟨n.val % 5000, Nat.mod_lt _ (by norm_num)⟩
  have e : ((cfg7.win 4).blk t).view.emb (ix2 r j) = ix2 n j :=
    (emb4 t r j).trans (congrArg (ix2 · j) (Fin.ext (by show 5000 * (n.val / 5000) + n.val % 5000 = n.val; exact Nat.div_add_mod _ _)))
  exact (dat7 V c).arrAt_apply_of_mem 4 (G4 V c) (flushed4 V c) cfg7.N t (ix2 n j) t.isLt (flush7_4 t)
    (e ▸ ((cfg7.win 4).blk t).view.emb_mem_set (ix2 r j))

set_option maxRecDepth 200000 in
theorem flushed5 (t : Fin cfg7.N) (hf : (cfg7.win 5).flush t = true) :
    (dat7 V c).flushed 5 t = ((cfg7.win 5).blk t).view.read (Elt Ideal) (G5 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt7 V c t.val t.isLt).2.1 (ix3 (0 : Fin 1) g j)) ?_ ?_
  · show (cfg7.win 5).cut (grid7.coords t) ((dat7 V c).after 5 t) (ix3 (0 : Fin 1) g j) = _
    rw [after7_5]
    rfl
  · rw [View.read_apply]
    exact ((facts V c t).2 ((flush7_5 t).mp hf) g j).1.trans (congrArg (G5 V c) (emb5 t g j)).symm
set_option maxRecDepth 200000 in
theorem flushed6 (t : Fin cfg7.N) (hf : (cfg7.win 6).flush t = true) :
    (dat7 V c).flushed 6 t = ((cfg7.win 6).blk t).view.read (Elt Ideal) (G6 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt7 V c t.val t.isLt).2.2 (ix3 (0 : Fin 1) g j)) ?_ ?_
  · show (cfg7.win 6).cut (grid7.coords t) ((dat7 V c).after 6 t) (ix3 (0 : Fin 1) g j) = _
    rw [after7_6]
    rfl
  · rw [View.read_apply]
    exact ((facts V c t).2 ((flush7_6 t).mp hf) g j).2.trans (congrArg (G6 V c) (emb6 t g j)).symm

-- block k of the sums is the value after point 10 k + 9, core k's last
theorem s1_final (k : Fin 2) (g j : Fin 128) :
    (dat7 V c).arrAt 5 cfg7.N (ix3 k g j) = Cert.Gnn.Reg.part (bat7 V c) (hb7 V c) k g j := by
  have hk := k.isLt
  let t : Fin cfg7.N := ⟨10 * k.val + 9, by rw [show cfg7.N = 20 from N_7]; omega⟩
  have e : ((cfg7.win 5).blk t).view.emb (ix3 (0 : Fin 1) g j) = ix3 k g j :=
    (emb5 t g j).trans (congrArg (ix3 · g j) (Fin.ext (by show (10 * k.val + 9) / 10 = k.val; omega)))
  exact (dat7 V c).arrAt_apply_of_mem 5 (G5 V c) (flushed5 V c) cfg7.N t (ix3 k g j) t.isLt
    ((flush7_5 t).mpr (by show (10 * k.val + 9) % 10 = 9; omega)) (e ▸ ((cfg7.win 5).blk t).view.emb_mem_set (ix3 (0 : Fin 1) g j))
theorem s2_final (k : Fin 2) (g j : Fin 128) :
    (dat7 V c).arrAt 6 cfg7.N (ix3 k g j)
      = Cert.Gnn.Reg.part (bat7 V c) (fun n j => hb7 V c n j * hb7 V c n j) k g j := by
  have hk := k.isLt
  let t : Fin cfg7.N := ⟨10 * k.val + 9, by rw [show cfg7.N = 20 from N_7]; omega⟩
  have e : ((cfg7.win 6).blk t).view.emb (ix3 (0 : Fin 1) g j) = ix3 k g j :=
    (emb6 t g j).trans (congrArg (ix3 · g j) (Fin.ext (by show (10 * k.val + 9) / 10 = k.val; omega)))
  exact (dat7 V c).arrAt_apply_of_mem 6 (G6 V c) (flushed6 V c) cfg7.N t (ix3 k g j) t.isLt
    ((flush7_6 t).mpr (by show (10 * k.val + 9) % 10 = 9; omega)) (e ▸ ((cfg7.win 6).blk t).view.emb_mem_set (ix3 (0 : Fin 1) g j))

end Stats7

theorem stats7_hb (V : (c : Dev nD) → (b : Ref sig .tc) → Buf (Elt Ideal) ((c : Thread nD τ).loc b))
    (c : Dev nD) (n : Fin 100000) (j : Fin 128) :
    (Gen.dat7 (F := Ideal) V c).arrAt 4 cfg7.N (ix2 n j)
      = Cert.Gnn.Reg.hb (fun n j => V c (Pipeline.arrRef spec7 0) (ix2 n j)) (fun n => V c (Pipeline.arrRef spec7 1) (ix2 n 0))
          (fun j => V c (Pipeline.arrRef spec7 3) (ix2 0 j)) n j :=
  Stats7.hb_final V c n j

theorem stats7_s1 (V : (c : Dev nD) → (b : Ref sig .tc) → Buf (Elt Ideal) ((c : Thread nD τ).loc b))
    (c : Dev nD) (k : Fin 2) (g j : Fin 128) :
    (Gen.dat7 (F := Ideal) V c).arrAt 5 cfg7.N (ix3 k g j)
      = Cert.Gnn.Reg.part (fun n => V c (Pipeline.arrRef spec7 2) (ix2 n 0))
          (Cert.Gnn.Reg.hb (fun n j => V c (Pipeline.arrRef spec7 0) (ix2 n j)) (fun n => V c (Pipeline.arrRef spec7 1) (ix2 n 0))
            (fun j => V c (Pipeline.arrRef spec7 3) (ix2 0 j))) k g j :=
  Stats7.s1_final V c k g j

theorem stats7_s2 (V : (c : Dev nD) → (b : Ref sig .tc) → Buf (Elt Ideal) ((c : Thread nD τ).loc b))
    (c : Dev nD) (k : Fin 2) (g j : Fin 128) :
    (Gen.dat7 (F := Ideal) V c).arrAt 6 cfg7.N (ix3 k g j)
      = Cert.Gnn.Reg.part (fun n => V c (Pipeline.arrRef spec7 2) (ix2 n 0))
          (fun n j => Cert.Gnn.Reg.hb (fun n j => V c (Pipeline.arrRef spec7 0) (ix2 n j)) (fun n => V c (Pipeline.arrRef spec7 1) (ix2 n 0))
              (fun j => V c (Pipeline.arrRef spec7 3) (ix2 0 j)) n j
            * Cert.Gnn.Reg.hb (fun n j => V c (Pipeline.arrRef spec7 0) (ix2 n j)) (fun n => V c (Pipeline.arrRef spec7 1) (ix2 n 0))
              (fun j => V c (Pipeline.arrRef spec7 3) (ix2 0 j)) n j) k g j :=
  Stats7.s2_final V c k g j

end Cert.KernelIdeal.Val

end
-- ==== Proof.RegNorm8.lean ====
import proofs.«423410_j58634893525678_2_alg».proof.Proof.RegNormLib

noncomputable section

namespace Cert.KernelIdeal.Val

open Idealize.ShloMosaic Idealize.ShloMosaic.TcCoe Idealize.ShloMosaic.ValueIdx Cert.KernelIdeal Cert.KernelIdeal.Gen Cert.Gnn
open Cert.KernelIdeal.Val.NormLib

theorem idx8 : ∀ t : Fin cfg8.N, RowIdx t (win8_0.index t) (win8_1.index t) (win8_2.index t) (win8_3.index t) (win8_4.index t) (win8_5.index t) (win8_6.index t) (win8_7.index t) (win8_8.index t) :=
  (by decide +kernel : ∀ t : Fin grid8.N, _)

theorem norm8 (V : (c : Dev nD) → (b : Ref sig .tc) → Buf (Elt Ideal) ((c : Thread nD τ).loc b)) (c : Dev nD)
    (n : Fin 100000) (j : Fin 128) :
    (Gen.dat8 (F := Ideal) V c).arrAt 8 cfg8.N (ix2 n j)
      = Cert.Gnn.Reg.norm (fun n j => V c (Pipeline.arrRef spec8 0) (ix2 n j)) (fun n => V c (Pipeline.arrRef spec8 1) (ix2 n 0))
          (fun g j => V c (Pipeline.arrRef spec8 2) (ix2 g j)) (fun g j => V c (Pipeline.arrRef spec8 3) (ix2 g j))
          (fun j => V c (Pipeline.arrRef spec8 4) (ix2 0 j)) (fun j => V c (Pipeline.arrRef spec8 5) (ix2 0 j))
          (fun j => V c (Pipeline.arrRef spec8 6) (ix2 0 j)) (fun n j => V c (Pipeline.arrRef spec8 7) (ix2 n j)) n j := by
  refine congrFun ((dat8 (F := Ideal) V c).arrAt_eq_of_cover 8 (G _ _ _ _ _ _ _ _) (fun t _ => ?_) fun i => ?_) (ix2 n j)
  · show (cfg8.win 8).cut (grid8.coords t) ((dat8 (F := Ideal) V c).after 8 t) = _
    rw [after8_8]
    funext y
    exact tile_norm out5_norm t.isLt (idx8 t) (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7))
      (fun y a => win8_0.rect_emb_val t y a)
      (fun y a => win8_1.rect_emb_val t y a)
      (fun y a => win8_2.rect_emb_val t y a)
      (fun y a => win8_3.rect_emb_val t y a)
      (fun y a => win8_4.rect_emb_val t y a)
      (fun y a => win8_5.rect_emb_val t y a)
      (fun y a => win8_6.rect_emb_val t y a)
      (fun y a => win8_7.rect_emb_val t y a)
      (fun y a => win8_8.rect_emb_val t y a)
      (fun _ => rfl) (fun _ => rfl) (fun _ => rfl) (fun _ => rfl) (fun _ => rfl) (fun _ => rfl) (fun _ => rfl) (fun _ => rfl) y
  · obtain ⟨t, y, h⟩ := cover_rows (fun t y a => win8_8.rect_emb_val t y a) (fun t => (idx8 t).2.2.2.2.2.2.2.2) i
    exact ⟨t, flush8_8 t, Finset.mem_map.mpr ⟨y, Finset.mem_univ y, h⟩⟩

end Cert.KernelIdeal.Val

end
-- ==== Proof.KerValRegL2.lean ====
import proofs.«423410_j58634893525678_2_alg».proof.Proof.Gen.KernelIdeal.Frame
import proofs.«423410_j58634893525678_2_alg».proof.Proof.Spec
import proofs.«423410_j58634893525678_2_alg».proof.Proof.RegMat6
import proofs.«423410_j58634893525678_2_alg».proof.Proof.RegStats7
import proofs.«423410_j58634893525678_2_alg».proof.Proof.RegNorm8
import proofs.«423410_j58634893525678_2_alg».proof.Proof.KerValRegL0
import Idealize.ShloMosaic.Lib.ValueIdx

set_option maxRecDepth 16384

noncomputable section

namespace Cert.KernelIdeal.Val

open Idealize.ShloMosaic Idealize.ShloMosaic.ValueIdx Idealize.ShloMosaic.TcCoe

variable (m : (ℓ : Loc nD τ sig) → Buf (Elt Ideal) ℓ) (ρ : Dev nD → PrngReg) (c : Dev nD)

noncomputable def out6 : List (Ref sig .tc) := [main_v104]

set_option maxHeartbeats 1000000 in
theorem keepR6 {b : Ref sig .tc} (hb : b ∉ out6) :
    Gen.W14 (F := Ideal) m ρ c (Proc.devRef .tc b) = Gen.W13 (F := Ideal) m ρ c (Proc.devRef .tc b) :=
  keep_region (ref := Pipeline.arrRef spec6) (by decide) (fun w hw => (Gen.W14_arr m ρ c w).trans
    (((Gen.dat6 (Gen.V13 m ρ) c).arrAt_in w hw _).trans (Gen.A_eq6 (Gen.V13 m ρ) c w))) (Gen.W14_of_ne m ρ c) hb

noncomputable def out7 : List (Ref sig .tc) := [main_v118_0, main_v118_1, main_v118_2]

set_option maxHeartbeats 1000000 in
theorem keepR7 {b : Ref sig .tc} (hb : b ∉ out7) :
    Gen.W16 (F := Ideal) m ρ c (Proc.devRef .tc b) = Gen.W15 (F := Ideal) m ρ c (Proc.devRef .tc b) :=
  keep_region (ref := Pipeline.arrRef spec7) (by decide) (fun w hw => (Gen.W16_arr m ρ c w).trans
    (((Gen.dat7 (Gen.V15 m ρ) c).arrAt_in w hw _).trans (Gen.A_eq7 (Gen.V15 m ρ) c w))) (Gen.W16_of_ne m ρ c) hb

noncomputable def out8 : List (Ref sig .tc) := [main_v142]

set_option maxHeartbeats 1000000 in
theorem keepR8 {b : Ref sig .tc} (hb : b ∉ out8) :
    Gen.W18 (F := Ideal) m ρ c (Proc.devRef .tc b) = Gen.W17 (F := Ideal) m ρ c (Proc.devRef .tc b) :=
  keep_region (ref := Pipeline.arrRef spec8) (by decide) (fun w hw => (Gen.W18_arr m ρ c w).trans
    (((Gen.dat8 (Gen.V17 m ρ) c).arrAt_in w hw _).trans (Gen.A_eq8 (Gen.V17 m ρ) c w))) (Gen.W18_of_ne m ρ c) hb

end Cert.KernelIdeal.Val

end
-- ==== Proof.RegMat9.lean ====
import proofs.«423410_j58634893525678_2_alg».proof.Proof.Gen.KernelIdeal.Frame
import proofs.«423410_j58634893525678_2_alg».proof.Proof.RegMatLib

namespace Cert.KernelIdeal.Val

open Idealize.ShloMosaic Idealize.ShloMosaic.ValueIdx Idealize.ShloMosaic.TcCoe

-- Each point writes its row block of the projection of the pre-scaled rows, and the row blocks cover the array.
theorem mat9 (V : (c : Dev nD) → (b : Ref sig .tc) → Buf (Elt Ideal) ((c : Thread nD τ).loc b)) (c : Dev nD)
    (n : Fin 100000) (j : Fin 128) :
    (Gen.dat9 (F := Ideal) V c).arrAt 3 cfg9.N (ix2 n j)
      = Cert.Gnn.Reg.mat (fun n k => V c (Pipeline.arrRef spec9 0) (ix2 n k)) (fun k j => V c (Pipeline.arrRef spec9 1) (ix2 k j))
          (fun n => V c (Pipeline.arrRef spec9 2) (ix2 n 0)) n j := by
  refine congrFun ((Gen.dat9 (F := Ideal) V c).arrAt_eq_of_cover 3 (Mat.G (V c (Pipeline.arrRef spec9 0))
    (V c (Pipeline.arrRef spec9 1)) (V c (Pipeline.arrRef spec9 2))) (fun t _ => ?_) fun i => ?_) (ix2 n j)
  · show (cfg9.win 3).cut (grid9.coords t) ((Gen.dat9 (F := Ideal) V c).after 3 t) = _
    rw [Gen.after9_3]
    unfold Gen.out9_3
    rw [View.canon_unit_zero Mat.hz]
    simp only [View.ld_unit_zero (S := S5000x128) Mat.hz, View.ld_unit_zero (S := S5000x1) Mat.hz, View.ld_unit_zero (S := S128x128) Mat.hz]
    funext y
    unfold Gen.k9_pay1
    refine (Mat.pay_at _ _ _ _ _ y).trans ?_
    simp only [shapeCast_self]
    exact Mat.sum_eq t (win9_0.rect_emb_val t) (win9_1.rect_emb_val t) (win9_2.rect_emb_val t) (win9_3.rect_emb_val t)
      (V c (Pipeline.arrRef spec9 0)) (V c (Pipeline.arrRef spec9 1)) (V c (Pipeline.arrRef spec9 2)) y
  · obtain ⟨t, ht⟩ := Mat.cover i
    refine ⟨t, Gen.flush9_3 t, ?_⟩
    show i ∈ ((View.whole main_v145).slice (win9_3.rect t)).set
    rw [View.set_slice_whole, Rect.mem_set_unit]
    exact ht

end Cert.KernelIdeal.Val
-- ==== Proof.RegStats10.lean ====
import proofs.«423410_j58634893525678_2_alg».proof.Proof.Gen.KernelIdeal.Frame
import proofs.«423410_j58634893525678_2_alg».proof.Proof.RegStatsLib
import Idealize.ShloMosaic.Lib.Tactic

set_option maxRecDepth 16384

noncomputable section

namespace Cert.KernelIdeal.Val

open Idealize.ShloMosaic Idealize.ShloMosaic.TcCoe Idealize.ShloMosaic.ValueIdx Idealize.ShloMosaic.Tactic
open Idealize.SL.Sem
open Idealize.ShloMosaic.Pipeline (Dat)
open Cert.KernelIdeal Cert.KernelIdeal.Gen
open Cert.Gnn.Tile (node)
open Stats (hz2 hz3 tl tN emb0 emb1 emb2 emb3 emb4 emb5 emb6)

namespace Stats10

variable (V : (c : Dev nD) → (b : Ref sig .tc) → Buf (Elt Ideal) ((c : Thread nD τ).loc b)) (c : Dev nD)

-- at a core's first step the three values are the payloads at the point's tiles, the accumulators stepped from the zero block
theorem outsA (t : Fin cfg10.N) (h0 : t.val % 10 = 0) :
    outsAt10 V c t.val t.isLt = (k10_pay4 (iblk10 V c 0 t) (iblk10 V c 1 t) (iblk10 V c 3 t),
      k10_pay6 (iblk10 V c 0 t) (iblk10 V c 1 t) (iblk10 V c 3 t) (iblk10 V c 2 t) (k10_pay2 (F := Ideal)),
      k10_pay1 (k10_pay5 (iblk10 V c 2 t)) (k10_pay7 (iblk10 V c 0 t) (iblk10 V c 1 t) (iblk10 V c 3 t)) (k10_pay3 (F := Ideal))) := by
  rw [outsAt10_A V c t h0]
  unfold out10_A_4 out10_A_5 out10_A_6
  rw [View.read_writes_eq_canon _ _ _ (cover10_A_4 _ _ _ _ _ _ _ _ _ _ _ _ _ _ _ _ _ _ _ _ _), View.read_writes_eq_canon _ _ _ (cover10_A_5 _ _ _ _ _ _ _ _ _ _ _ _ _ _ _ _ _ _ _ _ _),
    View.read_writes_eq_canon _ _ _ (cover10_A_6 _ _ _ _ _ _ _ _ _ _ _ _ _ _ _ _ _ _ _ _ _)]
  unfold kernelRun10_A
  dsimp only
  sl_unfold_words
  rw [View.canon_unit_zero hz2, View.canon_cons_unit_zero (S := S1x128x128) hz3, View.canon_cons_unit_zero (S := S1x128x128) hz3]
  simp only [View.readAt_eq_ld, (hs10_0 t).read_unread, (hs10_1 t).read_unread, (hs10_2 t).read_unread, (hs10_3 t).read_unread,
    (hs10_5 t).read_unread, (hs10_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

-- at a later step the accumulators are stepped from their values after the point before
theorem outsB (t : Fin cfg10.N) (h0 : ¬t.val % 10 = 0) :
    outsAt10 V c t.val t.isLt = (k10_pay4 (iblk10 V c 0 t) (iblk10 V c 1 t) (iblk10 V c 3 t),
      k10_pay6 (iblk10 V c 0 t) (iblk10 V c 1 t) (iblk10 V c 3 t) (iblk10 V c 2 t) (outsAt10 V c (t.val - 1) (Nat.lt_of_le_of_lt (Nat.sub_le _ _) t.isLt)).2.1,
      k10_pay1 (k10_pay5 (iblk10 V c 2 t)) (k10_pay7 (iblk10 V c 0 t) (iblk10 V c 1 t) (iblk10 V c 3 t)) (outsAt10 V c (t.val - 1) (Nat.lt_of_le_of_lt (Nat.sub_le _ _) t.isLt)).2.2) := by
  rw [outsAt10_B V c t h0]
  unfold out10_B_4 out10_B_5 out10_B_6
  rw [View.read_writes_eq_canon _ _ _ (cover10_B_4 _ _ _ _ _ _ _ _ _ _ _ _ _ _ _ _ _ _ _ _ _ _ _), View.read_writes_eq_canon _ _ _ (cover10_B_5 _ _ _ _ _ _ _ _ _ _ _ _ _ _ _ _ _ _ _ _ _ _ _),
    View.read_writes_eq_canon _ _ _ (cover10_B_6 _ _ _ _ _ _ _ _ _ _ _ _ _ _ _ _ _ _ _ _ _ _ _)]
  unfold kernelRun10_B
  dsimp only
  sl_unfold_words
  rw [View.canon_unit_zero hz2, View.canon_unit_zero hz3, View.canon_unit_zero hz3]
  simp only [View.readAt_eq_ld, (hs10_0 t).read_unread, (hs10_1 t).read_unread, (hs10_2 t).read_unread, (hs10_3 t).read_unread,
    (hs10_5 t).read_unread, (hs10_6 t).read_unread, View.ld_unit_zero (S := S5000x128) hz2, View.ld_unit_zero (S := S5000x1) hz2,
    View.ld_unit_zero (S := S1x128) hz2, View.ld_unit_zero (S := S1x128x128) hz3, View.readCov_unit_zero (S := S1x128x128) _ hz3]

abbrev agg10 : Fin 100000 → Fin 128 → EReal := fun n j => V c (Pipeline.arrRef spec10 0) (ix2 n j)
abbrev dis10 : Fin 100000 → EReal := fun n => V c (Pipeline.arrRef spec10 1) (ix2 n 0)
abbrev bat10 : Fin 100000 → BitVec 32 := fun n => V c (Pipeline.arrRef spec10 2) (ix2 n 0)
abbrev bias10 : Fin 128 → EReal := fun j => V c (Pipeline.arrRef spec10 3) (ix2 0 j)
abbrev hb10 : Fin 100000 → Fin 128 → EReal := Cert.Gnn.Reg.hb (agg10 V c) (dis10 V c) (bias10 V c)

-- the general lemma at this region's tiles, each read at its place in its array
theorem facts (t : Fin cfg10.N) :
    (∀ r j, (outsAt10 V c t.val t.isLt).1 (ix2 r j) = hb10 V c (node (tl N_10 t) r) j) ∧
    (t.val % 10 = 9 → ∀ g j,
      (outsAt10 V c t.val t.isLt).2.1 (ix3 0 g j)
        = Cert.Gnn.Reg.part (bat10 V c) (hb10 V c) ⟨t.val / 10, by have := tN t; omega⟩ g j ∧
      (outsAt10 V c t.val t.isLt).2.2 (ix3 0 g j)
        = Cert.Gnn.Reg.part (bat10 V c) (fun n j => hb10 V c n j * hb10 V c n j) ⟨t.val / 10, by have := tN t; omega⟩ g j) :=
  Stats.core N_10 (agg10 V c) (dis10 V c) (bat10 V c) (bias10 V c) (iblk10 V c 0) (iblk10 V c 1) (iblk10 V c 2) (iblk10 V c 3)
    (fun t r j => congrArg (V c (Pipeline.arrRef spec10 0)) (emb0 t r j)) (fun t r => congrArg (V c (Pipeline.arrRef spec10 1)) (emb1 t r)) (fun t r => congrArg (V c (Pipeline.arrRef spec10 2)) (emb2 t r))
    (fun t j => congrArg (V c (Pipeline.arrRef spec10 3)) (emb3 t j)) (outsAt10 V c) (outsA V c) (outsB V c) t

def G4 : S100000x128.Idx → EReal := fun i => hb10 V c (i 0) (i 1)
def G5 : S2x128x128.Idx → EReal := fun i => Cert.Gnn.Reg.part (bat10 V c) (hb10 V c) (i 0) (i 1) (i 2)
def G6 : S2x128x128.Idx → EReal :=
  fun i => Cert.Gnn.Reg.part (bat10 V c) (fun n j => hb10 V c n j * hb10 V c n j) (i 0) (i 1) (i 2)

theorem flushed4 (t : Fin cfg10.N) (_ : (cfg10.win 4).flush t = true) :
    (dat10 V c).flushed 4 t = ((cfg10.win 4).blk t).view.read (Elt Ideal) (G4 V c) := by
  funext y
  obtain ⟨r, j, rfl⟩ : ∃ (r : Fin 5000) (j : Fin 128), y = ix2 r j := ⟨y 0, y 1, eq_ix2 y⟩
  show (cfg10.win 4).cut (grid10.coords t) ((dat10 V c).after 4 t) (ix2 r j)
      = G4 V c (((cfg10.win 4).blk t).view.emb (ix2 r j))
  rw [after10_4]
  exact ((facts V c t).1 r j).trans (congrArg (G4 V c) (emb4 t r j)).symm

-- node n is row n % 5000 of tile n / 5000
theorem hb_final (n : Fin 100000) (j : Fin 128) : (dat10 V c).arrAt 4 cfg10.N (ix2 n j) = hb10 V c n j := by
  have hn := n.isLt
  let t : Fin cfg10.N := ⟨n.val / 5000, by rw [show cfg10.N = 20 from N_10]; omega⟩
  let r : Fin 5000 := ⟨n.val % 5000, Nat.mod_lt _ (by norm_num)⟩
  have e : ((cfg10.win 4).blk t).view.emb (ix2 r j) = ix2 n j :=
    (emb4 t r j).trans (congrArg (ix2 · j) (Fin.ext (by show 5000 * (n.val / 5000) + n.val % 5000 = n.val; exact Nat.div_add_mod _ _)))
  exact (dat10 V c).arrAt_apply_of_mem 4 (G4 V c) (flushed4 V c) cfg10.N t (ix2 n j) t.isLt (flush10_4 t)
    (e ▸ ((cfg10.win 4).blk t).view.emb_mem_set (ix2 r j))

set_option maxRecDepth 200000 in
theorem flushed5 (t : Fin cfg10.N) (hf : (cfg10.win 5).flush t = true) :
    (dat10 V c).flushed 5 t = ((cfg10.win 5).blk t).view.read (Elt Ideal) (G5 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt10 V c t.val t.isLt).2.1 (ix3 (0 : Fin 1) g j)) ?_ ?_
  · show (cfg10.win 5).cut (grid10.coords t) ((dat10 V c).after 5 t) (ix3 (0 : Fin 1) g j) = _
    rw [after10_5]
    rfl
  · rw [View.read_apply]
    exact ((facts V c t).2 ((flush10_5 t).mp hf) g j).1.trans (congrArg (G5 V c) (emb5 t g j)).symm
set_option maxRecDepth 200000 in
theorem flushed6 (t : Fin cfg10.N) (hf : (cfg10.win 6).flush t = true) :
    (dat10 V c).flushed 6 t = ((cfg10.win 6).blk t).view.read (Elt Ideal) (G6 V c) := by
  funext y
  obtain ⟨z, g, j, rfl⟩ : ∃ (z : Fin 1) (g j : Fin 128), y = ix3 z g j := ⟨y 0, y 1, y 2, eq_ix3 y⟩
  obtain rfl : z = 0 := Subsingleton.elim _ _
  refine Eq.trans (b := (outsAt10 V c t.val t.isLt).2.2 (ix3 (0 : Fin 1) g j)) ?_ ?_
  · show (cfg10.win 6).cut (grid10.coords t) ((dat10 V c).after 6 t) (ix3 (0 : Fin 1) g j) = _
    rw [after10_6]
    rfl
  · rw [View.read_apply]
    exact ((facts V c t).2 ((flush10_6 t).mp hf) g j).2.trans (congrArg (G6 V c) (emb6 t g j)).symm

-- block k of the sums is the value after point 10 k + 9, core k's last
theorem s1_final (k : Fin 2) (g j : Fin 128) :
    (dat10 V c).arrAt 5 cfg10.N (ix3 k g j) = Cert.Gnn.Reg.part (bat10 V c) (hb10 V c) k g j := by
  have hk := k.isLt
  let t : Fin cfg10.N := ⟨10 * k.val + 9, by rw [show cfg10.N = 20 from N_10]; omega⟩
  have e : ((cfg10.win 5).blk t).view.emb (ix3 (0 : Fin 1) g j) = ix3 k g j :=
    (emb5 t g j).trans (congrArg (ix3 · g j) (Fin.ext (by show (10 * k.val + 9) / 10 = k.val; omega)))
  exact (dat10 V c).arrAt_apply_of_mem 5 (G5 V c) (flushed5 V c) cfg10.N t (ix3 k g j) t.isLt
    ((flush10_5 t).mpr (by show (10 * k.val + 9) % 10 = 9; omega)) (e ▸ ((cfg10.win 5).blk t).view.emb_mem_set (ix3 (0 : Fin 1) g j))
theorem s2_final (k : Fin 2) (g j : Fin 128) :
    (dat10 V c).arrAt 6 cfg10.N (ix3 k g j)
      = Cert.Gnn.Reg.part (bat10 V c) (fun n j => hb10 V c n j * hb10 V c n j) k g j := by
  have hk := k.isLt
  let t : Fin cfg10.N := ⟨10 * k.val + 9, by rw [show cfg10.N = 20 from N_10]; omega⟩
  have e : ((cfg10.win 6).blk t).view.emb (ix3 (0 : Fin 1) g j) = ix3 k g j :=
    (emb6 t g j).trans (congrArg (ix3 · g j) (Fin.ext (by show (10 * k.val + 9) / 10 = k.val; omega)))
  exact (dat10 V c).arrAt_apply_of_mem 6 (G6 V c) (flushed6 V c) cfg10.N t (ix3 k g j) t.isLt
    ((flush10_6 t).mpr (by show (10 * k.val + 9) % 10 = 9; omega)) (e ▸ ((cfg10.win 6).blk t).view.emb_mem_set (ix3 (0 : Fin 1) g j))

end Stats10

theorem stats10_hb (V : (c : Dev nD) → (b : Ref sig .tc) → Buf (Elt Ideal) ((c : Thread nD τ).loc b))
    (c : Dev nD) (n : Fin 100000) (j : Fin 128) :
    (Gen.dat10 (F := Ideal) V c).arrAt 4 cfg10.N (ix2 n j)
      = Cert.Gnn.Reg.hb (fun n j => V c (Pipeline.arrRef spec10 0) (ix2 n j)) (fun n => V c (Pipeline.arrRef spec10 1) (ix2 n 0))
          (fun j => V c (Pipeline.arrRef spec10 3) (ix2 0 j)) n j :=
  Stats10.hb_final V c n j

theorem stats10_s1 (V : (c : Dev nD) → (b : Ref sig .tc) → Buf (Elt Ideal) ((c : Thread nD τ).loc b))
    (c : Dev nD) (k : Fin 2) (g j : Fin 128) :
    (Gen.dat10 (F := Ideal) V c).arrAt 5 cfg10.N (ix3 k g j)
      = Cert.Gnn.Reg.part (fun n => V c (Pipeline.arrRef spec10 2) (ix2 n 0))
          (Cert.Gnn.Reg.hb (fun n j => V c (Pipeline.arrRef spec10 0) (ix2 n j)) (fun n => V c (Pipeline.arrRef spec10 1) (ix2 n 0))
            (fun j => V c (Pipeline.arrRef spec10 3) (ix2 0 j))) k g j :=
  Stats10.s1_final V c k g j

theorem stats10_s2 (V : (c : Dev nD) → (b : Ref sig .tc) → Buf (Elt Ideal) ((c : Thread nD τ).loc b))
    (c : Dev nD) (k : Fin 2) (g j : Fin 128) :
    (Gen.dat10 (F := Ideal) V c).arrAt 6 cfg10.N (ix3 k g j)
      = Cert.Gnn.Reg.part (fun n => V c (Pipeline.arrRef spec10 2) (ix2 n 0))
          (fun n j => Cert.Gnn.Reg.hb (fun n j => V c (Pipeline.arrRef spec10 0) (ix2 n j)) (fun n => V c (Pipeline.arrRef spec10 1) (ix2 n 0))
              (fun j => V c (Pipeline.arrRef spec10 3) (ix2 0 j)) n j
            * Cert.Gnn.Reg.hb (fun n j => V c (Pipeline.arrRef spec10 0) (ix2 n j)) (fun n => V c (Pipeline.arrRef spec10 1) (ix2 n 0))
              (fun j => V c (Pipeline.arrRef spec10 3) (ix2 0 j)) n j) k g j :=
  Stats10.s2_final V c k g j

end Cert.KernelIdeal.Val

end
-- ==== Proof.RegNorm11.lean ====
import proofs.«423410_j58634893525678_2_alg».proof.Proof.RegNormLib

noncomputable section

namespace Cert.KernelIdeal.Val

open Idealize.ShloMosaic Idealize.ShloMosaic.TcCoe Idealize.ShloMosaic.ValueIdx Cert.KernelIdeal Cert.KernelIdeal.Gen Cert.Gnn
open Cert.KernelIdeal.Val.NormLib

theorem idx11 : ∀ t : Fin cfg11.N, RowIdx t (win11_0.index t) (win11_1.index t) (win11_2.index t) (win11_3.index t) (win11_4.index t) (win11_5.index t) (win11_6.index t) (win11_7.index t) (win11_8.index t) :=
  (by decide +kernel : ∀ t : Fin grid11.N, _)

theorem tile11 (V : (c : Dev nD) → (b : Ref sig .tc) → Buf (Elt Ideal) ((c : Thread nD τ).loc b)) (c : Dev nD)
    (t : Fin cfg11.N) : (dat11 (F := Ideal) V c).flushed 8 t = ((cfg11.win 8).blk t).view.read (Elt Ideal)
      (G (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7))) := by
  show (cfg11.win 8).cut (grid11.coords t) ((dat11 (F := Ideal) V c).after 8 t) = _
  rw [after11_8]
  funext y
  exact tile_norm out5_norm t.isLt (idx11 t) (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7))
    (fun y a => win11_0.rect_emb_val t y a)
    (fun y a => win11_1.rect_emb_val t y a)
    (fun y a => win11_2.rect_emb_val t y a)
    (fun y a => win11_3.rect_emb_val t y a)
    (fun y a => win11_4.rect_emb_val t y a)
    (fun y a => win11_5.rect_emb_val t y a)
    (fun y a => win11_6.rect_emb_val t y a)
    (fun y a => win11_7.rect_emb_val t y a)
    (fun y a => win11_8.rect_emb_val t y a)
    (fun _ => rfl) (fun _ => rfl) (fun _ => rfl) (fun _ => rfl) (fun _ => rfl) (fun _ => rfl) (fun _ => rfl) (fun _ => rfl) y

theorem cover11 (i : S100000x128.Idx) :
    ∃ t : Fin cfg11.N, (cfg11.win 8).flush t = true ∧ i ∈ ((cfg11.win 8).blk t).view.set := by
  obtain ⟨t, y, h⟩ := cover_rows (fun t y a => win11_8.rect_emb_val t y a) (fun t => (idx11 t).2.2.2.2.2.2.2.2) i
  exact ⟨t, flush11_8 t, Finset.mem_map.mpr ⟨y, Finset.mem_univ y, h⟩⟩

theorem norm11 (V : (c : Dev nD) → (b : Ref sig .tc) → Buf (Elt Ideal) ((c : Thread nD τ).loc b)) (c : Dev nD)
    (n : Fin 100000) (j : Fin 128) :
    (Gen.dat11 (F := Ideal) V c).arrAt 8 cfg11.N (ix2 n j)
      = Cert.Gnn.Reg.norm (fun n j => V c (Pipeline.arrRef spec11 0) (ix2 n j)) (fun n => V c (Pipeline.arrRef spec11 1) (ix2 n 0))
          (fun g j => V c (Pipeline.arrRef spec11 2) (ix2 g j)) (fun g j => V c (Pipeline.arrRef spec11 3) (ix2 g j))
          (fun j => V c (Pipeline.arrRef spec11 4) (ix2 0 j)) (fun j => V c (Pipeline.arrRef spec11 5) (ix2 0 j))
          (fun j => V c (Pipeline.arrRef spec11 6) (ix2 0 j)) (fun n j => V c (Pipeline.arrRef spec11 7) (ix2 n j)) n j :=
  congrFun ((dat11 (F := Ideal) V c).arrAt_eq_of_cover 8 _ (fun t _ => tile11 V c t) cover11) (ix2 n j)

end Cert.KernelIdeal.Val

end
-- ==== Proof.KerValRegL3.lean ====
import proofs.«423410_j58634893525678_2_alg».proof.Proof.Gen.KernelIdeal.Frame
import proofs.«423410_j58634893525678_2_alg».proof.Proof.Spec
import proofs.«423410_j58634893525678_2_alg».proof.Proof.RegMat9
import proofs.«423410_j58634893525678_2_alg».proof.Proof.RegStats10
import proofs.«423410_j58634893525678_2_alg».proof.Proof.RegNorm11
import proofs.«423410_j58634893525678_2_alg».proof.Proof.KerValRegL0
import Idealize.ShloMosaic.Lib.ValueIdx

set_option maxRecDepth 16384

noncomputable section

namespace Cert.KernelIdeal.Val

open Idealize.ShloMosaic Idealize.ShloMosaic.ValueIdx Idealize.ShloMosaic.TcCoe

variable (m : (ℓ : Loc nD τ sig) → Buf (Elt Ideal) ℓ) (ρ : Dev nD → PrngReg) (c : Dev nD)

noncomputable def out9 : List (Ref sig .tc) := [main_v145]

set_option maxHeartbeats 1000000 in
theorem keepR9 {b : Ref sig .tc} (hb : b ∉ out9) :
    Gen.W20 (F := Ideal) m ρ c (Proc.devRef .tc b) = Gen.W19 (F := Ideal) m ρ c (Proc.devRef .tc b) :=
  keep_region (ref := Pipeline.arrRef spec9) (by decide) (fun w hw => (Gen.W20_arr m ρ c w).trans
    (((Gen.dat9 (Gen.V19 m ρ) c).arrAt_in w hw _).trans (Gen.A_eq9 (Gen.V19 m ρ) c w))) (Gen.W20_of_ne m ρ c) hb

noncomputable def out10 : List (Ref sig .tc) := [main_v159_0, main_v159_1, main_v159_2]

set_option maxHeartbeats 1000000 in
theorem keepR10 {b : Ref sig .tc} (hb : b ∉ out10) :
    Gen.W22 (F := Ideal) m ρ c (Proc.devRef .tc b) = Gen.W21 (F := Ideal) m ρ c (Proc.devRef .tc b) :=
  keep_region (ref := Pipeline.arrRef spec10) (by decide) (fun w hw => (Gen.W22_arr m ρ c w).trans
    (((Gen.dat10 (Gen.V21 m ρ) c).arrAt_in w hw _).trans (Gen.A_eq10 (Gen.V21 m ρ) c w))) (Gen.W22_of_ne m ρ c) hb

noncomputable def out11 : List (Ref sig .tc) := [main_v183]

set_option maxHeartbeats 1000000 in
theorem keepR11 {b : Ref sig .tc} (hb : b ∉ out11) :
    Gen.W24 (F := Ideal) m ρ c (Proc.devRef .tc b) = Gen.W23 (F := Ideal) m ρ c (Proc.devRef .tc b) :=
  keep_region (ref := Pipeline.arrRef spec11) (by decide) (fun w hw => (Gen.W24_arr m ρ c w).trans
    (((Gen.dat11 (Gen.V23 m ρ) c).arrAt_in w hw _).trans (Gen.A_eq11 (Gen.V23 m ρ) c w))) (Gen.W24_of_ne m ρ c) hb

end Cert.KernelIdeal.Val

end
-- ==== Proof.KerValReg.lean ====
import proofs.«423410_j58634893525678_2_alg».proof.Proof.KerValRegL0
import proofs.«423410_j58634893525678_2_alg».proof.Proof.KerValRegL1
import proofs.«423410_j58634893525678_2_alg».proof.Proof.KerValRegL2
import proofs.«423410_j58634893525678_2_alg».proof.Proof.KerValRegL3
-- ==== Proof.KerValStay.lean ====
import proofs.«423410_j58634893525678_2_alg».proof.Proof.KerValBase
import proofs.«423410_j58634893525678_2_alg».proof.Proof.KerValReg

set_option maxRecDepth 16384
set_option maxHeartbeats 2000000

noncomputable section

namespace Cert.KernelIdeal.Val

open Idealize.ShloMosaic Idealize.ShloMosaic.ValueIdx Idealize.ShloMosaic.TcCoe Cert.Gnn

variable (m : (ℓ : Loc nD τ sig) → Buf (Elt Ideal) ℓ) (ρ : Dev nD → PrngReg) (c : Dev nD)

-- buffers the layers read that nothing after the opening stretch writes
noncomputable def fixed : List (Ref sig .tc) :=
  [main_v3, main_v6, main_v12, main_v13, main_v19, main_arg0, main_arg3, main_arg4, main_arg5, main_arg6, main_arg7]

-- the second contents hold each buffer of the list as the first do
def Same (S : List (Ref sig .tc)) (V V' : Valuation τ sig (Elt Ideal)) : Prop :=
  ∀ b ∈ S, V' (Proc.devRef .tc b) = V (Proc.devRef .tc b)

-- a step that writes none of the list's buffers keeps the agreement
theorem Same.step {S : List (Ref sig .tc)} {V V' V'' : Valuation τ sig (Elt Ideal)} (h : Same S V V') (wr : List (Ref sig .tc))
    (keep : ∀ {b}, b ∉ wr → V'' (Proc.devRef .tc b) = V' (Proc.devRef .tc b)) (hd : ∀ b ∈ S, b ∉ wr) : Same S V V'' :=
  fun b hb => (keep (hd b hb)).trans (h b hb)

theorem Same.refl (S : List (Ref sig .tc)) (V : Valuation τ sig (Elt Ideal)) : Same S V V := fun _ _ => rfl

theorem fx1 : Same fixed (Gen.W1 m ρ c) (Gen.W1 m ρ c) := Same.refl _ _
theorem fx2 : Same fixed (Gen.W1 m ρ c) (Gen.W2 m ρ c) := (fx1 m ρ c).step out0 (keepR0 m ρ c) (by decide)
theorem fx3 : Same fixed (Gen.W1 m ρ c) (Gen.W3 m ρ c) := (fx2 m ρ c).step wr1 (keepH1 _) (by decide)
theorem fx4 : Same fixed (Gen.W1 m ρ c) (Gen.W4 m ρ c) := (fx3 m ρ c).step out1 (keepR1 m ρ c) (by decide)
theorem fx5 : Same fixed (Gen.W1 m ρ c) (Gen.W5 m ρ c) := (fx4 m ρ c).step wr2 (keepH2 _) (by decide)
theorem fx6 : Same fixed (Gen.W1 m ρ c) (Gen.W6 m ρ c) := (fx5 m ρ c).step out2 (keepR2 m ρ c) (by decide)
theorem fx7 : Same fixed (Gen.W1 m ρ c) (Gen.W7 m ρ c) := (fx6 m ρ c).step wr3 (keepH3 _) (by decide)
theorem fx8 : Same fixed (Gen.W1 m ρ c) (Gen.W8 m ρ c) := (fx7 m ρ c).step out3 (keepR3 m ρ c) (by decide)
theorem fx9 : Same fixed (Gen.W1 m ρ c) (Gen.W9 m ρ c) := (fx8 m ρ c).step wr4 (keepH4 _) (by decide)
theorem fx10 : Same fixed (Gen.W1 m ρ c) (Gen.W10 m ρ c) := (fx9 m ρ c).step out4 (keepR4 m ρ c) (by decide)
theorem fx11 : Same fixed (Gen.W1 m ρ c) (Gen.W11 m ρ c) := (fx10 m ρ c).step wr5 (keepH5 _) (by decide)
theorem fx12 : Same fixed (Gen.W1 m ρ c) (Gen.W12 m ρ c) := (fx11 m ρ c).step out5 (keepR5 m ρ c) (by decide)
theorem fx13 : Same fixed (Gen.W1 m ρ c) (Gen.W13 m ρ c) := (fx12 m ρ c).step wr6 (keepH6 _) (by decide)
theorem fx14 : Same fixed (Gen.W1 m ρ c) (Gen.W14 m ρ c) := (fx13 m ρ c).step out6 (keepR6 m ρ c) (by decide)
theorem fx15 : Same fixed (Gen.W1 m ρ c) (Gen.W15 m ρ c) := (fx14 m ρ c).step wr7 (keepH7 _) (by decide)
theorem fx16 : Same fixed (Gen.W1 m ρ c) (Gen.W16 m ρ c) := (fx15 m ρ c).step out7 (keepR7 m ρ c) (by decide)
theorem fx17 : Same fixed (Gen.W1 m ρ c) (Gen.W17 m ρ c) := (fx16 m ρ c).step wr8 (keepH8 _) (by decide)
theorem fx18 : Same fixed (Gen.W1 m ρ c) (Gen.W18 m ρ c) := (fx17 m ρ c).step out8 (keepR8 m ρ c) (by decide)
theorem fx19 : Same fixed (Gen.W1 m ρ c) (Gen.W19 m ρ c) := (fx18 m ρ c).step wr9 (keepH9 _) (by decide)
theorem fx20 : Same fixed (Gen.W1 m ρ c) (Gen.W20 m ρ c) := (fx19 m ρ c).step out9 (keepR9 m ρ c) (by decide)
theorem fx21 : Same fixed (Gen.W1 m ρ c) (Gen.W21 m ρ c) := (fx20 m ρ c).step wr10 (keepH10 _) (by decide)
theorem fx22 : Same fixed (Gen.W1 m ρ c) (Gen.W22 m ρ c) := (fx21 m ρ c).step out10 (keepR10 m ρ c) (by decide)
theorem fx23 : Same fixed (Gen.W1 m ρ c) (Gen.W23 m ρ c) := (fx22 m ρ c).step wr11 (keepH11 _) (by decide)
theorem fx24 : Same fixed (Gen.W1 m ρ c) (Gen.W24 m ρ c) := (fx23 m ρ c).step out11 (keepR11 m ρ c) (by decide)

-- the graph words are still in their column where the pooling region reads them
theorem bvW24 : (fun n => Gen.W24 m ρ c (Proc.devRef .tc main_v13) (ix2 n 0)) = kbv m c := by
  rw [fx24 m ρ c main_v13 (by decide)]; exact bvW1 m ρ c

end Cert.KernelIdeal.Val

end
-- ==== Proof.KerValLayers.lean ====
import proofs.«423410_j58634893525678_2_alg».proof.Proof.KerValStay

set_option maxRecDepth 16384
set_option maxHeartbeats 2000000

noncomputable section

namespace Cert.KernelIdeal.Val

open Idealize.ShloMosaic Idealize.ShloMosaic.ValueIdx Idealize.ShloMosaic.TcCoe Cert.Gnn

variable (m : (ℓ : Loc nD τ sig) → Buf (Elt Ideal) ℓ) (ρ : Dev nD → PrngReg) (c : Dev nD)

-- a layer's three regions and the host arithmetic between them compose to the factored layer of its input table
theorem layer_of (l : Fin 4) {x : Fin 100000 → Fin 128 → EReal}
    {X0 xa xe hs agg hh he out : FVec Ideal S100000x128 .f32} {Wa : FVec Ideal S128x128 .f32}
    {a3 : FVec Ideal S4x128x128 .f32} {da dc : FVec Ideal S100000x1 .f32} {bc be : IVec S100000x1 32}
    {src dst : IVec S1700000 32} {br ar wr bbr : FVec Ideal S1x128 .f32} {a4 a5 a6 a7 : FVec Ideal S4x128 .f32}
    {s1 s2 : FVec Ideal S2x128x128 .f32} {cs : FVec Ideal S128x1 .f32} {mean var : FVec Ideal S128x128 .f32}
    {cv : FVec Ideal S4x128x128 .f32 → FVec Ideal S128x128 .f32} {row : FVec Ideal S4x128 .f32 → FVec Ideal S1x128 .f32}
    (hconv : ∀ w k j, cv w (ix2 k j) = w (ix3 l k j)) (hrow : ∀ v j, row v (ix2 (0 : Fin 1) j) = v (ix2 l j))
    (hX0 : ∀ n j, X0 (ix2 n j) = x n j) (exa : xa = X0) (exe : xe = X0)
    (hWa : Wa = cv a3) (e3 : a3 = Gen.W1 m ρ c (Proc.devRef .tc main_arg3)) (eda : da = Gen.W1 m ρ c (Proc.devRef .tc main_v12))
    (hmat : ∀ n j, hs (ix2 n j)
      = Reg.mat (fun n k => xa (ix2 n k)) (fun k j => Wa (ix2 k j)) (fun n => da (ix2 n (0 : Fin 1))) n j)
    (hagg : agg = Host.aggT hs src dst) (esrc : src = Gen.W1 m ρ c (Proc.devRef .tc main_v3)) (edst : dst = Gen.W1 m ρ c (Proc.devRef .tc main_v6))
    (hbr : br = row a4) (e4 : a4 = Gen.W1 m ρ c (Proc.devRef .tc main_arg4))
    (edc : dc = Gen.W1 m ρ c (Proc.devRef .tc main_v12)) (ebc : bc = Gen.W1 m ρ c (Proc.devRef .tc main_v13))
    (hhb : ∀ n j, hh (ix2 n j)
      = Reg.hb (fun n j => agg (ix2 n j)) (fun n => dc (ix2 n (0 : Fin 1))) (fun j => br (ix2 (0 : Fin 1) j)) n j)
    (hs1 : ∀ k g j, s1 (ix3 k g j)
      = Reg.part (fun n => bc (ix2 n (0 : Fin 1)))
          (Reg.hb (fun n j => agg (ix2 n j)) (fun n => dc (ix2 n (0 : Fin 1))) (fun j => br (ix2 (0 : Fin 1) j))) k g j)
    (hs2 : ∀ k g j, s2 (ix3 k g j)
      = Reg.part (fun n => bc (ix2 n (0 : Fin 1)))
          (fun n j => Reg.hb (fun n j => agg (ix2 n j)) (fun n => dc (ix2 n (0 : Fin 1))) (fun j => br (ix2 (0 : Fin 1) j)) n j
            * Reg.hb (fun n j => agg (ix2 n j)) (fun n => dc (ix2 n (0 : Fin 1))) (fun j => br (ix2 (0 : Fin 1) j)) n j) k g j)
    (hmean : mean = Host.meanA s1 cs) (hvar : var = Host.varA s1 s2 cs (row a7)) (ecs : cs = Gen.W1 m ρ c (Proc.devRef .tc main_v19))
    (har : ar = row a7) (hwr : wr = row a5) (hbbr : bbr = row a6)
    (e7 : a7 = Gen.W1 m ρ c (Proc.devRef .tc main_arg7)) (e5 : a5 = Gen.W1 m ρ c (Proc.devRef .tc main_arg5)) (e6 : a6 = Gen.W1 m ρ c (Proc.devRef .tc main_arg6))
    (ehe : he = hh) (ebe : be = Gen.W1 m ρ c (Proc.devRef .tc main_v13))
    (hnorm : ∀ n j, out (ix2 n j)
      = Reg.norm (fun n j => he (ix2 n j)) (fun n => be (ix2 n (0 : Fin 1))) (fun g j => mean (ix2 g j)) (fun g j => var (ix2 g j))
          (fun j => ar (ix2 (0 : Fin 1) j)) (fun j => wr (ix2 (0 : Fin 1) j)) (fun j => bbr (ix2 (0 : Fin 1) j))
          (fun n j => xe (ix2 n j)) n j)
    (n : Fin 100000) (j : Fin 128) : out (ix2 n j) = KL (kG m c) (kbv m c) (kP m c) l x n j := by
  have hx : (fun n k => X0 (ix2 n k)) = x := funext fun n => funext (hX0 n)
  have hW : (fun k j => Wa (ix2 k j)) = (kP m c).W l := by
    funext k j; rw [hWa, e3, sarg1 m ρ c (b := main_arg3) (by decide)]; exact hconv _ k j
  have hb : (fun j => br (ix2 (0 : Fin 1) j)) = (kP m c).b l := by
    funext j; rw [hbr, e4, sarg1 m ρ c (b := main_arg4) (by decide)]; exact hrow _ j
  have ha : (fun j => row a7 (ix2 (0 : Fin 1) j)) = (kP m c).a l := by
    funext j; rw [e7, sarg1 m ρ c (b := main_arg7) (by decide)]; exact hrow _ j
  have hw : (fun j => wr (ix2 (0 : Fin 1) j)) = (kP m c).w l := by
    funext j; rw [hwr, e5, sarg1 m ρ c (b := main_arg5) (by decide)]; exact hrow _ j
  have hbb : (fun j => bbr (ix2 (0 : Fin 1) j)) = (kP m c).bb l := by
    funext j; rw [hbbr, e6, sarg1 m ρ c (b := main_arg6) (by decide)]; exact hrow _ j
  have hsE : (fun n j => hs (ix2 n j)) = Reg.mat x ((kP m c).W l) (dis (kG m c)) := by
    funext n j; rw [hmat, exa, hx, hW, eda, disW1 m ρ c]
  have haE : (fun n j => agg (ix2 n j)) = K.agg (kG m c) (Reg.mat x ((kP m c).W l) (dis (kG m c))) := by
    funext n j
    rw [hagg, esrc, edst,
      show Gen.W1 m ρ c (Proc.devRef .tc main_v3) = Host.srcT (Gen.W0 m ρ c (Proc.devRef .tc main_arg1)) from HostVal.host0_v3 (Gen.W0 m ρ c),
      show Gen.W1 m ρ c (Proc.devRef .tc main_v6) = Host.dstT (Gen.W0 m ρ c (Proc.devRef .tc main_arg1)) from HostVal.host0_v6 (Gen.W0 m ρ c)]
    refine (Host.aggA_of (m ((c : Thread nD τ).loc main_arg1)) (m ((c : Thread nD τ).loc main_arg2)) hs n j).trans ?_
    rw [hsE]
  have hhE : (fun n j => hh (ix2 n j)) = Hh (kG m c) x ((kP m c).W l) ((kP m c).b l) := by
    funext n j; rw [hhb, haE, edc, disW1 m ρ c, hb]
  have s1E : ∀ k g j, s1 (ix3 k g j) = Reg.part (kbv m c) (Hh (kG m c) x ((kP m c).W l) ((kP m c).b l)) k g j := by
    intro k g j; rw [hs1, ebc, bvW1 m ρ c, haE, edc, disW1 m ρ c, hb]
  have s2E : ∀ k g j, s2 (ix3 k g j)
      = Reg.part (kbv m c) (fun n j => Hh (kG m c) x ((kP m c).W l) ((kP m c).b l) n j * Hh (kG m c) x ((kP m c).W l) ((kP m c).b l) n j) k g j := by
    intro k g j; rw [hs2, ebc, bvW1 m ρ c, haE, edc, disW1 m ρ c, hb]
  have csE : cs = Host.csA (Gen.W0 m ρ c (Proc.devRef .tc main_arg2)) := by rw [ecs]; exact HostVal.host0_v19 (Gen.W0 m ρ c)
  have mE : (fun g j => mean (ix2 g j)) = K.mean (kG m c) (S1 (kG m c) (kbv m c) x ((kP m c).W l) ((kP m c).b l)) := by
    funext g j
    rw [hmean, csE]
    refine (Host.meanA_of (m ((c : Thread nD τ).loc main_arg1)) (m ((c : Thread nD τ).loc main_arg2)) _ g j).trans ?_
    simp only [s1E]
  have vE : (fun g j => var (ix2 g j))
      = K.var (kG m c) (S1 (kG m c) (kbv m c) x ((kP m c).W l) ((kP m c).b l)) (S2 (kG m c) (kbv m c) x ((kP m c).W l) ((kP m c).b l)) ((kP m c).a l) := by
    funext g j
    rw [hvar, csE]
    refine (Host.varA_of (m ((c : Thread nD τ).loc main_arg1)) (m ((c : Thread nD τ).loc main_arg2)) _ _ _ g j).trans ?_
    simp only [s1E, s2E, ha]
  rw [hnorm, ehe, hhE, ebe, bvW1 m ρ c, mE, vE, har, ha, hw, hbb, exe, hx]
  rfl

theorem x1 (n : Fin 100000) (j : Fin 128) :
    Gen.W6 m ρ c (Proc.devRef .tc main_v60) (ix2 n j) = KX1 (kG m c) (kbv m c) (kP m c) n j :=
  layer_of m ρ c 0 Host.convW0_apply Host.row0_apply (X0 := Gen.W1 m ρ c (Proc.devRef .tc main_arg0)) (fun n j => by rw [sarg1 m ρ c (b := main_arg0) (by decide)]; rfl)
    rfl
    (fx5 m ρ c _ (by decide))
    (HostVal.host0_v21 (Gen.W0 m ρ c)) (sarg1 m ρ c (by decide)).symm (fx1 m ρ c _ (by decide))
    (fun n j => (congrFun (Gen.W2_arr m ρ c 3) (ix2 n j)).trans (mat0 (Gen.V1 m ρ) c n j))
    (HostVal.host1_v32 (Gen.W2 m ρ c)) (fx2 m ρ c _ (by decide)) (fx2 m ρ c _ (by decide))
    (HostVal.host1_v35 (Gen.W2 m ρ c)) (fx2 m ρ c _ (by decide)) (fx3 m ρ c _ (by decide)) (fx3 m ρ c _ (by decide))
    (fun n j => (congrFun (Gen.W4_arr m ρ c 4) (ix2 n j)).trans (stats1_hb (Gen.V3 m ρ) c n j)) (fun k g j => (congrFun (Gen.W4_arr m ρ c 5) (ix3 k g j)).trans (stats1_s1 (Gen.V3 m ρ) c k g j)) (fun k g j => (congrFun (Gen.W4_arr m ρ c 6) (ix3 k g j)).trans (stats1_s2 (Gen.V3 m ρ) c k g j))
    (HostVal.host2_v40 (Gen.W4 m ρ c)) (HostVal.host2_v53 (Gen.W4 m ρ c)) (fx4 m ρ c _ (by decide))
    (HostVal.host2_v43 (Gen.W4 m ρ c)) (HostVal.host2_v56 (Gen.W4 m ρ c)) (HostVal.host2_v59 (Gen.W4 m ρ c))
    (fx4 m ρ c _ (by decide)) (fx4 m ρ c _ (by decide)) (fx4 m ρ c _ (by decide))
    (keepH2 (Gen.W4 m ρ c) (by decide)) (fx5 m ρ c _ (by decide))
    (fun n j => (congrFun (Gen.W6_arr m ρ c 8) (ix2 n j)).trans (norm2 (Gen.V5 m ρ) c n j)) n j

theorem x2 (n : Fin 100000) (j : Fin 128) :
    Gen.W12 m ρ c (Proc.devRef .tc main_v101) (ix2 n j) = KX2 (kG m c) (kbv m c) (kP m c) n j :=
  layer_of m ρ c 1 Host.convW1_apply Host.row1_apply (X0 := Gen.W6 m ρ c (Proc.devRef .tc main_v60)) (x1 m ρ c)
    (keepH3 (Gen.W6 m ρ c) (by decide))
    ((((((Same.refl [main_v60] (Gen.W6 m ρ c)).step wr3 (keepH3 _) (by decide)).step out3 (keepR3 m ρ c) (by decide)).step wr4 (keepH4 _) (by decide)).step out4 (keepR4 m ρ c) (by decide)).step wr5 (keepH5 _) (by decide) _ List.mem_cons_self)
    (HostVal.host3_v62 (Gen.W6 m ρ c)) (fx6 m ρ c _ (by decide)) (fx7 m ρ c _ (by decide))
    (fun n j => (congrFun (Gen.W8_arr m ρ c 3) (ix2 n j)).trans (mat3 (Gen.V7 m ρ) c n j))
    (HostVal.host4_v73 (Gen.W8 m ρ c)) (fx8 m ρ c _ (by decide)) (fx8 m ρ c _ (by decide))
    (HostVal.host4_v76 (Gen.W8 m ρ c)) (fx8 m ρ c _ (by decide)) (fx9 m ρ c _ (by decide)) (fx9 m ρ c _ (by decide))
    (fun n j => (congrFun (Gen.W10_arr m ρ c 4) (ix2 n j)).trans (stats4_hb (Gen.V9 m ρ) c n j)) (fun k g j => (congrFun (Gen.W10_arr m ρ c 5) (ix3 k g j)).trans (stats4_s1 (Gen.V9 m ρ) c k g j)) (fun k g j => (congrFun (Gen.W10_arr m ρ c 6) (ix3 k g j)).trans (stats4_s2 (Gen.V9 m ρ) c k g j))
    (HostVal.host5_v81 (Gen.W10 m ρ c)) (HostVal.host5_v94 (Gen.W10 m ρ c)) (fx10 m ρ c _ (by decide))
    (HostVal.host5_v84 (Gen.W10 m ρ c)) (HostVal.host5_v97 (Gen.W10 m ρ c)) (HostVal.host5_v100 (Gen.W10 m ρ c))
    (fx10 m ρ c _ (by decide)) (fx10 m ρ c _ (by decide)) (fx10 m ρ c _ (by decide))
    (keepH5 (Gen.W10 m ρ c) (by decide)) (fx11 m ρ c _ (by decide))
    (fun n j => (congrFun (Gen.W12_arr m ρ c 8) (ix2 n j)).trans (norm5 (Gen.V11 m ρ) c n j)) n j

theorem x3 (n : Fin 100000) (j : Fin 128) :
    Gen.W18 m ρ c (Proc.devRef .tc main_v142) (ix2 n j) = KX3 (kG m c) (kbv m c) (kP m c) n j :=
  layer_of m ρ c 2 Host.convW2_apply Host.row2_apply (X0 := Gen.W12 m ρ c (Proc.devRef .tc main_v101)) (x2 m ρ c)
    (keepH6 (Gen.W12 m ρ c) (by decide))
    ((((((Same.refl [main_v101] (Gen.W12 m ρ c)).step wr6 (keepH6 _) (by decide)).step out6 (keepR6 m ρ c) (by decide)).step wr7 (keepH7 _) (by decide)).step out7 (keepR7 m ρ c) (by decide)).step wr8 (keepH8 _) (by decide) _ List.mem_cons_self)
    (HostVal.host6_v103 (Gen.W12 m ρ c)) (fx12 m ρ c _ (by decide)) (fx13 m ρ c _ (by decide))
    (fun n j => (congrFun (Gen.W14_arr m ρ c 3) (ix2 n j)).trans (mat6 (Gen.V13 m ρ) c n j))
    (HostVal.host7_v114 (Gen.W14 m ρ c)) (fx14 m ρ c _ (by decide)) (fx14 m ρ c _ (by decide))
    (HostVal.host7_v117 (Gen.W14 m ρ c)) (fx14 m ρ c _ (by decide)) (fx15 m ρ c _ (by decide)) (fx15 m ρ c _ (by decide))
    (fun n j => (congrFun (Gen.W16_arr m ρ c 4) (ix2 n j)).trans (stats7_hb (Gen.V15 m ρ) c n j)) (fun k g j => (congrFun (Gen.W16_arr m ρ c 5) (ix3 k g j)).trans (stats7_s1 (Gen.V15 m ρ) c k g j)) (fun k g j => (congrFun (Gen.W16_arr m ρ c 6) (ix3 k g j)).trans (stats7_s2 (Gen.V15 m ρ) c k g j))
    (HostVal.host8_v122 (Gen.W16 m ρ c)) (HostVal.host8_v135 (Gen.W16 m ρ c)) (fx16 m ρ c _ (by decide))
    (HostVal.host8_v125 (Gen.W16 m ρ c)) (HostVal.host8_v138 (Gen.W16 m ρ c)) (HostVal.host8_v141 (Gen.W16 m ρ c))
    (fx16 m ρ c _ (by decide)) (fx16 m ρ c _ (by decide)) (fx16 m ρ c _ (by decide))
    (keepH8 (Gen.W16 m ρ c) (by decide)) (fx17 m ρ c _ (by decide))
    (fun n j => (congrFun (Gen.W18_arr m ρ c 8) (ix2 n j)).trans (norm8 (Gen.V17 m ρ) c n j)) n j

theorem x4 (n : Fin 100000) (j : Fin 128) :
    Gen.W24 m ρ c (Proc.devRef .tc main_v183) (ix2 n j) = KX4 (kG m c) (kbv m c) (kP m c) n j :=
  layer_of m ρ c 3 Host.convW3_apply Host.row3_apply (X0 := Gen.W18 m ρ c (Proc.devRef .tc main_v142)) (x3 m ρ c)
    (keepH9 (Gen.W18 m ρ c) (by decide))
    ((((((Same.refl [main_v142] (Gen.W18 m ρ c)).step wr9 (keepH9 _) (by decide)).step out9 (keepR9 m ρ c) (by decide)).step wr10 (keepH10 _) (by decide)).step out10 (keepR10 m ρ c) (by decide)).step wr11 (keepH11 _) (by decide) _ List.mem_cons_self)
    (HostVal.host9_v144 (Gen.W18 m ρ c)) (fx18 m ρ c _ (by decide)) (fx19 m ρ c _ (by decide))
    (fun n j => (congrFun (Gen.W20_arr m ρ c 3) (ix2 n j)).trans (mat9 (Gen.V19 m ρ) c n j))
    (HostVal.host10_v155 (Gen.W20 m ρ c)) (fx20 m ρ c _ (by decide)) (fx20 m ρ c _ (by decide))
    (HostVal.host10_v158 (Gen.W20 m ρ c)) (fx20 m ρ c _ (by decide)) (fx21 m ρ c _ (by decide)) (fx21 m ρ c _ (by decide))
    (fun n j => (congrFun (Gen.W22_arr m ρ c 4) (ix2 n j)).trans (stats10_hb (Gen.V21 m ρ) c n j)) (fun k g j => (congrFun (Gen.W22_arr m ρ c 5) (ix3 k g j)).trans (stats10_s1 (Gen.V21 m ρ) c k g j)) (fun k g j => (congrFun (Gen.W22_arr m ρ c 6) (ix3 k g j)).trans (stats10_s2 (Gen.V21 m ρ) c k g j))
    (HostVal.host11_v163 (Gen.W22 m ρ c)) (HostVal.host11_v176 (Gen.W22 m ρ c)) (fx22 m ρ c _ (by decide))
    (HostVal.host11_v166 (Gen.W22 m ρ c)) (HostVal.host11_v179 (Gen.W22 m ρ c)) (HostVal.host11_v182 (Gen.W22 m ρ c))
    (fx22 m ρ c _ (by decide)) (fx22 m ρ c _ (by decide)) (fx22 m ρ c _ (by decide))
    (keepH11 (Gen.W22 m ρ c) (by decide)) (fx23 m ρ c _ (by decide))
    (fun n j => (congrFun (Gen.W24_arr m ρ c 8) (ix2 n j)).trans (norm11 (Gen.V23 m ρ) c n j)) n j

end Cert.KernelIdeal.Val

end
-- ==== Proof.RegPool12.lean ====
import proofs.«423410_j58634893525678_2_alg».proof.Proof.Gen.KernelIdeal.Frame
import proofs.«423410_j58634893525678_2_alg».proof.Proof.Spec
import proofs.«423410_j58634893525678_2_alg».proof.Proof.LibTileSum
import proofs.«423410_j58634893525678_2_alg».proof.Proof.RegPool12Pay
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val.Pool12

open Cert.KernelIdeal Cert.KernelIdeal.Gen Cert.Gnn

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_B (c : Dev nD) (i : grid12.Coords) (a2 : Memref sig .tc .vmem S5000x128 .f32) (h2 : a2.IsWhole)
    (a3 : Memref sig .tc .vmem S5000x1 .i32) (h3 : a3.IsWhole) (a4 : Memref sig .tc .vmem S1x128x128 .f32) (h4 : a4.IsWhole)
    (hc : ¬cond12_0 i) (x0 : Vec F S5000x128 .f32) (x1 : Vec F S5000x1 .i32) (xo : Vec F S1x128x128 .f32) :
    out12_B_2 c i a2 h2 a3 h3 a4 h4 hc x0 x1 xo = k12_pay2 x0 x1 xo := by
  unfold out12_B_2
  rw [View.read_writes_eq_canon _ _ _ (cover12_B_2 c i a2 h2 a3 h3 a4 h4 hc x0 x1 xo)]
  unfold kernelRun12_B
  dsimp only
  sl_unfold_words
  rw [View.canon_unit_zero hz3]
  simp only [View.readAt_eq_ld, h2.read_unread, h3.read_unread, h4.read_unread, View.ld_unit_zero (S := S5000x128) hz2,
    View.ld_unit_zero (S := S5000x1) hz2, View.ld_unit_zero (S := S1x128x128) hz3]

theorem out_A (c : Dev nD) (i : grid12.Coords) (a2 : Memref sig .tc .vmem S5000x128 .f32) (h2 : a2.IsWhole)
    (a3 : Memref sig .tc .vmem S5000x1 .i32) (h3 : a3.IsWhole) (a4 : Memref sig .tc .vmem S1x128x128 .f32) (h4 : a4.IsWhole)
    (hc : cond12_0 i) (x0 : Vec F S5000x128 .f32) (x1 : Vec F S5000x1 .i32) :
    out12_A_2 c i a2 h2 a3 h3 a4 h4 hc x0 x1 = k12_pay2 x0 x1 (k12_pay1 (F := F)) := by
  unfold out12_A_2
  rw [View.read_writes_eq_canon _ _ _ (cover12_A_2 c i a2 h2 a3 h3 a4 h4 hc x0 x1)]
  unfold kernelRun12_A
  dsimp only
  sl_unfold_words
  rw [View.canon_cons_unit_zero (S := S1x128x128) hz3, View.readCov_unit_zero (S := S1x128x128) _ hz3]
  simp only [View.readAt_eq_ld, h2.read_unread, h3.read_unread, View.ld_unit_zero (S := S5000x128) hz2,
    View.ld_unit_zero (S := S5000x1) hz2]

end Pieces

section Value
variable (V : (c : Dev nD) → (b : Ref sig .tc) → Buf (Elt Ideal) ((c : Thread nD τ).loc b))

theorem idx0 : ∀ t : Fin cfg12.N, win12_0.index t 0 = t.val ∧ win12_0.index t 1 = 0 :=
  (by decide +kernel : ∀ t : Fin grid12.N, win12_0.index t 0 = t.val ∧ win12_0.index t 1 = 0)
theorem idx1 : ∀ t : Fin cfg12.N, win12_1.index t 0 = t.val ∧ win12_1.index t 1 = 0 :=
  (by decide +kernel : ∀ t : Fin grid12.N, win12_1.index t 0 = t.val ∧ win12_1.index t 1 = 0)
theorem idx2 : ∀ t : Fin cfg12.N, win12_2.index t 0 = t.val / 10 ∧ win12_2.index t 1 = 0 ∧ win12_2.index t 2 = 0 :=
  (by decide +kernel : ∀ t : Fin grid12.N, win12_2.index t 0 = t.val / 10 ∧ win12_2.index t 1 = 0 ∧ win12_2.index t 2 = 0)

theorem xs2 : ∀ t : Fin cfg12.N, win12_2.xsize (grid12.coords t) 0 = 1 ∧ win12_2.xsize (grid12.coords t) 1 = 128
    ∧ win12_2.xsize (grid12.coords t) 2 = 128 :=
  (by decide +kernel : ∀ t : Fin grid12.N, win12_2.xsize (grid12.coords t) 0 = 1 ∧ win12_2.xsize (grid12.coords t) 1 = 128
    ∧ win12_2.xsize (grid12.coords t) 2 = 128)

abbrev xblk (c : Dev nD) (t : Fin cfg12.N) : Vec Ideal S5000x128 .f32 := iblk12 V c 0 t
abbrev bblk (c : Dev nD) (t : Fin cfg12.N) : Vec Ideal S5000x1 .i32 := iblk12 V c 1 t
abbrev xarr (c : Dev nD) : Vec Ideal S100000x128 .f32 := V c (Pipeline.arrRef spec12 0)
abbrev barr (c : Dev nD) : Vec Ideal S100000x1 .i32 := V c (Pipeline.arrRef spec12 1)

theorem xblk_apply (c : Dev nD) (t : Fin cfg12.N) (r : Fin 5000) (j : Fin 128) (n : Fin 100000)
    (hn : n.val = 5000 * t.val + r.val) : xblk V c t (ix2 r j) = xarr V c (ix2 n j) := by
  unfold xblk iblk12
  rw [View.read_apply]
  show V c (Pipeline.arrRef spec12 0) _ = V c (Pipeline.arrRef spec12 0) _
  congr 1
  funext a
  apply Fin.ext
  match a with
  | ⟨0, _⟩ => show win12_0.index t 0 * 5000 + 1 * r.val = n.val; rw [(idx0 t).1, hn]; omega
  | ⟨1, _⟩ => show win12_0.index t 1 * 128 + 1 * j.val = j.val; rw [(idx0 t).2]; omega

theorem bblk_apply (c : Dev nD) (t : Fin cfg12.N) (r : Fin 5000) (n : Fin 100000)
    (hn : n.val = 5000 * t.val + r.val) : bblk V c t (ix2 r 0) = barr V c (ix2 n 0) := by
  unfold bblk iblk12
  rw [View.read_apply]
  show V c (Pipeline.arrRef spec12 1) _ = V c (Pipeline.arrRef spec12 1) _
  congr 1
  funext a
  apply Fin.ext
  match a with
  | ⟨0, _⟩ => show win12_1.index t 0 * 5000 + 1 * r.val = n.val; rw [(idx1 t).1, hn]; omega
  | ⟨1, _⟩ => show win12_1.index t 1 * 1 + 1 * 0 = 0; rw [(idx1 t).2]

def tileAdd (c : Dev nD) (g j : Fin 128) (s : ℕ) : EReal :=
  if h : s < cfg12.N then
    ∑ r : Fin 5000, (if bblk V c ⟨s, h⟩ (ix2 r 0) = BitVec.ofNat 32 g.val then (1 : EReal) else 0) * xblk V c ⟨s, h⟩ (ix2 r j)
  else 0

theorem outs_A (c : Dev nD) (g j : Fin 128) (t : Fin cfg12.N) (h0 : t.val % 10 = 0) :
    (outsAt12 V c t.val t.isLt : Vec Ideal S1x128x128 .f32) (ix3 0 g j) = tileAdd V c g j t.val := by
  rw [outsAt12_A V c t h0]
  refine (congrFun (out_A (F := Ideal) c (grid12.coords t) (ms12_0 t) (hs12_0 t) (ms12_1 t) (hs12_1 t) (ms12_2 t) (hs12_2 t)
    ((hcond12_0 t).mpr h0) (xblk V c t) (bblk V c t)) (ix3 0 g j)).trans ?_
  rw [pay2_apply, pay1_apply, zero_add]
  unfold tileAdd
  rw [dif_pos t.isLt]

theorem outs_B (c : Dev nD) (g j : Fin 128) (n : ℕ) (h : n + 1 < cfg12.N) (hm : ¬(n + 1) % 10 = 0) :
    (outsAt12 V c (n + 1) h : Vec Ideal S1x128x128 .f32) (ix3 0 g j)
      = (outsAt12 V c n (Nat.lt_of_succ_lt h) : Vec Ideal S1x128x128 .f32) (ix3 0 g j) + tileAdd V c g j (n + 1) := by
  rw [outsAt12_B V c ⟨n + 1, h⟩ hm]
  refine (congrFun (out_B (F := Ideal) c (grid12.coords ⟨n + 1, h⟩) (ms12_0 ⟨n + 1, h⟩) (hs12_0 ⟨n + 1, h⟩) (ms12_1 ⟨n + 1, h⟩)
    (hs12_1 ⟨n + 1, h⟩) (ms12_2 ⟨n + 1, h⟩) (hs12_2 ⟨n + 1, h⟩) (fun hh => hm ((hcond12_0 ⟨n + 1, h⟩).mp hh))
    (xblk V c ⟨n + 1, h⟩) (bblk V c ⟨n + 1, h⟩) (outsAt12 V c n (Nat.lt_of_succ_lt h))) (ix3 0 g j)).trans ?_
  rw [pay2_apply]
  unfold tileAdd
  rw [dif_pos h]

theorem outs_closed (c : Dev nD) (g j : Fin 128) (n : ℕ) (h : n < cfg12.N) :
    (outsAt12 V c n h : Vec Ideal S1x128x128 .f32) (ix3 0 g j)
      = ∑ s ∈ Finset.range (n % 10 + 1), tileAdd V c g j (n - n % 10 + s) :=
  acc_closed cfg12.N (fun n h => (outsAt12 V c n h : Vec Ideal S1x128x128 .f32) (ix3 0 g j)) (tileAdd V c g j)
    (fun n h h0 => outs_A V c g j ⟨n, h⟩ h0) (fun n h hm => outs_B V c g j n h hm) n h

theorem tileAdd_eq (c : Dev nD) (g j : Fin 128) (k : Fin 2) (i : Fin 10) :
    tileAdd V c g j (10 * k.val + i.val)
      = ∑ r : Fin 5000, Reg.oh (fun n => barr V c (ix2 n 0)) (Tile.node (Tile.pt k i) r) g
          * xarr V c (ix2 (Tile.node (Tile.pt k i) r) j) := by
  have hlt : 10 * k.val + i.val < cfg12.N := by
    have := k.isLt; have := i.isLt; rw [show cfg12.N = 20 from N_12]; omega
  unfold tileAdd
  rw [dif_pos hlt]
  refine Finset.sum_congr rfl fun r _ => ?_
  rw [xblk_apply V c ⟨10 * k.val + i.val, hlt⟩ r j (Tile.node (Tile.pt k i) r) rfl,
    bblk_apply V c ⟨10 * k.val + i.val, hlt⟩ r (Tile.node (Tile.pt k i) r) rfl]
  rfl

theorem outs_last (c : Dev nD) (g j : Fin 128) (t : Fin cfg12.N) (h9 : t.val % 10 = 9) (k : Fin 2) (hk : k.val = t.val / 10) :
    (outsAt12 V c t.val t.isLt : Vec Ideal S1x128x128 .f32) (ix3 0 g j)
      = Reg.part (fun n => barr V c (ix2 n 0)) (fun n j => xarr V c (ix2 n j)) k g j := by
  rw [outs_closed V c g j t.val t.isLt, h9]
  have hb : t.val - 9 = 10 * k.val := by omega
  rw [hb, Finset.sum_range (fun s => tileAdd V c g j (10 * k.val + s)),
    Finset.sum_congr rfl fun i _ => tileAdd_eq V c g j k i]
  exact Tile.sum_core (fun n => Reg.oh (fun n => barr V c (ix2 n 0)) n g * xarr V c (ix2 n j)) k

abbrev Gres (c : Dev nD) : Vec Ideal S2x128x128 .f32 :=
  fun y => Reg.part (fun n => barr V c (ix2 n 0)) (fun n j => xarr V c (ix2 n j)) (y 0) (y 1) (y 2)

theorem mem_blk (t : Fin cfg12.N) (i : S2x128x128.Idx) :
    i ∈ ((cfg12.win 2).blk t).view.set ↔ (i 0).val = t.val / 10 := by
  show i ∈ ((View.whole main_v184).slice (win12_2.rect t)).set ↔ _
  rw [View.set_slice_whole, Rect.mem_set_unit]
  have h1 : (i 1 : Nat) < 128 := (i 1).isLt
  have h2 : (i 2 : Nat) < 128 := (i 2).isLt
  obtain ⟨e0, e1, e2⟩ := idx2 t
  obtain ⟨s0, s1, s2⟩ := xs2 t
  refine ⟨fun h => ?_, fun h a => ?_⟩
  · have h' : win12_2.index t 0 * win12_2.size 0 ≤ (i 0 : Nat)
        ∧ (i 0 : Nat) < win12_2.index t 0 * win12_2.size 0 + win12_2.xsize (grid12.coords t) 0 := h 0
    rw [e0, s0, show win12_2.size 0 = 1 from rfl] at h'
    omega
  · match a with
    | ⟨0, _⟩ => show win12_2.index t 0 * win12_2.size 0 ≤ (i 0 : Nat) ∧ (i 0 : Nat) < win12_2.index t 0 * win12_2.size 0 + win12_2.xsize (grid12.coords t) 0
                rw [e0, s0, show win12_2.size 0 = 1 from rfl]; omega
    | ⟨1, _⟩ => show win12_2.index t 1 * win12_2.size 1 ≤ (i 1 : Nat) ∧ (i 1 : Nat) < win12_2.index t 1 * win12_2.size 1 + win12_2.xsize (grid12.coords t) 1
                rw [e1, s1]; omega
    | ⟨2, _⟩ => show win12_2.index t 2 * win12_2.size 2 ≤ (i 2 : Nat) ∧ (i 2 : Nat) < win12_2.index t 2 * win12_2.size 2 + win12_2.xsize (grid12.coords t) 2
                rw [e2, s2]; omega

theorem cover (i : S2x128x128.Idx) :
    ∃ t : Fin cfg12.N, (cfg12.win 2).flush t = true ∧ i ∈ ((cfg12.win 2).blk t).view.set := by
  have hN : cfg12.N = 20 := N_12
  have hi0 : (i 0).val < 2 := (i 0).isLt
  refine ⟨⟨10 * (i 0).val + 9, by omega⟩, (flush12_2 _).mpr (by dsimp only; omega), ?_⟩
  rw [mem_blk]
  dsimp only
  omega

theorem read_blk (G : Vec Ideal S2x128x128 .f32) (t : Fin cfg12.N) (g j : Fin 128) (k : Fin 2) (hk : k.val = t.val / 10) :
    (((cfg12.win 2).blk t).view.read (Elt Ideal) G : Vec Ideal S1x128x128 .f32) (ix3 0 g j) = G (ix3 k g j) := by
  rw [View.read_apply]
  show G _ = G _
  congr 1
  funext a
  apply Fin.ext
  match a with
  | ⟨0, _⟩ => show win12_2.index t 0 * 1 + 1 * 0 = k.val; rw [(idx2 t).1, hk]; omega
  | ⟨1, _⟩ => show win12_2.index t 1 * 128 + 1 * g.val = g.val; rw [(idx2 t).2.1]; omega
  | ⟨2, _⟩ => show win12_2.index t 2 * 128 + 1 * j.val = j.val; rw [(idx2 t).2.2]; omega

theorem flushed_eq (c : Dev nD) (t : Fin cfg12.N) (hf : (cfg12.win 2).flush t = true) :
    (dat12 V c).flushed 2 t = ((cfg12.win 2).blk t).view.read (Elt Ideal) (Gres V c) := by
  have h9 : t.val % 10 = 9 := (flush12_2 t).mp hf
  have hN : cfg12.N = 20 := N_12
  have hk : t.val / 10 < 2 := by have := t.isLt; omega
  show (cfg12.win 2).cut (grid12.coords t) ((dat12 V c).after 2 t) = _
  rw [after12_2]
  show (outsAt12 V c t.val t.isLt : Vec Ideal S1x128x128 .f32)
    = (((cfg12.win 2).blk t).view.read (Elt Ideal) (Gres V c) : Vec Ideal S1x128x128 .f32)
  funext y
  obtain ⟨a, g, j, rfl⟩ : ∃ (a : Fin 1) (g j : Fin 128), y = ix3 a g j := ⟨y 0, y 1, y 2, eq_ix3 y⟩
  obtain rfl : a = 0 := Subsingleton.elim _ _
  rw [read_blk (Gres V c) t g j ⟨t.val / 10, hk⟩ rfl, outs_last V c g j t h9 ⟨t.val / 10, hk⟩ rfl]

theorem final (c : Dev nD) : (dat12 V c).arrAt 2 cfg12.N = Gres V c :=
  (dat12 V c).arrAt_eq_of_cover 2 (Gres V c) (flushed_eq V c) cover

end Value

end Cert.KernelIdeal.Val.Pool12

namespace Cert.KernelIdeal.Val

open Cert.KernelIdeal Cert.KernelIdeal.Gen Cert.Gnn

theorem pool12 (V : (c : Dev nD) → (b : Ref sig .tc) → Buf (Elt Ideal) ((c : Thread nD τ).loc b)) (c : Dev nD)
    (k : Fin 2) (g j : Fin 128) :
    (Gen.dat12 (F := Ideal) V c).arrAt 2 cfg12.N (ix3 k g j)
      = Reg.part (fun n => V c (Pipeline.arrRef spec12 1) (ix2 n 0)) (fun n j => V c (Pipeline.arrRef spec12 0) (ix2 n j)) k g j :=
  congrFun (Pool12.final V c) (ix3 k g j)

end Cert.KernelIdeal.Val

end
-- ==== Proof.KerValTail.lean ====
import proofs.«423410_j58634893525678_2_alg».proof.Proof.Gen.KernelIdeal.Frame
import proofs.«423410_j58634893525678_2_alg».proof.Proof.Spec
import proofs.«423410_j58634893525678_2_alg».proof.Proof.KerHost
import proofs.«423410_j58634893525678_2_alg».proof.Proof.RegPool12
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Val

open Cert.KernelIdeal Cert.KernelIdeal.Gen Cert.Gnn

variable (m : (ℓ : Loc nD τ sig) → Buf (Elt Ideal) ℓ) (ρ : Dev nD → PrngReg) (c : Dev nD)

local macro "not_written" : tactic =>
  `(tactic| (refine List.forall_iff_forall_mem.mp ?_
             simp only [hostOps13, hostOps13_1, hostOps13_2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem tail_keep (b : Ref sig .tc)
    (h0 : ∀ op ∈ (hostOps13 : List (HloOp τ sig (Elt Ideal))), Proc.devRef .tc b ∉ op.writes)
    (h1 : ∀ op ∈ (hostOps13_1 : List (HloOp τ sig (Elt Ideal))), Proc.devRef .tc b ∉ op.writes)
    (h2 : ∀ op ∈ (hostOps13_2 : List (HloOp τ sig (Elt Ideal))), Proc.devRef .tc b ∉ op.writes) :
    W28 m ρ c (Proc.devRef .tc b) = W25 m ρ c (Proc.devRef .tc b) :=
  ((StableHlo.after_of_forall_not_mem (b := Proc.devRef .tc b) _ _ h2).trans
    (StableHlo.after_of_forall_not_mem (b := Proc.devRef .tc b) _ _ h1)).trans
    (StableHlo.after_of_forall_not_mem (b := Proc.devRef .tc b) _ _ h0)

theorem W28_v183 : W28 m ρ c (Proc.devRef .tc main_v183) = W24 m ρ c (Proc.devRef .tc main_v183) :=
  (tail_keep m ρ c main_v183 (by not_written) (by not_written) (by not_written)).trans
    ((W25_arr m ρ c 0).trans (((dat12 (V24 m ρ) c).arrAt_in 0 rfl _).trans (A_eq12 (V24 m ρ) c 0)))

theorem W25_arg8 : W25 m ρ c (Proc.devRef .tc main_arg8) = m ((c : Thread nD τ).loc main_arg8) :=
  (tail_keep m ρ c main_arg8 (by not_written) (by not_written) (by not_written)).symm.trans (W28_main_arg8 m ρ c)
theorem W25_arg9 : W25 m ρ c (Proc.devRef .tc main_arg9) = m ((c : Thread nD τ).loc main_arg9) :=
  (tail_keep m ρ c main_arg9 (by not_written) (by not_written) (by not_written)).symm.trans (W28_main_arg9 m ρ c)
theorem W25_arg10 : W25 m ρ c (Proc.devRef .tc main_arg10) = m ((c : Thread nD τ).loc main_arg10) :=
  (tail_keep m ρ c main_arg10 (by not_written) (by not_written) (by not_written)).symm.trans (W28_main_arg10 m ρ c)
theorem W25_arg11 : W25 m ρ c (Proc.devRef .tc main_arg11) = m ((c : Thread nD τ).loc main_arg11) :=
  (tail_keep m ρ c main_arg11 (by not_written) (by not_written) (by not_written)).symm.trans (W28_main_arg11 m ρ c)
theorem W25_arg12 : W25 m ρ c (Proc.devRef .tc main_arg12) = m ((c : Thread nD τ).loc main_arg12) :=
  (tail_keep m ρ c main_arg12 (by not_written) (by not_written) (by not_written)).symm.trans (W28_main_arg12 m ρ c)
theorem W25_arg13 : W25 m ρ c (Proc.devRef .tc main_arg13) = m ((c : Thread nD τ).loc main_arg13) :=
  (tail_keep m ρ c main_arg13 (by not_written) (by not_written) (by not_written)).symm.trans (W28_main_arg13 m ρ c)
theorem W25_arg14 : W25 m ρ c (Proc.devRef .tc main_arg14) = m ((c : Thread nD τ).loc main_arg14) :=
  (tail_keep m ρ c main_arg14 (by not_written) (by not_written) (by not_written)).symm.trans (W28_main_arg14 m ρ c)
theorem W25_arg15 : W25 m ρ c (Proc.devRef .tc main_arg15) = m ((c : Thread nD τ).loc main_arg15) :=
  (tail_keep m ρ c main_arg15 (by not_written) (by not_written) (by not_written)).symm.trans (W28_main_arg15 m ρ c)

theorem W28_v209 : W28 m ρ c (Proc.devRef .tc main_v209)
    = Host.tailK (Host.poolA (W25 m ρ c (Proc.devRef .tc main_v184)))
        (W25 m ρ c (Proc.devRef .tc main_arg8)) (W25 m ρ c (Proc.devRef .tc main_arg9)) (W25 m ρ c (Proc.devRef .tc main_arg10))
        (W25 m ρ c (Proc.devRef .tc main_arg11)) (W25 m ρ c (Proc.devRef .tc main_arg12)) (W25 m ρ c (Proc.devRef .tc main_arg13))
        (W25 m ρ c (Proc.devRef .tc main_arg14)) (W25 m ρ c (Proc.devRef .tc main_arg15)) := by
  show StableHlo.after hostOps13_2 (StableHlo.after hostOps13_1 (StableHlo.after hostOps13 (W25 m ρ c))) (Proc.devRef .tc main_v209) = _
  after_results_simp
  rfl

theorem W25_v184 : W25 m ρ c (Proc.devRef .tc main_v184) = Pool12.Gres (V24 m ρ) c :=
  (W25_arr m ρ c 2).trans (Pool12.final (V24 m ρ) c)

theorem ker_x_of (X : Fin 100000 → Fin 128 → EReal)
    (hx : ∀ n j, W24 m ρ c (Proc.devRef .tc main_v183) (ix2 n j) = X n j) (n : Fin 100000) (j : Fin 128) :
    W28 m ρ c (Proc.devRef .tc main_v183) (ix2 n j) = X n j := by
  rw [W28_v183]
  exact hx n j

theorem poolA_eq (X : Fin 100000 → Fin 128 → EReal) (bv : Fin 100000 → BitVec 32)
    (hx : ∀ n j, W24 m ρ c (Proc.devRef .tc main_v183) (ix2 n j) = X n j)
    (hb : ∀ n, W24 m ρ c (Proc.devRef .tc main_v13) (ix2 n 0) = bv n) :
    Host.poolA (W25 m ρ c (Proc.devRef .tc main_v184)) = fun i => K.pool bv X (i 0) (i 1) := by
  funext i
  obtain ⟨g, j, rfl⟩ : ∃ (g j : Fin 128), i = ix2 g j := ⟨i 0, i 1, eq_ix2 i⟩
  rw [Host.poolA_apply, W25_v184]
  have e1 : (fun n => Pool12.barr (V24 m ρ) c (ix2 n 0)) = bv := funext hb
  have e2 : (fun n j => Pool12.xarr (V24 m ρ) c (ix2 n j)) = X := funext fun n => funext fun j => hx n j
  show Reg.part (fun n => Pool12.barr (V24 m ρ) c (ix2 n 0)) (fun n j => Pool12.xarr (V24 m ρ) c (ix2 n j)) 0 g j
      + Reg.part (fun n => Pool12.barr (V24 m ρ) c (ix2 n 0)) (fun n j => Pool12.xarr (V24 m ρ) c (ix2 n j)) 1 g j = K.pool bv X g j
  rw [e1, e2]
  rfl

theorem ker_z_of (X : Fin 100000 → Fin 128 → EReal) (bv : Fin 100000 → BitVec 32)
    (hx : ∀ n j, W24 m ρ c (Proc.devRef .tc main_v183) (ix2 n j) = X n j)
    (hb : ∀ n, W24 m ρ c (Proc.devRef .tc main_v13) (ix2 n 0) = bv n) :
    W28 m ρ c (Proc.devRef .tc main_v209)
      = Host.tailK (fun i => K.pool bv X (i 0) (i 1))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) := by
  rw [W28_v209, poolA_eq m ρ c X bv hx hb, W25_arg8, W25_arg9, W25_arg10, W25_arg11, W25_arg12, W25_arg13, W25_arg14, W25_arg15]

end Cert.KernelIdeal.Val

end
-- ==== Proof.KerVal.lean ====
import proofs.«423410_j58634893525678_2_alg».proof.Proof.KerValLayers
import proofs.«423410_j58634893525678_2_alg».proof.Proof.KerValTail

set_option maxRecDepth 16384

noncomputable section

namespace Cert.KernelIdeal.Val

open Idealize.ShloMosaic Idealize.ShloMosaic.ValueIdx Idealize.ShloMosaic.TcCoe Cert.Gnn

variable (m : (ℓ : Loc nD τ sig) → Buf (Elt Ideal) ℓ) (ρ : Dev nD → PrngReg) (c : Dev nD)

theorem hb24 (n : Fin 100000) : Gen.W24 m ρ c (Proc.devRef .tc main_v13) (ix2 n 0) = kbv m c n :=
  congrFun (bvW24 m ρ c) n

theorem ker_x (n : Fin 100000) (j : Fin 128) :
    Gen.W28 (F := Ideal) m ρ c (Proc.devRef .tc main_v183) (ix2 n j) = KX4 (kG m c) (kbv m c) (kP m c) n j :=
  ker_x_of m ρ c _ (x4 m ρ c) n j

theorem ker_z :
    Gen.W28 (F := Ideal) m ρ c (Proc.devRef .tc main_v209)
      = Cert.KernelIdeal.Host.tailK (fun i => K.pool (kbv m c) (KX4 (kG m c) (kbv m c) (kP m c)) (i 0) (i 1))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) :=
  ker_z_of m ρ c _ _ (x4 m ρ c) (hb24 m ρ c)

end Cert.KernelIdeal.Val

end
-- ==== Proof.RefRunOps.lean ====
import proofs.«423410_j58634893525678_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- 40 operations, the results at the buffers of index 16 … 55: the prologue: the edge indices with self loops, the degrees, their inverse square roots, the edge norms, the per-graph node counts. -/
abbrev opsPro : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v3 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v14 (broadcastInDim S1700000 ![] bcast_S_S1700000 : (⟨S_, .i32⟩ : BufTy).Contents (Elt F) → (⟨S1700000, .i32⟩ : BufTy).Contents (Elt F)),
    binary main_v3 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v19 (broadcastInDim S1700000 ![] bcast_S_S1700000 : (⟨S_, .i32⟩ : BufTy).Contents (Elt F) → (⟨S1700000, .i32⟩ : BufTy).Contents (Elt F)),
    binary main_v6 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)),
    unary main_v26 main_v27 (broadcastInDim S1700000x1 ![0] bcast_S1700000_S1700000x1_0 : (⟨S1700000, .f32⟩ : BufTy).Contents (Elt F) → (⟨S1700000x1, .f32⟩ : BufTy).Contents (Elt F)),
    nullary main_cst_4 (constant S_ .f32 0x3F800000#32),
    unary main_cst_4 main_v28 (broadcastInDim S100000x1 ![] bcast_S_S100000x1 : (⟨S_, .f32⟩ : BufTy).Contents (Elt F) → (⟨S100000x1, .f32⟩ : BufTy).Contents (Elt F)),
    nullary main_cst_5 (constant S_ .f32 0x00000000#32),
    unary main_cst_5 main_v29 (broadcastInDim S128x1 ![] bcast_S_S128x1 : (⟨S_, .f32⟩ : BufTy).Contents (Elt F) → (⟨S128x1, .f32⟩ : BufTy).Contents (Elt F)),
    unary main_arg2 main_v30 (broadcastInDim S100000x1 ![0] bcast_S100000_S100000x1_0 : (⟨S100000, .i32⟩ : BufTy).Contents (Elt F) → (⟨S100000x1, .i32⟩ : BufTy).Contents (Elt F)),
    ternary main_v29 main_v30 main_v28 main_v31 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)) ]

/-- 91 operations, the results at the buffers of index 56 … 146: layer 0: values %32 … %98. -/
abbrev opsL0 : List (HloOp τ sig (Elt F)) :=
  [ unary main_arg3 main_v32 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v32 main_v33 rfl shapeCasts_S1x128x128_S128x128,
    binary main_arg0 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v42 (broadcastInDim S1700000x128 ![0, 1] bcast_S1700000x1_S1700000x128_0_1 : (⟨S1700000x1, .f32⟩ : BufTy).Contents (Elt F) → (⟨S1700000x128, .f32⟩ : BufTy).Contents (Elt F)),
    binary main_v41 main_v42 main_v43 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v44 (broadcastInDim S100000x128 ![] bcast_S_S100000x128 : (⟨S_, .f32⟩ : BufTy).Contents (Elt F) → (⟨S100000x128, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v47 ((extractStridedSlice S1x128 ![0, 0] · slices_S4x128_S1x128_0_0) : (⟨S4x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v46 main_v50 main_v51 (addf : (⟨S100000x128, .f32⟩ : BufTy).Contents (Elt F) → (⟨S100000x128, .f32⟩ : BufTy).Contents (Elt F) → (⟨S100000x128, .f32⟩ : BufTy).Contents (Elt F)),
    unary main_arg5 main_v52 ((extractStridedSlice S1x128 ![0, 0] · slices_S4x128_S1x128_0_0) : (⟨S4x128, .f32⟩ : BufTy).Contents (Elt F) → (⟨S1x128, .f32⟩ : BufTy).Contents (Elt F)),
    reshape main_v52 main_v53 rfl shapeCasts_S1x128_S128,
    unary main_arg6 main_v54 ((extractStridedSlice S1x128 ![0, 0] · slices_S4x128_S1x128_0_0) : (⟨S4x128, .f32⟩ : BufTy).Contents (Elt F) → (⟨S1x128, .f32⟩ : BufTy).Contents (Elt F)),
    reshape main_v54 main_v55 rfl shapeCasts_S1x128_S128,
    unary main_arg7 main_v56 ((extractStridedSlice S1x128 ![0, 0] · slices_S4x128_S1x128_0_0) : (⟨S4x128, .f32⟩ : BufTy).Contents (Elt F) → (⟨S1x128, .f32⟩ : BufTy).Contents (Elt F)),
    reshape main_v56 main_v57 rfl shapeCasts_S1x128_S128,
    nullary main_cst_9 (constant S_ .f32 0x00000000#32),
    unary main_cst_9 main_v58 (broadcastInDim S128x128 ![] bcast_S_S128x128 : (⟨S_, .f32⟩ : BufTy).Contents (Elt F) → (⟨S128x128, .f32⟩ : BufTy).Contents (Elt F)),
    unary main_arg2 main_v59 (broadcastInDim S100000x1 ![0] bcast_S100000_S100000x1_0 : (⟨S100000, .i32⟩ : BufTy).Contents (Elt F) → (⟨S100000x1, .i32⟩ : BufTy).Contents (Elt F)),
    ternary main_v58 main_v59 main_v51 main_v60 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v61 (broadcastInDim S128x128 ![0, 1] bcast_S128x1_S128x128_0_1 : (⟨S128x1, .f32⟩ : BufTy).Contents (Elt F) → (⟨S128x128, .f32⟩ : BufTy).Contents (Elt F)),
    binary main_v60 main_v61 main_v62 (Host.divf : (⟨S128x128, .f32⟩ : BufTy).Contents (Elt F) → (⟨S128x128, .f32⟩ : BufTy).Contents (Elt F) → (⟨S128x128, .f32⟩ : BufTy).Contents (Elt F)),
    nullary main_c_10 (constantI S_ 32 0#32),
    unary main_c_10 main_v63 (broadcastInDim S100000 ![] bcast_S_S100000 : (⟨S_, .i32⟩ : BufTy).Contents (Elt F) → (⟨S100000, .i32⟩ : BufTy).Contents (Elt F)),
    binary main_arg2 main_v63 main_v64 (cmpi .slt : (⟨S100000, .i32⟩ : BufTy).Contents (Elt F) → (⟨S100000, .i32⟩ : BufTy).Contents (Elt F) → (⟨S100000, .i1⟩ : BufTy).Contents (Elt F)),
    nullary main_c_11 (constantI S_ 32 128#32),
    unary main_c_11 main_v65 (broadcastInDim S100000 ![] bcast_S_S100000 : (⟨S_, .i32⟩ : BufTy).Contents (Elt F) → (⟨S100000, .i32⟩ : BufTy).Contents (Elt F)),
    binary main_arg2 main_v65 main_v66 (addi : (⟨S100000, .i32⟩ : BufTy).Contents (Elt F) → (⟨S100000, .i32⟩ : BufTy).Contents (Elt F) → (⟨S100000, .i32⟩ : BufTy).Contents (Elt F)),
    ternary main_v64 main_v66 main_arg2 main_v67 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v67 main_v68 (broadcastInDim S100000x1 ![0] bcast_S100000_S100000x1_0 : (⟨S100000, .i32⟩ : BufTy).Contents (Elt F) → (⟨S100000x1, .i32⟩ : BufTy).Contents (Elt F)),
    binary main_v62 main_v68 main_v69 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    unary main_v57 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v71 main_v69 main_v72 (mulf : (⟨S100000x128, .f32⟩ : BufTy).Contents (Elt F) → (⟨S100000x128, .f32⟩ : BufTy).Contents (Elt F) → (⟨S100000x128, .f32⟩ : BufTy).Contents (Elt F)),
    binary main_v51 main_v72 main_v73 (subf : (⟨S100000x128, .f32⟩ : BufTy).Contents (Elt F) → (⟨S100000x128, .f32⟩ : BufTy).Contents (Elt F) → (⟨S100000x128, .f32⟩ : BufTy).Contents (Elt F)),
    binary main_v73 main_v73 main_v74 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    unary main_cst_12 main_v75 (broadcastInDim S128x128 ![] bcast_S_S128x128 : (⟨S_, .f32⟩ : BufTy).Contents (Elt F) → (⟨S128x128, .f32⟩ : BufTy).Contents (Elt F)),
    unary main_arg2 main_v76 (broadcastInDim S100000x1 ![0] bcast_S100000_S100000x1_0 : (⟨S100000, .i32⟩ : BufTy).Contents (Elt F) → (⟨S100000x1, .i32⟩ : BufTy).Contents (Elt F)),
    ternary main_v75 main_v76 main_v74 main_v77 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v78 (broadcastInDim S128x128 ![0, 1] bcast_S128x1_S128x128_0_1 : (⟨S128x1, .f32⟩ : BufTy).Contents (Elt F) → (⟨S128x128, .f32⟩ : BufTy).Contents (Elt F)),
    binary main_v77 main_v78 main_v79 (Host.divf : (⟨S128x128, .f32⟩ : BufTy).Contents (Elt F) → (⟨S128x128, .f32⟩ : BufTy).Contents (Elt F) → (⟨S128x128, .f32⟩ : BufTy).Contents (Elt F)),
    unary main_v53 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v81 main_v73 main_v82 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v83 (broadcastInDim S128x128 ![] bcast_S_S128x128 : (⟨S_, .f32⟩ : BufTy).Contents (Elt F) → (⟨S128x128, .f32⟩ : BufTy).Contents (Elt F)),
    binary main_v79 main_v83 main_v84 (addf : (⟨S128x128, .f32⟩ : BufTy).Contents (Elt F) → (⟨S128x128, .f32⟩ : BufTy).Contents (Elt F) → (⟨S128x128, .f32⟩ : BufTy).Contents (Elt F)),
    unary main_v84 main_v85 (Host.rsqrt : (⟨S128x128, .f32⟩ : BufTy).Contents (Elt F) → (⟨S128x128, .f32⟩ : BufTy).Contents (Elt F)),
    nullary main_c_14 (constantI S_ 32 0#32),
    unary main_c_14 main_v86 (broadcastInDim S100000 ![] bcast_S_S100000 : (⟨S_, .i32⟩ : BufTy).Contents (Elt F) → (⟨S100000, .i32⟩ : BufTy).Contents (Elt F)),
    binary main_arg2 main_v86 main_v87 (cmpi .slt : (⟨S100000, .i32⟩ : BufTy).Contents (Elt F) → (⟨S100000, .i32⟩ : BufTy).Contents (Elt F) → (⟨S100000, .i1⟩ : BufTy).Contents (Elt F)),
    nullary main_c_15 (constantI S_ 32 128#32),
    unary main_c_15 main_v88 (broadcastInDim S100000 ![] bcast_S_S100000 : (⟨S_, .i32⟩ : BufTy).Contents (Elt F) → (⟨S100000, .i32⟩ : BufTy).Contents (Elt F)),
    binary main_arg2 main_v88 main_v89 (addi : (⟨S100000, .i32⟩ : BufTy).Contents (Elt F) → (⟨S100000, .i32⟩ : BufTy).Contents (Elt F) → (⟨S100000, .i32⟩ : BufTy).Contents (Elt F)),
    ternary main_v87 main_v89 main_arg2 main_v90 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v90 main_v91 (broadcastInDim S100000x1 ![0] bcast_S100000_S100000x1_0 : (⟨S100000, .i32⟩ : BufTy).Contents (Elt F) → (⟨S100000x1, .i32⟩ : BufTy).Contents (Elt F)),
    binary main_v85 main_v91 main_v92 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    binary main_v82 main_v92 main_v93 (mulf : (⟨S100000x128, .f32⟩ : BufTy).Contents (Elt F) → (⟨S100000x128, .f32⟩ : BufTy).Contents (Elt F) → (⟨S100000x128, .f32⟩ : BufTy).Contents (Elt F)),
    unary main_v55 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v96 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v96 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v96 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v96 : TRef sig ⟨S100000x128, .f32⟩) main_call0.v7 main_call0.call1.v0 select,
    binary main_v97 main_arg0 main_v98 (addf : (⟨S100000x128, .f32⟩ : BufTy).Contents (Elt F) → (⟨S100000x128, .f32⟩ : BufTy).Contents (Elt F) → (⟨S100000x128, .f32⟩ : BufTy).Contents (Elt F)) ]

/-- 91 operations, the results at the buffers of index 147 … 237: layer 1: values %99 … %165. -/
abbrev opsL1 : List (HloOp τ sig (Elt F)) :=
  [ unary main_arg3 main_v99 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v99 main_v100 rfl shapeCasts_S1x128x128_S128x128,
    binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_16 (constantI S_ 32 0#32),
    unary main_c_16 main_v102 (broadcastInDim S1700000 ![] bcast_S_S1700000 : (⟨S_, .i32⟩ : BufTy).Contents (Elt F) → (⟨S1700000, .i32⟩ : BufTy).Contents (Elt F)),
    binary main_v3 main_v102 main_v103 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v104 (broadcastInDim S1700000 ![] bcast_S_S1700000 : (⟨S_, .i32⟩ : BufTy).Contents (Elt F) → (⟨S1700000, .i32⟩ : BufTy).Contents (Elt F)),
    binary main_v3 main_v104 main_v105 (addi : (⟨S1700000, .i32⟩ : BufTy).Contents (Elt F) → (⟨S1700000, .i32⟩ : BufTy).Contents (Elt F) → (⟨S1700000, .i32⟩ : BufTy).Contents (Elt F)),
    ternary main_v103 main_v105 main_v3 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v106 main_v107 (broadcastInDim S1700000x1 ![0] bcast_S1700000_S1700000x1_0 : (⟨S1700000, .i32⟩ : BufTy).Contents (Elt F) → (⟨S1700000x1, .i32⟩ : BufTy).Contents (Elt F)),
    binary main_v101 main_v107 main_v108 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v109 (broadcastInDim S1700000x128 ![0, 1] bcast_S1700000x1_S1700000x128_0_1 : (⟨S1700000x1, .f32⟩ : BufTy).Contents (Elt F) → (⟨S1700000x128, .f32⟩ : BufTy).Contents (Elt F)),
    binary main_v108 main_v109 main_v110 (mulf : (⟨S1700000x128, .f32⟩ : BufTy).Contents (Elt F) → (⟨S1700000x128, .f32⟩ : BufTy).Contents (Elt F) → (⟨S1700000x128, .f32⟩ : BufTy).Contents (Elt F)),
    nullary main_cst_18 (constant S_ .f32 0x00000000#32),
    unary main_cst_18 main_v111 (broadcastInDim S100000x128 ![] bcast_S_S100000x128 : (⟨S_, .f32⟩ : BufTy).Contents (Elt F) → (⟨S100000x128, .f32⟩ : BufTy).Contents (Elt F)),
    unary main_v6 main_v112 (broadcastInDim S1700000x1 ![0] bcast_S1700000_S1700000x1_0 : (⟨S1700000, .i32⟩ : BufTy).Contents (Elt F) → (⟨S1700000x1, .i32⟩ : BufTy).Contents (Elt F)),
    ternary main_v111 main_v112 main_v110 main_v113 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v114 ((extractStridedSlice S1x128 ![1, 0] · slices_S4x128_S1x128_1_0) : (⟨S4x128, .f32⟩ : BufTy).Contents (Elt F) → (⟨S1x128, .f32⟩ : BufTy).Contents (Elt F)),
    reshape main_v114 main_v115 rfl shapeCasts_S1x128_S128,
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v113 main_v117 main_v118 (addf : (⟨S100000x128, .f32⟩ : BufTy).Contents (Elt F) → (⟨S100000x128, .f32⟩ : BufTy).Contents (Elt F) → (⟨S100000x128, .f32⟩ : BufTy).Contents (Elt F)),
    unary main_arg5 main_v119 ((extractStridedSlice S1x128 ![1, 0] · slices_S4x128_S1x128_1_0) : (⟨S4x128, .f32⟩ : BufTy).Contents (Elt F) → (⟨S1x128, .f32⟩ : BufTy).Contents (Elt F)),
    reshape main_v119 main_v120 rfl shapeCasts_S1x128_S128,
    unary main_arg6 main_v121 ((extractStridedSlice S1x128 ![1, 0] · slices_S4x128_S1x128_1_0) : (⟨S4x128, .f32⟩ : BufTy).Contents (Elt F) → (⟨S1x128, .f32⟩ : BufTy).Contents (Elt F)),
    reshape main_v121 main_v122 rfl shapeCasts_S1x128_S128,
    unary main_arg7 main_v123 ((extractStridedSlice S1x128 ![1, 0] · slices_S4x128_S1x128_1_0) : (⟨S4x128, .f32⟩ : BufTy).Contents (Elt F) → (⟨S1x128, .f32⟩ : BufTy).Contents (Elt F)),
    reshape main_v123 main_v124 rfl shapeCasts_S1x128_S128,
    nullary main_cst_19 (constant S_ .f32 0x00000000#32),
    unary main_cst_19 main_v125 (broadcastInDim S128x128 ![] bcast_S_S128x128 : (⟨S_, .f32⟩ : BufTy).Contents (Elt F) → (⟨S128x128, .f32⟩ : BufTy).Contents (Elt F)),
    unary main_arg2 main_v126 (broadcastInDim S100000x1 ![0] bcast_S100000_S100000x1_0 : (⟨S100000, .i32⟩ : BufTy).Contents (Elt F) → (⟨S100000x1, .i32⟩ : BufTy).Contents (Elt F)),
    ternary main_v125 main_v126 main_v118 main_v127 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v128 (broadcastInDim S128x128 ![0, 1] bcast_S128x1_S128x128_0_1 : (⟨S128x1, .f32⟩ : BufTy).Contents (Elt F) → (⟨S128x128, .f32⟩ : BufTy).Contents (Elt F)),
    binary main_v127 main_v128 main_v129 (Host.divf : (⟨S128x128, .f32⟩ : BufTy).Contents (Elt F) → (⟨S128x128, .f32⟩ : BufTy).Contents (Elt F) → (⟨S128x128, .f32⟩ : BufTy).Contents (Elt F)),
    nullary main_c_20 (constantI S_ 32 0#32),
    unary main_c_20 main_v130 (broadcastInDim S100000 ![] bcast_S_S100000 : (⟨S_, .i32⟩ : BufTy).Contents (Elt F) → (⟨S100000, .i32⟩ : BufTy).Contents (Elt F)),
    binary main_arg2 main_v130 main_v131 (cmpi .slt : (⟨S100000, .i32⟩ : BufTy).Contents (Elt F) → (⟨S100000, .i32⟩ : BufTy).Contents (Elt F) → (⟨S100000, .i1⟩ : BufTy).Contents (Elt F)),
    nullary main_c_21 (constantI S_ 32 128#32),
    unary main_c_21 main_v132 (broadcastInDim S100000 ![] bcast_S_S100000 : (⟨S_, .i32⟩ : BufTy).Contents (Elt F) → (⟨S100000, .i32⟩ : BufTy).Contents (Elt F)),
    binary main_arg2 main_v132 main_v133 (addi : (⟨S100000, .i32⟩ : BufTy).Contents (Elt F) → (⟨S100000, .i32⟩ : BufTy).Contents (Elt F) → (⟨S100000, .i32⟩ : BufTy).Contents (Elt F)),
    ternary main_v131 main_v133 main_arg2 main_v134 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v134 main_v135 (broadcastInDim S100000x1 ![0] bcast_S100000_S100000x1_0 : (⟨S100000, .i32⟩ : BufTy).Contents (Elt F) → (⟨S100000x1, .i32⟩ : BufTy).Contents (Elt F)),
    binary main_v129 main_v135 main_v136 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    unary main_v124 main_v137 (broadcastInDim S1x128 ![1] bcast_S128_S1x128_1 : (⟨S128, .f32⟩ : BufTy).Contents (Elt F) → (⟨S1x128, .f32⟩ : BufTy).Contents (Elt F)),
    unary main_v137 main_v138 (broadcastInDim S100000x128 ![0, 1] bcast_S1x128_S100000x128_0_1 : (⟨S1x128, .f32⟩ : BufTy).Contents (Elt F) → (⟨S100000x128, .f32⟩ : BufTy).Contents (Elt F)),
    binary main_v138 main_v136 main_v139 (mulf : (⟨S100000x128, .f32⟩ : BufTy).Contents (Elt F) → (⟨S100000x128, .f32⟩ : BufTy).Contents (Elt F) → (⟨S100000x128, .f32⟩ : BufTy).Contents (Elt F)),
    binary main_v118 main_v139 main_v140 (subf : (⟨S100000x128, .f32⟩ : BufTy).Contents (Elt F) → (⟨S100000x128, .f32⟩ : BufTy).Contents (Elt F) → (⟨S100000x128, .f32⟩ : BufTy).Contents (Elt F)),
    binary main_v140 main_v140 main_v141 (mulf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    unary main_cst_22 main_v142 (broadcastInDim S128x128 ![] bcast_S_S128x128 : (⟨S_, .f32⟩ : BufTy).Contents (Elt F) → (⟨S128x128, .f32⟩ : BufTy).Contents (Elt F)),
    unary main_arg2 main_v143 (broadcastInDim S100000x1 ![0] bcast_S100000_S100000x1_0 : (⟨S100000, .i32⟩ : BufTy).Contents (Elt F) → (⟨S100000x1, .i32⟩ : BufTy).Contents (Elt F)),
    ternary main_v142 main_v143 main_v141 main_v144 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v145 (broadcastInDim S128x128 ![0, 1] bcast_S128x1_S128x128_0_1 : (⟨S128x1, .f32⟩ : BufTy).Contents (Elt F) → (⟨S128x128, .f32⟩ : BufTy).Contents (Elt F)),
    binary main_v144 main_v145 main_v146 (Host.divf : (⟨S128x128, .f32⟩ : BufTy).Contents (Elt F) → (⟨S128x128, .f32⟩ : BufTy).Contents (Elt F) → (⟨S128x128, .f32⟩ : BufTy).Contents (Elt F)),
    unary main_v120 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v148 main_v140 main_v149 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v150 (broadcastInDim S128x128 ![] bcast_S_S128x128 : (⟨S_, .f32⟩ : BufTy).Contents (Elt F) → (⟨S128x128, .f32⟩ : BufTy).Contents (Elt F)),
    binary main_v146 main_v150 main_v151 (addf : (⟨S128x128, .f32⟩ : BufTy).Contents (Elt F) → (⟨S128x128, .f32⟩ : BufTy).Contents (Elt F) → (⟨S128x128, .f32⟩ : BufTy).Contents (Elt F)),
    unary main_v151 main_v152 (Host.rsqrt : (⟨S128x128, .f32⟩ : BufTy).Contents (Elt F) → (⟨S128x128, .f32⟩ : BufTy).Contents (Elt F)),
    nullary main_c_24 (constantI S_ 32 0#32),
    unary main_c_24 main_v153 (broadcastInDim S100000 ![] bcast_S_S100000 : (⟨S_, .i32⟩ : BufTy).Contents (Elt F) → (⟨S100000, .i32⟩ : BufTy).Contents (Elt F)),
    binary main_arg2 main_v153 main_v154 (cmpi .slt : (⟨S100000, .i32⟩ : BufTy).Contents (Elt F) → (⟨S100000, .i32⟩ : BufTy).Contents (Elt F) → (⟨S100000, .i1⟩ : BufTy).Contents (Elt F)),
    nullary main_c_25 (constantI S_ 32 128#32),
    unary main_c_25 main_v155 (broadcastInDim S100000 ![] bcast_S_S100000 : (⟨S_, .i32⟩ : BufTy).Contents (Elt F) → (⟨S100000, .i32⟩ : BufTy).Contents (Elt F)),
    binary main_arg2 main_v155 main_v156 (addi : (⟨S100000, .i32⟩ : BufTy).Contents (Elt F) → (⟨S100000, .i32⟩ : BufTy).Contents (Elt F) → (⟨S100000, .i32⟩ : BufTy).Contents (Elt F)),
    ternary main_v154 main_v156 main_arg2 main_v157 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v157 main_v158 (broadcastInDim S100000x1 ![0] bcast_S100000_S100000x1_0 : (⟨S100000, .i32⟩ : BufTy).Contents (Elt F) → (⟨S100000x1, .i32⟩ : BufTy).Contents (Elt F)),
    binary main_v152 main_v158 main_v159 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    binary main_v149 main_v159 main_v160 (mulf : (⟨S100000x128, .f32⟩ : BufTy).Contents (Elt F) → (⟨S100000x128, .f32⟩ : BufTy).Contents (Elt F) → (⟨S100000x128, .f32⟩ : BufTy).Contents (Elt F)),
    unary main_v122 main_v161 (broadcastInDim S1x128 ![1] bcast_S128_S1x128_1 : (⟨S128, .f32⟩ : BufTy).Contents (Elt F) → (⟨S1x128, .f32⟩ : BufTy).Contents (Elt F)),
    unary main_v161 main_v162 (broadcastInDim S100000x128 ![0, 1] bcast_S1x128_S100000x128_0_1 : (⟨S1x128, .f32⟩ : BufTy).Contents (Elt F) → (⟨S100000x128, .f32⟩ : BufTy).Contents (Elt F)),
    binary main_v160 main_v162 main_v163 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v163 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v163 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v163 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v163 : TRef sig ⟨S100000x128, .f32⟩) main_call1.v7 main_call1.call1.v0 select,
    binary main_v164 main_v98 main_v165 (addf : (⟨S100000x128, .f32⟩ : BufTy).Contents (Elt F) → (⟨S100000x128, .f32⟩ : BufTy).Contents (Elt F) → (⟨S100000x128, .f32⟩ : BufTy).Contents (Elt F)) ]

/-- 91 operations, the results at the buffers of index 238 … 328: layer 2: values %166 … %232. -/
abbrev opsL2 : List (HloOp τ sig (Elt F)) :=
  [ unary main_arg3 main_v166 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v166 main_v167 rfl shapeCasts_S1x128x128_S128x128,
    binary main_v165 main_v167 main_v168 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_26 (constantI S_ 32 0#32),
    unary main_c_26 main_v169 (broadcastInDim S1700000 ![] bcast_S_S1700000 : (⟨S_, .i32⟩ : BufTy).Contents (Elt F) → (⟨S1700000, .i32⟩ : BufTy).Contents (Elt F)),
    binary main_v3 main_v169 main_v170 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v171 (broadcastInDim S1700000 ![] bcast_S_S1700000 : (⟨S_, .i32⟩ : BufTy).Contents (Elt F) → (⟨S1700000, .i32⟩ : BufTy).Contents (Elt F)),
    binary main_v3 main_v171 main_v172 (addi : (⟨S1700000, .i32⟩ : BufTy).Contents (Elt F) → (⟨S1700000, .i32⟩ : BufTy).Contents (Elt F) → (⟨S1700000, .i32⟩ : BufTy).Contents (Elt F)),
    ternary main_v170 main_v172 main_v3 main_v173 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v173 main_v174 (broadcastInDim S1700000x1 ![0] bcast_S1700000_S1700000x1_0 : (⟨S1700000, .i32⟩ : BufTy).Contents (Elt F) → (⟨S1700000x1, .i32⟩ : BufTy).Contents (Elt F)),
    binary main_v168 main_v174 main_v175 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v176 (broadcastInDim S1700000x128 ![0, 1] bcast_S1700000x1_S1700000x128_0_1 : (⟨S1700000x1, .f32⟩ : BufTy).Contents (Elt F) → (⟨S1700000x128, .f32⟩ : BufTy).Contents (Elt F)),
    binary main_v175 main_v176 main_v177 (mulf : (⟨S1700000x128, .f32⟩ : BufTy).Contents (Elt F) → (⟨S1700000x128, .f32⟩ : BufTy).Contents (Elt F) → (⟨S1700000x128, .f32⟩ : BufTy).Contents (Elt F)),
    nullary main_cst_28 (constant S_ .f32 0x00000000#32),
    unary main_cst_28 main_v178 (broadcastInDim S100000x128 ![] bcast_S_S100000x128 : (⟨S_, .f32⟩ : BufTy).Contents (Elt F) → (⟨S100000x128, .f32⟩ : BufTy).Contents (Elt F)),
    unary main_v6 main_v179 (broadcastInDim S1700000x1 ![0] bcast_S1700000_S1700000x1_0 : (⟨S1700000, .i32⟩ : BufTy).Contents (Elt F) → (⟨S1700000x1, .i32⟩ : BufTy).Contents (Elt F)),
    ternary main_v178 main_v179 main_v177 main_v180 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v181 ((extractStridedSlice S1x128 ![2, 0] · slices_S4x128_S1x128_2_0) : (⟨S4x128, .f32⟩ : BufTy).Contents (Elt F) → (⟨S1x128, .f32⟩ : BufTy).Contents (Elt F)),
    reshape main_v181 main_v182 rfl shapeCasts_S1x128_S128,
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v180 main_v184 main_v185 (addf : (⟨S100000x128, .f32⟩ : BufTy).Contents (Elt F) → (⟨S100000x128, .f32⟩ : BufTy).Contents (Elt F) → (⟨S100000x128, .f32⟩ : BufTy).Contents (Elt F)),
    unary main_arg5 main_v186 ((extractStridedSlice S1x128 ![2, 0] · slices_S4x128_S1x128_2_0) : (⟨S4x128, .f32⟩ : BufTy).Contents (Elt F) → (⟨S1x128, .f32⟩ : BufTy).Contents (Elt F)),
    reshape main_v186 main_v187 rfl shapeCasts_S1x128_S128,
    unary main_arg6 main_v188 ((extractStridedSlice S1x128 ![2, 0] · slices_S4x128_S1x128_2_0) : (⟨S4x128, .f32⟩ : BufTy).Contents (Elt F) → (⟨S1x128, .f32⟩ : BufTy).Contents (Elt F)),
    reshape main_v188 main_v189 rfl shapeCasts_S1x128_S128,
    unary main_arg7 main_v190 ((extractStridedSlice S1x128 ![2, 0] · slices_S4x128_S1x128_2_0) : (⟨S4x128, .f32⟩ : BufTy).Contents (Elt F) → (⟨S1x128, .f32⟩ : BufTy).Contents (Elt F)),
    reshape main_v190 main_v191 rfl shapeCasts_S1x128_S128,
    nullary main_cst_29 (constant S_ .f32 0x00000000#32),
    unary main_cst_29 main_v192 (broadcastInDim S128x128 ![] bcast_S_S128x128 : (⟨S_, .f32⟩ : BufTy).Contents (Elt F) → (⟨S128x128, .f32⟩ : BufTy).Contents (Elt F)),
    unary main_arg2 main_v193 (broadcastInDim S100000x1 ![0] bcast_S100000_S100000x1_0 : (⟨S100000, .i32⟩ : BufTy).Contents (Elt F) → (⟨S100000x1, .i32⟩ : BufTy).Contents (Elt F)),
    ternary main_v192 main_v193 main_v185 main_v194 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v195 (broadcastInDim S128x128 ![0, 1] bcast_S128x1_S128x128_0_1 : (⟨S128x1, .f32⟩ : BufTy).Contents (Elt F) → (⟨S128x128, .f32⟩ : BufTy).Contents (Elt F)),
    binary main_v194 main_v195 main_v196 (Host.divf : (⟨S128x128, .f32⟩ : BufTy).Contents (Elt F) → (⟨S128x128, .f32⟩ : BufTy).Contents (Elt F) → (⟨S128x128, .f32⟩ : BufTy).Contents (Elt F)),
    nullary main_c_30 (constantI S_ 32 0#32),
    unary main_c_30 main_v197 (broadcastInDim S100000 ![] bcast_S_S100000 : (⟨S_, .i32⟩ : BufTy).Contents (Elt F) → (⟨S100000, .i32⟩ : BufTy).Contents (Elt F)),
    binary main_arg2 main_v197 main_v198 (cmpi .slt : (⟨S100000, .i32⟩ : BufTy).Contents (Elt F) → (⟨S100000, .i32⟩ : BufTy).Contents (Elt F) → (⟨S100000, .i1⟩ : BufTy).Contents (Elt F)),
    nullary main_c_31 (constantI S_ 32 128#32),
    unary main_c_31 main_v199 (broadcastInDim S100000 ![] bcast_S_S100000 : (⟨S_, .i32⟩ : BufTy).Contents (Elt F) → (⟨S100000, .i32⟩ : BufTy).Contents (Elt F)),
    binary main_arg2 main_v199 main_v200 (addi : (⟨S100000, .i32⟩ : BufTy).Contents (Elt F) → (⟨S100000, .i32⟩ : BufTy).Contents (Elt F) → (⟨S100000, .i32⟩ : BufTy).Contents (Elt F)),
    ternary main_v198 main_v200 main_arg2 main_v201 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v201 main_v202 (broadcastInDim S100000x1 ![0] bcast_S100000_S100000x1_0 : (⟨S100000, .i32⟩ : BufTy).Contents (Elt F) → (⟨S100000x1, .i32⟩ : BufTy).Contents (Elt F)),
    binary main_v196 main_v202 main_v203 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    unary main_v191 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v205 main_v203 main_v206 (mulf : (⟨S100000x128, .f32⟩ : BufTy).Contents (Elt F) → (⟨S100000x128, .f32⟩ : BufTy).Contents (Elt F) → (⟨S100000x128, .f32⟩ : BufTy).Contents (Elt F)),
    binary main_v185 main_v206 main_v207 (subf : (⟨S100000x128, .f32⟩ : BufTy).Contents (Elt F) → (⟨S100000x128, .f32⟩ : BufTy).Contents (Elt F) → (⟨S100000x128, .f32⟩ : BufTy).Contents (Elt F)),
    binary main_v207 main_v207 main_v208 (mulf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    unary main_cst_32 main_v209 (broadcastInDim S128x128 ![] bcast_S_S128x128 : (⟨S_, .f32⟩ : BufTy).Contents (Elt F) → (⟨S128x128, .f32⟩ : BufTy).Contents (Elt F)),
    unary main_arg2 main_v210 (broadcastInDim S100000x1 ![0] bcast_S100000_S100000x1_0 : (⟨S100000, .i32⟩ : BufTy).Contents (Elt F) → (⟨S100000x1, .i32⟩ : BufTy).Contents (Elt F)),
    ternary main_v209 main_v210 main_v208 main_v211 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v212 (broadcastInDim S128x128 ![0, 1] bcast_S128x1_S128x128_0_1 : (⟨S128x1, .f32⟩ : BufTy).Contents (Elt F) → (⟨S128x128, .f32⟩ : BufTy).Contents (Elt F)),
    binary main_v211 main_v212 main_v213 (Host.divf : (⟨S128x128, .f32⟩ : BufTy).Contents (Elt F) → (⟨S128x128, .f32⟩ : BufTy).Contents (Elt F) → (⟨S128x128, .f32⟩ : BufTy).Contents (Elt F)),
    unary main_v187 main_v214 (broadcastInDim S1x128 ![1] bcast_S128_S1x128_1 : (⟨S128, .f32⟩ : BufTy).Contents (Elt F) → (⟨S1x128, .f32⟩ : BufTy).Contents (Elt F)),
    unary main_v214 main_v215 (broadcastInDim S100000x128 ![0, 1] bcast_S1x128_S100000x128_0_1 : (⟨S1x128, .f32⟩ : BufTy).Contents (Elt F) → (⟨S100000x128, .f32⟩ : BufTy).Contents (Elt F)),
    binary main_v215 main_v207 main_v216 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v217 (broadcastInDim S128x128 ![] bcast_S_S128x128 : (⟨S_, .f32⟩ : BufTy).Contents (Elt F) → (⟨S128x128, .f32⟩ : BufTy).Contents (Elt F)),
    binary main_v213 main_v217 main_v218 (addf : (⟨S128x128, .f32⟩ : BufTy).Contents (Elt F) → (⟨S128x128, .f32⟩ : BufTy).Contents (Elt F) → (⟨S128x128, .f32⟩ : BufTy).Contents (Elt F)),
    unary main_v218 main_v219 (Host.rsqrt : (⟨S128x128, .f32⟩ : BufTy).Contents (Elt F) → (⟨S128x128, .f32⟩ : BufTy).Contents (Elt F)),
    nullary main_c_34 (constantI S_ 32 0#32),
    unary main_c_34 main_v220 (broadcastInDim S100000 ![] bcast_S_S100000 : (⟨S_, .i32⟩ : BufTy).Contents (Elt F) → (⟨S100000, .i32⟩ : BufTy).Contents (Elt F)),
    binary main_arg2 main_v220 main_v221 (cmpi .slt : (⟨S100000, .i32⟩ : BufTy).Contents (Elt F) → (⟨S100000, .i32⟩ : BufTy).Contents (Elt F) → (⟨S100000, .i1⟩ : BufTy).Contents (Elt F)),
    nullary main_c_35 (constantI S_ 32 128#32),
    unary main_c_35 main_v222 (broadcastInDim S100000 ![] bcast_S_S100000 : (⟨S_, .i32⟩ : BufTy).Contents (Elt F) → (⟨S100000, .i32⟩ : BufTy).Contents (Elt F)),
    binary main_arg2 main_v222 main_v223 (addi : (⟨S100000, .i32⟩ : BufTy).Contents (Elt F) → (⟨S100000, .i32⟩ : BufTy).Contents (Elt F) → (⟨S100000, .i32⟩ : BufTy).Contents (Elt F)),
    ternary main_v221 main_v223 main_arg2 main_v224 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v224 main_v225 (broadcastInDim S100000x1 ![0] bcast_S100000_S100000x1_0 : (⟨S100000, .i32⟩ : BufTy).Contents (Elt F) → (⟨S100000x1, .i32⟩ : BufTy).Contents (Elt F)),
    binary main_v219 main_v225 main_v226 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    binary main_v216 main_v226 main_v227 (mulf : (⟨S100000x128, .f32⟩ : BufTy).Contents (Elt F) → (⟨S100000x128, .f32⟩ : BufTy).Contents (Elt F) → (⟨S100000x128, .f32⟩ : BufTy).Contents (Elt F)),
    unary main_v189 main_v228 (broadcastInDim S1x128 ![1] bcast_S128_S1x128_1 : (⟨S128, .f32⟩ : BufTy).Contents (Elt F) → (⟨S1x128, .f32⟩ : BufTy).Contents (Elt F)),
    unary main_v228 main_v229 (broadcastInDim S100000x128 ![0, 1] bcast_S1x128_S100000x128_0_1 : (⟨S1x128, .f32⟩ : BufTy).Contents (Elt F) → (⟨S100000x128, .f32⟩ : BufTy).Contents (Elt F)),
    binary main_v227 main_v229 main_v230 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v230 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v230 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v230 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v230 : TRef sig ⟨S100000x128, .f32⟩) main_call2.v7 main_call2.call1.v0 select,
    binary main_v231 main_v165 main_v232 (addf : (⟨S100000x128, .f32⟩ : BufTy).Contents (Elt F) → (⟨S100000x128, .f32⟩ : BufTy).Contents (Elt F) → (⟨S100000x128, .f32⟩ : BufTy).Contents (Elt F)) ]

/-- 91 operations, the results at the buffers of index 329 … 419: layer 3: values %233 … %299. -/
abbrev opsL3 : List (HloOp τ sig (Elt F)) :=
  [ unary main_arg3 main_v233 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v233 main_v234 rfl shapeCasts_S1x128x128_S128x128,
    binary main_v232 main_v234 main_v235 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_36 (constantI S_ 32 0#32),
    unary main_c_36 main_v236 (broadcastInDim S1700000 ![] bcast_S_S1700000 : (⟨S_, .i32⟩ : BufTy).Contents (Elt F) → (⟨S1700000, .i32⟩ : BufTy).Contents (Elt F)),
    binary main_v3 main_v236 main_v237 (cmpi .slt : (⟨S1700000, .i32⟩ : BufTy).Contents (Elt F) → (⟨S1700000, .i32⟩ : BufTy).Contents (Elt F) → (⟨S1700000, .i1⟩ : BufTy).Contents (Elt F)),
    nullary main_c_37 (constantI S_ 32 100000#32),
    unary main_c_37 main_v238 (broadcastInDim S1700000 ![] bcast_S_S1700000 : (⟨S_, .i32⟩ : BufTy).Contents (Elt F) → (⟨S1700000, .i32⟩ : BufTy).Contents (Elt F)),
    binary main_v3 main_v238 main_v239 (addi : (⟨S1700000, .i32⟩ : BufTy).Contents (Elt F) → (⟨S1700000, .i32⟩ : BufTy).Contents (Elt F) → (⟨S1700000, .i32⟩ : BufTy).Contents (Elt F)),
    ternary main_v237 main_v239 main_v3 main_v240 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v240 main_v241 (broadcastInDim S1700000x1 ![0] bcast_S1700000_S1700000x1_0 : (⟨S1700000, .i32⟩ : BufTy).Contents (Elt F) → (⟨S1700000x1, .i32⟩ : BufTy).Contents (Elt F)),
    binary main_v235 main_v241 main_v242 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v27 main_v243 (broadcastInDim S1700000x128 ![0, 1] bcast_S1700000x1_S1700000x128_0_1 : (⟨S1700000x1, .f32⟩ : BufTy).Contents (Elt F) → (⟨S1700000x128, .f32⟩ : BufTy).Contents (Elt F)),
    binary main_v242 main_v243 main_v244 (mulf : (⟨S1700000x128, .f32⟩ : BufTy).Contents (Elt F) → (⟨S1700000x128, .f32⟩ : BufTy).Contents (Elt F) → (⟨S1700000x128, .f32⟩ : BufTy).Contents (Elt F)),
    nullary main_cst_38 (constant S_ .f32 0x00000000#32),
    unary main_cst_38 main_v245 (broadcastInDim S100000x128 ![] bcast_S_S100000x128 : (⟨S_, .f32⟩ : BufTy).Contents (Elt F) → (⟨S100000x128, .f32⟩ : BufTy).Contents (Elt F)),
    unary main_v6 main_v246 (broadcastInDim S1700000x1 ![0] bcast_S1700000_S1700000x1_0 : (⟨S1700000, .i32⟩ : BufTy).Contents (Elt F) → (⟨S1700000x1, .i32⟩ : BufTy).Contents (Elt F)),
    ternary main_v245 main_v246 main_v244 main_v247 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v248 ((extractStridedSlice S1x128 ![3, 0] · slices_S4x128_S1x128_3_0) : (⟨S4x128, .f32⟩ : BufTy).Contents (Elt F) → (⟨S1x128, .f32⟩ : BufTy).Contents (Elt F)),
    reshape main_v248 main_v249 rfl shapeCasts_S1x128_S128,
    unary main_v249 main_v250 (broadcastInDim S1x128 ![1] bcast_S128_S1x128_1 : (⟨S128, .f32⟩ : BufTy).Contents (Elt F) → (⟨S1x128, .f32⟩ : BufTy).Contents (Elt F)),
    unary main_v250 main_v251 (broadcastInDim S100000x128 ![0, 1] bcast_S1x128_S100000x128_0_1 : (⟨S1x128, .f32⟩ : BufTy).Contents (Elt F) → (⟨S100000x128, .f32⟩ : BufTy).Contents (Elt F)),
    binary main_v247 main_v251 main_v252 (addf : (⟨S100000x128, .f32⟩ : BufTy).Contents (Elt F) → (⟨S100000x128, .f32⟩ : BufTy).Contents (Elt F) → (⟨S100000x128, .f32⟩ : BufTy).Contents (Elt F)),
    unary main_arg5 main_v253 ((extractStridedSlice S1x128 ![3, 0] · slices_S4x128_S1x128_3_0) : (⟨S4x128, .f32⟩ : BufTy).Contents (Elt F) → (⟨S1x128, .f32⟩ : BufTy).Contents (Elt F)),
    reshape main_v253 main_v254 rfl shapeCasts_S1x128_S128,
    unary main_arg6 main_v255 ((extractStridedSlice S1x128 ![3, 0] · slices_S4x128_S1x128_3_0) : (⟨S4x128, .f32⟩ : BufTy).Contents (Elt F) → (⟨S1x128, .f32⟩ : BufTy).Contents (Elt F)),
    reshape main_v255 main_v256 rfl shapeCasts_S1x128_S128,
    unary main_arg7 main_v257 ((extractStridedSlice S1x128 ![3, 0] · slices_S4x128_S1x128_3_0) : (⟨S4x128, .f32⟩ : BufTy).Contents (Elt F) → (⟨S1x128, .f32⟩ : BufTy).Contents (Elt F)),
    reshape main_v257 main_v258 rfl shapeCasts_S1x128_S128,
    nullary main_cst_39 (constant S_ .f32 0x00000000#32),
    unary main_cst_39 main_v259 (broadcastInDim S128x128 ![] bcast_S_S128x128 : (⟨S_, .f32⟩ : BufTy).Contents (Elt F) → (⟨S128x128, .f32⟩ : BufTy).Contents (Elt F)),
    unary main_arg2 main_v260 (broadcastInDim S100000x1 ![0] bcast_S100000_S100000x1_0 : (⟨S100000, .i32⟩ : BufTy).Contents (Elt F) → (⟨S100000x1, .i32⟩ : BufTy).Contents (Elt F)),
    ternary main_v259 main_v260 main_v252 main_v261 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v262 (broadcastInDim S128x128 ![0, 1] bcast_S128x1_S128x128_0_1 : (⟨S128x1, .f32⟩ : BufTy).Contents (Elt F) → (⟨S128x128, .f32⟩ : BufTy).Contents (Elt F)),
    binary main_v261 main_v262 main_v263 (Host.divf : (⟨S128x128, .f32⟩ : BufTy).Contents (Elt F) → (⟨S128x128, .f32⟩ : BufTy).Contents (Elt F) → (⟨S128x128, .f32⟩ : BufTy).Contents (Elt F)),
    nullary main_c_40 (constantI S_ 32 0#32),
    unary main_c_40 main_v264 (broadcastInDim S100000 ![] bcast_S_S100000 : (⟨S_, .i32⟩ : BufTy).Contents (Elt F) → (⟨S100000, .i32⟩ : BufTy).Contents (Elt F)),
    binary main_arg2 main_v264 main_v265 (cmpi .slt : (⟨S100000, .i32⟩ : BufTy).Contents (Elt F) → (⟨S100000, .i32⟩ : BufTy).Contents (Elt F) → (⟨S100000, .i1⟩ : BufTy).Contents (Elt F)),
    nullary main_c_41 (constantI S_ 32 128#32),
    unary main_c_41 main_v266 (broadcastInDim S100000 ![] bcast_S_S100000 : (⟨S_, .i32⟩ : BufTy).Contents (Elt F) → (⟨S100000, .i32⟩ : BufTy).Contents (Elt F)),
    binary main_arg2 main_v266 main_v267 (addi : (⟨S100000, .i32⟩ : BufTy).Contents (Elt F) → (⟨S100000, .i32⟩ : BufTy).Contents (Elt F) → (⟨S100000, .i32⟩ : BufTy).Contents (Elt F)),
    ternary main_v265 main_v267 main_arg2 main_v268 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v268 main_v269 (broadcastInDim S100000x1 ![0] bcast_S100000_S100000x1_0 : (⟨S100000, .i32⟩ : BufTy).Contents (Elt F) → (⟨S100000x1, .i32⟩ : BufTy).Contents (Elt F)),
    binary main_v263 main_v269 main_v270 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    unary main_v258 main_v271 (broadcastInDim S1x128 ![1] bcast_S128_S1x128_1 : (⟨S128, .f32⟩ : BufTy).Contents (Elt F) → (⟨S1x128, .f32⟩ : BufTy).Contents (Elt F)),
    unary main_v271 main_v272 (broadcastInDim S100000x128 ![0, 1] bcast_S1x128_S100000x128_0_1 : (⟨S1x128, .f32⟩ : BufTy).Contents (Elt F) → (⟨S100000x128, .f32⟩ : BufTy).Contents (Elt F)),
    binary main_v272 main_v270 main_v273 (mulf : (⟨S100000x128, .f32⟩ : BufTy).Contents (Elt F) → (⟨S100000x128, .f32⟩ : BufTy).Contents (Elt F) → (⟨S100000x128, .f32⟩ : BufTy).Contents (Elt F)),
    binary main_v252 main_v273 main_v274 (subf : (⟨S100000x128, .f32⟩ : BufTy).Contents (Elt F) → (⟨S100000x128, .f32⟩ : BufTy).Contents (Elt F) → (⟨S100000x128, .f32⟩ : BufTy).Contents (Elt F)),
    binary main_v274 main_v274 main_v275 (mulf : (⟨S100000x128, .f32⟩ : BufTy).Contents (Elt F) → (⟨S100000x128, .f32⟩ : BufTy).Contents (Elt F) → (⟨S100000x128, .f32⟩ : BufTy).Contents (Elt F)),
    nullary main_cst_42 (constant S_ .f32 0x00000000#32),
    unary main_cst_42 main_v276 (broadcastInDim S128x128 ![] bcast_S_S128x128 : (⟨S_, .f32⟩ : BufTy).Contents (Elt F) → (⟨S128x128, .f32⟩ : BufTy).Contents (Elt F)),
    unary main_arg2 main_v277 (broadcastInDim S100000x1 ![0] bcast_S100000_S100000x1_0 : (⟨S100000, .i32⟩ : BufTy).Contents (Elt F) → (⟨S100000x1, .i32⟩ : BufTy).Contents (Elt F)),
    ternary main_v276 main_v277 main_v275 main_v278 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    unary main_v31 main_v279 (broadcastInDim S128x128 ![0, 1] bcast_S128x1_S128x128_0_1 : (⟨S128x1, .f32⟩ : BufTy).Contents (Elt F) → (⟨S128x128, .f32⟩ : BufTy).Contents (Elt F)),
    binary main_v278 main_v279 main_v280 (Host.divf : (⟨S128x128, .f32⟩ : BufTy).Contents (Elt F) → (⟨S128x128, .f32⟩ : BufTy).Contents (Elt F) → (⟨S128x128, .f32⟩ : BufTy).Contents (Elt F)),
    unary main_v254 main_v281 (broadcastInDim S1x128 ![1] bcast_S128_S1x128_1 : (⟨S128, .f32⟩ : BufTy).Contents (Elt F) → (⟨S1x128, .f32⟩ : BufTy).Contents (Elt F)),
    unary main_v281 main_v282 (broadcastInDim S100000x128 ![0, 1] bcast_S1x128_S100000x128_0_1 : (⟨S1x128, .f32⟩ : BufTy).Contents (Elt F) → (⟨S100000x128, .f32⟩ : BufTy).Contents (Elt F)),
    binary main_v282 main_v274 main_v283 (mulf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x3727C5AC#32),
    unary main_cst_43 main_v284 (broadcastInDim S128x128 ![] bcast_S_S128x128 : (⟨S_, .f32⟩ : BufTy).Contents (Elt F) → (⟨S128x128, .f32⟩ : BufTy).Contents (Elt F)),
    binary main_v280 main_v284 main_v285 (addf : (⟨S128x128, .f32⟩ : BufTy).Contents (Elt F) → (⟨S128x128, .f32⟩ : BufTy).Contents (Elt F) → (⟨S128x128, .f32⟩ : BufTy).Contents (Elt F)),
    unary main_v285 main_v286 (Host.rsqrt : (⟨S128x128, .f32⟩ : BufTy).Contents (Elt F) → (⟨S128x128, .f32⟩ : BufTy).Contents (Elt F)),
    nullary main_c_44 (constantI S_ 32 0#32),
    unary main_c_44 main_v287 (broadcastInDim S100000 ![] bcast_S_S100000 : (⟨S_, .i32⟩ : BufTy).Contents (Elt F) → (⟨S100000, .i32⟩ : BufTy).Contents (Elt F)),
    binary main_arg2 main_v287 main_v288 (cmpi .slt : (⟨S100000, .i32⟩ : BufTy).Contents (Elt F) → (⟨S100000, .i32⟩ : BufTy).Contents (Elt F) → (⟨S100000, .i1⟩ : BufTy).Contents (Elt F)),
    nullary main_c_45 (constantI S_ 32 128#32),
    unary main_c_45 main_v289 (broadcastInDim S100000 ![] bcast_S_S100000 : (⟨S_, .i32⟩ : BufTy).Contents (Elt F) → (⟨S100000, .i32⟩ : BufTy).Contents (Elt F)),
    binary main_arg2 main_v289 main_v290 (addi : (⟨S100000, .i32⟩ : BufTy).Contents (Elt F) → (⟨S100000, .i32⟩ : BufTy).Contents (Elt F) → (⟨S100000, .i32⟩ : BufTy).Contents (Elt F)),
    ternary main_v288 main_v290 main_arg2 main_v291 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v291 main_v292 (broadcastInDim S100000x1 ![0] bcast_S100000_S100000x1_0 : (⟨S100000, .i32⟩ : BufTy).Contents (Elt F) → (⟨S100000x1, .i32⟩ : BufTy).Contents (Elt F)),
    binary main_v286 main_v292 main_v293 ((fun x i => Host.gather gather_S128x128_S100000x1_S100000x128_1_0_n_n_0_1_1128 x i) : (⟨S128x128, .f32⟩ : BufTy).Contents (Elt F) → (⟨S100000x1, .i32⟩ : BufTy).Contents (Elt F) → (⟨S100000x128, .f32⟩ : BufTy).Contents (Elt F)),
    binary main_v283 main_v293 main_v294 (mulf : (⟨S100000x128, .f32⟩ : BufTy).Contents (Elt F) → (⟨S100000x128, .f32⟩ : BufTy).Contents (Elt F) → (⟨S100000x128, .f32⟩ : BufTy).Contents (Elt F)),
    unary main_v256 main_v295 (broadcastInDim S1x128 ![1] bcast_S128_S1x128_1 : (⟨S128, .f32⟩ : BufTy).Contents (Elt F) → (⟨S1x128, .f32⟩ : BufTy).Contents (Elt F)),
    unary main_v295 main_v296 (broadcastInDim S100000x128 ![0, 1] bcast_S1x128_S100000x128_0_1 : (⟨S1x128, .f32⟩ : BufTy).Contents (Elt F) → (⟨S100000x128, .f32⟩ : BufTy).Contents (Elt F)),
    binary main_v294 main_v296 main_v297 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v297 : TRef sig ⟨S100000x128, .f32⟩) main_call3.v0 main_call3.v1 (cmpf .ogt),
    TRef.nullary main_call3.cst_0 (constant S_ .f32 0x00000000#32),
    TRef.unary main_call3.cst_0 main_call3.v2 (broadcastInDim S100000x128 ![] bcast_S_S100000x128),
    TRef.binary (.of main_v297 : TRef sig ⟨S100000x128, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x128 ![] bcast_S_S100000x128),
    TRef.ternary main_call3.v3 main_call3.call0.v1 (.of main_v297 : TRef sig ⟨S100000x128, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x128 ![] bcast_S_S100000x128),
    TRef.binary main_call3.v6 main_call3.v5 main_call3.v7 mulf,
    TRef.ternary main_call3.v1 (.of main_v297 : TRef sig ⟨S100000x128, .f32⟩) main_call3.v7 main_call3.call1.v0 select,
    binary main_v298 main_v232 main_v299 (addf : (⟨S100000x128, .f32⟩ : BufTy).Contents (Elt F) → (⟨S100000x128, .f32⟩ : BufTy).Contents (Elt F) → (⟨S100000x128, .f32⟩ : BufTy).Contents (Elt F)) ]

/-- 31 operations, the results at the buffers of index 420 … 450: the tail: the pooled sums and the dense head, values %300 … %326. -/
abbrev opsTail : List (HloOp τ sig (Elt F)) :=
  [ nullary main_cst_46 (constant S_ .f32 0x00000000#32),
    unary main_cst_46 main_v300 (broadcastInDim S128x128 ![] bcast_S_S128x128 : (⟨S_, .f32⟩ : BufTy).Contents (Elt F) → (⟨S128x128, .f32⟩ : BufTy).Contents (Elt F)),
    unary main_arg2 main_v301 (broadcastInDim S100000x1 ![0] bcast_S100000_S100000x1_0 : (⟨S100000, .i32⟩ : BufTy).Contents (Elt F) → (⟨S100000x1, .i32⟩ : BufTy).Contents (Elt F)),
    ternary main_v300 main_v301 main_v299 main_v302 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    binary main_v302 main_arg8 main_v303 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg9 main_v304 (broadcastInDim S1x128 ![1] bcast_S128_S1x128_1 : (⟨S128, .f32⟩ : BufTy).Contents (Elt F) → (⟨S1x128, .f32⟩ : BufTy).Contents (Elt F)),
    unary main_v304 main_v305 (broadcastInDim S128x128 ![0, 1] bcast_S1x128_S128x128_0_1 : (⟨S1x128, .f32⟩ : BufTy).Contents (Elt F) → (⟨S128x128, .f32⟩ : BufTy).Contents (Elt F)),
    binary main_v303 main_v305 main_v306 (addf : (⟨S128x128, .f32⟩ : BufTy).Contents (Elt F) → (⟨S128x128, .f32⟩ : BufTy).Contents (Elt F) → (⟨S128x128, .f32⟩ : BufTy).Contents (Elt F)),
    unary main_arg12 main_v307 (broadcastInDim S1x128 ![1] bcast_S128_S1x128_1 : (⟨S128, .f32⟩ : BufTy).Contents (Elt F) → (⟨S1x128, .f32⟩ : BufTy).Contents (Elt F)),
    unary main_v307 main_v308 (broadcastInDim S128x128 ![0, 1] bcast_S1x128_S128x128_0_1 : (⟨S1x128, .f32⟩ : BufTy).Contents (Elt F) → (⟨S128x128, .f32⟩ : BufTy).Contents (Elt F)),
    binary main_v306 main_v308 main_v309 (subf : (⟨S128x128, .f32⟩ : BufTy).Contents (Elt F) → (⟨S128x128, .f32⟩ : BufTy).Contents (Elt F) → (⟨S128x128, .f32⟩ : BufTy).Contents (Elt F)),
    unary main_arg10 main_v310 (broadcastInDim S1x128 ![1] bcast_S128_S1x128_1 : (⟨S128, .f32⟩ : BufTy).Contents (Elt F) → (⟨S1x128, .f32⟩ : BufTy).Contents (Elt F)),
    unary main_v310 main_v311 (broadcastInDim S128x128 ![0, 1] bcast_S1x128_S128x128_0_1 : (⟨S1x128, .f32⟩ : BufTy).Contents (Elt F) → (⟨S128x128, .f32⟩ : BufTy).Contents (Elt F)),
    binary main_v311 main_v309 main_v312 (mulf : (⟨S128x128, .f32⟩ : BufTy).Contents (Elt F) → (⟨S128x128, .f32⟩ : BufTy).Contents (Elt F) → (⟨S128x128, .f32⟩ : BufTy).Contents (Elt F)),
    nullary main_cst_47 (constant S_ .f32 0x3727C5AC#32),
    unary main_cst_47 main_v313 (broadcastInDim S128 ![] bcast_S_S128 : (⟨S_, .f32⟩ : BufTy).Contents (Elt F) → (⟨S128, .f32⟩ : BufTy).Contents (Elt F)),
    binary main_arg13 main_v313 main_v314 (addf : (⟨S128, .f32⟩ : BufTy).Contents (Elt F) → (⟨S128, .f32⟩ : BufTy).Contents (Elt F) → (⟨S128, .f32⟩ : BufTy).Contents (Elt F)),
    unary main_v314 main_v315 (Host.rsqrt : (⟨S128, .f32⟩ : BufTy).Contents (Elt F) → (⟨S128, .f32⟩ : BufTy).Contents (Elt F)),
    unary main_v315 main_v316 (broadcastInDim S1x128 ![1] bcast_S128_S1x128_1 : (⟨S128, .f32⟩ : BufTy).Contents (Elt F) → (⟨S1x128, .f32⟩ : BufTy).Contents (Elt F)),
    unary main_v316 main_v317 (broadcastInDim S128x128 ![0, 1] bcast_S1x128_S128x128_0_1 : (⟨S1x128, .f32⟩ : BufTy).Contents (Elt F) → (⟨S128x128, .f32⟩ : BufTy).Contents (Elt F)),
    binary main_v312 main_v317 main_v318 (mulf : (⟨S128x128, .f32⟩ : BufTy).Contents (Elt F) → (⟨S128x128, .f32⟩ : BufTy).Contents (Elt F) → (⟨S128x128, .f32⟩ : BufTy).Contents (Elt F)),
    unary main_arg11 main_v319 (broadcastInDim S1x128 ![1] bcast_S128_S1x128_1 : (⟨S128, .f32⟩ : BufTy).Contents (Elt F) → (⟨S1x128, .f32⟩ : BufTy).Contents (Elt F)),
    unary main_v319 main_v320 (broadcastInDim S128x128 ![0, 1] bcast_S1x128_S128x128_0_1 : (⟨S1x128, .f32⟩ : BufTy).Contents (Elt F) → (⟨S128x128, .f32⟩ : BufTy).Contents (Elt F)),
    binary main_v318 main_v320 main_v321 (addf : (⟨S128x128, .f32⟩ : BufTy).Contents (Elt F) → (⟨S128x128, .f32⟩ : BufTy).Contents (Elt F) → (⟨S128x128, .f32⟩ : BufTy).Contents (Elt F)),
    TRef.nullary main_call4.cst (constant S_ .f32 0x00000000#32),
    TRef.unary main_call4.cst main_call4.v0 (broadcastInDim S128x128 ![] bcast_S_S128x128),
    TRef.binary (.of main_v321 : TRef sig ⟨S128x128, .f32⟩) main_call4.v0 main_call4.v1 maximumf,
    binary main_v322 main_arg14 main_v323 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg15 main_v324 (broadcastInDim S1x10 ![1] bcast_S10_S1x10_1 : (⟨S10, .f32⟩ : BufTy).Contents (Elt F) → (⟨S1x10, .f32⟩ : BufTy).Contents (Elt F)),
    unary main_v324 main_v325 (broadcastInDim S128x10 ![0, 1] bcast_S1x10_S128x10_0_1 : (⟨S1x10, .f32⟩ : BufTy).Contents (Elt F) → (⟨S128x10, .f32⟩ : BufTy).Contents (Elt F)),
    binary main_v323 main_v325 main_v326 (addf : (⟨S128x10, .f32⟩ : BufTy).Contents (Elt F) → (⟨S128x10, .f32⟩ : BufTy).Contents (Elt F) → (⟨S128x10, .f32⟩ : BufTy).Contents (Elt F)) ]

/-! The windows main_part0 … main_part6 of the printed @main begin at the operations of position 0, 60, 134, 194, 268, 342, 416 (of 435); the lists above begin at 0, 40, 131, 222, 313, 404. -/

end Cert.ReferenceIdeal.HandRun

end
-- ==== Proof.RefRun.lean ====
import proofs.«423410_j58634893525678_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := opsPro ++ opsL0 ++ opsL1 ++ opsL2 ++ opsL3 ++ opsTail

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after opsTail (after opsL3 (after opsL2 (after opsL1 (after opsL0 (after opsPro V))))) := by
  simp only [ops, after_append]

set_option maxRecDepth 8192 in
set_option maxHeartbeats 4000000 in
theorem main_part0_eq (c : Dev nD) : main_part0 (F := F) c = seq (opsPro ++ opsL0.take 20) := rfl

set_option maxRecDepth 8192 in
set_option maxHeartbeats 4000000 in
theorem main_part1_eq (c : Dev nD) : main_part1 (F := F) c = seq (opsL0.drop 20 ++ opsL1.take 3) := rfl

set_option maxRecDepth 8192 in
set_option maxHeartbeats 4000000 in
theorem main_part2_eq (c : Dev nD) : main_part2 (F := F) c = seq ((opsL1.drop 3).take 60) := rfl

set_option maxRecDepth 8192 in
set_option maxHeartbeats 4000000 in
theorem main_part3_eq (c : Dev nD) : main_part3 (F := F) c = seq ((opsL1.drop 3).drop 60 ++ opsL2.take 46) := rfl

set_option maxRecDepth 8192 in
set_option maxHeartbeats 4000000 in
theorem main_part4_eq (c : Dev nD) : main_part4 (F := F) c = seq (opsL2.drop 46 ++ opsL3.take 29) := rfl

set_option maxRecDepth 8192 in
set_option maxHeartbeats 4000000 in
theorem main_part5_eq (c : Dev nD) : main_part5 (F := F) c = seq (opsL3.drop 29 ++ opsTail.take 12) := rfl

set_option maxRecDepth 8192 in
set_option maxHeartbeats 4000000 in
theorem main_part6_eq (c : Dev nD) : main_part6 (F := F) c = seq (opsTail.drop 12) := rfl

private theorem cut {α : Type _} (l : List α) (i : Nat) (X : List α) : l.take i ++ (l.drop i ++ X) = l ++ X := by
  rw [← List.append_assoc, List.take_append_drop]

private theorem windows_eq {α : Type _} (P A B C D T : List α) :
    P ++ A ++ B ++ C ++ D ++ T
      = (P ++ A.take 20) ++ ((A.drop 20 ++ B.take 3) ++ ((B.drop 3).take 60 ++ (((B.drop 3).drop 60 ++ C.take 46)
          ++ ((C.drop 46 ++ D.take 29) ++ ((D.drop 29 ++ T.take 12) ++ T.drop 12))))) := by
  simp only [List.append_assoc, cut, List.take_append_drop]

private theorem seq_windows {Λ : Labels} (W0 W1 W2 W3 W4 W5 W6 : List (HloOp τ sig (Elt F))) :
    (seq (W0 ++ (W1 ++ (W2 ++ (W3 ++ (W4 ++ (W5 ++ W6)))))) : Prog (TpuEff nD τ sig (Elt F) Λ .tc) PUnit)
      = seq W0 >>= fun _ => seq W1 >>= fun _ => seq W2 >>= fun _ => seq W3 >>= fun _ => seq W4 >>= fun _ =>
          seq W5 >>= fun _ => seq W6 := by
  simp only [seq_append]

theorem main_eq (c : Dev nD) : main (F := F) c = seq ops := by
  rw [show (ops : List (HloOp τ sig (Elt F))) = _ from windows_eq opsPro opsL0 opsL1 opsL2 opsL3 opsTail, seq_windows,
    ← main_part0_eq c, ← main_part1_eq c, ← main_part2_eq c, ← main_part3_eq c, ← main_part4_eq c, ← main_part5_eq c,
    ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

def WritesIn (lo hi : Nat) (op : HloOp τ sig (Elt F)) : Prop :=
  ∀ r : Ref sig .tc, Proc.devRef (τ := τ) .tc r ∈ op.writes → lo ≤ r.idx.val ∧ r.idx.val < hi

structure Good (lo hi : Nat) (op : HloOp τ sig (Elt F)) : Prop where
  sub : op.bufs ⊆ tcRefs τ sig
  fresh : op.fresh = ∅
  writes : WritesIn lo hi op

theorem good_of {lo hi : Nat} {op : HloOp τ sig (Elt F)} {y : Ref sig .tc} (hs : op.bufs ⊆ tcRefs τ sig)
    (hf : op.fresh = ∅) (hw : op.writes = {Proc.devRef (τ := τ) .tc y}) (hy : lo ≤ y.idx.val ∧ y.idx.val < hi) :
    Good lo hi op :=
  ⟨hs, hf, fun r hr => by
    rw [hw, Finset.mem_singleton] at hr
    cases Proc.devRef_injective _ hr
    exact hy⟩

theorem Good.mono {lo hi lo' hi' : Nat} (hl : lo' ≤ lo) (hh : hi ≤ hi') {op : HloOp τ sig (Elt F)} (h : Good lo hi op) :
    Good lo' hi' op :=
  ⟨h.sub, h.fresh, fun r hr => ⟨hl.trans (h.writes r hr).1, Nat.lt_of_lt_of_le (h.writes r hr).2 hh⟩⟩

macro "good_op" : tactic =>
  `(tactic| exact good_of
      (by first | exact nullary_bufs_sub .. | exact unary_bufs_sub .. | exact binary_bufs_sub ..
                | exact ternary_bufs_sub .. | exact reshape_bufs_sub ..)
      rfl rfl (by decide))

macro "good_ops" : tactic => `(tactic| repeat' (first | good_op | refine ⟨?_, ?_⟩))

set_option maxRecDepth 8192 in
set_option maxHeartbeats 4000000 in
theorem opsPro_good : (opsPro : List (HloOp τ sig (Elt F))).Forall (Good 16 56) := by good_ops
set_option maxRecDepth 8192 in
set_option maxHeartbeats 4000000 in
theorem opsL0_good : (opsL0 : List (HloOp τ sig (Elt F))).Forall (Good 56 147) := by good_ops
set_option maxRecDepth 8192 in
set_option maxHeartbeats 4000000 in
theorem opsL1_good : (opsL1 : List (HloOp τ sig (Elt F))).Forall (Good 147 238) := by good_ops
set_option maxRecDepth 8192 in
set_option maxHeartbeats 4000000 in
theorem opsL2_good : (opsL2 : List (HloOp τ sig (Elt F))).Forall (Good 238 329) := by good_ops
set_option maxRecDepth 8192 in
set_option maxHeartbeats 4000000 in
theorem opsL3_good : (opsL3 : List (HloOp τ sig (Elt F))).Forall (Good 329 420) := by good_ops
set_option maxRecDepth 8192 in
set_option maxHeartbeats 4000000 in
theorem opsTail_good : (opsTail : List (HloOp τ sig (Elt F))).Forall (Good 420 451) := by good_ops

theorem opsPro_writes : (opsPro : List (HloOp τ sig (Elt F))).Forall (WritesIn 16 56) :=
  List.Forall.imp (fun _ h => h.writes) opsPro_good
theorem opsL0_writes : (opsL0 : List (HloOp τ sig (Elt F))).Forall (WritesIn 56 147) :=
  List.Forall.imp (fun _ h => h.writes) opsL0_good
theorem opsL1_writes : (opsL1 : List (HloOp τ sig (Elt F))).Forall (WritesIn 147 238) :=
  List.Forall.imp (fun _ h => h.writes) opsL1_good
theorem opsL2_writes : (opsL2 : List (HloOp τ sig (Elt F))).Forall (WritesIn 238 329) :=
  List.Forall.imp (fun _ h => h.writes) opsL2_good
theorem opsL3_writes : (opsL3 : List (HloOp τ sig (Elt F))).Forall (WritesIn 329 420) :=
  List.Forall.imp (fun _ h => h.writes) opsL3_good
theorem opsTail_writes : (opsTail : List (HloOp τ sig (Elt F))).Forall (WritesIn 420 451) :=
  List.Forall.imp (fun _ h => h.writes) opsTail_good

theorem after_keep {l : List (HloOp τ sig (Elt F))} {lo hi : Nat} (h : l.Forall (WritesIn lo hi))
    (V : Valuation τ sig (Elt F)) (r : Ref sig .tc) (hr : r.idx.val < lo ∨ hi ≤ r.idx.val) :
    after l V (Proc.devRef .tc r) = V (Proc.devRef .tc r) :=
  after_of_forall_not_mem l V fun op hop hb => by
    have := List.forall_iff_forall_mem.1 h op hop r hb
    omega

theorem ops_good : (ops : List (HloOp τ sig (Elt F))).Forall (Good 16 451) := by
  refine List.forall_append.2 ⟨List.forall_append.2 ⟨List.forall_append.2 ⟨List.forall_append.2
    ⟨List.forall_append.2 ⟨?_, ?_⟩, ?_⟩, ?_⟩, ?_⟩, ?_⟩
  · exact List.Forall.imp (fun _ h => h.mono (by decide) (by decide)) opsPro_good
  · exact List.Forall.imp (fun _ h => h.mono (by decide) (by decide)) opsL0_good
  · exact List.Forall.imp (fun _ h => h.mono (by decide) (by decide)) opsL1_good
  · exact List.Forall.imp (fun _ h => h.mono (by decide) (by decide)) opsL2_good
  · exact List.Forall.imp (fun _ h => h.mono (by decide) (by decide)) opsL3_good
  · exact List.Forall.imp (fun _ h => h.mono (by decide) (by decide)) opsTail_good

theorem ops_sub : (ops : List (HloOp τ sig (Elt F))).Forall fun op => op.bufs ⊆ tcRefs τ sig :=
  List.Forall.imp (fun _ h => h.sub) ops_good

theorem arg_keep (V : Valuation τ sig (Elt F)) (r : Ref sig .tc) (hr : r.idx.val < 16) :
    after ops V (Proc.devRef .tc r) = V (Proc.devRef .tc r) :=
  after_keep (List.Forall.imp (fun _ h => h.writes) ops_good) V r (Or.inl hr)

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ op hop => (List.forall_iff_forall_mem.1 ops_good op hop).fresh)

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v299) = after ops (launchContents m c) (Proc.devRef .tc main_v299)
      ∧ r.2.mem ((c.tc : Thread nD τ).loc main_v326) = after ops (launchContents m c) (Proc.devRef .tc main_v326)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨h c main_v299, h c main_v326,
     (h c main_arg0).trans (arg_keep _ main_arg0 (by decide)),
     (h c main_arg1).trans (arg_keep _ main_arg1 (by decide)),
     (h c main_arg2).trans (arg_keep _ main_arg2 (by decide)),
     (h c main_arg3).trans (arg_keep _ main_arg3 (by decide)),
     (h c main_arg4).trans (arg_keep _ main_arg4 (by decide)),
     (h c main_arg5).trans (arg_keep _ main_arg5 (by decide)),
     (h c main_arg6).trans (arg_keep _ main_arg6 (by decide)),
     (h c main_arg7).trans (arg_keep _ main_arg7 (by decide)),
     (h c main_arg8).trans (arg_keep _ main_arg8 (by decide)),
     (h c main_arg9).trans (arg_keep _ main_arg9 (by decide)),
     (h c main_arg10).trans (arg_keep _ main_arg10 (by decide)),
     (h c main_arg11).trans (arg_keep _ main_arg11 (by decide)),
     (h c main_arg12).trans (arg_keep _ main_arg12 (by decide)),
     (h c main_arg13).trans (arg_keep _ main_arg13 (by decide)),
     (h c main_arg14).trans (arg_keep _ main_arg14 (by decide)),
     (h c main_arg15).trans (arg_keep _ main_arg15 (by decide))⟩)
    (run_after m ρ)

end Cert.ReferenceIdeal.HandRun

end
-- ==== Proof.LibGatherVec.lean ====
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

section GatherVec
variable {N n w : Nat} (d : GatherDims ⟨1, ![N]⟩ ⟨2, ![n, 1]⟩ ⟨1, ![n]⟩)
  (hoff : d.offsetDims = []) (hcoll : d.collapsedSliceDims = [0]) (hob : d.operandBatchingDims = [])
  (hsim : d.startIndexMap = [0]) (hivd : d.indexVectorDim = 1)
include hoff hcoll hob hsim hivd

private theorem gvec_coord0 (idx : IVec ⟨2, ![n, 1]⟩ w) (j : (⟨1, ![n]⟩ : Shape).Idx) :
    d.start j idx (0 : Fin 1) + d.batchCoord j (0 : Fin 1) + d.offCoord j (0 : Fin 1)
      = min (idx (ix2 (j 0) (0 : Fin 1))).toInt.toNat (N - 1) := by
  have hb : (0 : Fin 1) ∉ d.operandBatchingDims := by rw [hob]; exact List.not_mem_nil
  have hc : (0 : Fin 1) ∈ d.collapsedSliceDims := by rw [hcoll]; exact List.mem_singleton.mpr rfl
  have hk : (0 : Fin 1) ∉ d.sKept := fun h => ((d.mem_sKept _).1 h).1 hc
  have hm : (0 : Fin 1) ∈ d.startIndexMap := by rw [hsim]; exact List.mem_singleton.mpr rfl
  have hsl : d.sliceSizes (0 : Fin 1) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold GatherDims.siIdx
    rw [dif_pos (by rw [hivd])]
    apply Fin.ext
    show List.idxOf (0 : Fin 1) d.startIndexMap = 0
    rw [hsim]; simp

end GatherVec

theorem gather_vec_apply {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p)
      = x (ix1 (⟨min (idx (ix2 p (0 : Fin 1))).toInt.toNat (N - 1), by omega⟩ : Fin N)) := by
  unfold Host.gather
  congr 1
  funext a
  obtain rfl : a = 0 := Subsingleton.elim _ _
  apply Fin.ext
  exact gvec_coord0 d hoff hcoll hob hsim hivd idx (ix1 p)

end Cert.Gcn.Lib

end
-- ==== Proof.RefHostDefs.lean ====
import proofs.«423410_j58634893525678_2_alg».proof.ReferenceIdeal
import proofs.«423410_j58634893525678_2_alg».proof.Proof.Spec
import proofs.«423410_j58634893525678_2_alg».proof.Proof.LibScatterGather
import proofs.«423410_j58634893525678_2_alg».proof.Proof.LibGatherVec
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember

noncomputable section

namespace Cert.ReferenceIdeal.Host

open Idealize.ShloMosaic Idealize.ShloMosaic.ValueIdx
open Cert.Gcn.Lib

section Bcast
variable {α : Type}

theorem bcast_col_apply {n : Nat} (hn : n ≠ 1)
    (h : (⟨1, ![n]⟩ : Shape).BroadcastsInDim ⟨2, ![n, 1]⟩ (![0] : Fin 1 → Fin 2))
    (x : (⟨1, ![n]⟩ : Shape).Idx → α) (e : Fin n) (c : Fin 1) :
    broadcastInDim ⟨2, ![n, 1]⟩ ![0] h x (ix2 e c) = x (ix1 e) :=
  broadcastInDim_apply _ h x _ _ fun a => by
    obtain rfl : a = 0 := Subsingleton.elim _ _
    exact (if_neg hn).symm

theorem bcast_lanes_apply {n C : Nat} (hn : n ≠ 1)
    (h : (⟨2, ![n, 1]⟩ : Shape).BroadcastsInDim ⟨2, ![n, C]⟩ (![0, 1] : Fin 2 → Fin 2))
    (x : (⟨2, ![n, 1]⟩ : Shape).Idx → α) (e : Fin n) (c : Fin C) :
    broadcastInDim ⟨2, ![n, C]⟩ ![0, 1] h x (ix2 e c) = x (ix2 e (0 : Fin 1)) :=
  broadcastInDim_apply _ h x _ _ fun a => match a with
    | ⟨0, _⟩ => (if_neg hn).symm
    | ⟨1, _⟩ => (if_pos rfl).symm

theorem bcast_row_apply {N C : Nat} (hC : C ≠ 1)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (v : (⟨1, ![C]⟩ : Shape).Idx → α) (n : Fin N) (c : Fin C) :
    broadcastInDim ⟨2, ![N, C]⟩ ![0, 1] h2 (broadcastInDim ⟨2, ![1, C]⟩ ![1] h1 v) (ix2 n c) = v (ix1 c) := by
  rw [broadcastInDim_apply _ h2 _ (ix2 n c) (ix2 (0 : Fin 1) c) (fun a => match a with
    | ⟨0, _⟩ => (if_pos rfl).symm
    | ⟨1, _⟩ => (if_neg hC).symm)]
  exact broadcastInDim_apply _ h1 v _ _ fun a => by
    obtain rfl : a = 0 := Subsingleton.elim _ _
    exact (if_neg hC).symm

end Bcast

section Slices
variable {α : Type}

theorem sliceW_apply (a3 : S4x128x128.Idx → α) (o : Nat) (ho : o < 4)
    (hs : S4x128x128.Slices ![o, 0, 0] S1x128x128) (hc : S1x128x128.ShapeCasts S128x128) (k j : Fin 128) :
    shapeCast S128x128 (extractStridedSlice S1x128x128 ![o, 0, 0] a3 hs) hc (ix2 k j) = a3 (ix3 (⟨o, ho⟩ : Fin 4) k j) := by
  rw [shapeCast_1ab_ab_apply]
  exact extractStridedSlice_apply _ _ hs _ _ fun a => match a with
    | ⟨0, _⟩ => by show o = o + 0; omega
    | ⟨1, _⟩ => by show k.val = 0 + k.val; omega
    | ⟨2, _⟩ => by show j.val = 0 + j.val; omega

theorem sliceV_apply (a4 : S4x128.Idx → α) (o : Nat) (ho : o < 4)
    (hs : S4x128.Slices ![o, 0] S1x128) (hc : S1x128.ShapeCasts S128) (j : Fin 128) :
    shapeCast S128 (extractStridedSlice S1x128 ![o, 0] a4 hs) hc (ix1 j) = a4 (ix2 (⟨o, ho⟩ : Fin 4) j) := by
  rw [shapeCast_1a_a_apply]
  exact extractStridedSlice_apply _ _ hs _ _ fun a => match a with
    | ⟨0, _⟩ => by show o = o + 0; omega
    | ⟨1, _⟩ => by show j.val = 0 + j.val; omega

end Slices

section Core
variable [Facts]
open Facts₀ Facts

def degT (dT : IVec S1700000x1 32) : FVec Ideal S100000 .f32 :=
  Host.scatterAdd scatter_S100000_S1700000x1_S1700000_n_0_0_1
    (broadcastInDim S100000 ![] bcast_S_S100000 (constant S_ .f32 0x00000000#32))
    dT
    (broadcastInDim S1700000 ![] bcast_S_S1700000 (constant S_ .f32 0x3F800000#32))

def disT (dT : IVec S1700000x1 32) : FVec Ideal S100000 .f32 := Host.rsqrt (degT dT)

def nrmT (dT sG dG : IVec S1700000x1 32) : FVec Ideal S1700000x1 .f32 :=
  broadcastInDim S1700000x1 ![0] bcast_S1700000_S1700000x1_0
    (mulf (Host.gather gather_S100000_S1700000x1_S1700000_n_0_n_n_0_1_1 (disT dT) sG)
      (Host.gather gather_S100000_S1700000x1_S1700000_n_0_n_n_0_1_1 (disT dT) dG))

def cntT (bT : IVec S100000x1 32) : FVec Ideal S128x1 .f32 :=
  Host.scatterAdd scatter_S128x1_S100000x1_S100000x1_1_0_0_1
    (broadcastInDim S128x1 ![] bcast_S_S128x1 (constant S_ .f32 0x00000000#32))
    bT
    (broadcastInDim S100000x1 ![] bcast_S_S100000x1 (constant S_ .f32 0x3F800000#32))

def projA (x : FVec Ideal S100000x128 .f32) (W : FVec Ideal S128x128 .f32) : FVec Ideal S100000x128 .f32 :=
  Host.dotGeneral dot_S100000x128_S128x128_S100000x128_1_0_0_1_n_n none x W

def rowB (v : FVec Ideal S128 .f32) : FVec Ideal S100000x128 .f32 :=
  broadcastInDim S100000x128 ![0, 1] bcast_S1x128_S100000x128_0_1 (broadcastInDim S1x128 ![1] bcast_S128_S1x128_1 v)

def convT (x : FVec Ideal S100000x128 .f32) (W : FVec Ideal S128x128 .f32) (b : FVec Ideal S128 .f32)
    (dT sG dG : IVec S1700000x1 32) : FVec Ideal S100000x128 .f32 :=
  addf
    (Host.scatterAdd scatter_S100000x128_S1700000x1_S1700000x128_1_0_0_1
      (broadcastInDim S100000x128 ![] bcast_S_S100000x128 (constant S_ .f32 0x00000000#32))
      dT
      (mulf (Host.gather gather_S100000x128_S1700000x1_S1700000x128_1_0_n_n_0_1_1128 (projA x W) sG)
        (broadcastInDim S1700000x128 ![0, 1] bcast_S1700000x1_S1700000x128_0_1 (nrmT dT sG dG))))
    (rowB b)

def segSumT (bT : IVec S100000x1 32) (h : FVec Ideal S100000x128 .f32) : FVec Ideal S128x128 .f32 :=
  Host.scatterAdd scatter_S128x128_S100000x1_S100000x128_1_0_0_1
    (broadcastInDim S128x128 ![] bcast_S_S128x128 (constant S_ .f32 0x00000000#32)) bT h

def segMeanT (bT : IVec S100000x1 32) (h : FVec Ideal S100000x128 .f32) : FVec Ideal S128x128 .f32 :=
  Host.divf (segSumT bT h) (broadcastInDim S128x128 ![0, 1] bcast_S128x1_S128x128_0_1 (cntT bT))

def nodeRowsT (bG : IVec S100000x1 32) (m : FVec Ideal S128x128 .f32) : FVec Ideal S100000x128 .f32 :=
  Host.gather gather_S128x128_S100000x1_S100000x128_1_0_n_n_0_1_1128 m bG

def subT (h : FVec Ideal S100000x128 .f32) (a : FVec Ideal S128 .f32) (bT bG : IVec S100000x1 32) :
    FVec Ideal S100000x128 .f32 :=
  subf h (mulf (rowB a) (nodeRowsT bG (segMeanT bT h)))

def rstdT (s : FVec Ideal S100000x128 .f32) (bT : IVec S100000x1 32) : FVec Ideal S128x128 .f32 :=
  Host.rsqrt (addf (segMeanT bT (mulf s s))
    (broadcastInDim S128x128 ![] bcast_S_S128x128 (constant S_ .f32 0x3727C5AC#32)))

def normT (s : FVec Ideal S100000x128 .f32) (w bb : FVec Ideal S128 .f32) (bT bG : IVec S100000x1 32) :
    FVec Ideal S100000x128 .f32 :=
  addf (mulf (mulf (rowB w) s) (nodeRowsT bG (rstdT s bT))) (rowB bb)

def eluA (y : FVec Ideal S100000x128 .f32) : FVec Ideal S100000x128 .f32 :=
  select (cmpf .ogt y (broadcastInDim S100000x128 ![] bcast_S_S100000x128 (constant S_ .f32 0x00000000#32)))
    y
    (mulf (broadcastInDim S100000x128 ![] bcast_S_S100000x128 (constant S_ .f32 0x3F800000#32))
      (Host.expm1
        (select (cmpf .ogt y (broadcastInDim S100000x128 ![] bcast_S_S100000x128 (constant S_ .f32 0x00000000#32)))
          (broadcastInDim S100000x128 ![] bcast_S_S100000x128 (constant S_ .f32 0x00000000#32))
          y)))

def layerT (x : FVec Ideal S100000x128 .f32) (W : FVec Ideal S128x128 .f32) (b w bb a : FVec Ideal S128 .f32)
    (dT sG dG : IVec S1700000x1 32) (bT bG : IVec S100000x1 32) : FVec Ideal S100000x128 .f32 :=
  addf (eluA (normT (subT (convT x W b dT sG dG) a bT bG) w bb bT bG)) x

def tailR (p : FVec Ideal S128x128 .f32) (a8 : FVec Ideal S128x128 .f32) (a9 a10 a11 a12 a13 : FVec Ideal S128 .f32)
    (a14 : FVec Ideal S128x10 .f32) (a15 : FVec Ideal S10 .f32) : FVec Ideal S128x10 .f32 :=
  addf
    (Host.dotGeneral dot_S128x128_S128x10_S128x10_1_0_0_1_n_n none
      (maximumf
        (addf
          (mulf
            (mulf
              (broadcastInDim S128x128 ![0, 1] bcast_S1x128_S128x128_0_1 (broadcastInDim S1x128 ![1] bcast_S128_S1x128_1 a10))
              (subf
                (addf (Host.dotGeneral dot_S128x128_S128x128_S128x128_1_0_0_1_n_n none p a8)
                  (broadcastInDim S128x128 ![0, 1] bcast_S1x128_S128x128_0_1 (broadcastInDim S1x128 ![1] bcast_S128_S1x128_1 a9)))
                (broadcastInDim S128x128 ![0, 1] bcast_S1x128_S128x128_0_1 (broadcastInDim S1x128 ![1] bcast_S128_S1x128_1 a12))))
            (broadcastInDim S128x128 ![0, 1] bcast_S1x128_S128x128_0_1 (broadcastInDim S1x128 ![1] bcast_S128_S1x128_1
              (Host.rsqrt (addf a13 (broadcastInDim S128 ![] bcast_S_S128 (constant S_ .f32 0x3727C5AC#32)))))))
          (broadcastInDim S128x128 ![0, 1] bcast_S1x128_S128x128_0_1 (broadcastInDim S1x128 ![1] bcast_S128_S1x128_1 a11)))
        (broadcastInDim S128x128 ![] bcast_S_S128x128 (constant S_ .f32 0x00000000#32)))
      a14)
    (broadcastInDim S128x10 ![0, 1] bcast_S1x10_S128x10_0_1 (broadcastInDim S1x10 ![1] bcast_S10_S1x10_1 a15))

structure Reads (G : Cert.Gnn.Ctx) (dT sG dG : IVec S1700000x1 32) (bT bG : IVec S100000x1 32) : Prop where
  sI : ∀ e : Fin 1700000, (dT (ix2 e (0 : Fin 1))).toInt = G.sI e
  gs : ∀ (e : Fin 1700000) (h : min (sG (ix2 e (0 : Fin 1))).toInt.toNat (100000 - 1) < 100000),
    (⟨min (sG (ix2 e (0 : Fin 1))).toInt.toNat (100000 - 1), h⟩ : Fin 100000) = G.gs e
  gd : ∀ (e : Fin 1700000) (h : min (dG (ix2 e (0 : Fin 1))).toInt.toNat (100000 - 1) < 100000),
    (⟨min (dG (ix2 e (0 : Fin 1))).toInt.toNat (100000 - 1), h⟩ : Fin 100000) = G.gd e
  bI : ∀ n : Fin 100000, (bT (ix2 n (0 : Fin 1))).toInt = G.bI n
  bg : ∀ (n : Fin 100000) (h : min (bG (ix2 n (0 : Fin 1))).toInt.toNat (128 - 1) < 128),
    (⟨min (bG (ix2 n (0 : Fin 1))).toInt.toNat (128 - 1), h⟩ : Fin 128) = G.bg n

end Core

end Cert.ReferenceIdeal.Host

end
-- ==== Proof.RefHostA.lean ====
import proofs.«423410_j58634893525678_2_alg».proof.Proof.RefHostDefs
import proofs.«423410_j58634893525678_2_alg».proof.Proof.Idx

noncomputable section

namespace Cert.ReferenceIdeal.Host

open Idealize.ShloMosaic Idealize.ShloMosaic.ValueIdx
open Cert.Gcn.Lib

theorem hostRsqrt_apply {s : Shape} {φ : FTy} (x : FVec Ideal s φ) (i : s.Idx) : Host.rsqrt x i = Ideal.rsqrt (x i) := rfl

theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

section A
variable [Facts]
open Facts₀ Facts
variable {G : Cert.Gnn.Ctx} {dT sG dG : IVec S1700000x1 32} {bT bG : IVec S100000x1 32}

theorem degT_apply (hR : Reads G dT sG dG bT bG) (n : Fin 100000) : degT dT (ix1 n) = Cert.Gnn.deg G n := by
  unfold degT
  rw [hostScatterAdd_eq, scatterAdd_vec_apply _ rfl rfl rfl rfl, broadcastInDim_scalar_apply, constant_apply,
    Ideal.ofBits_zero_f32, zero_add]
  unfold Cert.Gnn.deg
  refine Finset.sum_congr rfl fun e _ => ?_
  rw [hR.sI e, broadcastInDim_scalar_apply, constant_apply, Ideal.ofBits_one_f32]

theorem disT_apply (hR : Reads G dT sG dG bT bG) (n : Fin 100000) : disT dT (ix1 n) = Cert.Gnn.dis G n := by
  unfold disT Cert.Gnn.dis
  rw [hostRsqrt_apply, degT_apply hR n]

theorem nrmT_apply (hR : Reads G dT sG dG bT bG) (e : Fin 1700000) (c : Fin 1) :
    nrmT dT sG dG (ix2 e c) = Cert.Gnn.R.nrm G e := by
  unfold nrmT Cert.Gnn.R.nrm
  rw [bcast_col_apply (n := 1700000) (by decide), mulf_apply,
    gather_vec_apply _ rfl rfl rfl rfl rfl _ sG e (by norm_num),
    gather_vec_apply _ rfl rfl rfl rfl rfl _ dG e (by norm_num),
    hR.gs e, hR.gd e, disT_apply hR, disT_apply hR]

theorem cntT_apply (hR : Reads G dT sG dG bT bG) (g : Fin 128) (c : Fin 1) : cntT bT (ix2 g c) = Cert.Gnn.cnt G g := by
  unfold cntT
  rw [hostScatterAdd_eq, scatterAdd_rows_apply _ rfl rfl rfl rfl, broadcastInDim_scalar_apply, constant_apply,
    Ideal.ofBits_zero_f32, zero_add]
  unfold Cert.Gnn.cnt
  refine Finset.sum_congr rfl fun n _ => ?_
  rw [hR.bI n, broadcastInDim_scalar_apply, constant_apply, Ideal.ofBits_one_f32]

theorem projA_apply (x : FVec Ideal S100000x128 .f32) (W : FVec Ideal S128x128 .f32) (n : Fin 100000) (j : Fin 128) :
    projA x W (ix2 n j) = Cert.Gnn.R.proj (fun n k => x (ix2 n k)) (fun k j => W (ix2 k j)) n j := by
  unfold projA Cert.Gnn.R.proj
  exact StackMember.dotGeneral_plain_apply (m := 100000) (n := 128) (k := 128) none x W n j

theorem rowB_apply (v : FVec Ideal S128 .f32) (n : Fin 100000) (j : Fin 128) : rowB v (ix2 n j) = v (ix1 j) := by
  unfold rowB
  exact bcast_row_apply (N := 100000) (C := 128) (by decide) _ _ v n j

theorem convT_apply (hR : Reads G dT sG dG bT bG) (x : FVec Ideal S100000x128 .f32) (W : FVec Ideal S128x128 .f32)
    (b : FVec Ideal S128 .f32) (n : Fin 100000) (j : Fin 128) :
    convT x W b dT sG dG (ix2 n j)
      = Cert.Gnn.R.conv G (fun n k => x (ix2 n k)) (fun k j => W (ix2 k j)) (fun j => b (ix1 j)) n j := by
  unfold convT
  rw [addf_apply, hostScatterAdd_eq, scatterAdd_rows_apply _ rfl rfl rfl rfl, broadcastInDim_scalar_apply,
    constant_apply, Ideal.ofBits_zero_f32, zero_add, rowB_apply]
  unfold Cert.Gnn.R.conv
  refine congrArg (· + b (ix1 j)) (Finset.sum_congr rfl fun e _ => ?_)
  rw [hR.sI e, mulf_apply, gather_rows_apply _ rfl rfl rfl rfl rfl _ sG e j (by norm_num), hR.gs e, projA_apply,
    bcast_lanes_apply (n := 1700000) (by decide), nrmT_apply hR]

theorem segSumT_apply (hR : Reads G dT sG dG bT bG) (h : FVec Ideal S100000x128 .f32) (g j : Fin 128) :
    segSumT bT h (ix2 g j) = Cert.Gnn.R.segsum G (fun n k => h (ix2 n k)) g j := by
  unfold segSumT
  rw [hostScatterAdd_eq, scatterAdd_rows_apply _ rfl rfl rfl rfl, broadcastInDim_scalar_apply, constant_apply,
    Ideal.ofBits_zero_f32, zero_add]
  unfold Cert.Gnn.R.segsum
  refine Finset.sum_congr rfl fun n _ => ?_
  rw [hR.bI n]

abbrev dTab (ei : IVec S2x1600000 32) : IVec S1700000x1 32 :=
  Cert.Gnn.dstTable ei slices_S2x1600000_S1x1600000_1_0 shapeCasts_S1x1600000_S1600000
    concatenates_S1600000_S100000_S1700000_d0 bcast_S1700000_S1700000x1_0

abbrev sGTab (ei : IVec S2x1600000 32) : IVec S1700000x1 32 :=
  Cert.Gnn.srcGTable ei slices_S2x1600000_S1x1600000_0_0 shapeCasts_S1x1600000_S1600000
    concatenates_S1600000_S100000_S1700000_d0 bcast_S_S1700000 bcast_S1700000_S1700000x1_0

abbrev dGTab (ei : IVec S2x1600000 32) : IVec S1700000x1 32 :=
  Cert.Gnn.dstGTable ei slices_S2x1600000_S1x1600000_1_0 shapeCasts_S1x1600000_S1600000
    concatenates_S1600000_S100000_S1700000_d0 bcast_S_S1700000 bcast_S1700000_S1700000x1_0

abbrev bTab (bt : IVec S100000 32) : IVec S100000x1 32 := Cert.Gnn.batchTable bt bcast_S100000_S100000x1_0

abbrev bGTab (bt : IVec S100000 32) : IVec S100000x1 32 :=
  Cert.Gnn.batchGTable bt bcast_S_S100000 bcast_S100000_S100000x1_0

theorem reads_of (ei : IVec S2x1600000 32) (bt : IVec S100000 32) :
    Reads (Cert.Gnn.Ctx.of ei bt) (dTab ei) (sGTab ei) (dGTab ei) (bTab bt) (bGTab bt) where
  sI e := Cert.Gnn.dstTable_toInt ei bt _ _ _ _ e
  gs e h := Cert.Gnn.srcGTable_row ei bt _ _ _ _ _ e h
  gd e h := Cert.Gnn.dstGTable_row ei bt _ _ _ _ _ e h
  bI n := Cert.Gnn.batchTable_toInt ei bt _ n
  bg n h := Cert.Gnn.batchGTable_row ei bt _ _ n h

end A

end Cert.ReferenceIdeal.Host

end
-- ==== Proof.RefHost.lean ====
import proofs.«423410_j58634893525678_2_alg».proof.Proof.RefHostA

noncomputable section

namespace Cert.ReferenceIdeal.Host

open Idealize.ShloMosaic Idealize.ShloMosaic.ValueIdx
open Cert.Gcn.Lib

theorem expm1_apply {s : Shape} {φ : FTy} (x : FVec Ideal s φ) (i : s.Idx) : Host.expm1 x i = Ideal.exp (x i) - 1 := rfl

theorem cmpf_ogt_apply {s : Shape} {φ : FTy} (a b : FVec Ideal s φ) (i : s.Idx) :
    cmpf .ogt a b i = BitVec.ofBool (decide (b i < a i)) := rfl

theorem select_ofBool {α : Type} (p : Prop) [Decidable p] (a b : α) :
    Scalar.select (BitVec.ofBool (decide p)) a b = if p then a else b := by
  by_cases h : p <;> simp [Scalar.select, h]

section Stages
variable [Facts]
open Facts₀ Facts
variable {G : Cert.Gnn.Ctx} {dT sG dG : IVec S1700000x1 32} {bT bG : IVec S100000x1 32}

theorem segMeanT_apply (hR : Reads G dT sG dG bT bG) (h : FVec Ideal S100000x128 .f32) (g j : Fin 128) :
    segMeanT bT h (ix2 g j) = Cert.Gnn.R.mean G (fun n k => h (ix2 n k)) g j := by
  unfold segMeanT Cert.Gnn.R.mean
  rw [hostDivf_apply, segSumT_apply hR, bcast_lanes_apply (n := 128) (by decide), cntT_apply hR]

theorem nodeRowsT_apply (hR : Reads G dT sG dG bT bG) (m : FVec Ideal S128x128 .f32) (n : Fin 100000) (j : Fin 128) :
    nodeRowsT bG m (ix2 n j) = m (ix2 (G.bg n) j) := by
  unfold nodeRowsT
  rw [gather_rows_apply gather_S128x128_S100000x1_S100000x128_1_0_n_n_0_1_1128 rfl rfl rfl rfl rfl _ _ _ _ (by decide),
    hR.bg]

theorem subT_apply (hR : Reads G dT sG dG bT bG) (h : FVec Ideal S100000x128 .f32) (a : FVec Ideal S128 .f32)
    (n : Fin 100000) (j : Fin 128) :
    subT h a bT bG (ix2 n j) = Cert.Gnn.R.sub G (fun n k => h (ix2 n k)) (fun j => a (ix1 j)) n j := by
  unfold subT Cert.Gnn.R.sub
  rw [subf_apply, mulf_apply, rowB_apply, nodeRowsT_apply hR, segMeanT_apply hR]

theorem rstdT_apply (hR : Reads G dT sG dG bT bG) (s : FVec Ideal S100000x128 .f32) (S : Fin 100000 → Fin 128 → EReal)
    (hs : ∀ n k, s (ix2 n k) = S n k) (g j : Fin 128) :
    rstdT s bT (ix2 g j)
      = Ideal.rsqrt (Ideal.div (Cert.Gnn.R.segsum G (fun n j => S n j * S n j) g j) (Cert.Gnn.cnt G g) + Cert.Gnn.eps) := by
  have hfun : (fun n k => (mulf s s) (ix2 n k)) = fun n j => S n j * S n j := by
    funext n k
    rw [mulf_apply, hs]
  unfold rstdT
  rw [hostRsqrt_apply, addf_apply, segMeanT_apply hR, hfun, broadcastInDim_scalar_apply, constant_apply]
  rfl

theorem eluA_apply (y : FVec Ideal S100000x128 .f32) (i : S100000x128.Idx) : eluA y i = Cert.Gnn.R.elu (y i) := by
  unfold eluA Cert.Gnn.R.elu
  rw [select_apply, cmpf_ogt_apply, mulf_apply, expm1_apply, select_apply, cmpf_ogt_apply]
  rw [select_ofBool, select_ofBool, broadcastInDim_scalar_apply, broadcastInDim_scalar_apply, constant_apply, constant_apply,
    Ideal.ofBits_zero_f32, Ideal.ofBits_one_f32]

theorem layerT_apply (hR : Reads G dT sG dG bT bG) (x : FVec Ideal S100000x128 .f32) (W : FVec Ideal S128x128 .f32)
    (b w bb a : FVec Ideal S128 .f32) (n : Fin 100000) (j : Fin 128) :
    layerT x W b w bb a dT sG dG bT bG (ix2 n j)
      = Cert.Gnn.R.layer G (fun n k => x (ix2 n k)) (fun k j => W (ix2 k j)) (fun j => b (ix1 j)) (fun j => a (ix1 j))
          (fun j => w (ix1 j)) (fun j => bb (ix1 j)) n j := by
  have hconv : (fun n k => convT x W b dT sG dG (ix2 n k))
      = Cert.Gnn.R.conv G (fun n k => x (ix2 n k)) (fun k j => W (ix2 k j)) (fun j => b (ix1 j)) := by
    funext n k
    exact convT_apply hR x W b n k
  have hsub : ∀ n k, subT (convT x W b dT sG dG) a bT bG (ix2 n k)
      = Cert.Gnn.R.sub G (Cert.Gnn.R.conv G (fun n k => x (ix2 n k)) (fun k j => W (ix2 k j)) (fun j => b (ix1 j)))
          (fun j => a (ix1 j)) n k := by
    intro n k
    rw [subT_apply hR, hconv]
  unfold layerT Cert.Gnn.R.layer normT
  rw [addf_apply, eluA_apply, addf_apply, mulf_apply, mulf_apply, rowB_apply, rowB_apply, nodeRowsT_apply hR, hsub,
    rstdT_apply hR _ _ hsub]
  rfl

theorem poolT_apply (hR : Reads G dT sG dG bT bG) (x : FVec Ideal S100000x128 .f32) (g j : Fin 128) :
    segSumT bT x (ix2 g j) = Cert.Gnn.R.pool G (fun n k => x (ix2 n k)) g j :=
  segSumT_apply hR x g j

end Stages

section Wrap
variable [Facts]
open Facts₀ Facts

def disA (ei : IVec S2x1600000 32) : FVec Ideal S100000 .f32 := disT (dTab ei)

def nrmA (ei : IVec S2x1600000 32) : FVec Ideal S1700000x1 .f32 := nrmT (dTab ei) (sGTab ei) (dGTab ei)

def cntA (bt : IVec S100000 32) : FVec Ideal S128x1 .f32 := cntT (bTab bt)

def layerA (x : FVec Ideal S100000x128 .f32) (W : FVec Ideal S128x128 .f32) (b w bb a : FVec Ideal S128 .f32)
    (ei : IVec S2x1600000 32) (bt : IVec S100000 32) : FVec Ideal S100000x128 .f32 :=
  layerT x W b w bb a (dTab ei) (sGTab ei) (dGTab ei) (bTab bt) (bGTab bt)

def poolA (x : FVec Ideal S100000x128 .f32) (bt : IVec S100000 32) : FVec Ideal S128x128 .f32 := segSumT (bTab bt) x

theorem disA_apply (ei : IVec S2x1600000 32) (bt : IVec S100000 32) (n : Fin 100000) :
    disA ei (ix1 n) = Cert.Gnn.dis (Cert.Gnn.Ctx.of ei bt) n :=
  disT_apply (reads_of ei bt) n

theorem poolA_apply (x : FVec Ideal S100000x128 .f32) (ei : IVec S2x1600000 32) (bt : IVec S100000 32) (g j : Fin 128) :
    poolA x bt (ix2 g j) = Cert.Gnn.R.pool (Cert.Gnn.Ctx.of ei bt) (fun n k => x (ix2 n k)) g j :=
  poolT_apply (reads_of ei bt) x g j

end Wrap

end Cert.ReferenceIdeal.Host

end
-- ==== Proof.RefValPro.lean ====
import proofs.«423410_j58634893525678_2_alg».proof.Proof.RefRunOps
import proofs.«423410_j58634893525678_2_alg».proof.Proof.RefHostA

noncomputable section

namespace Cert.ReferenceIdeal.Val
open Cert.ReferenceIdeal Cert.ReferenceIdeal.Gen Idealize.ShloMosaic Idealize.ShloMosaic.TcCoe Idealize.SL.Sem Idealize.ShloMosaic.StableHlo
open Cert.ReferenceIdeal.HandRun

set_option maxHeartbeats 4000000 in

theorem pro_v3 (V : Valuation τ sig (Elt Ideal)) :
    after (opsPro (F := Ideal)) V (Proc.devRef .tc main_v3)
      = Cert.Gnn.srcVec (V (Proc.devRef .tc main_arg1)) slices_S2x1600000_S1x1600000_0_0 shapeCasts_S1x1600000_S1600000
          concatenates_S1600000_S100000_S1700000_d0 := by
  after_results
  rfl

set_option maxHeartbeats 4000000 in

theorem pro_v6 (V : Valuation τ sig (Elt Ideal)) :
    after (opsPro (F := Ideal)) V (Proc.devRef .tc main_v6)
      = Cert.Gnn.dstVec (V (Proc.devRef .tc main_arg1)) slices_S2x1600000_S1x1600000_1_0 shapeCasts_S1x1600000_S1600000
          concatenates_S1600000_S100000_S1700000_d0 := by
  after_results
  rfl

set_option maxHeartbeats 4000000 in

theorem pro_v31 (V : Valuation τ sig (Elt Ideal)) :
    after (opsPro (F := Ideal)) V (Proc.devRef .tc main_v31) = Host.cntT (Host.bTab (V (Proc.devRef .tc main_arg2))) := by
  after_results_simp
  rfl

set_option maxHeartbeats 4000000 in

theorem pro_v27 (V : Valuation τ sig (Elt Ideal)) :
    after (opsPro (F := Ideal)) V (Proc.devRef .tc main_v27)
      = Host.nrmT (Host.dTab (V (Proc.devRef .tc main_arg1))) (Host.sGTab (V (Proc.devRef .tc main_arg1)))
          (Host.dGTab (V (Proc.devRef .tc main_arg1))) := by
  after_results
  rfl

set_option maxHeartbeats 4000000 in

theorem tail_val (V : Valuation τ sig (Elt Ideal)) :
    after (opsTail (F := Ideal)) V (Proc.devRef .tc main_v326)
      = Host.tailR (Host.segSumT (Host.bTab (V (Proc.devRef .tc main_arg2))) (V (Proc.devRef .tc main_v299)))
          (V (Proc.devRef .tc main_arg8)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) := by
  after_results_simp
  rfl

end Cert.ReferenceIdeal.Val

end
-- ==== Proof.RefValLA.lean ====
import proofs.«423410_j58634893525678_2_alg».proof.Proof.RefRunOps
import proofs.«423410_j58634893525678_2_alg».proof.Proof.RefHostA

noncomputable section

namespace Cert.ReferenceIdeal.Val
open Cert.ReferenceIdeal Cert.ReferenceIdeal.Gen Idealize.ShloMosaic Idealize.ShloMosaic.TcCoe Idealize.SL.Sem Idealize.ShloMosaic.StableHlo
open Cert.ReferenceIdeal.HandRun

set_option maxHeartbeats 4000000 in

theorem L0_val (V : Valuation τ sig (Elt Ideal)) (ei : IVec S2x1600000 32) (bt : IVec S100000 32)
    (h3 : V (Proc.devRef .tc main_v3) = Cert.Gnn.srcVec ei slices_S2x1600000_S1x1600000_0_0 shapeCasts_S1x1600000_S1600000
      concatenates_S1600000_S100000_S1700000_d0)
    (h6 : V (Proc.devRef .tc main_v6) = Cert.Gnn.dstVec ei slices_S2x1600000_S1x1600000_1_0 shapeCasts_S1x1600000_S1600000
      concatenates_S1600000_S100000_S1700000_d0)
    (h2 : V (Proc.devRef .tc main_arg2) = bt)
    (h27 : V (Proc.devRef .tc main_v27) = Host.nrmT (Host.dTab ei) (Host.sGTab ei) (Host.dGTab ei))
    (h31 : V (Proc.devRef .tc main_v31) = Host.cntT (Host.bTab bt)) :
    after (opsL0 (F := Ideal)) V (Proc.devRef .tc main_v98)
      = Host.layerT (V (Proc.devRef .tc main_arg0))
          (shapeCast S128x128 (extractStridedSlice S1x128x128 ![0, 0, 0] (V (Proc.devRef .tc main_arg3))
            slices_S4x128x128_S1x128x128_0_0_0) shapeCasts_S1x128x128_S128x128)
          (shapeCast S128 (extractStridedSlice S1x128 ![0, 0] (V (Proc.devRef .tc main_arg4)) slices_S4x128_S1x128_0_0)
            shapeCasts_S1x128_S128)
          (shapeCast S128 (extractStridedSlice S1x128 ![0, 0] (V (Proc.devRef .tc main_arg5)) slices_S4x128_S1x128_0_0)
            shapeCasts_S1x128_S128)
          (shapeCast S128 (extractStridedSlice S1x128 ![0, 0] (V (Proc.devRef .tc main_arg6)) slices_S4x128_S1x128_0_0)
            shapeCasts_S1x128_S128)
          (shapeCast S128 (extractStridedSlice S1x128 ![0, 0] (V (Proc.devRef .tc main_arg7)) slices_S4x128_S1x128_0_0)
            shapeCasts_S1x128_S128)
          (Host.dTab ei) (Host.sGTab ei) (Host.dGTab ei) (Host.bTab bt) (Host.bGTab bt) := by
  after_results_simp
  rw [h27, h31, h3, h6, h2]
  rfl

set_option maxHeartbeats 4000000 in

theorem L1_val (V : Valuation τ sig (Elt Ideal)) (ei : IVec S2x1600000 32) (bt : IVec S100000 32)
    (h3 : V (Proc.devRef .tc main_v3) = Cert.Gnn.srcVec ei slices_S2x1600000_S1x1600000_0_0 shapeCasts_S1x1600000_S1600000
      concatenates_S1600000_S100000_S1700000_d0)
    (h6 : V (Proc.devRef .tc main_v6) = Cert.Gnn.dstVec ei slices_S2x1600000_S1x1600000_1_0 shapeCasts_S1x1600000_S1600000
      concatenates_S1600000_S100000_S1700000_d0)
    (h2 : V (Proc.devRef .tc main_arg2) = bt)
    (h27 : V (Proc.devRef .tc main_v27) = Host.nrmT (Host.dTab ei) (Host.sGTab ei) (Host.dGTab ei))
    (h31 : V (Proc.devRef .tc main_v31) = Host.cntT (Host.bTab bt)) :
    after (opsL1 (F := Ideal)) V (Proc.devRef .tc main_v165)
      = Host.layerT (V (Proc.devRef .tc main_v98))
          (shapeCast S128x128 (extractStridedSlice S1x128x128 ![1, 0, 0] (V (Proc.devRef .tc main_arg3))
            slices_S4x128x128_S1x128x128_1_0_0) shapeCasts_S1x128x128_S128x128)
          (shapeCast S128 (extractStridedSlice S1x128 ![1, 0] (V (Proc.devRef .tc main_arg4)) slices_S4x128_S1x128_1_0)
            shapeCasts_S1x128_S128)
          (shapeCast S128 (extractStridedSlice S1x128 ![1, 0] (V (Proc.devRef .tc main_arg5)) slices_S4x128_S1x128_1_0)
            shapeCasts_S1x128_S128)
          (shapeCast S128 (extractStridedSlice S1x128 ![1, 0] (V (Proc.devRef .tc main_arg6)) slices_S4x128_S1x128_1_0)
            shapeCasts_S1x128_S128)
          (shapeCast S128 (extractStridedSlice S1x128 ![1, 0] (V (Proc.devRef .tc main_arg7)) slices_S4x128_S1x128_1_0)
            shapeCasts_S1x128_S128)
          (Host.dTab ei) (Host.sGTab ei) (Host.dGTab ei) (Host.bTab bt) (Host.bGTab bt) := by
  after_results_simp
  rw [h27, h31, h3, h6, h2]
  rfl

end Cert.ReferenceIdeal.Val

end
-- ==== Proof.RefValLB.lean ====
import proofs.«423410_j58634893525678_2_alg».proof.Proof.RefRunOps
import proofs.«423410_j58634893525678_2_alg».proof.Proof.RefHostA

noncomputable section

namespace Cert.ReferenceIdeal.Val
open Cert.ReferenceIdeal Cert.ReferenceIdeal.Gen Idealize.ShloMosaic Idealize.ShloMosaic.TcCoe Idealize.SL.Sem Idealize.ShloMosaic.StableHlo
open Cert.ReferenceIdeal.HandRun

set_option maxHeartbeats 4000000 in

theorem L2_val (V : Valuation τ sig (Elt Ideal)) (ei : IVec S2x1600000 32) (bt : IVec S100000 32)
    (h3 : V (Proc.devRef .tc main_v3) = Cert.Gnn.srcVec ei slices_S2x1600000_S1x1600000_0_0 shapeCasts_S1x1600000_S1600000
      concatenates_S1600000_S100000_S1700000_d0)
    (h6 : V (Proc.devRef .tc main_v6) = Cert.Gnn.dstVec ei slices_S2x1600000_S1x1600000_1_0 shapeCasts_S1x1600000_S1600000
      concatenates_S1600000_S100000_S1700000_d0)
    (h2 : V (Proc.devRef .tc main_arg2) = bt)
    (h27 : V (Proc.devRef .tc main_v27) = Host.nrmT (Host.dTab ei) (Host.sGTab ei) (Host.dGTab ei))
    (h31 : V (Proc.devRef .tc main_v31) = Host.cntT (Host.bTab bt)) :
    after (opsL2 (F := Ideal)) V (Proc.devRef .tc main_v232)
      = Host.layerT (V (Proc.devRef .tc main_v165))
          (shapeCast S128x128 (extractStridedSlice S1x128x128 ![2, 0, 0] (V (Proc.devRef .tc main_arg3))
            slices_S4x128x128_S1x128x128_2_0_0) shapeCasts_S1x128x128_S128x128)
          (shapeCast S128 (extractStridedSlice S1x128 ![2, 0] (V (Proc.devRef .tc main_arg4)) slices_S4x128_S1x128_2_0)
            shapeCasts_S1x128_S128)
          (shapeCast S128 (extractStridedSlice S1x128 ![2, 0] (V (Proc.devRef .tc main_arg5)) slices_S4x128_S1x128_2_0)
            shapeCasts_S1x128_S128)
          (shapeCast S128 (extractStridedSlice S1x128 ![2, 0] (V (Proc.devRef .tc main_arg6)) slices_S4x128_S1x128_2_0)
            shapeCasts_S1x128_S128)
          (shapeCast S128 (extractStridedSlice S1x128 ![2, 0] (V (Proc.devRef .tc main_arg7)) slices_S4x128_S1x128_2_0)
            shapeCasts_S1x128_S128)
          (Host.dTab ei) (Host.sGTab ei) (Host.dGTab ei) (Host.bTab bt) (Host.bGTab bt) := by
  after_results_simp
  rw [h27, h31, h3, h6, h2]
  rfl

set_option maxHeartbeats 4000000 in

theorem L3_val (V : Valuation τ sig (Elt Ideal)) (ei : IVec S2x1600000 32) (bt : IVec S100000 32)
    (h3 : V (Proc.devRef .tc main_v3) = Cert.Gnn.srcVec ei slices_S2x1600000_S1x1600000_0_0 shapeCasts_S1x1600000_S1600000
      concatenates_S1600000_S100000_S1700000_d0)
    (h6 : V (Proc.devRef .tc main_v6) = Cert.Gnn.dstVec ei slices_S2x1600000_S1x1600000_1_0 shapeCasts_S1x1600000_S1600000
      concatenates_S1600000_S100000_S1700000_d0)
    (h2 : V (Proc.devRef .tc main_arg2) = bt)
    (h27 : V (Proc.devRef .tc main_v27) = Host.nrmT (Host.dTab ei) (Host.sGTab ei) (Host.dGTab ei))
    (h31 : V (Proc.devRef .tc main_v31) = Host.cntT (Host.bTab bt)) :
    after (opsL3 (F := Ideal)) V (Proc.devRef .tc main_v299)
      = Host.layerT (V (Proc.devRef .tc main_v232))
          (shapeCast S128x128 (extractStridedSlice S1x128x128 ![3, 0, 0] (V (Proc.devRef .tc main_arg3))
            slices_S4x128x128_S1x128x128_3_0_0) shapeCasts_S1x128x128_S128x128)
          (shapeCast S128 (extractStridedSlice S1x128 ![3, 0] (V (Proc.devRef .tc main_arg4)) slices_S4x128_S1x128_3_0)
            shapeCasts_S1x128_S128)
          (shapeCast S128 (extractStridedSlice S1x128 ![3, 0] (V (Proc.devRef .tc main_arg5)) slices_S4x128_S1x128_3_0)
            shapeCasts_S1x128_S128)
          (shapeCast S128 (extractStridedSlice S1x128 ![3, 0] (V (Proc.devRef .tc main_arg6)) slices_S4x128_S1x128_3_0)
            shapeCasts_S1x128_S128)
          (shapeCast S128 (extractStridedSlice S1x128 ![3, 0] (V (Proc.devRef .tc main_arg7)) slices_S4x128_S1x128_3_0)
            shapeCasts_S1x128_S128)
          (Host.dTab ei) (Host.sGTab ei) (Host.dGTab ei) (Host.bTab bt) (Host.bGTab bt) := by
  after_results_simp
  rw [h27, h31, h3, h6, h2]
  rfl

end Cert.ReferenceIdeal.Val

end
-- ==== Proof.RefVal.lean ====
import proofs.«423410_j58634893525678_2_alg».proof.Proof.RefRun
import proofs.«423410_j58634893525678_2_alg».proof.Proof.RefHost
import proofs.«423410_j58634893525678_2_alg».proof.Proof.Net
import proofs.«423410_j58634893525678_2_alg».proof.Proof.RefValPro
import proofs.«423410_j58634893525678_2_alg».proof.Proof.RefValLA
import proofs.«423410_j58634893525678_2_alg».proof.Proof.RefValLB

noncomputable section

namespace Cert.ReferenceIdeal.Val
open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.HandRun

abbrev St := Valuation τ sig (Elt Ideal)

abbrev A0 (V : St) : FVec Ideal S100000x128 .f32 := V (Proc.devRef .tc main_arg0)
abbrev A1 (V : St) : IVec S2x1600000 32 := V (Proc.devRef .tc main_arg1)
abbrev A2 (V : St) : IVec S100000 32 := V (Proc.devRef .tc main_arg2)
abbrev A3 (V : St) : FVec Ideal S4x128x128 .f32 := V (Proc.devRef .tc main_arg3)
abbrev A4 (V : St) : FVec Ideal S4x128 .f32 := V (Proc.devRef .tc main_arg4)
abbrev A5 (V : St) : FVec Ideal S4x128 .f32 := V (Proc.devRef .tc main_arg5)
abbrev A6 (V : St) : FVec Ideal S4x128 .f32 := V (Proc.devRef .tc main_arg6)
abbrev A7 (V : St) : FVec Ideal S4x128 .f32 := V (Proc.devRef .tc main_arg7)

abbrev GG (V : St) : Cert.Gnn.Ctx := Cert.Gnn.Ctx.of (A1 V) (A2 V)
abbrev PP (V : St) : Cert.Gnn.Params := Cert.Gnn.Params.of (A0 V) (A3 V) (A4 V) (A5 V) (A6 V) (A7 V)

abbrev Wr (l : Nat) (hs : S4x128x128.Slices ![l, 0, 0] S1x128x128) (a3 : FVec Ideal S4x128x128 .f32) :
    FVec Ideal S128x128 .f32 :=
  shapeCast S128x128 (extractStridedSlice S1x128x128 ![l, 0, 0] a3 hs) shapeCasts_S1x128x128_S128x128
abbrev vr (l : Nat) (hs : S4x128.Slices ![l, 0] S1x128) (a4 : FVec Ideal S4x128 .f32) : FVec Ideal S128 .f32 :=
  shapeCast S128 (extractStridedSlice S1x128 ![l, 0] a4 hs) shapeCasts_S1x128_S128

def LT (V0 : St) (l : Nat) (hW : S4x128x128.Slices ![l, 0, 0] S1x128x128) (hv : S4x128.Slices ![l, 0] S1x128)
    (x : FVec Ideal S100000x128 .f32) : FVec Ideal S100000x128 .f32 :=
  Host.layerT x (Wr l hW (A3 V0)) (vr l hv (A4 V0)) (vr l hv (A5 V0)) (vr l hv (A6 V0)) (vr l hv (A7 V0))
    (Host.dTab (A1 V0)) (Host.sGTab (A1 V0)) (Host.dGTab (A1 V0)) (Host.bTab (A2 V0)) (Host.bGTab (A2 V0))

def X1 (V0 : St) := LT V0 0 slices_S4x128x128_S1x128x128_0_0_0 slices_S4x128_S1x128_0_0 (A0 V0)
def X2 (V0 : St) := LT V0 1 slices_S4x128x128_S1x128x128_1_0_0 slices_S4x128_S1x128_1_0 (X1 V0)
def X3 (V0 : St) := LT V0 2 slices_S4x128x128_S1x128x128_2_0_0 slices_S4x128_S1x128_2_0 (X2 V0)
def X4 (V0 : St) := LT V0 3 slices_S4x128x128_S1x128x128_3_0_0 slices_S4x128_S1x128_3_0 (X3 V0)

structure Inv (V0 V : St) : Prop where
  args : ∀ r : Ref sig .tc, r.idx.val < 16 → V (Proc.devRef .tc r) = V0 (Proc.devRef .tc r)
  v3 : V (Proc.devRef .tc main_v3) = Cert.Gnn.srcVec (A1 V0) slices_S2x1600000_S1x1600000_0_0
      shapeCasts_S1x1600000_S1600000 concatenates_S1600000_S100000_S1700000_d0
  v6 : V (Proc.devRef .tc main_v6) = Cert.Gnn.dstVec (A1 V0) slices_S2x1600000_S1x1600000_1_0
      shapeCasts_S1x1600000_S1600000 concatenates_S1600000_S100000_S1700000_d0
  v27 : V (Proc.devRef .tc main_v27) = Host.nrmT (Host.dTab (A1 V0)) (Host.sGTab (A1 V0)) (Host.dGTab (A1 V0))
  v31 : V (Proc.devRef .tc main_v31) = Host.cntT (Host.bTab (A2 V0))

theorem inv_pro (V0 : St) : Inv V0 (after opsPro V0) where
  args r hr := after_keep opsPro_writes V0 r (Or.inl hr)
  v3 := pro_v3 V0
  v6 := pro_v6 V0
  v27 := pro_v27 V0
  v31 := pro_v31 V0

theorem inv_step {l : List (HloOp τ sig (Elt Ideal))} {lo hi : Nat} (hl : l.Forall (WritesIn lo hi)) (hlo : 56 ≤ lo)
    {V0 V : St} (h : Inv V0 V) : Inv V0 (after l V) where
  args r hr := (after_keep hl V r (Or.inl (by omega))).trans (h.args r hr)
  v3 := (after_keep hl V main_v3 (Or.inl (Nat.lt_of_lt_of_le (by decide) hlo))).trans h.v3
  v6 := (after_keep hl V main_v6 (Or.inl (Nat.lt_of_lt_of_le (by decide) hlo))).trans h.v6
  v27 := (after_keep hl V main_v27 (Or.inl (Nat.lt_of_lt_of_le (by decide) hlo))).trans h.v27
  v31 := (after_keep hl V main_v31 (Or.inl (Nat.lt_of_lt_of_le (by decide) hlo))).trans h.v31

theorem layer0_of_inv {V0 V : St} (h : Inv V0 V) :
    after opsL0 V (Proc.devRef .tc main_v98)
      = LT V0 0 slices_S4x128x128_S1x128x128_0_0_0 slices_S4x128_S1x128_0_0 (V (Proc.devRef .tc main_arg0)) := by
  rw [L0_val V (A1 V0) (A2 V0) h.v3 h.v6 (h.args main_arg2 (by decide)) h.v27 h.v31,
    h.args main_arg3 (by decide), h.args main_arg4 (by decide), h.args main_arg5 (by decide), h.args main_arg6 (by decide), h.args main_arg7 (by decide)]
  rfl

theorem layer1_of_inv {V0 V : St} (h : Inv V0 V) :
    after opsL1 V (Proc.devRef .tc main_v165)
      = LT V0 1 slices_S4x128x128_S1x128x128_1_0_0 slices_S4x128_S1x128_1_0 (V (Proc.devRef .tc main_v98)) := by
  rw [L1_val V (A1 V0) (A2 V0) h.v3 h.v6 (h.args main_arg2 (by decide)) h.v27 h.v31,
    h.args main_arg3 (by decide), h.args main_arg4 (by decide), h.args main_arg5 (by decide), h.args main_arg6 (by decide), h.args main_arg7 (by decide)]
  rfl

theorem layer2_of_inv {V0 V : St} (h : Inv V0 V) :
    after opsL2 V (Proc.devRef .tc main_v232)
      = LT V0 2 slices_S4x128x128_S1x128x128_2_0_0 slices_S4x128_S1x128_2_0 (V (Proc.devRef .tc main_v165)) := by
  rw [L2_val V (A1 V0) (A2 V0) h.v3 h.v6 (h.args main_arg2 (by decide)) h.v27 h.v31,
    h.args main_arg3 (by decide), h.args main_arg4 (by decide), h.args main_arg5 (by decide), h.args main_arg6 (by decide), h.args main_arg7 (by decide)]
  rfl

theorem layer3_of_inv {V0 V : St} (h : Inv V0 V) :
    after opsL3 V (Proc.devRef .tc main_v299)
      = LT V0 3 slices_S4x128x128_S1x128x128_3_0_0 slices_S4x128_S1x128_3_0 (V (Proc.devRef .tc main_v232)) := by
  rw [L3_val V (A1 V0) (A2 V0) h.v3 h.v6 (h.args main_arg2 (by decide)) h.v27 h.v31,
    h.args main_arg3 (by decide), h.args main_arg4 (by decide), h.args main_arg5 (by decide), h.args main_arg6 (by decide), h.args main_arg7 (by decide)]
  rfl

theorem inv1 (V0 : St) : Inv V0 (after opsL0 (after opsPro V0)) := inv_step opsL0_writes (by decide) (inv_pro V0)
theorem inv2 (V0 : St) : Inv V0 (after opsL1 (after opsL0 (after opsPro V0))) :=
  inv_step opsL1_writes (by decide) (inv1 V0)
theorem inv3 (V0 : St) : Inv V0 (after opsL2 (after opsL1 (after opsL0 (after opsPro V0)))) :=
  inv_step opsL2_writes (by decide) (inv2 V0)
theorem inv4 (V0 : St) : Inv V0 (after opsL3 (after opsL2 (after opsL1 (after opsL0 (after opsPro V0))))) :=
  inv_step opsL3_writes (by decide) (inv3 V0)

theorem buf1 (V0 : St) : after opsL0 (after opsPro V0) (Proc.devRef .tc main_v98) = X1 V0 := by
  rw [layer0_of_inv (inv_pro V0), (inv_pro V0).args main_arg0 (by decide)]
  rfl
theorem buf2 (V0 : St) : after opsL1 (after opsL0 (after opsPro V0)) (Proc.devRef .tc main_v165) = X2 V0 := by
  rw [layer1_of_inv (inv1 V0), buf1]
  rfl
theorem buf3 (V0 : St) :
    after opsL2 (after opsL1 (after opsL0 (after opsPro V0))) (Proc.devRef .tc main_v232) = X3 V0 := by
  rw [layer2_of_inv (inv2 V0), buf2]
  rfl
theorem buf4 (V0 : St) :
    after opsL3 (after opsL2 (after opsL1 (after opsL0 (after opsPro V0)))) (Proc.devRef .tc main_v299) = X4 V0 := by
  rw [layer3_of_inv (inv3 V0), buf3]
  rfl

theorem LT_apply (V0 : St) (l : Fin 4) (hW : S4x128x128.Slices ![l.val, 0, 0] S1x128x128)
    (hv : S4x128.Slices ![l.val, 0] S1x128) (x : FVec Ideal S100000x128 .f32) (X : Fin 100000 → Fin 128 → EReal)
    (hx : ∀ n k, x (ix2 n k) = X n k) (n : Fin 100000) (j : Fin 128) :
    LT V0 l.val hW hv x (ix2 n j) = Cert.Gnn.RL (GG V0) (PP V0) l X n j := by
  have e0 : (fun n k => x (ix2 n k)) = X := funext fun n => funext fun k => hx n k
  have eW : (fun k j => Wr l.val hW (A3 V0) (ix2 k j)) = (PP V0).W l :=
    funext fun k => funext fun j => Host.sliceW_apply (A3 V0) l.val l.isLt hW _ k j
  have eb : (fun j => vr l.val hv (A4 V0) (ix1 j)) = (PP V0).b l :=
    funext fun j => Host.sliceV_apply (A4 V0) l.val l.isLt hv _ j
  have ew : (fun j => vr l.val hv (A5 V0) (ix1 j)) = (PP V0).w l :=
    funext fun j => Host.sliceV_apply (A5 V0) l.val l.isLt hv _ j
  have ebb : (fun j => vr l.val hv (A6 V0) (ix1 j)) = (PP V0).bb l :=
    funext fun j => Host.sliceV_apply (A6 V0) l.val l.isLt hv _ j
  have ea : (fun j => vr l.val hv (A7 V0) (ix1 j)) = (PP V0).a l :=
    funext fun j => Host.sliceV_apply (A7 V0) l.val l.isLt hv _ j
  unfold LT
  rw [Host.layerT_apply (Host.reads_of (A1 V0) (A2 V0)), e0, eW, eb, ea, ew, ebb]
  rfl

theorem X1_apply (V0 : St) (n : Fin 100000) (j : Fin 128) :
    X1 V0 (ix2 n j) = Cert.Gnn.RX1 (GG V0) (PP V0) n j :=
  LT_apply V0 0 _ _ (A0 V0) (PP V0).x0 (fun _ _ => rfl) n j
theorem X2_apply (V0 : St) (n : Fin 100000) (j : Fin 128) :
    X2 V0 (ix2 n j) = Cert.Gnn.RX2 (GG V0) (PP V0) n j :=
  LT_apply V0 1 _ _ (X1 V0) (Cert.Gnn.RX1 (GG V0) (PP V0)) (X1_apply V0) n j
theorem X3_apply (V0 : St) (n : Fin 100000) (j : Fin 128) :
    X3 V0 (ix2 n j) = Cert.Gnn.RX3 (GG V0) (PP V0) n j :=
  LT_apply V0 2 _ _ (X2 V0) (Cert.Gnn.RX2 (GG V0) (PP V0)) (X2_apply V0) n j
theorem X4_apply (V0 : St) (n : Fin 100000) (j : Fin 128) :
    X4 V0 (ix2 n j) = Cert.Gnn.RX4 (GG V0) (PP V0) n j :=
  LT_apply V0 3 _ _ (X3 V0) (Cert.Gnn.RX3 (GG V0) (PP V0)) (X3_apply V0) n j

theorem ref_x_of (V0 : St) (n : Fin 100000) (j : Fin 128) :
    after ops V0 (Proc.devRef .tc main_v299) (ix2 n j) = Cert.Gnn.RX4 (GG V0) (PP V0) n j := by
  rw [after_ops, after_keep opsTail_writes _ main_v299 (Or.inl (by decide)), buf4]
  exact X4_apply V0 n j

theorem pool_eq_fun (V0 : St) :
    Host.segSumT (Host.bTab (A2 V0)) (X4 V0)
      = fun i => Cert.Gnn.R.pool (GG V0) (Cert.Gnn.RX4 (GG V0) (PP V0)) (i 0) (i 1) := by
  funext i
  obtain ⟨g, j, rfl⟩ : ∃ (g j : Fin 128), i = ix2 g j := ⟨i 0, i 1, eq_ix2 i⟩
  have e4 : (fun n k => X4 V0 (ix2 n k)) = Cert.Gnn.RX4 (GG V0) (PP V0) :=
    funext fun n => funext fun k => X4_apply V0 n k
  rw [Host.segSumT_apply (Host.reads_of (A1 V0) (A2 V0)), e4]
  rfl

theorem ref_z_of (V0 : St) :
    after ops V0 (Proc.devRef .tc main_v326)
      = Host.tailR (fun i => Cert.Gnn.R.pool (GG V0) (Cert.Gnn.RX4 (GG V0) (PP V0)) (i 0) (i 1))
          (V0 (Proc.devRef .tc main_arg8)) (V0 (Proc.devRef .tc main_arg9)) (V0 (Proc.devRef .tc main_arg10))
          (V0 (Proc.devRef .tc main_arg11)) (V0 (Proc.devRef .tc main_arg12)) (V0 (Proc.devRef .tc main_arg13))
          (V0 (Proc.devRef .tc main_arg14)) (V0 (Proc.devRef .tc main_arg15)) := by
  have h := inv4 V0
  rw [after_ops, tail_val, buf4, h.args main_arg2 (by decide), h.args main_arg8 (by decide), h.args main_arg9 (by decide), h.args main_arg10 (by decide), h.args main_arg11 (by decide), h.args main_arg12 (by decide), h.args main_arg13 (by decide), h.args main_arg14 (by decide), h.args main_arg15 (by decide), pool_eq_fun]

theorem ref_x (m : (ℓ : Loc nD τ sig) → Buf (Elt Ideal) ℓ) (c : Dev nD) (n : Fin 100000) (j : Fin 128) :
    after ops (launchContents m c) (Proc.devRef .tc main_v299) (ix2 n j)
      = Cert.Gnn.RX4
          (Cert.Gnn.Ctx.of (m ((c.tc : Thread nD τ).loc main_arg1)) (m ((c.tc : Thread nD τ).loc main_arg2)))
          (Cert.Gnn.Params.of (m ((c.tc : Thread nD τ).loc main_arg0)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))) n j :=
  ref_x_of (launchContents m c) n j

theorem ref_z (m : (ℓ : Loc nD τ sig) → Buf (Elt Ideal) ℓ) (c : Dev nD) :
    after ops (launchContents m c) (Proc.devRef .tc main_v326)
      = Host.tailR
          (fun i => Cert.Gnn.R.pool
            (Cert.Gnn.Ctx.of (m ((c.tc : Thread nD τ).loc main_arg1)) (m ((c.tc : Thread nD τ).loc main_arg2)))
            (Cert.Gnn.RX4
              (Cert.Gnn.Ctx.of (m ((c.tc : Thread nD τ).loc main_arg1)) (m ((c.tc : Thread nD τ).loc main_arg2)))
              (Cert.Gnn.Params.of (m ((c.tc : Thread nD τ).loc main_arg0)) (m ((c.tc : Thread nD τ).loc main_arg3))
                (m ((c.tc : Thread nD τ).loc main_arg4)) (m ((c.tc : Thread nD τ).loc main_arg5))
                (m ((c.tc : Thread nD τ).loc main_arg6)) (m ((c.tc : Thread nD τ).loc main_arg7)))) (i 0) (i 1))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) :=
  ref_z_of (launchContents m c)

end Cert.ReferenceIdeal.Val

end
-- ==== Proof.PreFacts.lean ====
import proofs.«423410_j58634893525678_2_alg».proof.Proof.Spec
import proofs.«423410_j58634893525678_2_alg».proof.Pre_finite_inputs
import Idealize.ShloMosaic.Lib.ValueIdx
import Idealize.ShloMosaic.Lib.ReduceAll
import Idealize.ShloMosaic.Lib.StableHlo.Predicate

noncomputable section

namespace Cert.Gnn

open Idealize.ShloMosaic Idealize.ShloMosaic.ValueIdx

-- an extended real with |x| < +infinity is neither infinity
theorem pre_real_of_abs_lt_inf (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  have hlt : max x (-x) < ⊤ := of_decide_eq_true ((StableHlo.Predicate.ofBool_eq_one_iff _).1 h)
  induction x using EReal.rec with
  | bot => exact absurd hlt (by simp)
  | coe r => exact ⟨r, rfl⟩
  | top => exact absurd hlt (by simp)

private theorem subsingleton_scalarIdx : Subsingleton (⟨0, ![]⟩ : Shape).Idx := ⟨fun a b => funext fun d => d.elim0⟩

theorem pre_real_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf a) (broadcastInDim s ![] hb (constant ⟨0, ![]⟩ .f32 0x7F800000#32)))
      (constantI ⟨0, ![]⟩ 1 1#1) hr hu ix0 = 1#1) (i : s.Idx) : ∃ r : ℝ, a i = (r : EReal) :=
  haveI := subsingleton_scalarIdx
  pre_real_of_abs_lt_inf (a i) (Host.reduce_andi_all _ _ hr hu ix0 h i)

-- signed 0 ≤ z < 128 on words is the same on their integer readings
theorem pre_range_of_cmp (z : BitVec 32)
    (h : IntOp.andi (IntOp.cmpi .sge z 0#32) (IntOp.cmpi .slt z 128#32) = 1#1) : 0 ≤ z.toInt ∧ z.toInt < 128 := by
  obtain ⟨hge, hlt⟩ := IntOp.andi_eq_one.1 h
  have h1 : (0#32 : BitVec 32).toInt ≤ z.toInt := of_decide_eq_true ((StableHlo.Predicate.ofBool_eq_one_iff _).1 hge)
  have h2 : z.toInt < (128#32 : BitVec 32).toInt := of_decide_eq_true ((StableHlo.Predicate.ofBool_eq_one_iff _).1 hlt)
  rw [BitVec.toInt_zero] at h1
  rw [show (128#32 : BitVec 32).toInt = 128 by decide] at h2
  exact ⟨h1, h2⟩

-- the precondition is a conjunction of one such test per array
theorem pre_facts [Cert.Pre_finite_inputs.Facts] {a0 : FVec Ideal ⟨2, ![100000, 128]⟩ .f32} {a1 : IVec ⟨2, ![2, 1600000]⟩ 32}
    {a2 : IVec ⟨1, ![100000]⟩ 32} {a3 : FVec Ideal ⟨3, ![4, 128, 128]⟩ .f32} {a4 a5 a6 a7 : FVec Ideal ⟨2, ![4, 128]⟩ .f32}
    {a8 : FVec Ideal ⟨2, ![128, 128]⟩ .f32} {a9 a10 a11 a12 a13 : FVec Ideal ⟨1, ![128]⟩ .f32}
    {a14 : FVec Ideal ⟨2, ![128, 10]⟩ .f32} {a15 : FVec Ideal ⟨1, ![10]⟩ .f32}
    (h : Cert.Pre_finite_inputs.fn (F := Ideal) a0 a1 a2 a3 a4 a5 a6 a7 a8 a9 a10 a11 a12 a13 a14 a15 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ n : Fin 100000, 0 ≤ (a2 (ix1 n)).toInt ∧ (a2 (ix1 n)).toInt < 128) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h2⟩ := IntOp.andi_eq_one.1 e
  iterate 8 replace e := (IntOp.andi_eq_one.1 e).1
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  refine ⟨pre_real_of_all a0 _ _ _ h0, pre_real_of_all a3 _ _ _ h3, pre_real_of_all a4 _ _ _ h4, pre_real_of_all a5 _ _ _ h5,
    pre_real_of_all a6 _ _ _ h6, pre_real_of_all a7 _ _ _ h7, fun n => ?_⟩
  haveI := subsingleton_scalarIdx
  exact pre_range_of_cmp (a2 (ix1 n)) (Host.reduce_andi_all _ _ _ _ ix0 h2 (ix1 n))

end Cert.Gnn

end
-- ==== Proof.TailEq.lean ====
import proofs.«423410_j58634893525678_2_alg».proof.Proof.KerHost
import proofs.«423410_j58634893525678_2_alg».proof.Proof.RefHostDefs

noncomputable section

namespace Cert.Gnn

open Idealize.ShloMosaic

theorem tail_eq [Cert.KernelIdeal.Facts₀] [Cert.ReferenceIdeal.Facts]
    (p a8 : (⟨2, ![128, 128]⟩ : Shape).Idx → EReal) (a9 a10 a11 a12 a13 : (⟨1, ![128]⟩ : Shape).Idx → EReal)
    (a14 : (⟨2, ![128, 10]⟩ : Shape).Idx → EReal) (a15 : (⟨1, ![10]⟩ : Shape).Idx → EReal) :
    Cert.KernelIdeal.Host.tailK p a8 a9 a10 a11 a12 a13 a14 a15
      = Cert.ReferenceIdeal.Host.tailR p a8 a9 a10 a11 a12 a13 a14 a15 := rfl

end Cert.Gnn

end
-- ==== Proof.lean ====
import proofs.«423410_j58634893525678_2_alg».proof.Defs
import proofs.«423410_j58634893525678_2_alg».proof.Proof.Gen.Kernel
import proofs.«423410_j58634893525678_2_alg».proof.Proof.Gen.Kernel.Frame
import proofs.«423410_j58634893525678_2_alg».proof.Proof.Gen.KernelIdeal
import proofs.«423410_j58634893525678_2_alg».proof.Proof.Gen.KernelIdeal.Frame
import proofs.«423410_j58634893525678_2_alg».proof.Proof.Gen.ReferenceIdeal
import proofs.«423410_j58634893525678_2_alg».proof.Proof.Gen.Pre_finite_inputs
import proofs.«423410_j58634893525678_2_alg».proof.Proof.KerRun
import proofs.«423410_j58634893525678_2_alg».proof.Proof.KerVal
import proofs.«423410_j58634893525678_2_alg».proof.Proof.RefRun
import proofs.«423410_j58634893525678_2_alg».proof.Proof.RefVal
import proofs.«423410_j58634893525678_2_alg».proof.Proof.Net
import proofs.«423410_j58634893525678_2_alg».proof.Proof.Idx
import proofs.«423410_j58634893525678_2_alg».proof.Proof.PreFacts
import proofs.«423410_j58634893525678_2_alg».proof.Proof.TailEq
import Idealize.ShloMosaic.Adequacy
import Idealize.ShloMosaic.Init

noncomputable section

namespace Cert.Proof

open Idealize.ShloMosaic Idealize.ShloMosaic.ValueIdx Idealize.SL.Sem

def scoresR (G : Cert.Gnn.Ctx) (P : Cert.Gnn.Params)
    (a8 : FVec Ideal Cert.ReferenceIdeal.S128x128 .f32) (a9 a10 a11 a12 a13 : FVec Ideal Cert.ReferenceIdeal.S128 .f32)
    (a14 : FVec Ideal Cert.ReferenceIdeal.S128x10 .f32) (a15 : FVec Ideal Cert.ReferenceIdeal.S10 .f32) :
    FVec Ideal Cert.ReferenceIdeal.S128x10 .f32 :=
  Cert.ReferenceIdeal.Host.tailR (fun i => Cert.Gnn.R.pool G (Cert.Gnn.RX4 G P) (i 0) (i 1)) a8 a9 a10 a11 a12 a13 a14 a15

theorem scoresR_congr {G G' : Cert.Gnn.Ctx} {P P' : Cert.Gnn.Params}
    {a8 a8' : FVec Ideal Cert.ReferenceIdeal.S128x128 .f32} {a9 a9' a10 a10' a11 a11' a12 a12' a13 a13' : FVec Ideal Cert.ReferenceIdeal.S128 .f32}
    {a14 a14' : FVec Ideal Cert.ReferenceIdeal.S128x10 .f32} {a15 a15' : FVec Ideal Cert.ReferenceIdeal.S10 .f32}
    (hG : G = G') (hP : P = P') (h8 : a8 = a8') (h9 : a9 = a9') (h10 : a10 = a10') (h11 : a11 = a11') (h12 : a12 = a12')
    (h13 : a13 = a13') (h14 : a14 = a14') (h15 : a15 = a15') :
    scoresR G P a8 a9 a10 a11 a12 a13 a14 a15 = scoresR G' P' a8' a9' a10' a11' a12' a13' a14' a15' := by
  subst hG hP h8 h9 h10 h11 h12 h13 h14 h15; rfl

theorem params_congr {a0 a0' : (⟨2, ![100000, 128]⟩ : Shape).Idx → EReal} {a3 a3' : (⟨3, ![4, 128, 128]⟩ : Shape).Idx → EReal}
    {a4 a4' a5 a5' a6 a6' a7 a7' : (⟨2, ![4, 128]⟩ : Shape).Idx → EReal}
    (h0 : a0 = a0') (h3 : a3 = a3') (h4 : a4 = a4') (h5 : a5 = a5') (h6 : a6 = a6') (h7 : a7 = a7') :
    Cert.Gnn.Params.of a0 a3 a4 a5 a6 a7 = Cert.Gnn.Params.of a0' a3' a4' a5' a6' a7' := by
  subst h0 h3 h4 h5 h6 h7; rfl

theorem algebraic : Cert.algebraic_KernelIdeal_ReferenceIdeal := by
  intro m ρ m' ρ' hpre hagree
  refine ⟨fun c => Cert.KernelIdeal.Gen.W28 (F := Ideal) m ρ c (Proc.devRef .tc Cert.KernelIdeal.main_v183),
    fun c => Cert.KernelIdeal.Gen.W28 (F := Ideal) m ρ c (Proc.devRef .tc Cert.KernelIdeal.main_v209),
    Cert.KernelIdeal.Gen.run_values (F := Ideal) m ρ, ?_⟩
  refine (θ_run (Cert.ReferenceIdeal.defs (F := Ideal)) _ _).mono (fun r h c => ?_)
    (Cert.ReferenceIdeal.HandRun.run_ref (F := Ideal) m' ρ')
  obtain ⟨h0, h1, hargs⟩ := h c
  obtain ⟨e0, e1, e2, e3, e4, e5, e6, e7, e8, e9, e10, e11, e12, e13, e14, e15⟩ := hagree c
  have hp := hpre c
  obtain ⟨r0, r3, r4, r5, r6, r7, hbt⟩ := Cert.Gnn.pre_facts hp
  have hG := Cert.Gnn.Ctx.of_ok (m ((c.tc : Thread Cert.KernelIdeal.nD Cert.KernelIdeal.τ).loc Cert.KernelIdeal.main_arg1)) _ hbt
  have hbv := Cert.Gnn.Ctx.of_bv (m ((c.tc : Thread Cert.KernelIdeal.nD Cert.KernelIdeal.τ).loc Cert.KernelIdeal.main_arg1)) _ hbt
  have hP : (Cert.Gnn.Params.of
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))).Real :=
    { x0 := fun n j => r0 (ix2 n j), W := fun l k j => r3 (ix3 l k j), b := fun l j => r4 (ix2 l j),
      w := fun l j => r5 (ix2 l j), bb := fun l j => r6 (ix2 l j), a := fun l j => r7 (ix2 l j) }
  have hGe := congrArg₂ Cert.Gnn.Ctx.of e1 e2
  have hPe := params_congr e0 e3 e4 e5 e6 e7
  have hnet := Cert.Gnn.net_eq hG hbv hP
  refine ⟨h0.trans ?_, h1.trans ?_, hargs⟩
  · funext i
    obtain ⟨n, j, rfl⟩ : ∃ (n : Fin 100000) (j : Fin 128), i = ix2 n j := ⟨i 0, i 1, eq_ix2 i⟩
    refine (Cert.ReferenceIdeal.Val.ref_x m' c n j).trans ?_
    refine Eq.trans ?_ (Cert.KernelIdeal.Val.ker_x m ρ c n j).symm
    refine (congrArg₂ (fun G P => Cert.Gnn.RX4 G P n j) hGe hPe).trans ?_
    exact (congrFun (congrFun hnet.1 n) j).symm
  · refine (Cert.ReferenceIdeal.Val.ref_z m' c).trans ?_
    refine Eq.trans ?_ (Cert.KernelIdeal.Val.ker_z m ρ c).symm
    refine (scoresR_congr hGe hPe e8 e9 e10 e11 e12 e13 e14 e15).trans ?_
    refine Eq.trans ?_ (Cert.Gnn.tail_eq _ _ _ _ _ _ _ _ _).symm
    exact congrArg (fun pl : Fin 128 → Fin 128 → EReal =>
      Cert.ReferenceIdeal.Host.tailR (fun i => pl (i 0) (i 1)) _ _ _ _ _ _ _ _) (Cert.Gnn.pool_net_eq hG hbv hP).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2) (Cert.ReferenceIdeal.HandRun.run_ref m ρ),
    trivial,
    algebraic⟩

end Cert.Proof

end
